-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v6_0)) (v2 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v6_0) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_v49) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S8192x128 : Shape := ⟨2, ![8192, 128]⟩
abbrev S4096x4096 : Shape := ⟨2, ![4096, 4096]⟩
abbrev S8192x8192 : Shape := ⟨2, ![8192, 8192]⟩
abbrev S4096x8192 : Shape := ⟨2, ![4096, 8192]⟩
abbrev S8192x4096 : Shape := ⟨2, ![8192, 4096]⟩
abbrev S128x128 : Shape := ⟨2, ![128, 128]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S8192x128 : S_.BroadcastsInDim S8192x128 (![] : Fin 0 → Fin S8192x128.rank)
  reducesTo_S8192x128_S_d0_1 : S8192x128.ReducesTo [0, 1] S_
  bcast_S_S4096x4096 : S_.BroadcastsInDim S4096x4096 (![] : Fin 0 → Fin S4096x4096.rank)
  reducesTo_S4096x4096_S_d0_1 : S4096x4096.ReducesTo [0, 1] S_
  bcast_S_S8192x8192 : S_.BroadcastsInDim S8192x8192 (![] : Fin 0 → Fin S8192x8192.rank)
  reducesTo_S8192x8192_S_d0_1 : S8192x8192.ReducesTo [0, 1] S_
  bcast_S_S4096x8192 : S_.BroadcastsInDim S4096x8192 (![] : Fin 0 → Fin S4096x8192.rank)
  reducesTo_S4096x8192_S_d0_1 : S4096x8192.ReducesTo [0, 1] S_
  bcast_S_S8192x4096 : S_.BroadcastsInDim S8192x4096 (![] : Fin 0 → Fin S8192x4096.rank)
  reducesTo_S8192x4096_S_d0_1 : S8192x4096.ReducesTo [0, 1] S_
  bcast_S_S128x128 : S_.BroadcastsInDim S128x128 (![] : Fin 0 → Fin S128x128.rank)
  reducesTo_S128x128_S_d0_1 : S128x128.ReducesTo [0, 1] S_

variable [Facts]

def fn_part4 {F : FTy → Type} [FloatOps F] (main_arg14 : FVec F S128x128 .f32) (main_arg15 : FVec F S128x128 .f32) (main_arg16 : FVec F S128x128 .f32) (main_v63 : IVec S_ 1) (main_v67 : IVec S_ 1) : IVec S_ 1 :=
  let main_v68 : IVec S_ 1 := andi main_v63 main_v67
  let main_v69 : FVec F S128x128 .f32 := Host.absf main_arg14
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128x128 .f32 := Host.absf main_arg15
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128x128 .f32 := Host.absf main_arg16
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  main_v83

def fn_part3 {F : FTy → Type} [FloatOps F] (main_arg11 : FVec F S128x128 .f32) (main_arg12 : FVec F S128x128 .f32) (main_arg13 : FVec F S128x128 .f32) (main_arg14 : FVec F S128x128 .f32) (main_arg15 : FVec F S128x128 .f32) (main_arg16 : FVec F S128x128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128x128 .f32 := Host.absf main_arg11
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128x128 .f32 := Host.absf main_arg12
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128x128 .f32 := Host.absf main_arg13
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg14 main_arg15 main_arg16 main_v63 main_v67

def fn_part2 {F : FTy → Type} [FloatOps F] (main_arg7 : FVec F S8192x4096 .f32) (main_arg8 : FVec F S128x128 .f32) (main_arg9 : FVec F S128x128 .f32) (main_arg10 : FVec F S128x128 .f32) (main_arg11 : FVec F S128x128 .f32) (main_arg12 : FVec F S128x128 .f32) (main_arg13 : FVec F S128x128 .f32) (main_arg14 : FVec F S128x128 .f32) (main_arg15 : FVec F S128x128 .f32) (main_arg16 : FVec F S128x128 .f32) (main_v33 : IVec S_ 1) : IVec S_ 1 :=
  let main_v34 : FVec F S8192x4096 .f32 := Host.absf main_arg7
  let main_cst_12 : FVec F S_ .f32 := constant S_ .f32 0x7F800000#32
  let main_v35 : FVec F S8192x4096 .f32 := broadcastInDim S8192x4096 ![] bcast_S_S8192x4096 main_cst_12
  let main_v36 : IVec S8192x4096 1 := cmpf .olt main_v34 main_v35
  let main_c_13 : IVec S_ 1 := constantI S_ 1 1#1
  let main_v37 : IVec S_ 1 := (fun x v => Host.reduce IntOp.andi x v reducesTo_S8192x4096_S_d0_1 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_arg11 main_arg12 main_arg13 main_arg14 main_arg15 main_arg16 main_v48 main_v49 main_v50

def fn_part1 {F : FTy → Type} [FloatOps F] (main_arg4 : FVec F S8192x8192 .f32) (main_arg5 : FVec F S4096x4096 .f32) (main_arg6 : FVec F S4096x8192 .f32) (main_arg7 : FVec F S8192x4096 .f32) (main_arg8 : FVec F S128x128 .f32) (main_arg9 : FVec F S128x128 .f32) (main_arg10 : FVec F S128x128 .f32) (main_arg11 : FVec F S128x128 .f32) (main_arg12 : FVec F S128x128 .f32) (main_arg13 : FVec F S128x128 .f32) (main_arg14 : FVec F S128x128 .f32) (main_arg15 : FVec F S128x128 .f32) (main_arg16 : FVec F S128x128 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S8192x8192 .f32 := Host.absf main_arg4
  let main_cst_6 : FVec F S_ .f32 := constant S_ .f32 0x7F800000#32
  let main_v20 : FVec F S8192x8192 .f32 := broadcastInDim S8192x8192 ![] bcast_S_S8192x8192 main_cst_6
  let main_v21 : IVec S8192x8192 1 := cmpf .olt main_v19 main_v20
  let main_c_7 : IVec S_ 1 := constantI S_ 1 1#1
  let main_v22 : IVec S_ 1 := (fun x v => Host.reduce IntOp.andi x v reducesTo_S8192x8192_S_d0_1 h_S_) main_v21 main_c_7
  let main_v23 : IVec S_ 1 := andi main_v18 main_v22
  let main_v24 : FVec F S4096x4096 .f32 := Host.absf main_arg5
  let main_cst_8 : FVec F S_ .f32 := constant S_ .f32 0x7F800000#32
  let main_v25 : FVec F S4096x4096 .f32 := broadcastInDim S4096x4096 ![] bcast_S_S4096x4096 main_cst_8
  let main_v26 : IVec S4096x4096 1 := cmpf .olt main_v24 main_v25
  let main_c_9 : IVec S_ 1 := constantI S_ 1 1#1
  let main_v27 : IVec S_ 1 := (fun x v => Host.reduce IntOp.andi x v reducesTo_S4096x4096_S_d0_1 h_S_) main_v26 main_c_9
  let main_v28 : IVec S_ 1 := andi main_v23 main_v27
  let main_v29 : FVec F S4096x8192 .f32 := Host.absf main_arg6
  let main_cst_10 : FVec F S_ .f32 := constant S_ .f32 0x7F800000#32
  let main_v30 : FVec F S4096x8192 .f32 := broadcastInDim S4096x8192 ![] bcast_S_S4096x8192 main_cst_10
  let main_v31 : IVec S4096x8192 1 := cmpf .olt main_v29 main_v30
  let main_c_11 : IVec S_ 1 := constantI S_ 1 1#1
  let main_v32 : IVec S_ 1 := (fun x v => Host.reduce IntOp.andi x v reducesTo_S4096x8192_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S4096x128 .f32) (main_arg1 : FVec F S8192x128 .f32) (main_arg2 : FVec F S4096x128 .f32) (main_arg3 : FVec F S4096x4096 .f32) (main_arg4 : FVec F S8192x8192 .f32) (main_arg5 : FVec F S4096x4096 .f32) (main_arg6 : FVec F S4096x8192 .f32) (main_arg7 : FVec F S8192x4096 .f32) (main_arg8 : FVec F S128x128 .f32) (main_arg9 : FVec F S128x128 .f32) (main_arg10 : FVec F S128x128 .f32) (main_arg11 : FVec F S128x128 .f32) (main_arg12 : FVec F S128x128 .f32) (main_arg13 : FVec F S128x128 .f32) (main_arg14 : FVec F S128x128 .f32) (main_arg15 : FVec F S128x128 .f32) (main_arg16 : FVec F S128x128 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  let main_v9 : FVec F S4096x128 .f32 := Host.absf main_arg2
  let main_cst_2 : FVec F S_ .f32 := constant S_ .f32 0x7F800000#32
  let main_v10 : FVec F S4096x128 .f32 := broadcastInDim S4096x128 ![] bcast_S_S4096x128 main_cst_2
  let main_v11 : IVec S4096x128 1 := cmpf .olt main_v9 main_v10
  let main_c_3 : IVec S_ 1 := constantI S_ 1 1#1
  let main_v12 : IVec S_ 1 := (fun x v => Host.reduce IntOp.andi x v reducesTo_S4096x128_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S4096x128 : Shape := ⟨2, ![4096, 128]⟩
abbrev S8192x128 : Shape := ⟨2, ![8192, 128]⟩
abbrev S4096x4096 : Shape := ⟨2, ![4096, 4096]⟩
abbrev S8192x8192 : Shape := ⟨2, ![8192, 8192]⟩
abbrev S4096x8192 : Shape := ⟨2, ![4096, 8192]⟩
abbrev S8192x4096 : Shape := ⟨2, ![8192, 4096]⟩
abbrev S128x128 : Shape := ⟨2, ![128, 128]⟩
abbrev S1024x128 : Shape := ⟨2, ![1024, 128]⟩
abbrev S256x4096 : Shape := ⟨2, ![256, 4096]⟩
abbrev S256x8192 : Shape := ⟨2, ![256, 8192]⟩
abbrev S256x128 : Shape := ⟨2, ![256, 128]⟩
abbrev S128x8192 : Shape := ⟨2, ![128, 8192]⟩
abbrev S1024x4096 : Shape := ⟨2, ![1024, 4096]⟩
abbrev S128x4096 : Shape := ⟨2, ![128, 4096]⟩
abbrev S512x4096 : Shape := ⟨2, ![512, 4096]⟩
abbrev S512x8192 : Shape := ⟨2, ![512, 8192]⟩
abbrev S512x128 : Shape := ⟨2, ![512, 128]⟩
abbrev S128x256 : Shape := ⟨2, ![128, 256]⟩
abbrev S128x1024 : Shape := ⟨2, ![128, 1024]⟩

abbrev nBuf : Space → Nat
  | .hbm => 33
  | .vmem => 80
  | .smem => 0
  | _ => 0

abbrev bufTy : (tb : Table) → Fin (tcTables nBuf tb) → BufTy
  | .hbm, ⟨0, _⟩ => ⟨S4096x128, .f32⟩
  | .hbm, ⟨1, _⟩ => ⟨S8192x128, .f32⟩
  | .hbm, ⟨2, _⟩ => ⟨S4096x128, .f32⟩
  | .hbm, ⟨3, _⟩ => ⟨S4096x4096, .f32⟩
  | .hbm, ⟨4, _⟩ => ⟨S8192x8192, .f32⟩
  | .hbm, ⟨5, _⟩ => ⟨S4096x4096, .f32⟩
  | .hbm, ⟨6, _⟩ => ⟨S4096x8192, .f32⟩
  | .hbm, ⟨7, _⟩ => ⟨S8192x4096, .f32⟩
  | .hbm, ⟨8, _⟩ => ⟨S128x128, .f32⟩
  | .hbm, ⟨9, _⟩ => ⟨S128x128, .f32⟩
  | .hbm, ⟨10, _⟩ => ⟨S128x128, .f32⟩
  | .hbm, ⟨11, _⟩ => ⟨S128x128, .f32⟩
  | .hbm, ⟨12, _⟩ => ⟨S128x128, .f32⟩
  | .hbm, ⟨13, _⟩ => ⟨S128x128, .f32⟩
  | .hbm, ⟨14, _⟩ => ⟨S128x128, .f32⟩
  | .hbm, ⟨15, _⟩ => ⟨S128x128, .f32⟩
  | .hbm, ⟨16, _⟩ => ⟨S128x128, .f32⟩
  | .hbm, ⟨17, _⟩ => ⟨S4096x128, .f32⟩
  | .hbm, ⟨18, _⟩ => ⟨S4096x128, .f32⟩
  | .hbm, ⟨19, _⟩ => ⟨S8192x128, .f32⟩
  | .hbm, ⟨20, _⟩ => ⟨S8192x128, .f32⟩
  | .hbm, ⟨21, _⟩ => ⟨S4096x128, .f32⟩
  | .hbm, ⟨22, _⟩ => ⟨S4096x128, .f32⟩
  | .hbm, ⟨23, _⟩ => ⟨S4096x128, .f32⟩
  | .hbm, ⟨24, _⟩ => ⟨S8192x128, .f32⟩
  | .hbm, ⟨25, _⟩ => ⟨S8192x128, .f32⟩
  | .hbm, ⟨26, _⟩ => ⟨S8192x128, .f32⟩
  | .hbm, ⟨27, _⟩ => ⟨S4096x128, .f32⟩
  | .hbm, ⟨28, _⟩ => ⟨S4096x128, .f32⟩
  | .hbm, ⟨29, _⟩ => ⟨S128x8192, .f32⟩
  | .hbm, ⟨30, _⟩ => ⟨S8192x128, .f32⟩
  | .hbm, ⟨31, _⟩ => ⟨S128x4096, .f32⟩
  | .hbm, ⟨32, _⟩ => ⟨S4096x128, .f32⟩
  | .local _ .vmem, ⟨0, _⟩ => ⟨S1024x128, .f32⟩
  | .local _ .vmem, ⟨1, _⟩ => ⟨S1024x128, .f32⟩
  | .local _ .vmem, ⟨2, _⟩ => ⟨S128x128, .f32⟩
  | .local _ .vmem, ⟨3, _⟩ => ⟨S128x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S128x128, .f32⟩
  | .local _ .vmem, ⟨11, _⟩ => ⟨S128x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | .local _ .vmem, ⟨18, _⟩ => ⟨S128x128, .f32⟩
  | .local _ .vmem, ⟨19, _⟩ => ⟨S1024x128, .f32⟩
  | .local _ .vmem, ⟨20, _⟩ => ⟨S1024x128, .f32⟩
  | .local _ .vmem, ⟨21, _⟩ => ⟨S256x4096, .f32⟩
  | .local _ .vmem, ⟨22, _⟩ => ⟨S256x4096, .f32⟩
  | .local _ .vmem, ⟨23, _⟩ => ⟨S256x8192, .f32⟩
  | .local _ .vmem, ⟨24, _⟩ => ⟨S256x8192, .f32⟩
  | .local _ .vmem, ⟨25, _⟩ => ⟨S4096x128, .f32⟩
  | .local _ .vmem, ⟨26, _⟩ => ⟨S8192x128, .f32⟩
  | .local _ .vmem, ⟨27, _⟩ => ⟨S256x128, .f32⟩
  | .local _ .vmem, ⟨28, _⟩ => ⟨S256x128, .f32⟩
  | .local _ .vmem, ⟨29, _⟩ => ⟨S128x128, .f32⟩
  | .local _ .vmem, ⟨30, _⟩ => ⟨S128x128, .f32⟩
  | .local _ .vmem, ⟨31, _⟩ => ⟨S256x128, .f32⟩
  | .local _ .vmem, ⟨32, _⟩ => ⟨S256x128, .f32⟩
  | .local _ .vmem, ⟨33, _⟩ => ⟨S256x128, .f32⟩
  | .local _ .vmem, ⟨34, _⟩ => ⟨S256x128, .f32⟩
  | .local _ .vmem, ⟨35, _⟩ => ⟨S8192x128, .f32⟩
  | .local _ .vmem, ⟨36, _⟩ => ⟨S128x8192, .f32⟩
  | .local _ .vmem, ⟨37, _⟩ => ⟨S1024x4096, .f32⟩
  | .local _ .vmem, ⟨38, _⟩ => ⟨S1024x4096, .f32⟩
  | .local _ .vmem, ⟨39, _⟩ => ⟨S4096x128, .f32⟩
  | .local _ .vmem, ⟨40, _⟩ => ⟨S1024x128, .f32⟩
  | .local _ .vmem, ⟨41, _⟩ => ⟨S1024x128, .f32⟩
  | .local _ .vmem, ⟨42, _⟩ => ⟨S1024x128, .f32⟩
  | .local _ .vmem, ⟨43, _⟩ => ⟨S1024x128, .f32⟩
  | .local _ .vmem, ⟨44, _⟩ => ⟨S128x128, .f32⟩
  | .local _ .vmem, ⟨45, _⟩ => ⟨S128x128, .f32⟩
  | .local _ .vmem, ⟨46, _⟩ => ⟨S128x128, .f32⟩
  | .local _ .vmem, ⟨47, _⟩ => ⟨S1024x128, .f32⟩
  | .local _ .vmem, ⟨48, _⟩ => ⟨S1024x128, .f32⟩
  | .local _ .vmem, ⟨49, _⟩ => ⟨S1024x128, .f32⟩
  | .local _ .vmem, ⟨50, _⟩ => ⟨S1024x128, .f32⟩
  | .local _ .vmem, ⟨51, _⟩ => ⟨S4096x128, .f32⟩
  | .local _ .vmem, ⟨52, _⟩ => ⟨S128x4096, .f32⟩
  | .local _ .vmem, ⟨53, _⟩ => ⟨S512x4096, .f32⟩
  | .local _ .vmem, ⟨54, _⟩ => ⟨S512x4096, .f32⟩
  | .local _ .vmem, ⟨55, _⟩ => ⟨S512x8192, .f32⟩
  | .local _ .vmem, ⟨56, _⟩ => ⟨S512x8192, .f32⟩
  | .local _ .vmem, ⟨57, _⟩ => ⟨S4096x128, .f32⟩
  | .local _ .vmem, ⟨58, _⟩ => ⟨S512x128, .f32⟩
  | .local _ .vmem, ⟨59, _⟩ => ⟨S512x128, .f32⟩
  | .local _ .vmem, ⟨60, _⟩ => ⟨S512x128, .f32⟩
  | .local _ .vmem, ⟨61, _⟩ => ⟨S512x128, .f32⟩
  | .local _ .vmem, ⟨62, _⟩ => ⟨S128x8192, .f32⟩
  | .local _ .vmem, ⟨63, _⟩ => ⟨S256x8192, .f32⟩
  | .local _ .vmem, ⟨64, _⟩ => ⟨S256x8192, .f32⟩
  | .local _ .vmem, ⟨65, _⟩ => ⟨S256x4096, .f32⟩
  | .local _ .vmem, ⟨66, _⟩ => ⟨S256x4096, .f32⟩
  | .local _ .vmem, ⟨67, _⟩ => ⟨S8192x128, .f32⟩
  | .local _ .vmem, ⟨68, _⟩ => ⟨S256x128, .f32⟩
  | .local _ .vmem, ⟨69, _⟩ => ⟨S256x128, .f32⟩
  | .local _ .vmem, ⟨70, _⟩ => ⟨S128x8192, .f32⟩
  | .local _ .vmem, ⟨71, _⟩ => ⟨S256x128, .f32⟩
  | .local _ .vmem, ⟨72, _⟩ => ⟨S256x128, .f32⟩
  | .local _ .vmem, ⟨73, _⟩ => ⟨S128x4096, .f32⟩
  | .local _ .vmem, ⟨74, _⟩ => ⟨S1024x4096, .f32⟩
  | .local _ .vmem, ⟨75, _⟩ => ⟨S1024x4096, .f32⟩
  | .local _ .vmem, ⟨76, _⟩ => ⟨S4096x128, .f32⟩
  | .local _ .vmem, ⟨77, _⟩ => ⟨S128x4096, .f32⟩
  | .local _ .vmem, ⟨78, _⟩ => ⟨S1024x128, .f32⟩
  | .local _ .vmem, ⟨79, _⟩ => ⟨S1024x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | _, _ => false

abbrev semScoped : Fin 0 → Bool
  | ⟨_, h⟩ => absurd h (Nat.not_lt_zero _)

abbrev dmaSemScoped : Fin 78 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | _ => false

abbrev sig : RefSig :=
  ofTc nBuf bufTy 0 78 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0_0 : Ref sig .tc := ⟨.hbm, 17, rfl⟩
abbrev main_v0_1 : Ref sig .tc := ⟨.hbm, 18, rfl⟩
abbrev main_v1_0 : Ref sig .tc := ⟨.hbm, 19, rfl⟩
abbrev main_v1_1 : Ref sig .tc := ⟨.hbm, 20, rfl⟩
abbrev main_v2 : Ref sig .tc := ⟨.hbm, 21, rfl⟩
abbrev main_v3_0 : Ref sig .tc := ⟨.hbm, 22, rfl⟩
abbrev main_v3_1 : Ref sig .tc := ⟨.hbm, 23, rfl⟩
abbrev main_v3_2 : Ref sig .tc := ⟨.hbm, 24, rfl⟩
abbrev main_v4_0 : Ref sig .tc := ⟨.hbm, 25, rfl⟩
abbrev main_v4_1 : Ref sig .tc := ⟨.hbm, 26, rfl⟩
abbrev main_v4_2 : Ref sig .tc := ⟨.hbm, 27, rfl⟩
abbrev main_v5_0 : Ref sig .tc := ⟨.hbm, 28, rfl⟩
abbrev main_v5_1 : Ref sig .tc := ⟨.hbm, 29, rfl⟩
abbrev main_v6_0 : Ref sig .tc := ⟨.hbm, 30, rfl⟩
abbrev main_v6_1 : Ref sig .tc := ⟨.hbm, 31, rfl⟩
abbrev main_v7 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg4_1 : Ref sig .tc := ⟨.vmem, 28, rfl⟩
abbrev cc3_stg5_0 : Ref sig .tc := ⟨.vmem, 29, rfl⟩
abbrev cc3_stg6_0 : Ref sig .tc := ⟨.vmem, 30, rfl⟩
abbrev cc3_stg7_0 : Ref sig .tc := ⟨.vmem, 31, rfl⟩
abbrev cc3_stg7_1 : Ref sig .tc := ⟨.vmem, 32, rfl⟩
abbrev cc3_stg8_0 : Ref sig .tc := ⟨.vmem, 33, rfl⟩
abbrev cc3_stg8_1 : Ref sig .tc := ⟨.vmem, 34, rfl⟩
abbrev cc3_stg9_0 : Ref sig .tc := ⟨.vmem, 35, rfl⟩
abbrev cc3_scratch0 : Ref sig .tc := ⟨.vmem, 36, rfl⟩
abbrev cc4_stg0_0 : Ref sig .tc := ⟨.vmem, 37, rfl⟩
abbrev cc4_stg0_1 : Ref sig .tc := ⟨.vmem, 38, rfl⟩
abbrev cc4_stg1_0 : Ref sig .tc := ⟨.vmem, 39, rfl⟩
abbrev cc4_stg2_0 : Ref sig .tc := ⟨.vmem, 40, rfl⟩
abbrev cc4_stg2_1 : Ref sig .tc := ⟨.vmem, 41, rfl⟩
abbrev cc4_stg3_0 : Ref sig .tc := ⟨.vmem, 42, rfl⟩
abbrev cc4_stg3_1 : Ref sig .tc := ⟨.vmem, 43, rfl⟩
abbrev cc4_stg4_0 : Ref sig .tc := ⟨.vmem, 44, rfl⟩
abbrev cc4_stg5_0 : Ref sig .tc := ⟨.vmem, 45, rfl⟩
abbrev cc4_stg6_0 : Ref sig .tc := ⟨.vmem, 46, rfl⟩
abbrev cc4_stg7_0 : Ref sig .tc := ⟨.vmem, 47, rfl⟩
abbrev cc4_stg7_1 : Ref sig .tc := ⟨.vmem, 48, rfl⟩
abbrev cc4_stg8_0 : Ref sig .tc := ⟨.vmem, 49, rfl⟩
abbrev cc4_stg8_1 : Ref sig .tc := ⟨.vmem, 50, rfl⟩
abbrev cc4_stg9_0 : Ref sig .tc := ⟨.vmem, 51, rfl⟩
abbrev cc4_scratch0 : Ref sig .tc := ⟨.vmem, 52, rfl⟩
abbrev cc5_stg0_0 : Ref sig .tc := ⟨.vmem, 53, rfl⟩
abbrev cc5_stg0_1 : Ref sig .tc := ⟨.vmem, 54, rfl⟩
abbrev cc5_stg1_0 : Ref sig .tc := ⟨.vmem, 55, rfl⟩
abbrev cc5_stg1_1 : Ref sig .tc := ⟨.vmem, 56, rfl⟩
abbrev cc5_stg2_0 : Ref sig .tc := ⟨.vmem, 57, rfl⟩
abbrev cc5_stg3_0 : Ref sig .tc := ⟨.vmem, 58, rfl⟩
abbrev cc5_stg3_1 : Ref sig .tc := ⟨.vmem, 59, rfl⟩
abbrev cc5_stg4_0 : Ref sig .tc := ⟨.vmem, 60, rfl⟩
abbrev cc5_stg4_1 : Ref sig .tc := ⟨.vmem, 61, rfl⟩
abbrev cc5_stg5_0 : Ref sig .tc := ⟨.vmem, 62, rfl⟩
abbrev cc6_stg0_0 : Ref sig .tc := ⟨.vmem, 63, rfl⟩
abbrev cc6_stg0_1 : Ref sig .tc := ⟨.vmem, 64, rfl⟩
abbrev cc6_stg1_0 : Ref sig .tc := ⟨.vmem, 65, rfl⟩
abbrev cc6_stg1_1 : Ref sig .tc := ⟨.vmem, 66, rfl⟩
abbrev cc6_stg2_0 : Ref sig .tc := ⟨.vmem, 67, rfl⟩
abbrev cc6_stg3_0 : Ref sig .tc := ⟨.vmem, 68, rfl⟩
abbrev cc6_stg3_1 : Ref sig .tc := ⟨.vmem, 69, rfl⟩
abbrev cc6_stg4_0 : Ref sig .tc := ⟨.vmem, 70, rfl⟩
abbrev cc6_stg5_0 : Ref sig .tc := ⟨.vmem, 71, rfl⟩
abbrev cc6_stg5_1 : Ref sig .tc := ⟨.vmem, 72, rfl⟩
abbrev cc6_stg6_0 : Ref sig .tc := ⟨.vmem, 73, rfl⟩
abbrev cc7_stg0_0 : Ref sig .tc := ⟨.vmem, 74, rfl⟩
abbrev cc7_stg0_1 : Ref sig .tc := ⟨.vmem, 75, rfl⟩
abbrev cc7_stg1_0 : Ref sig .tc := ⟨.vmem, 76, rfl⟩
abbrev cc7_stg2_0 : Ref sig .tc := ⟨.vmem, 77, rfl⟩
abbrev cc7_stg3_0 : Ref sig .tc := ⟨.vmem, 78, rfl⟩
abbrev cc7_stg3_1 : Ref sig .tc := ⟨.vmem, 79, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem4_0 : DmaSem sig := 27
abbrev cc3_sem4_1 : DmaSem sig := 28
abbrev cc3_sem5_0 : DmaSem sig := 29
abbrev cc3_sem6_0 : DmaSem sig := 30
abbrev cc3_sem7_0 : DmaSem sig := 31
abbrev cc3_sem7_1 : DmaSem sig := 32
abbrev cc3_sem8_0 : DmaSem sig := 33
abbrev cc3_sem8_1 : DmaSem sig := 34
abbrev cc3_sem9_0 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem2_1 : DmaSem sig := 40
abbrev cc4_sem3_0 : DmaSem sig := 41
abbrev cc4_sem3_1 : DmaSem sig := 42
abbrev cc4_sem4_0 : DmaSem sig := 43
abbrev cc4_sem5_0 : DmaSem sig := 44
abbrev cc4_sem6_0 : DmaSem sig := 45
abbrev cc4_sem7_0 : DmaSem sig := 46
abbrev cc4_sem7_1 : DmaSem sig := 47
abbrev cc4_sem8_0 : DmaSem sig := 48
abbrev cc4_sem8_1 : DmaSem sig := 49
abbrev cc4_sem9_0 : DmaSem sig := 50
abbrev cc5_sem0_0 : DmaSem sig := 51
abbrev cc5_sem0_1 : DmaSem sig := 52
abbrev cc5_sem1_0 : DmaSem sig := 53
abbrev cc5_sem1_1 : DmaSem sig := 54
abbrev cc5_sem2_0 : DmaSem sig := 55
abbrev cc5_sem3_0 : DmaSem sig := 56
abbrev cc5_sem3_1 : DmaSem sig := 57
abbrev cc5_sem4_0 : DmaSem sig := 58
abbrev cc5_sem4_1 : DmaSem sig := 59
abbrev cc5_sem5_0 : DmaSem sig := 60
abbrev cc6_sem0_0 : DmaSem sig := 61
abbrev cc6_sem0_1 : DmaSem sig := 62
abbrev cc6_sem1_0 : DmaSem sig := 63
abbrev cc6_sem1_1 : DmaSem sig := 64
abbrev cc6_sem2_0 : DmaSem sig := 65
abbrev cc6_sem3_0 : DmaSem sig := 66
abbrev cc6_sem3_1 : DmaSem sig := 67
abbrev cc6_sem4_0 : DmaSem sig := 68
abbrev cc6_sem5_0 : DmaSem sig := 69
abbrev cc6_sem5_1 : DmaSem sig := 70
abbrev cc6_sem6_0 : DmaSem sig := 71
abbrev cc7_sem0_0 : DmaSem sig := 72
abbrev cc7_sem0_1 : DmaSem sig := 73
abbrev cc7_sem1_0 : DmaSem sig := 74
abbrev cc7_sem2_0 : DmaSem sig := 75
abbrev cc7_sem3_0 : DmaSem sig := 76
abbrev cc7_sem3_1 : DmaSem sig := 77

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1024x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1024x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![16], ![false]⟩

def k3_cond2 (i : grid3.Coords) : BitVec 1 :=
  let arg0 : BitVec 32 := BitVec.ofNat 32 (i 0).val
  let c15_i32 : BitVec 32 := 15#32
  let v27 : BitVec 1 := Scalar.cmpi .eq arg0 c15_i32
  let v28 : BitVec 32 := Scalar.extui v27
  let c0_i32_26 : BitVec 32 := 0#32
  let v29 : BitVec 1 := Scalar.cmpi .ne v28 c0_i32_26
  v29

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S256x4096 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S256x8192 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S4096x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S8192x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S256x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S256x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S256x128 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev stage3_9 : Fin 1 → Memref sig .tc .vmem S8192x128 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev grid4 : Pipeline.Grid := ⟨1, ![8], ![false]⟩

def k4_cond2 (i : grid4.Coords) : BitVec 1 :=
  let arg0 : BitVec 32 := BitVec.ofNat 32 (i 0).val
  let c7_i32 : BitVec 32 := 7#32
  let v25 : BitVec 1 := Scalar.cmpi .eq arg0 c7_i32
  let v26 : BitVec 32 := Scalar.extui v25
  let c0_i32_23 : BitVec 32 := 0#32
  let v27 : BitVec 1 := Scalar.cmpi .ne v26 c0_i32_23
  v27

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S1024x4096 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S4096x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S1024x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S1024x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S128x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S1024x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 2 → Memref sig .tc .vmem S1024x128 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev stage4_9 : Fin 1 → Memref sig .tc .vmem S4096x128 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev grid5 : Pipeline.Grid := ⟨1, ![8], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S512x4096 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S512x8192 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S4096x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S512x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S512x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 1 → Memref sig .tc .vmem S128x8192 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev grid6 : Pipeline.Grid := ⟨1, ![32], ![false]⟩

def k6_off1 (i : grid6.Coords) : Fin 2 → Nat :=
  let c0 : Index := 0#32
  let arg0 : BitVec 32 := BitVec.ofNat 32 (i 0).val
  let c256_i32 : BitVec 32 := 256#32
  let v3 : BitVec 32 := Scalar.muli arg0 c256_i32
  let v4 : Index := Scalar.indexCast v3
  ![0, v4.toNat]
def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S256x8192 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S256x4096 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S8192x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S256x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 1 → Memref sig .tc .vmem S128x8192 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S256x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 1 → Memref sig .tc .vmem S128x4096 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev grid7 : Pipeline.Grid := ⟨1, ![4], ![false]⟩

def k7_off1 (i : grid7.Coords) : Fin 2 → Nat :=
  let c0 : Index := 0#32
  let arg0 : BitVec 32 := BitVec.ofNat 32 (i 0).val
  let c1024_i32 : BitVec 32 := 1024#32
  let v0 : BitVec 32 := Scalar.muli arg0 c1024_i32
  let v1 : Index := Scalar.indexCast v0
  ![0, v1.toNat]
def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S1024x4096 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S4096x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S128x4096 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S1024x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

class Facts₀ : Prop where
  inb_S1024x128_S1024x128_0_0 : ∀ a, (![0, 0] : Fin 2 → Nat) a + S1024x128.size a ≤ S1024x128.size a
  h_S1024x128 : 0 < S1024x128.numel
  inb_S128x128_S128x128_0_0 : ∀ a, (![0, 0] : Fin 2 → Nat) a + S128x128.size a ≤ S128x128.size a
  h_S128x128 : 0 < S128x128.numel
  inb_S128x8192_S128x8192_0_0 : ∀ a, (![0, 0] : Fin 2 → Nat) a + S128x8192.size a ≤ S128x8192.size a
  h_S128x8192 : 0 < S128x8192.numel
  shapeCasts_S128x8192_S128x8192 : S128x8192.ShapeCasts S128x8192
  inb_S256x8192_S256x8192_0_0 : ∀ a, (![0, 0] : Fin 2 → Nat) a + S256x8192.size a ≤ S256x8192.size a
  h_S256x8192 : 0 < S256x8192.numel
  inb_S256x4096_S256x4096_0_0 : ∀ a, (![0, 0] : Fin 2 → Nat) a + S256x4096.size a ≤ S256x4096.size a
  h_S256x4096 : 0 < S256x4096.numel
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  transposes_S128x8192_p1_0_S8192x128 : S128x8192.Transposes [1, 0] S8192x128
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  inb_S1024x4096_S1024x4096_0_0 : ∀ a, (![0, 0] : Fin 2 → Nat) a + S1024x4096.size a ≤ S1024x4096.size a
  h_S1024x4096 : 0 < S1024x4096.numel
  shapeCasts_S1024x128_S1024x128 : S1024x128.ShapeCasts S1024x128
  transposes_S128x4096_p1_0_S4096x128 : S128x4096.Transposes [1, 0] S4096x128
  inb_S512x4096_S512x4096_0_0 : ∀ a, (![0, 0] : Fin 2 → Nat) a + S512x4096.size a ≤ S512x4096.size a
  h_S512x4096 : 0 < S512x4096.numel
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S512x8192_S512x8192_0_0 : ∀ a, (![0, 0] : Fin 2 → Nat) a + S512x8192.size a ≤ S512x8192.size a
  h_S512x8192 : 0 < S512x8192.numel
  h_S128x256 : 0 < S128x256.numel
  shapeCasts_S128x256_S128x256 : S128x256.ShapeCasts S128x256
  transposes_S128x256_p1_0_S256x128 : S128x256.Transposes [1, 0] S256x128
  h_S128x1024 : 0 < S128x1024.numel
  shapeCasts_S128x1024_S128x1024 : S128x1024.ShapeCasts S128x1024
  transposes_S128x1024_p1_0_S1024x128 : S128x1024.Transposes [1, 0] S1024x128
  dot_S1024x128_S128x128_S1024x128_1_0_0_1_n_n_wf : DotDims.WF S1024x128 S128x128 S1024x128 [1] [0] [0] [1] [] []
  dot_S256x4096_S4096x128_S256x128_1_0_0_1_n_n_wf : DotDims.WF S256x4096 S4096x128 S256x128 [1] [0] [0] [1] [] []
  dot_S256x8192_S8192x128_S256x128_1_0_0_1_n_n_wf : DotDims.WF S256x8192 S8192x128 S256x128 [1] [0] [0] [1] [] []
  dot_S256x128_S128x128_S256x128_1_0_0_1_n_n_wf : DotDims.WF S256x128 S128x128 S256x128 [1] [0] [0] [1] [] []
  dot_S256x128_S256x8192_S128x8192_0_0_1_1_n_n_wf : DotDims.WF S256x128 S256x8192 S128x8192 [0] [0] [1] [1] [] []
  dot_S1024x4096_S4096x128_S1024x128_1_0_0_1_n_n_wf : DotDims.WF S1024x4096 S4096x128 S1024x128 [1] [0] [0] [1] [] []
  dot_S1024x128_S1024x4096_S128x4096_0_0_1_1_n_n_wf : DotDims.WF S1024x128 S1024x4096 S128x4096 [0] [0] [1] [1] [] []
  dot_S4096x128_S128x128_S4096x128_1_0_0_1_n_n_wf : DotDims.WF S4096x128 S128x128 S4096x128 [1] [0] [0] [1] [] []
  dot_S512x4096_S4096x128_S512x128_1_0_0_1_n_n_wf : DotDims.WF S512x4096 S4096x128 S512x128 [1] [0] [0] [1] [] []
  dot_S512x128_S512x8192_S128x8192_0_0_1_1_n_n_wf : DotDims.WF S512x128 S512x8192 S128x8192 [0] [0] [1] [1] [] []
  dot_S256x128_S256x4096_S128x4096_0_0_1_1_n_n_wf : DotDims.WF S256x128 S256x4096 S128x4096 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S4096x128.size a
  hwx0_0 : ∀ i : grid0.Coords, EltTy.bits .f32 = 32 ∨ (Rect.block (s := S4096x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S4096x128.size a
  hwx0_3 : ∀ i : grid0.Coords, EltTy.bits .f32 = 32 ∨ (Rect.block (s := S4096x128) S1024x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x128.size a ≤ S4096x128.size a
  hwx0_4 : ∀ i : grid0.Coords, EltTy.bits .f32 = 32 ∨ (Rect.block (s := S4096x128) S1024x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S8192x128.size a
  hwx1_0 : ∀ i : grid1.Coords, EltTy.bits .f32 = 32 ∨ (Rect.block (s := S8192x128) S1024x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x128.size a ≤ S8192x128.size a
  hwx1_3 : ∀ i : grid1.Coords, EltTy.bits .f32 = 32 ∨ (Rect.block (s := S8192x128) S1024x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x128.size a ≤ S8192x128.size a
  hwx1_4 : ∀ i : grid1.Coords, EltTy.bits .f32 = 32 ∨ (Rect.block (s := S8192x128) S1024x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x128.size a ≤ S4096x128.size a
  hwx2_0 : ∀ i : grid2.Coords, EltTy.bits .f32 = 32 ∨ (Rect.block (s := S4096x128) S1024x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x128.size a ≤ S4096x128.size a
  hwx2_2 : ∀ i : grid2.Coords, EltTy.bits .f32 = 32 ∨ (Rect.block (s := S4096x128) S1024x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S256x4096.size a ≤ S4096x4096.size a
  hwx3_0 : ∀ i : grid3.Coords, EltTy.bits .f32 = 32 ∨ (Rect.block (s := S4096x4096) S256x4096.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S256x8192.size a ≤ S4096x8192.size a
  hwx3_1 : ∀ i : grid3.Coords, EltTy.bits .f32 = 32 ∨ (Rect.block (s := S4096x8192) S256x8192.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S4096x128.size a ≤ S4096x128.size a
  hwx3_2 : ∀ i : grid3.Coords, EltTy.bits .f32 = 32 ∨ (Rect.block (s := S4096x128) S4096x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S8192x128.size a ≤ S8192x128.size a
  hwx3_3 : ∀ i : grid3.Coords, EltTy.bits .f32 = 32 ∨ (Rect.block (s := S8192x128) S8192x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S256x128.size a ≤ S4096x128.size a
  hwx3_4 : ∀ i : grid3.Coords, EltTy.bits .f32 = 32 ∨ (Rect.block (s := S4096x128) S256x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128x128.size a ≤ S128x128.size a
  hwx3_6 : ∀ i : grid3.Coords, EltTy.bits .f32 = 32 ∨ (Rect.block (s := S128x128) S128x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S256x128.size a ≤ S4096x128.size a
  hwx3_7 : ∀ i : grid3.Coords, EltTy.bits .f32 = 32 ∨ (Rect.block (s := S4096x128) S256x128.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S256x128.size a ≤ S4096x128.size a
  hwx3_8 : ∀ i : grid3.Coords, EltTy.bits .f32 = 32 ∨ (Rect.block (s := S4096x128) S256x128.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S8192x128.size a ≤ S8192x128.size a
  hwx3_9 : ∀ i : grid3.Coords, EltTy.bits .f32 = 32 ∨ (Rect.block (s := S8192x128) S8192x128.size (cc3_transform_9 i) (hinb3_9 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x4096.size a ≤ S8192x4096.size a
  hwx4_0 : ∀ i : grid4.Coords, EltTy.bits .f32 = 32 ∨ (Rect.block (s := S8192x4096) S1024x4096.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S4096x128.size a ≤ S4096x128.size a
  hwx4_1 : ∀ i : grid4.Coords, EltTy.bits .f32 = 32 ∨ (Rect.block (s := S4096x128) S4096x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024x128.size a ≤ S8192x128.size a
  hwx4_2 : ∀ i : grid4.Coords, EltTy.bits .f32 = 32 ∨ (Rect.block (s := S8192x128) S1024x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1024x128.size a ≤ S8192x128.size a
  hwx4_3 : ∀ i : grid4.Coords, EltTy.bits .f32 = 32 ∨ (Rect.block (s := S8192x128) S1024x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x128.size a ≤ S128x128.size a
  hwx4_5 : ∀ i : grid4.Coords, EltTy.bits .f32 = 32 ∨ (Rect.block (s := S128x128) S128x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S128x128.size a ≤ S128x128.size a
  hwx4_6 : ∀ i : grid4.Coords, EltTy.bits .f32 = 32 ∨ (Rect.block (s := S128x128) S128x128.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S1024x128.size a ≤ S8192x128.size a
  hwx4_7 : ∀ i : grid4.Coords, EltTy.bits .f32 = 32 ∨ (Rect.block (s := S8192x128) S1024x128.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S1024x128.size a ≤ S8192x128.size a
  hwx4_8 : ∀ i : grid4.Coords, EltTy.bits .f32 = 32 ∨ (Rect.block (s := S8192x128) S1024x128.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S4096x128.size a ≤ S4096x128.size a
  hwx4_9 : ∀ i : grid4.Coords, EltTy.bits .f32 = 32 ∨ (Rect.block (s := S4096x128) S4096x128.size (cc4_transform_9 i) (hinb4_9 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S512x4096.size a ≤ S4096x4096.size a
  hwx5_0 : ∀ i : grid5.Coords, EltTy.bits .f32 = 32 ∨ (Rect.block (s := S4096x4096) S512x4096.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S512x8192.size a ≤ S4096x8192.size a
  hwx5_1 : ∀ i : grid5.Coords, EltTy.bits .f32 = 32 ∨ (Rect.block (s := S4096x8192) S512x8192.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S4096x128.size a ≤ S4096x128.size a
  hwx5_2 : ∀ i : grid5.Coords, EltTy.bits .f32 = 32 ∨ (Rect.block (s := S4096x128) S4096x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S512x128.size a ≤ S4096x128.size a
  hwx5_3 : ∀ i : grid5.Coords, EltTy.bits .f32 = 32 ∨ (Rect.block (s := S4096x128) S512x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S512x128.size a ≤ S4096x128.size a
  hwx5_4 : ∀ i : grid5.Coords, EltTy.bits .f32 = 32 ∨ (Rect.block (s := S4096x128) S512x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S128x8192.size a ≤ S128x8192.size a
  hwx5_5 : ∀ i : grid5.Coords, EltTy.bits .f32 = 32 ∨ (Rect.block (s := S128x8192) S128x8192.size (cc5_transform_5 i) (hinb5_5 i)).WholeWords (EltTy.packing .f32)
  hrank6 : 0 < grid6.rank
  k6_off1_inb : ∀ i : grid6.Coords, ∀ a, (k6_off1 i) a + S128x256.size a ≤ S128x8192.size a
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S256x8192.size a ≤ S8192x8192.size a
  hwx6_0 : ∀ i : grid6.Coords, EltTy.bits .f32 = 32 ∨ (Rect.block (s := S8192x8192) S256x8192.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S256x4096.size a ≤ S8192x4096.size a
  hwx6_1 : ∀ i : grid6.Coords, EltTy.bits .f32 = 32 ∨ (Rect.block (s := S8192x4096) S256x4096.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S8192x128.size a ≤ S8192x128.size a
  hwx6_2 : ∀ i : grid6.Coords, EltTy.bits .f32 = 32 ∨ (Rect.block (s := S8192x128) S8192x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S256x128.size a ≤ S8192x128.size a
  hwx6_3 : ∀ i : grid6.Coords, EltTy.bits .f32 = 32 ∨ (Rect.block (s := S8192x128) S256x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S128x8192.size a ≤ S128x8192.size a
  hwx6_4 : ∀ i : grid6.Coords, EltTy.bits .f32 = 32 ∨ (Rect.block (s := S128x8192) S128x8192.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S256x128.size a ≤ S8192x128.size a
  hwx6_5 : ∀ i : grid6.Coords, EltTy.bits .f32 = 32 ∨ (Rect.block (s := S8192x128) S256x128.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S128x4096.size a ≤ S128x4096.size a
  hwx6_6 : ∀ i : grid6.Coords, EltTy.bits .f32 = 32 ∨ (Rect.block (s := S128x4096) S128x4096.size (cc6_transform_6 i) (hinb6_6 i)).WholeWords (EltTy.packing .f32)
  hrank7 : 0 < grid7.rank
  k7_off1_inb : ∀ i : grid7.Coords, ∀ a, (k7_off1 i) a + S128x1024.size a ≤ S128x4096.size a
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1024x4096.size a ≤ S4096x4096.size a
  hwx7_0 : ∀ i : grid7.Coords, EltTy.bits .f32 = 32 ∨ (Rect.block (s := S4096x4096) S1024x4096.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S4096x128.size a ≤ S4096x128.size a
  hwx7_1 : ∀ i : grid7.Coords, EltTy.bits .f32 = 32 ∨ (Rect.block (s := S4096x128) S4096x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S128x4096.size a ≤ S128x4096.size a
  hwx7_2 : ∀ i : grid7.Coords, EltTy.bits .f32 = 32 ∨ (Rect.block (s := S128x4096) S128x4096.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S1024x128.size a ≤ S4096x128.size a
  hwx7_3 : ∀ i : grid7.Coords, EltTy.bits .f32 = 32 ∨ (Rect.block (s := S4096x128) S1024x128.size (cc7_transform_3 i) (hinb7_3 i)).WholeWords (EltTy.packing .f32)

variable [Facts₀]

def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S256x4096_S4096x128_S256x128_1_0_0_1_n_n : DotDims S256x4096 S4096x128 S256x128 where
  lhsContracting := [1]
  rhsContracting := [0]
  lhsNonContracting := [0]
  rhsNonContracting := [1]
  lhsBatch := []
  rhsBatch := []
  wf := dot_S256x4096_S4096x128_S256x128_1_0_0_1_n_n_wf
def dot_S256x8192_S8192x128_S256x128_1_0_0_1_n_n : DotDims S256x8192 S8192x128 S256x128 where
  lhsContracting := [1]
  rhsContracting := [0]
  lhsNonContracting := [0]
  rhsNonContracting := [1]
  lhsBatch := []
  rhsBatch := []
  wf := dot_S256x8192_S8192x128_S256x128_1_0_0_1_n_n_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S256x128_S256x8192_S128x8192_0_0_1_1_n_n : DotDims S256x128 S256x8192 S128x8192 where
  lhsContracting := [0]
  rhsContracting := [0]
  lhsNonContracting := [1]
  rhsNonContracting := [1]
  lhsBatch := []
  rhsBatch := []
  wf := dot_S256x128_S256x8192_S128x8192_0_0_1_1_n_n_wf
def dot_S1024x4096_S4096x128_S1024x128_1_0_0_1_n_n : DotDims S1024x4096 S4096x128 S1024x128 where
  lhsContracting := [1]
  rhsContracting := [0]
  lhsNonContracting := [0]
  rhsNonContracting := [1]
  lhsBatch := []
  rhsBatch := []
  wf := dot_S1024x4096_S4096x128_S1024x128_1_0_0_1_n_n_wf
def dot_S1024x128_S1024x4096_S128x4096_0_0_1_1_n_n : DotDims S1024x128 S1024x4096 S128x4096 where
  lhsContracting := [0]
  rhsContracting := [0]
  lhsNonContracting := [1]
  rhsNonContracting := [1]
  lhsBatch := []
  rhsBatch := []
  wf := dot_S1024x128_S1024x4096_S128x4096_0_0_1_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf
def dot_S512x128_S512x8192_S128x8192_0_0_1_1_n_n : DotDims S512x128 S512x8192 S128x8192 where
  lhsContracting := [0]
  rhsContracting := [0]
  lhsNonContracting := [1]
  rhsNonContracting := [1]
  lhsBatch := []
  rhsBatch := []
  wf := dot_S512x128_S512x8192_S128x8192_0_0_1_1_n_n_wf
def dot_S256x128_S256x4096_S128x4096_0_0_1_1_n_n : DotDims S256x128 S256x4096 S128x4096 where
  lhsContracting := [0]
  rhsContracting := [0]
  lhsNonContracting := [1]
  rhsNonContracting := [1]
  lhsBatch := []
  rhsBatch := []
  wf := dot_S256x128_S256x4096_S128x4096_0_0_1_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg8) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg9) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1024x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1024x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg9) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg10) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1_0) S1024x128.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1_1) S1024x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg2) S1024x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg11) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v2) S1024x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_arg3) S256x4096.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S256x8192.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v0_0) S4096x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v1_0) S8192x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v0_1) S256x128.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_arg12) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg13) S128x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v3_0) S256x128.size cc3_transform_7 reads3_7 true false 2 stage3_7 sem3_7
    hrank3 hreads3_7 hinb3_7 nbuf3_7 (Memref.isWhole_whole _) hwx3_7 hstage3_7

abbrev win3_8 : Pipeline.Window sig grid3 :=
  Pipeline.Window.ofSpec (Memref.whole main_v3_1) S256x128.size cc3_transform_8 reads3_8 true false 2 stage3_8 sem3_8
    hrank3 hreads3_8 hinb3_8 nbuf3_8 (Memref.isWhole_whole _) hwx3_8 hstage3_8

abbrev win3_9 : Pipeline.Window sig grid3 :=
  Pipeline.Window.ofSpec (Memref.whole main_v3_2) S8192x128.size cc3_transform_9 reads3_9 true true 1 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

abbrev idle3 : Fin 10 → grid3.Coords → Bool := fun | 0 => fun _ => false | 1 => fun _ => false | 2 => fun _ => false | 3 => fun _ => false | 4 => fun _ => false | 5 => fun _ => false | 6 => fun _ => false | 7 => fun _ => false | 8 => fun _ => false | 9 => fun i => !(k3_cond2 i == 1#1) | ⟨_ + 10, h⟩ => absurd h (Nat.not_lt.2 (Nat.le_add_left _ _))

abbrev win4_0 : Pipeline.Window sig grid4 :=
  Pipeline.Window.ofSpec (Memref.whole main_arg7) S1024x4096.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v2) S4096x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v1_1) S1024x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v3_2) S1024x128.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_arg14) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg15) S128x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_arg16) S128x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v4_0) S1024x128.size cc4_transform_7 reads4_7 true false 2 stage4_7 sem4_7
    hrank4 hreads4_7 hinb4_7 nbuf4_7 (Memref.isWhole_whole _) hwx4_7 hstage4_7

abbrev win4_8 : Pipeline.Window sig grid4 :=
  Pipeline.Window.ofSpec (Memref.whole main_v4_1) S1024x128.size cc4_transform_8 reads4_8 true false 2 stage4_8 sem4_8
    hrank4 hreads4_8 hinb4_8 nbuf4_8 (Memref.isWhole_whole _) hwx4_8 hstage4_8

abbrev win4_9 : Pipeline.Window sig grid4 :=
  Pipeline.Window.ofSpec (Memref.whole main_v4_2) S4096x128.size cc4_transform_9 reads4_9 true true 1 stage4_9 sem4_9
    hrank4 hreads4_9 hinb4_9 nbuf4_9 (Memref.isWhole_whole _) hwx4_9 hstage4_9

abbrev win4 : Fin 10 → Pipeline.Window sig grid4 := fun | 0 => win4_0 | 1 => win4_1 | 2 => win4_2 | 3 => win4_3 | 4 => win4_4 | 5 => win4_5 | 6 => win4_6 | 7 => win4_7 | 8 => win4_8 | 9 => win4_9 | ⟨_ + 10, h⟩ => absurd h (Nat.not_lt.2 (Nat.le_add_left _ _))
abbrev spec4 : Fin 10 → Pipeline.WinSpec sig grid4.rank := fun w => (win4 w).toWinSpec

abbrev idle4 : Fin 10 → grid4.Coords → Bool := fun | 0 => fun _ => false | 1 => fun _ => false | 2 => fun _ => false | 3 => fun _ => false | 4 => fun _ => false | 5 => fun _ => false | 6 => fun _ => false | 7 => fun _ => false | 8 => fun _ => false | 9 => fun i => !(k4_cond2 i == 1#1) | ⟨_ + 10, h⟩ => absurd h (Nat.not_lt.2 (Nat.le_add_left _ _))

abbrev win5_0 : Pipeline.Window sig grid5 :=
  Pipeline.Window.ofSpec (Memref.whole main_arg3) S512x4096.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg6) S512x8192.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v3_0) S4096x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v3_1) S512x128.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v5_0) S512x128.size cc5_transform_4 reads5_4 true false 2 stage5_4 sem5_4
    hrank5 hreads5_4 hinb5_4 nbuf5_4 (Memref.isWhole_whole _) hwx5_4 hstage5_4

abbrev win5_5 : Pipeline.Window sig grid5 :=
  Pipeline.Window.ofSpec (Memref.whole main_v5_1) S128x8192.size cc5_transform_5 reads5_5 true true 1 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_arg4) S256x8192.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg7) S256x4096.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v4_0) S8192x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v4_1) S256x128.size cc6_transform_3 reads6_3 false false 2 stage6_3 sem6_3
    hrank6 hreads6_3 hinb6_3 nbuf6_3 (Memref.isWhole_whole _) hwx6_3 hstage6_3

abbrev win6_4 : Pipeline.Window sig grid6 :=
  Pipeline.Window.ofSpec (Memref.whole main_v5_1) S128x8192.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v6_0) S256x128.size cc6_transform_5 reads6_5 true false 2 stage6_5 sem6_5
    hrank6 hreads6_5 hinb6_5 nbuf6_5 (Memref.isWhole_whole _) hwx6_5 hstage6_5

abbrev win6_6 : Pipeline.Window sig grid6 :=
  Pipeline.Window.ofSpec (Memref.whole main_v6_1) S128x4096.size cc6_transform_6 reads6_6 true true 1 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_arg5) S1024x4096.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v4_2) S4096x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v6_1) S128x4096.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v7) S1024x128.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S4096x128 : Shape := ⟨2, ![4096, 128]⟩
abbrev S8192x128 : Shape := ⟨2, ![8192, 128]⟩
abbrev S4096x4096 : Shape := ⟨2, ![4096, 4096]⟩
abbrev S8192x8192 : Shape := ⟨2, ![8192, 8192]⟩
abbrev S4096x8192 : Shape := ⟨2, ![4096, 8192]⟩
abbrev S8192x4096 : Shape := ⟨2, ![8192, 4096]⟩
abbrev S128x128 : Shape := ⟨2, ![128, 128]⟩
abbrev S_ : Shape := ⟨0, ![]⟩

abbrev nBuf : Space → Nat
  | .hbm => 75
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S8192x128, .f32⟩
  | .hbm, ⟨2, _⟩ => ⟨S4096x128, .f32⟩
  | .hbm, ⟨3, _⟩ => ⟨S4096x4096, .f32⟩
  | .hbm, ⟨4, _⟩ => ⟨S8192x8192, .f32⟩
  | .hbm, ⟨5, _⟩ => ⟨S4096x4096, .f32⟩
  | .hbm, ⟨6, _⟩ => ⟨S4096x8192, .f32⟩
  | .hbm, ⟨7, _⟩ => ⟨S8192x4096, .f32⟩
  | .hbm, ⟨8, _⟩ => ⟨S128x128, .f32⟩
  | .hbm, ⟨9, _⟩ => ⟨S128x128, .f32⟩
  | .hbm, ⟨10, _⟩ => ⟨S128x128, .f32⟩
  | .hbm, ⟨11, _⟩ => ⟨S128x128, .f32⟩
  | .hbm, ⟨12, _⟩ => ⟨S128x128, .f32⟩
  | .hbm, ⟨13, _⟩ => ⟨S128x128, .f32⟩
  | .hbm, ⟨14, _⟩ => ⟨S128x128, .f32⟩
  | .hbm, ⟨15, _⟩ => ⟨S128x128, .f32⟩
  | .hbm, ⟨16, _⟩ => ⟨S128x128, .f32⟩
  | .hbm, ⟨17, _⟩ => ⟨S8192x4096, .f32⟩
  | .hbm, ⟨18, _⟩ => ⟨S4096x8192, .f32⟩
  | .hbm, ⟨19, _⟩ => ⟨S4096x128, .f32⟩
  | .hbm, ⟨20, _⟩ => ⟨S4096x128, .f32⟩
  | .hbm, ⟨21, _⟩ => ⟨S8192x128, .f32⟩
  | .hbm, ⟨22, _⟩ => ⟨S4096x128, .f32⟩
  | .hbm, ⟨23, _⟩ => ⟨S4096x128, .f32⟩
  | .hbm, ⟨24, _⟩ => ⟨S4096x128, .f32⟩
  | .hbm, ⟨25, _⟩ => ⟨S4096x128, .f32⟩
  | .hbm, ⟨26, _⟩ => ⟨S_, .f32⟩
  | .hbm, ⟨27, _⟩ => ⟨S4096x128, .f32⟩
  | .hbm, ⟨28, _⟩ => ⟨S4096x128, .f32⟩
  | .hbm, ⟨29, _⟩ => ⟨S_, .f32⟩
  | .hbm, ⟨30, _⟩ => ⟨S4096x128, .f32⟩
  | .hbm, ⟨31, _⟩ => ⟨S4096x128, .f32⟩
  | .hbm, ⟨32, _⟩ => ⟨S4096x128, .f32⟩
  | .hbm, ⟨33, _⟩ => ⟨S8192x128, .f32⟩
  | .hbm, ⟨34, _⟩ => ⟨S4096x128, .f32⟩
  | .hbm, ⟨35, _⟩ => ⟨S8192x128, .f32⟩
  | .hbm, ⟨36, _⟩ => ⟨S8192x128, .f32⟩
  | .hbm, ⟨37, _⟩ => ⟨S8192x128, .f32⟩
  | .hbm, ⟨38, _⟩ => ⟨S8192x128, .f32⟩
  | .hbm, ⟨39, _⟩ => ⟨S_, .f32⟩
  | .hbm, ⟨40, _⟩ => ⟨S8192x128, .f32⟩
  | .hbm, ⟨41, _⟩ => ⟨S8192x128, .f32⟩
  | .hbm, ⟨42, _⟩ => ⟨S_, .f32⟩
  | .hbm, ⟨43, _⟩ => ⟨S8192x128, .f32⟩
  | .hbm, ⟨44, _⟩ => ⟨S8192x128, .f32⟩
  | .hbm, ⟨45, _⟩ => ⟨S8192x128, .f32⟩
  | .hbm, ⟨46, _⟩ => ⟨S4096x128, .f32⟩
  | .hbm, ⟨47, _⟩ => ⟨S4096x128, .f32⟩
  | .hbm, ⟨48, _⟩ => ⟨S4096x128, .f32⟩
  | .hbm, ⟨49, _⟩ => ⟨S4096x128, .f32⟩
  | .hbm, ⟨50, _⟩ => ⟨S8192x128, .f32⟩
  | .hbm, ⟨51, _⟩ => ⟨S8192x128, .f32⟩
  | .hbm, ⟨52, _⟩ => ⟨S8192x128, .f32⟩
  | .hbm, ⟨53, _⟩ => ⟨S8192x128, .f32⟩
  | .hbm, ⟨54, _⟩ => ⟨S8192x128, .f32⟩
  | .hbm, ⟨55, _⟩ => ⟨S8192x128, .f32⟩
  | .hbm, ⟨56, _⟩ => ⟨S_, .f32⟩
  | .hbm, ⟨57, _⟩ => ⟨S8192x128, .f32⟩
  | .hbm, ⟨58, _⟩ => ⟨S8192x128, .f32⟩
  | .hbm, ⟨59, _⟩ => ⟨S_, .f32⟩
  | .hbm, ⟨60, _⟩ => ⟨S8192x128, .f32⟩
  | .hbm, ⟨61, _⟩ => ⟨S8192x128, .f32⟩
  | .hbm, ⟨62, _⟩ => ⟨S8192x128, .f32⟩
  | .hbm, ⟨63, _⟩ => ⟨S4096x128, .f32⟩
  | .hbm, ⟨64, _⟩ => ⟨S4096x128, .f32⟩
  | .hbm, ⟨65, _⟩ => ⟨S4096x128, .f32⟩
  | .hbm, ⟨66, _⟩ => ⟨S4096x128, .f32⟩
  | .hbm, ⟨67, _⟩ => ⟨S4096x128, .f32⟩
  | .hbm, ⟨68, _⟩ => ⟨S4096x128, .f32⟩
  | .hbm, ⟨69, _⟩ => ⟨S_, .f32⟩
  | .hbm, ⟨70, _⟩ => ⟨S4096x128, .f32⟩
  | .hbm, ⟨71, _⟩ => ⟨S4096x128, .f32⟩
  | .hbm, ⟨72, _⟩ => ⟨S_, .f32⟩
  | .hbm, ⟨73, _⟩ => ⟨S4096x128, .f32⟩
  | .hbm, ⟨74, _⟩ => ⟨S4096x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst : Ref sig .tc := ⟨.hbm, 26, rfl⟩
abbrev main_v9 : Ref sig .tc := ⟨.hbm, 27, rfl⟩
abbrev main_v10 : Ref sig .tc := ⟨.hbm, 28, rfl⟩
abbrev main_cst_0 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_1 : Ref sig .tc := ⟨.hbm, 39, rfl⟩
abbrev main_v20 : Ref sig .tc := ⟨.hbm, 40, rfl⟩
abbrev main_v21 : Ref sig .tc := ⟨.hbm, 41, rfl⟩
abbrev main_cst_2 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_3 : Ref sig .tc := ⟨.hbm, 56, rfl⟩
abbrev main_v35 : Ref sig .tc := ⟨.hbm, 57, rfl⟩
abbrev main_v36 : Ref sig .tc := ⟨.hbm, 58, rfl⟩
abbrev main_cst_4 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_5 : Ref sig .tc := ⟨.hbm, 69, rfl⟩
abbrev main_v46 : Ref sig .tc := ⟨.hbm, 70, rfl⟩
abbrev main_v47 : Ref sig .tc := ⟨.hbm, 71, rfl⟩
abbrev main_cst_6 : Ref sig .tc := ⟨.hbm, 72, rfl⟩
abbrev main_v48 : Ref sig .tc := ⟨.hbm, 73, rfl⟩
abbrev main_v49 : Ref sig .tc := ⟨.hbm, 74, rfl⟩

abbrev nD : Nat := 1
abbrev τ : Topo := Topo.v7x

variable {F : FTy → Type} [FloatOps F]

class Facts₀ : Prop where
  transposes_S4096x8192_S8192x4096_1_0 : S4096x8192.Transposes [1, 0] S8192x4096
  transposes_S8192x4096_S4096x8192_1_0 : S8192x4096.Transposes [1, 0] S4096x8192
  bcast_S_S4096x128 : S_.BroadcastsInDim S4096x128 (![] : Fin 0 → Fin S4096x128.rank)
  bcast_S_S8192x128 : S_.BroadcastsInDim S8192x128 (![] : Fin 0 → Fin S8192x128.rank)
  dot_S4096x128_S128x128_S4096x128_1_0_0_1_n_n_wf : DotDims.WF S4096x128 S128x128 S4096x128 [1] [0] [0] [1] [] []
  dot_S4096x4096_S4096x128_S4096x128_1_0_0_1_n_n_wf : DotDims.WF S4096x4096 S4096x128 S4096x128 [1] [0] [0] [1] [] []
  dot_S8192x128_S128x128_S8192x128_1_0_0_1_n_n_wf : DotDims.WF S8192x128 S128x128 S8192x128 [1] [0] [0] [1] [] []
  dot_S4096x8192_S8192x128_S4096x128_1_0_0_1_n_n_wf : DotDims.WF S4096x8192 S8192x128 S4096x128 [1] [0] [0] [1] [] []
  dot_S8192x4096_S4096x128_S8192x128_1_0_0_1_n_n_wf : DotDims.WF S8192x4096 S4096x128 S8192x128 [1] [0] [0] [1] [] []
  dot_S8192x8192_S8192x128_S8192x128_1_0_0_1_n_n_wf : DotDims.WF S8192x8192 S8192x128 S8192x128 [1] [0] [0] [1] [] []

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x4096_S4096x128_S4096x128_1_0_0_1_n_n : DotDims S4096x4096 S4096x128 S4096x128 where
  lhsContracting := [1]
  rhsContracting := [0]
  lhsNonContracting := [0]
  rhsNonContracting := [1]
  lhsBatch := []
  rhsBatch := []
  wf := dot_S4096x4096_S4096x128_S4096x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S4096x8192_S8192x128_S4096x128_1_0_0_1_n_n : DotDims S4096x8192 S8192x128 S4096x128 where
  lhsContracting := [1]
  rhsContracting := [0]
  lhsNonContracting := [0]
  rhsNonContracting := [1]
  lhsBatch := []
  rhsBatch := []
  wf := dot_S4096x8192_S8192x128_S4096x128_1_0_0_1_n_n_wf
def dot_S8192x4096_S4096x128_S8192x128_1_0_0_1_n_n : DotDims S8192x4096 S4096x128 S8192x128 where
  lhsContracting := [1]
  rhsContracting := [0]
  lhsNonContracting := [0]
  rhsNonContracting := [1]
  lhsBatch := []
  rhsBatch := []
  wf := dot_S8192x4096_S4096x128_S8192x128_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf

class Facts : Prop extends Facts₀ where

variable [Facts]
-- ==== Proof.K.R0.lean ====
import proofs.«122060_g64467459113426_cont_9to1_m_811_14_alg».proof.Proof.Gen.Kernel.Launch
import proofs.«122060_g64467459113426_cont_9to1_m_811_14_alg».proof.Proof.Gen.Kernel.Skeleton
import proofs.«122060_g64467459113426_cont_9to1_m_811_14_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S1024x128 := Rect.unit (s := S1024x128) ![0, 0] S1024x128.size inb_S1024x128_S1024x128_0_0
abbrev r0_1 : Rect S128x128 := Rect.unit (s := S128x128) ![0, 0] S128x128.size inb_S128x128_S128x128_0_0

def out0_3 (x0 : Vec F S1024x128 .f32) (x1 : Vec F S128x128 .f32) : Vec F S1024x128 .f32 :=
  View.canon [⟨r0_0, k0_pay1 (View.ld x0 r0_0) (View.ld x1 r0_1)⟩]

def out0_4 (x0 : Vec F S1024x128 .f32) (x2 : Vec F S128x128 .f32) : Vec F S1024x128 .f32 :=
  View.canon [⟨r0_0, k0_pay2 (View.ld x0 r0_0) (View.ld x2 r0_1)⟩]

theorem cover0_3 (p0 : Vec F S1024x128 .f32) (y : S1024x128.Idx) :
    ∃ pc ∈ ([⟨r0_0, p0⟩] : List (View.Piece (Elt F) S1024x128 .f32)), y ∈ pc.1.set :=
  View.cover_of_tiled [⟨r0_0, p0⟩] S1024x128.size (by rfl) y

set_option maxHeartbeats 1000000 in
theorem sound_kernel0 (c : Dev nD) (E : Set ℕ) (arg1 : Memref sig .tc .vmem S1024x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S1024x128 .f32) (harg4 : arg4.IsWhole) (arg5 : Memref sig .tc .vmem S1024x128 .f32) (harg5 : arg5.IsWhole)
    (i : grid0.Coords) (x0 : Vec F S1024x128 .f32) (x1 : Vec F S128x128 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1) ∗ owns (c : Thread nD τ) arg5 fullShare (out0_4 x0 x2)) -∗ K ⟨⟩))
      ⊢ wp frame (wpE (defs₀ (F := F)) Variants.none c none) E (cc0__proj2_body i arg1 harg1 arg2 harg2 arg3 harg3 arg4 harg4 arg5 harg5) K := by
  simp only [cc0__proj2_body_eq_skeleton]; unfold cc0__proj2_body_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_3 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t)
    | ⟨4, _⟩ => out0_4 (iblk0 V c 0 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) _)
  iframe H0 H1 H2
  isplitl [H3]; · iexists _; iexact H3
  isplitl [H4]; · iexists _; iexact H4
  iintro ⟨H0, H1, H2, H3, H4⟩
  iframe HΦ Ho H0 H1 H2 H3 H4

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1.lean ====
import proofs.«122060_g64467459113426_cont_9to1_m_811_14_alg».proof.Proof.Gen.Kernel.Launch
import proofs.«122060_g64467459113426_cont_9to1_m_811_14_alg».proof.Proof.Gen.Kernel.Skeleton
import proofs.«122060_g64467459113426_cont_9to1_m_811_14_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S1024x128 := Rect.unit (s := S1024x128) ![0, 0] S1024x128.size inb_S1024x128_S1024x128_0_0
abbrev r1_1 : Rect S128x128 := Rect.unit (s := S128x128) ![0, 0] S128x128.size inb_S128x128_S128x128_0_0

def out1_3 (x0 : Vec F S1024x128 .f32) (x1 : Vec F S128x128 .f32) : Vec F S1024x128 .f32 :=
  View.canon [⟨r1_0, k1_pay1 (View.ld x0 r1_0) (View.ld x1 r1_1)⟩]

def out1_4 (x0 : Vec F S1024x128 .f32) (x2 : Vec F S128x128 .f32) : Vec F S1024x128 .f32 :=
  View.canon [⟨r1_0, k1_pay2 (View.ld x0 r1_0) (View.ld x2 r1_1)⟩]

theorem cover1_3 (p0 : Vec F S1024x128 .f32) (y : S1024x128.Idx) :
    ∃ pc ∈ ([⟨r1_0, p0⟩] : List (View.Piece (Elt F) S1024x128 .f32)), y ∈ pc.1.set :=
  View.cover_of_tiled [⟨r1_0, p0⟩] S1024x128.size (by rfl) y

set_option maxHeartbeats 1000000 in
theorem sound_kernel1 (c : Dev nD) (E : Set ℕ) (arg1 : Memref sig .tc .vmem S1024x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S1024x128 .f32) (harg4 : arg4.IsWhole) (arg5 : Memref sig .tc .vmem S1024x128 .f32) (harg5 : arg5.IsWhole)
    (i : grid1.Coords) (x0 : Vec F S1024x128 .f32) (x1 : Vec F S128x128 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1) ∗ owns (c : Thread nD τ) arg5 fullShare (out1_4 x0 x2)) -∗ K ⟨⟩))
      ⊢ wp frame (wpE (defs₀ (F := F)) Variants.none c none) E (cc1__proj2_body i arg1 harg1 arg2 harg2 arg3 harg3 arg4 harg4 arg5 harg5) K := by
  simp only [cc1__proj2_body_eq_skeleton]; unfold cc1__proj2_body_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_3 _)
  iexists _; isplitr
  swap; · iexact H4
  ipureintro
  exact View.read_writes_eq_canon _ _ _ (cover1_3 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t)
    | ⟨4, _⟩ => out1_4 (iblk1 V c 0 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) := by dsimp only [dat1]
theorem after1_4 (c : Dev nD) (t : Fin cfg1.N) : (dat1 V c).after 4 t = out1_4 (iblk1 V c 0 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) _)
  iframe H0 H1 H2
  isplitl [H3]; · iexists _; iexact H3
  isplitl [H4]; · iexists _; iexact H4
  iintro ⟨H0, H1, H2, H3, H4⟩
  iframe HΦ Ho H0 H1 H2 H3 H4

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.R2.lean ====
import proofs.«122060_g64467459113426_cont_9to1_m_811_14_alg».proof.Proof.Gen.Kernel.Launch
import proofs.«122060_g64467459113426_cont_9to1_m_811_14_alg».proof.Proof.Gen.Kernel.Skeleton
import proofs.«122060_g64467459113426_cont_9to1_m_811_14_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S1024x128 := Rect.unit (s := S1024x128) ![0, 0] S1024x128.size inb_S1024x128_S1024x128_0_0
abbrev r2_1 : Rect S128x128 := Rect.unit (s := S128x128) ![0, 0] S128x128.size inb_S128x128_S128x128_0_0

def out2_2 (x0 : Vec F S1024x128 .f32) (x1 : Vec F S128x128 .f32) : Vec F S1024x128 .f32 :=
  View.canon [⟨r2_0, k2_pay1 (View.ld x0 r2_0) (View.ld x1 r2_1)⟩]

theorem cover2_2 (p0 : Vec F S1024x128 .f32) (y : S1024x128.Idx) :
    ∃ pc ∈ ([⟨r2_0, p0⟩] : List (View.Piece (Elt F) S1024x128 .f32)), y ∈ pc.1.set :=
  View.cover_of_tiled [⟨r2_0, p0⟩] S1024x128.size (by rfl) y

set_option maxHeartbeats 1000000 in
theorem sound_kernel2 (c : Dev nD) (E : Set ℕ) (arg1 : Memref sig .tc .vmem S1024x128 .f32) (harg1 : arg1.IsWhole) (arg2 : Memref sig .tc .vmem S128x128 .f32) (harg2 : arg2.IsWhole) (arg3 : Memref sig .tc .vmem S1024x128 .f32) (harg3 : arg3.IsWhole)
    (i : grid2.Coords) (x0 : Vec F S1024x128 .f32) (x1 : Vec F S128x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__proj1_body i arg1 harg1 arg2 harg2 arg3 harg3) K := by
  simp only [cc2__proj1_body_eq_skeleton]; unfold cc2__proj1_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  iframe H0 H1
  isplitl [H2]; · iexists _; iexact H2
  iintro ⟨H0, H1, H2⟩
  iframe HΦ Ho H0 H1 H2

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.D3.lean ====
import proofs.«122060_g64467459113426_cont_9to1_m_811_14_alg».proof.Proof.Gen.Kernel.Launch
import proofs.«122060_g64467459113426_cont_9to1_m_811_14_alg».proof.Proof.Gen.Kernel.Skeleton
import proofs.«122060_g64467459113426_cont_9to1_m_811_14_alg».proof.Proof.Gen.Kernel.Points
import Idealize.ShloMosaic.Lib.Pipeline.FrameBody

noncomputable section

namespace Cert.Kernel.Hand

open Idealize.ShloMosaic Idealize.ShloMosaic.TcCoe
open Idealize.SL Idealize.SL.Sem
open Cert.Kernel Cert.Kernel.Gen

variable {F : FTy → Type} [FloatOps F]

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def acc3 (c : Dev nD) : (n : ℕ) → n < cfg3.N → Vec F S128x8192 .f32
  | 0, h => k3_pay6 (iblk3 V c 1 ⟨0, h⟩) (k3_pay2 (F := F)) (iblk3 V c 4 ⟨0, h⟩)
  | n + 1, h => k3_pay6 (iblk3 V c 1 ⟨n + 1, h⟩) (acc3 c n (Nat.lt_of_succ_lt h)) (iblk3 V c 4 ⟨n + 1, h⟩)

end Cert.Kernel.Hand

end
-- ==== Proof.K.R3.lean ====
import proofs.«122060_g64467459113426_cont_9to1_m_811_14_alg».proof.Proof.Gen.Kernel.Launch
import proofs.«122060_g64467459113426_cont_9to1_m_811_14_alg».proof.Proof.Gen.Kernel.Skeleton
import proofs.«122060_g64467459113426_cont_9to1_m_811_14_alg».proof.Proof.Gen.Kernel.Points
import proofs.«122060_g64467459113426_cont_9to1_m_811_14_alg».proof.Proof.K.D3
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

abbrev cond3_0 (i : grid3.Coords) : Prop := (Scalar.cmpi .ne (Scalar.extui (Scalar.cmpi .eq (BitVec.ofNat 32 (i 0).val) 0#32)) 0#32) = 1#1
theorem hcond3_0 : ∀ t : Fin cfg3.N, cond3_0 (grid3.coords t) ↔ t.val % 16 = 0 :=
  (by decide +kernel : ∀ t : Fin grid3.N, cond3_0 (grid3.coords t) ↔ t.val % 16 = 0)

abbrev cond3_1 (i : grid3.Coords) : Prop := k3_cond2 i = 1#1
theorem hcond3_1 : ∀ t : Fin cfg3.N, cond3_1 (grid3.coords t) ↔ t.val % 16 = 15 :=
  (by decide +kernel : ∀ t : Fin grid3.N, cond3_1 (grid3.coords t) ↔ t.val % 16 = 15)

theorem read_writes_whole {sig : RefSig} {κ : Kind} {sp : Space} {S : Shape} {e : EltTy} {Val : EltTy → Type} [∀ e, Nonempty (Val e)]
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons.mpr (Or.inl rfl), View.mem_set_unit_zero h inb y⟩), View.canon_cons_unit_zero h]

section
variable (c : Dev nD) (i : grid3.Coords) (arg1 : Memref sig .tc .vmem S256x4096 .f32) (harg1 : arg1.IsWhole) (arg2 : Memref sig .tc .vmem S256x8192 .f32) (harg2 : arg2.IsWhole) (arg3 : Memref sig .tc .vmem S4096x128 .f32) (harg3 : arg3.IsWhole) (arg4 : Memref sig .tc .vmem S8192x128 .f32) (harg4 : arg4.IsWhole) (arg5 : Memref sig .tc .vmem S256x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S8192x128 .f32) (harg10 : arg10.IsWhole) (arg11 : Memref sig .tc .vmem S128x8192 .f32) (harg11 : arg11.IsWhole)

set_option maxHeartbeats 2000000 in
theorem run3_mid (hc0 : ¬cond3_0 i) (hc1 : ¬cond3_1 i)
    (x0 : Vec F S256x4096 .f32) (x1 : Vec F S256x8192 .f32) (x2 : Vec F S4096x128 .f32) (x3 : Vec F S8192x128 .f32) (x4 : Vec F S256x128 .f32) (x5 : Vec F S128x128 .f32) (x6 : Vec F S128x128 .f32) (xs : Vec F S128x8192 .f32) (xi9 : Vec F S8192x128 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d) ∗ (∃ d, owns (c : Thread nD τ) arg9 fullShare d)
        ∗ owns (c : Thread nD τ) arg10 fullShare xi9 ∗ owns (c : Thread nD τ) arg11 fullShare xs
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6
            ∗ owns (c : Thread nD τ) arg8 fullShare (k3_pay4 x1 x0 x2 x3 x5) ∗ owns (c : Thread nD τ) arg9 fullShare (k3_pay5 x1 x0 x2 x3 x6)
            ∗ owns (c : Thread nD τ) arg10 fullShare xi9 ∗ owns (c : Thread nD τ) arg11 fullShare (k3_pay6 x1 xs x4)) -∗ K ⟨⟩))
      ⊢ wp frame (wpE (defs₀ (F := F)) Variants.none c none) E (cc3__s1_body i arg1 harg1 arg2 harg2 arg3 harg3 arg4 harg4 arg5 harg5 arg6 harg6 arg7 harg7 arg8 harg8 arg9 harg9 arg10 harg10 arg11 harg11) K := by
  simp only [cc3__s1_body_eq_skeleton]; unfold cc3__s1_body_skel
  simp only [k3_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%fs, %hfs, HS⟩, Hk⟩
  obtain rfl := harg1.eq_unread hf0; obtain rfl := harg2.eq_unread hf1; obtain rfl := harg3.eq_unread hf2; obtain rfl := harg4.eq_unread hf3
  obtain rfl := harg5.eq_unread hf4; obtain rfl := harg6.eq_unread hf5; obtain rfl := harg7.eq_unread hf6; obtain rfl := harg11.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr
    swap; · iexact H7
    ipureintro
    refine (read_writes_whole _ _ hz2 _ _ _).trans ?_
    simp only [View.readAt_eq_ld, Memref.IsWhole.read_unread, harg11.read_unread,
      View.ld_unit_zero (S := S256x4096) hz2, View.ld_unit_zero (S := S256x8192) hz2, View.ld_unit_zero (S := S4096x128) hz2, View.ld_unit_zero (S := S8192x128) hz2,
      View.ld_unit_zero (S := S256x128) hz2, View.ld_unit_zero (S := S128x128) hz2, View.ld_unit_zero (S := S128x8192) hz2]
  isplitl [H8]
  · iexists _; isplitr
    swap; · iexact H8
    ipureintro
    refine (read_writes_whole _ _ hz2 _ _ _).trans ?_
    simp only [View.readAt_eq_ld, Memref.IsWhole.read_unread, harg11.read_unread,
      View.ld_unit_zero (S := S256x4096) hz2, View.ld_unit_zero (S := S256x8192) hz2, View.ld_unit_zero (S := S4096x128) hz2, View.ld_unit_zero (S := S8192x128) hz2,
      View.ld_unit_zero (S := S256x128) hz2, View.ld_unit_zero (S := S128x128) hz2, View.ld_unit_zero (S := S128x8192) hz2]
  isplitl [H9]
  · iexists f9; isplitr; · ipureintro; exact hf9
    iexact H9
  iexists _; isplitr
  swap; · iexact HS
  ipureintro
  refine (read_writes_whole _ _ hz2 _ _ _).trans ?_
  sl_unfold_words
  simp only [View.readAt_eq_ld, Memref.IsWhole.read_unread, harg11.read_unread,
      View.ld_unit_zero (S := S256x4096) hz2, View.ld_unit_zero (S := S256x8192) hz2, View.ld_unit_zero (S := S4096x128) hz2, View.ld_unit_zero (S := S8192x128) hz2,
      View.ld_unit_zero (S := S256x128) hz2, View.ld_unit_zero (S := S128x128) hz2, View.ld_unit_zero (S := S128x8192) hz2]

set_option maxHeartbeats 2000000 in
theorem run3_first (hc0 : cond3_0 i) (hc1 : ¬cond3_1 i)
    (x0 : Vec F S256x4096 .f32) (x1 : Vec F S256x8192 .f32) (x2 : Vec F S4096x128 .f32) (x3 : Vec F S8192x128 .f32) (x4 : Vec F S256x128 .f32) (x5 : Vec F S128x128 .f32) (x6 : Vec F S128x128 .f32) (xi9 : Vec F S8192x128 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d) ∗ (∃ d, owns (c : Thread nD τ) arg9 fullShare d)
        ∗ owns (c : Thread nD τ) arg10 fullShare xi9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6
            ∗ owns (c : Thread nD τ) arg8 fullShare (k3_pay4 x1 x0 x2 x3 x5) ∗ owns (c : Thread nD τ) arg9 fullShare (k3_pay5 x1 x0 x2 x3 x6)
            ∗ owns (c : Thread nD τ) arg10 fullShare xi9 ∗ owns (c : Thread nD τ) arg11 fullShare (k3_pay6 x1 (k3_pay2 (F := F)) x4)) -∗ K ⟨⟩))
      ⊢ wp frame (wpE (defs₀ (F := F)) Variants.none c none) E (cc3__s1_body i arg1 harg1 arg2 harg2 arg3 harg3 arg4 harg4 arg5 harg5 arg6 harg6 arg7 harg7 arg8 harg8 arg9 harg9 arg10 harg10 arg11 harg11) K := by
  simp only [cc3__s1_body_eq_skeleton]; unfold cc3__s1_body_skel
  simp only [k3_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%ds, %fs, -, HS⟩, Hk⟩
  obtain rfl := harg1.eq_unread hf0; obtain rfl := harg2.eq_unread hf1; obtain rfl := harg3.eq_unread hf2; obtain rfl := harg4.eq_unread hf3
  obtain rfl := harg5.eq_unread hf4; obtain rfl := harg6.eq_unread hf5; obtain rfl := harg7.eq_unread hf6
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr
    swap; · iexact H7
    ipureintro
    refine (read_writes_whole _ _ hz2 _ _ _).trans ?_
    simp only [View.readAt_eq_ld, Memref.IsWhole.read_unread, harg11.read_unread,
      View.ld_unit_zero (S := S256x4096) hz2, View.ld_unit_zero (S := S256x8192) hz2, View.ld_unit_zero (S := S4096x128) hz2, View.ld_unit_zero (S := S8192x128) hz2,
      View.ld_unit_zero (S := S256x128) hz2, View.ld_unit_zero (S := S128x128) hz2, View.ld_unit_zero (S := S128x8192) hz2]
  isplitl [H8]
  · iexists _; isplitr
    swap; · iexact H8
    ipureintro
    refine (read_writes_whole _ _ hz2 _ _ _).trans ?_
    simp only [View.readAt_eq_ld, Memref.IsWhole.read_unread, harg11.read_unread,
      View.ld_unit_zero (S := S256x4096) hz2, View.ld_unit_zero (S := S256x8192) hz2, View.ld_unit_zero (S := S4096x128) hz2, View.ld_unit_zero (S := S8192x128) hz2,
      View.ld_unit_zero (S := S256x128) hz2, View.ld_unit_zero (S := S128x128) hz2, View.ld_unit_zero (S := S128x8192) hz2]
  isplitl [H9]
  · iexists f9; isplitr; · ipureintro; exact hf9
    iexact H9
  iexists _; isplitr
  swap; · iexact HS
  ipureintro
  refine (read_writes_whole _ _ hz2 _ _ _).trans ?_
  sl_unfold_words
  simp only [View.readAt_eq_ld, Memref.IsWhole.read_unread, harg11.read_unread,
      View.ld_unit_zero (S := S256x4096) hz2, View.ld_unit_zero (S := S256x8192) hz2, View.ld_unit_zero (S := S4096x128) hz2, View.ld_unit_zero (S := S8192x128) hz2,
      View.ld_unit_zero (S := S256x128) hz2, View.ld_unit_zero (S := S128x128) hz2, View.ld_unit_zero (S := S128x8192) hz2, View.readCov_unit_zero (S := S128x8192) _ hz2]

set_option maxHeartbeats 2000000 in
theorem run3_last (hc0 : ¬cond3_0 i) (hc1 : cond3_1 i)
    (x0 : Vec F S256x4096 .f32) (x1 : Vec F S256x8192 .f32) (x2 : Vec F S4096x128 .f32) (x3 : Vec F S8192x128 .f32) (x4 : Vec F S256x128 .f32) (x5 : Vec F S128x128 .f32) (x6 : Vec F S128x128 .f32) (xs : Vec F S128x8192 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d) ∗ (∃ d, owns (c : Thread nD τ) arg9 fullShare d)
        ∗ (∃ d, owns (c : Thread nD τ) arg10 fullShare d) ∗ owns (c : Thread nD τ) arg11 fullShare xs
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6
            ∗ owns (c : Thread nD τ) arg8 fullShare (k3_pay4 x1 x0 x2 x3 x5) ∗ owns (c : Thread nD τ) arg9 fullShare (k3_pay5 x1 x0 x2 x3 x6)
            ∗ owns (c : Thread nD τ) arg10 fullShare (k3_pay1 (k3_pay6 x1 xs x4)) ∗ owns (c : Thread nD τ) arg11 fullShare (k3_pay6 x1 xs x4)) -∗ K ⟨⟩))
      ⊢ wp frame (wpE (defs₀ (F := F)) Variants.none c none) E (cc3__s1_body i arg1 harg1 arg2 harg2 arg3 harg3 arg4 harg4 arg5 harg5 arg6 harg6 arg7 harg7 arg8 harg8 arg9 harg9 arg10 harg10 arg11 harg11) K := by
  simp only [cc3__s1_body_eq_skeleton]; unfold cc3__s1_body_skel
  simp only [k3_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%fs, %hfs, HS⟩, Hk⟩
  obtain rfl := harg1.eq_unread hf0; obtain rfl := harg2.eq_unread hf1; obtain rfl := harg3.eq_unread hf2; obtain rfl := harg4.eq_unread hf3
  obtain rfl := harg5.eq_unread hf4; obtain rfl := harg6.eq_unread hf5; obtain rfl := harg7.eq_unread hf6; obtain rfl := harg11.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr
    swap; · iexact H7
    ipureintro
    refine (read_writes_whole _ _ hz2 _ _ _).trans ?_
    simp only [View.readAt_eq_ld, Memref.IsWhole.read_unread, harg11.read_unread,
      View.ld_unit_zero (S := S256x4096) hz2, View.ld_unit_zero (S := S256x8192) hz2, View.ld_unit_zero (S := S4096x128) hz2, View.ld_unit_zero (S := S8192x128) hz2,
      View.ld_unit_zero (S := S256x128) hz2, View.ld_unit_zero (S := S128x128) hz2, View.ld_unit_zero (S := S128x8192) hz2]
  isplitl [H8]
  · iexists _; isplitr
    swap; · iexact H8
    ipureintro
    refine (read_writes_whole _ _ hz2 _ _ _).trans ?_
    simp only [View.readAt_eq_ld, Memref.IsWhole.read_unread, harg11.read_unread,
      View.ld_unit_zero (S := S256x4096) hz2, View.ld_unit_zero (S := S256x8192) hz2, View.ld_unit_zero (S := S4096x128) hz2, View.ld_unit_zero (S := S8192x128) hz2,
      View.ld_unit_zero (S := S256x128) hz2, View.ld_unit_zero (S := S128x128) hz2, View.ld_unit_zero (S := S128x8192) hz2]
  isplitl [H9]
  · iexists _; isplitr
    swap; · iexact H9
    ipureintro
    refine (read_writes_whole _ _ hz2 _ _ _).trans ?_
    sl_unfold_words
    simp only [View.readAt_eq_ld, Memref.IsWhole.read_unread, harg11.read_unread,
      View.ld_unit_zero (S := S256x4096) hz2, View.ld_unit_zero (S := S256x8192) hz2, View.ld_unit_zero (S := S4096x128) hz2, View.ld_unit_zero (S := S8192x128) hz2,
      View.ld_unit_zero (S := S256x128) hz2, View.ld_unit_zero (S := S128x128) hz2, View.ld_unit_zero (S := S128x8192) hz2, View.readCov_unit_zero (S := S128x8192) _ hz2]
  iexists _; isplitr
  swap; · iexact HS
  ipureintro
  refine (read_writes_whole _ _ hz2 _ _ _).trans ?_
  sl_unfold_words
  simp only [View.readAt_eq_ld, Memref.IsWhole.read_unread, harg11.read_unread,
      View.ld_unit_zero (S := S256x4096) hz2, View.ld_unit_zero (S := S256x8192) hz2, View.ld_unit_zero (S := S4096x128) hz2, View.ld_unit_zero (S := S8192x128) hz2,
      View.ld_unit_zero (S := S256x128) hz2, View.ld_unit_zero (S := S128x128) hz2, View.ld_unit_zero (S := S128x8192) hz2, View.readCov_unit_zero (S := S128x8192) _ hz2]

end

theorem liveAt3_9 : ∀ t : Fin cfg3.N, cond3_1 (grid3.coords t) → cfg3.idle 9 (grid3.coords t) = false := by decide +kernel
theorem idleAt3_9 : ∀ t : Fin cfg3.N, ¬cond3_1 (grid3.coords t) → cfg3.idle 9 (grid3.coords t) = true := by decide +kernel
theorem noFlush3_9 : ∀ t : Fin cfg3.N, ¬cond3_1 (grid3.coords t) → (cfg3.win 9).flush t = false := by decide +kernel

abbrev scM3 : Memref sig .tc .vmem S128x8192 .f32 := Memref.whole cc3_scratch0

variable (V : (c : Dev nD) → (b : Ref sig .tc) → Buf (Elt F) ((c : Thread nD τ).loc b))

theorem acc3_first (c : Dev nD) (t : Fin cfg3.N) (h : t.val = 0) :
    acc3 V c t.val t.isLt = k3_pay6 (iblk3 V c 1 t) (k3_pay2 (F := F)) (iblk3 V c 4 t) := by
  obtain ⟨n, hn⟩ := t
  cases n with
  | zero => rfl
  | succ n => exact absurd h (Nat.succ_ne_zero n)

theorem acc3_later (c : Dev nD) (t : Fin cfg3.N) (h : t.val ≠ 0) :
    acc3 V c t.val t.isLt
      = k3_pay6 (iblk3 V c 1 t) (acc3 V c (t.val - 1) (Nat.lt_of_le_of_lt (Nat.sub_le _ _) t.isLt)) (iblk3 V c 4 t) := by
  obtain ⟨n, hn⟩ := t
  cases n with
  | zero => exact absurd rfl h
  | succ n => rfl

def Phi3 (c : Dev nD) : (n : ℕ) → n ≤ cfg3.N → sProp 𝕄
  | 0, _ => Pipeline.ΦA spec3 c
  | n + 1, hn => iprop(iprop(owns (c : Thread nD τ) scM3 fullShare (acc3 V c n hn) ∗ Pipeline.scopedRestBut (Ix := Unit) (Name := ℕ) (U := UR sig nD τ) (Lvl := ℕ) (Val := Elt F) spec3 c [cc3_scratch0]) ∗ (∃ r, prngReg c r))

theorem Phi3_zero (c : Dev nD) (n : ℕ) (h : n ≤ cfg3.N) (hz : n = 0) : Phi3 V c n h = Pipeline.ΦA spec3 c := by
  subst hz; rfl

theorem Phi3_succ (c : Dev nD) (n : ℕ) (hn : n < cfg3.N) :
    Phi3 V c (n + 1) hn = iprop(iprop(owns (c : Thread nD τ) scM3 fullShare (acc3 V c n hn) ∗ Pipeline.scopedRestBut (Ix := Unit) (Name := ℕ) (U := UR sig nD τ) (Lvl := ℕ) (Val := Elt F) spec3 c [cc3_scratch0]) ∗ (∃ r, prngReg c r)) := rfl

theorem Phi3_pos (c : Dev nD) (n : ℕ) (h : n ≤ cfg3.N) (hz : n ≠ 0) :
    Phi3 V c n h = iprop(iprop(owns (c : Thread nD τ) scM3 fullShare (acc3 V c (n - 1) (by omega)) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

theorem PhiA3_eq (c : Dev nD) :
    (Pipeline.ΦA spec3 c : sProp 𝕄)
      = iprop(iprop((∃ d, owns (c : Thread nD τ) scM3 fullShare d) ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => k3_pay4 (iblk3 V c 1 t) (iblk3 V c 0 t) (iblk3 V c 2 t) (iblk3 V c 3 t) (iblk3 V c 5 t)
    | ⟨8, _⟩ => k3_pay5 (iblk3 V c 1 t) (iblk3 V c 0 t) (iblk3 V c 2 t) (iblk3 V c 3 t) (iblk3 V c 6 t)
    | ⟨9, _⟩ => k3_pay1 (acc3 V c t.val t.isLt)
  Φ t := Phi3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem Phi3_castSucc (c : Dev nD) (t : Fin cfg3.N) :
    (dat3 V c).Φ t.castSucc = Phi3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = k3_pay4 (iblk3 V c 1 t) (iblk3 V c 0 t) (iblk3 V c 2 t) (iblk3 V c 3 t) (iblk3 V c 5 t) := by dsimp only [dat3]
theorem after3_8 (c : Dev nD) (t : Fin cfg3.N) : (dat3 V c).after 8 t = k3_pay5 (iblk3 V c 1 t) (iblk3 V c 0 t) (iblk3 V c 2 t) (iblk3 V c 3 t) (iblk3 V c 6 t) := by dsimp only [dat3]
theorem after3_9 (c : Dev nD) (t : Fin cfg3.N) : (dat3 V c).after 9 t = k3_pay1 (acc3 V c t.val t.isLt) := by dsimp only [dat3]
theorem after3_9_last (c : Dev nD) (t : Fin cfg3.N) (ht : t.val = 15) : (dat3 V c).after 9 t = k3_pay1 (acc3 V c t.val t.isLt) := after3_9 V c t

theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl) (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl) (fun t => by rw [after3_3]; unfold Dat.blockOf iblk3; rw [A_eq3]; try rfl) t d).trans
    (by unfold Dat.fetched Dat.blockOf iblk3; rw [A_eq3]; try rfl)
theorem before3_4 (c : Dev nD) (t : Fin cfg3.N) (d) : (dat3 V c).before 4 t d = iblk3 V c 4 t :=
  ((dat3 V c).before_in_eq_fetched 4 rfl (fun _ => rfl) (fun _ _ _ => rfl) (fun t => by rw [after3_4]; unfold Dat.blockOf iblk3; rw [A_eq3]; try rfl) t d).trans
    (by unfold Dat.fetched Dat.blockOf iblk3; rw [A_eq3]; try rfl)
theorem before3_5 (c : Dev nD) (t : Fin cfg3.N) (d) : (dat3 V c).before 5 t d = iblk3 V c 5 t :=
  ((dat3 V c).before_in_eq_fetched 5 rfl (fun _ => rfl) (fun _ _ _ => rfl) (fun t => by rw [after3_5]; unfold Dat.blockOf iblk3; rw [A_eq3]; try rfl) t d).trans
    (by unfold Dat.fetched Dat.blockOf iblk3; rw [A_eq3]; try rfl)
theorem before3_6 (c : Dev nD) (t : Fin cfg3.N) (d) : (dat3 V c).before 6 t d = iblk3 V c 6 t :=
  ((dat3 V c).before_in_eq_fetched 6 rfl (fun _ => rfl) (fun _ _ _ => rfl) (fun t => by rw [after3_6]; unfold Dat.blockOf iblk3; rw [A_eq3]; try rfl) t d).trans
    (by unfold Dat.fetched Dat.blockOf iblk3; rw [A_eq3]; try rfl)

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ (dat3 V c).leavesExact 9 t)

set_option maxHeartbeats 4800000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).owesAt () t.succ = (dat3 V c).owesAt () t.castSucc from rfl]
  rw [show (dat3 V c).Φ t.succ = Phi3 V c (t.val + 1) t.isLt from rfl, Phi3_succ]
  rw [after3_0, after3_1, after3_2, after3_3, after3_4, after3_5, after3_6, after3_7, after3_8]
  have hN : t.val < 16 := lt_of_lt_of_eq t.isLt (show cfg3.N = 16 from N_3)
  by_cases h0 : t.val % 16 = 0
  · have hz : t.val = 0 := by omega
    have h1 : ¬t.val % 16 = 15 := by omega
    rw [Dat.leavesExact_idle (dat3 V c) 9 t (idleAt3_9 t (fun h => h1 ((hcond3_1 t).mp h))) (noFlush3_9 t (fun h => h1 ((hcond3_1 t).mp h)))]
    rw [acc3_first V c t hz]
    rw [Phi3_castSucc V c t, Phi3_zero V c _ _ hz, PhiA3_eq]
    iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run3_first c (grid3.coords t) _ _ _ _ _ _ _ _ _ _ _ _ _ _ _ _ _ _ _ _ _ _ ((hcond3_0 t).mpr h0) (fun h => h1 ((hcond3_1 t).mp h)) (iblk3 V c 0 t) (iblk3 V c 1 t) (iblk3 V c 2 t) (iblk3 V c 3 t) (iblk3 V c 4 t) (iblk3 V c 5 t) (iblk3 V c 6 t) _ Set.univ _)
    iframe H0 H1 H2 H3 H4 H5 H6
    isplitl [H7]; · iexists _; iexact H7
    isplitl [H8]; · iexists _; iexact H8
    iframe H9 HS
    iintro ⟨H0, H1, H2, H3, H4, H5, H6, H7, H8, H9, HS⟩
    isplitl [HS Hr Hg]
    · isplitl [HS Hr]
      · isplitl [HS]; · iexact HS
        iexact Hr
      iexact Hg
    iframe Ho H0 H1 H2 H3 H4 H5 H6 H7 H8
    iexists _; iexact H9
  · have hz : t.val ≠ 0 := fun h => h0 (by rw [h])
    by_cases h1 : t.val % 16 = 15
    · rw [show (dat3 V c).leavesExact 9 t = owns (c : Thread nD τ) (st3_9 t) fullShare ((dat3 V c).after 9 t) from by
        unfold Dat.leavesExact; rw [liveAt3_9 t ((hcond3_1 t).mpr h1)], after3_9]
      rw [acc3_later V c t hz]
      rw [Phi3_castSucc V c t, Phi3_pos V c _ _ hz]
      iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run3_last c (grid3.coords t) _ _ _ _ _ _ _ _ _ _ _ _ _ _ _ _ _ _ _ _ _ _ (fun h => h0 ((hcond3_0 t).mp h)) ((hcond3_1 t).mpr h1) (iblk3 V c 0 t) (iblk3 V c 1 t) (iblk3 V c 2 t) (iblk3 V c 3 t) (iblk3 V c 4 t) (iblk3 V c 5 t) (iblk3 V c 6 t) _ Set.univ _)
      iframe H0 H1 H2 H3 H4 H5 H6
      isplitl [H7]; · iexists _; iexact H7
      isplitl [H8]; · iexists _; iexact H8
      isplitl [H9]; · iexists _; iexact H9
      iframe HS
      iintro ⟨H0, H1, H2, H3, H4, H5, H6, H7, H8, H9, HS⟩
      isplitl [HS Hr Hg]
      · isplitl [HS Hr]
        · isplitl [HS]; · iexact HS
          iexact Hr
        iexact Hg
      iframe Ho H0 H1 H2 H3 H4 H5 H6 H7 H8 H9
    · rw [Dat.leavesExact_idle (dat3 V c) 9 t (idleAt3_9 t (fun h => h1 ((hcond3_1 t).mp h))) (noFlush3_9 t (fun h => h1 ((hcond3_1 t).mp h)))]
      rw [acc3_later V c t hz]
      rw [Phi3_castSucc V c t, Phi3_pos V c _ _ hz]
      iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run3_mid c (grid3.coords t) _ _ _ _ _ _ _ _ _ _ _ _ _ _ _ _ _ _ _ _ _ _ (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (iblk3 V c 6 t) _ _ Set.univ _)
      iframe H0 H1 H2 H3 H4 H5 H6
      isplitl [H7]; · iexists _; iexact H7
      isplitl [H8]; · iexists _; iexact H8
      iframe H9 HS
      iintro ⟨H0, H1, H2, H3, H4, H5, H6, H7, H8, H9, HS⟩
      isplitl [HS Hr Hg]
      · isplitl [HS Hr]
        · isplitl [HS]; · iexact HS
          iexact Hr
        iexact Hg
      iframe Ho H0 H1 H2 H3 H4 H5 H6 H7 H8
      iexists _; iexact H9

theorem body_obligation3 (c : Dev nD) : BodyObligation (dat3 (F := F) V c) (defs₀ (F := F)) Variants.none () Set.univ := fun t => by
  rw [bigSep_W3, bigSep_W3]
  exact sound_body3 V c t

theorem hin3 (c : Dev nD) : (Pipeline.ΦA spec3 c : sProp 𝕄) ⊢ (dat3 V c).Φ 0 := by
  rw [show (dat3 V c).Φ 0 = Phi3 V c 0 (Nat.zero_le _) from rfl, Phi3_zero V c 0 _ rfl]

theorem hout3 (c : Dev nD) : (dat3 V c).Φ (Fin.last cfg3.N) ⊢ (Pipeline.ΦA spec3 c : sProp 𝕄) := by
  have hN : (Fin.last cfg3.N).val ≠ 0 := by rw [Fin.val_last]; have : cfg3.N = 16 := N_3; omega
  rw [show (dat3 V c).Φ (Fin.last cfg3.N) = Phi3 V c (Fin.last cfg3.N).val (Nat.le_of_lt_succ (Fin.last cfg3.N).isLt) from rfl,
    Phi3_pos V c _ _ hN, PhiA3_eq]
  iintro ⟨⟨HS, Hr⟩, Hg⟩
  isplitl [HS Hr]
  · isplitl [HS]
    · iexists _; iexact HS
    iexact Hr
  iexact Hg

end Cert.Kernel.Hand

end
-- ==== Proof.K.D4.lean ====
import proofs.«122060_g64467459113426_cont_9to1_m_811_14_alg».proof.Proof.Gen.Kernel.Launch
import proofs.«122060_g64467459113426_cont_9to1_m_811_14_alg».proof.Proof.Gen.Kernel.Skeleton
import proofs.«122060_g64467459113426_cont_9to1_m_811_14_alg».proof.Proof.Gen.Kernel.Points
import Idealize.ShloMosaic.Lib.Pipeline.FrameBody

noncomputable section

namespace Cert.Kernel.Hand

open Idealize.ShloMosaic Idealize.ShloMosaic.TcCoe
open Idealize.SL Idealize.SL.Sem
open Cert.Kernel Cert.Kernel.Gen

variable {F : FTy → Type} [FloatOps F]

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def acc4 (c : Dev nD) : (n : ℕ) → n < cfg4.N → Vec F S128x4096 .f32
  | 0, h => k4_pay6 (iblk4 V c 0 ⟨0, h⟩) (k4_pay2 (F := F)) (iblk4 V c 2 ⟨0, h⟩)
  | n + 1, h => k4_pay6 (iblk4 V c 0 ⟨n + 1, h⟩) (acc4 c n (Nat.lt_of_succ_lt h)) (iblk4 V c 2 ⟨n + 1, h⟩)

end Cert.Kernel.Hand

end
-- ==== Proof.K.R4.lean ====
import proofs.«122060_g64467459113426_cont_9to1_m_811_14_alg».proof.Proof.Gen.Kernel.Launch
import proofs.«122060_g64467459113426_cont_9to1_m_811_14_alg».proof.Proof.Gen.Kernel.Skeleton
import proofs.«122060_g64467459113426_cont_9to1_m_811_14_alg».proof.Proof.Gen.Kernel.Points
import proofs.«122060_g64467459113426_cont_9to1_m_811_14_alg».proof.Proof.K.D4
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond4_0 (i : grid4.Coords) : Prop :=
  (Scalar.cmpi .ne (Scalar.extui (Scalar.cmpi .eq (BitVec.ofNat 32 (i 0).val) 0#32)) 0#32) = 1#1

theorem hcond4_0 : ∀ t : Fin cfg4.N, cond4_0 (grid4.coords t) ↔ t.val % 8 = 0 :=
  (by decide +kernel : ∀ t : Fin grid4.N, cond4_0 (grid4.coords t) ↔ t.val % 8 = 0)

abbrev cond4_1 (i : grid4.Coords) : Prop := k4_cond2 i = 1#1

theorem hcond4_1 : ∀ t : Fin cfg4.N, cond4_1 (grid4.coords t) ↔ t.val % 8 = 7 :=
  (by decide +kernel : ∀ t : Fin grid4.N, cond4_1 (grid4.coords t) ↔ t.val % 8 = 7)

theorem zero2 : (![0, 0] : Fin 2 → Nat) = fun _ => 0 := funext fun a => by fin_cases a <;> rfl

section
variable (c : Dev nD) (i : grid4.Coords) (arg1 : Memref sig .tc .vmem S1024x4096 .f32) (harg1 : arg1.IsWhole) (arg2 : Memref sig .tc .vmem S4096x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S4096x128 .f32) (harg10 : arg10.IsWhole) (arg11 : Memref sig .tc .vmem S128x4096 .f32) (harg11 : arg11.IsWhole)

section
variable (hc0 : cond4_0 i) (hc1 : ¬cond4_1 i)
  (x0 : Vec F S1024x4096 .f32) (x1 : Vec F S4096x128 .f32) (x2 : Vec F S1024x128 .f32) (x3 : Vec F S1024x128 .f32) (x4 : Vec F S128x128 .f32) (x5 : Vec F S128x128 .f32) (x6 : Vec F S128x128 .f32)
include hc0 hc1

set_option maxHeartbeats 4000000 in
noncomputable def kernelRun4_A :
    Σ' (L7 : List (View.Piece (Elt F) S1024x128 .f32)) (L8 : List (View.Piece (Elt F) S1024x128 .f32)), { LS : List (View.Piece (Elt F) S128x4096 .f32) //
      ∀ (xi9 : Vec F S4096x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ (∃ d, owns (c : Thread nD τ) arg8 fullShare d) ∗ (∃ d, owns (c : Thread nD τ) arg9 fullShare d) ∗ owns (c : Thread nD τ) arg10 fullShare xi9 ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
                ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ owns (c : Thread nD τ) arg10 fullShare xi9 ∗ (∃ f, arg11.view.loc (c : Thread nD τ) ↦[arg11.view.set]{fullShare} arg11.view.writes (Elt F) f LS)) -∗ K ⟨⟩))
          ⊢ wp frame (wpE (defs₀ (F := F)) Variants.none c none) E (cc4__s2_body i arg1 harg1 arg2 harg2 arg3 harg3 arg4 harg4 arg5 harg5 arg6 harg6 arg7 harg7 arg8 harg8 arg9 harg9 arg10 harg10 arg11 harg11) K } := by
  refine ⟨?_, ?_, ?_, fun xi9 E K => ?run⟩
  case run =>
    simp only [cc4__s2_body_eq_skeleton]; unfold cc4__s2_body_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%ds, %fs, -, HS⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5; obtain rfl := harg7.eq_unread hf6; obtain rfl := harg10.eq_unread hf9
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [H9]
    · iexists _; isplitr; · ipureintro; exact harg10.read_unread _
      iexact H9
    iexists _; iexact HS

theorem left4_A_7 (f : arg8.view.ty.Contents (Elt F)) :
    arg8.view.read (Elt F) (arg8.view.writes (Elt F) f (kernelRun4_A c i arg1 harg1 arg2 harg2 arg3 harg3 arg4 harg4 arg5 harg5 arg6 harg6 arg7 harg7 arg8 harg8 arg9 harg9 arg10 harg10 arg11 harg11 hc0 hc1 x0 x1 x2 x3 x4 x5 x6).1) = k4_pay4 x0 x3 x1 x4 :=
  (View.read_writes_eq_canon arg8.view f _ (View.cover_of_tiledL _ S1024x128.size (by sl_kernel_rfl))).trans (by
    unfold kernelRun4_A
    dsimp only
    try sl_unfold_words
    rw [View.canon_unit_zero zero2]
    simp only [View.readAt_eq_ld, Memref.IsWhole.read_unread, View.ld_unit_zero (S := S1024x4096) zero2, View.ld_unit_zero (S := S4096x128) zero2, View.ld_unit_zero (S := S1024x128) zero2, View.ld_unit_zero (S := S128x128) zero2, View.ld_unit_zero (S := S128x4096) zero2])

theorem left4_A_8 (f : arg9.view.ty.Contents (Elt F)) :
    arg9.view.read (Elt F) (arg9.view.writes (Elt F) f (kernelRun4_A c i arg1 harg1 arg2 harg2 arg3 harg3 arg4 harg4 arg5 harg5 arg6 harg6 arg7 harg7 arg8 harg8 arg9 harg9 arg10 harg10 arg11 harg11 hc0 hc1 x0 x1 x2 x3 x4 x5 x6).2.1) = k4_pay5 x0 x3 x1 x5 :=
  (View.read_writes_eq_canon arg9.view f _ (View.cover_of_tiledL _ S1024x128.size (by sl_kernel_rfl))).trans (by
    unfold kernelRun4_A
    dsimp only
    try sl_unfold_words
    rw [View.canon_unit_zero zero2]
    simp only [View.readAt_eq_ld, Memref.IsWhole.read_unread, View.ld_unit_zero (S := S1024x4096) zero2, View.ld_unit_zero (S := S4096x128) zero2, View.ld_unit_zero (S := S1024x128) zero2, View.ld_unit_zero (S := S128x128) zero2, View.ld_unit_zero (S := S128x4096) zero2])

theorem left4_A_S (f : arg11.view.ty.Contents (Elt F)) :
    arg11.view.read (Elt F) (arg11.view.writes (Elt F) f (kernelRun4_A c i arg1 harg1 arg2 harg2 arg3 harg3 arg4 harg4 arg5 harg5 arg6 harg6 arg7 harg7 arg8 harg8 arg9 harg9 arg10 harg10 arg11 harg11 hc0 hc1 x0 x1 x2 x3 x4 x5 x6).2.2.1) = k4_pay6 x0 (k4_pay2 (F := F)) x2 :=
  (View.read_writes_eq_canon arg11.view f _ (View.cover_of_tiledL _ S128x4096.size (by sl_kernel_rfl))).trans (by
    unfold kernelRun4_A
    dsimp only
    try sl_unfold_words
    rw [View.canon_cons_unit_zero (S := S128x4096) zero2]
    simp only [View.readCov_unit_zero (S := S128x4096) _ zero2, View.readAt_eq_ld, Memref.IsWhole.read_unread, View.ld_unit_zero (S := S1024x4096) zero2, View.ld_unit_zero (S := S4096x128) zero2, View.ld_unit_zero (S := S1024x128) zero2, View.ld_unit_zero (S := S128x128) zero2, View.ld_unit_zero (S := S128x4096) zero2])

end

section
variable (hc0 : ¬cond4_0 i) (hc1 : ¬cond4_1 i)
  (x0 : Vec F S1024x4096 .f32) (x1 : Vec F S4096x128 .f32) (x2 : Vec F S1024x128 .f32) (x3 : Vec F S1024x128 .f32) (x4 : Vec F S128x128 .f32) (x5 : Vec F S128x128 .f32) (x6 : Vec F S128x128 .f32) (xs : Vec F S128x4096 .f32)
include hc0 hc1

set_option maxHeartbeats 4000000 in
noncomputable def kernelRun4_B :
    Σ' (L7 : List (View.Piece (Elt F) S1024x128 .f32)) (L8 : List (View.Piece (Elt F) S1024x128 .f32)), { LS : List (View.Piece (Elt F) S128x4096 .f32) //
      ∀ (xi9 : Vec F S4096x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ (∃ d, owns (c : Thread nD τ) arg8 fullShare d) ∗ (∃ d, owns (c : Thread nD τ) arg9 fullShare d) ∗ owns (c : Thread nD τ) arg10 fullShare xi9 ∗ owns (c : Thread nD τ) arg11 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
                ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ owns (c : Thread nD τ) arg10 fullShare xi9 ∗ (∃ f, arg11.view.loc (c : Thread nD τ) ↦[arg11.view.set]{fullShare} arg11.view.writes (Elt F) f LS)) -∗ K ⟨⟩))
          ⊢ wp frame (wpE (defs₀ (F := F)) Variants.none c none) E (cc4__s2_body i arg1 harg1 arg2 harg2 arg3 harg3 arg4 harg4 arg5 harg5 arg6 harg6 arg7 harg7 arg8 harg8 arg9 harg9 arg10 harg10 arg11 harg11) K } := by
  refine ⟨?_, ?_, ?_, fun xi9 E K => ?run⟩
  case run =>
    simp only [cc4__s2_body_eq_skeleton]; unfold cc4__s2_body_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%fs, %hfs, HS⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5; obtain rfl := harg7.eq_unread hf6; obtain rfl := harg10.eq_unread hf9; obtain rfl := harg11.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [H9]
    · iexists _; isplitr; · ipureintro; exact harg10.read_unread _
      iexact H9
    iexists _; iexact HS

theorem left4_B_7 (f : arg8.view.ty.Contents (Elt F)) :
    arg8.view.read (Elt F) (arg8.view.writes (Elt F) f (kernelRun4_B c i arg1 harg1 arg2 harg2 arg3 harg3 arg4 harg4 arg5 harg5 arg6 harg6 arg7 harg7 arg8 harg8 arg9 harg9 arg10 harg10 arg11 harg11 hc0 hc1 x0 x1 x2 x3 x4 x5 x6 xs).1) = k4_pay4 x0 x3 x1 x4 :=
  (View.read_writes_eq_canon arg8.view f _ (View.cover_of_tiledL _ S1024x128.size (by sl_kernel_rfl))).trans (by
    unfold kernelRun4_B
    dsimp only
    try sl_unfold_words
    rw [View.canon_unit_zero zero2]
    simp only [View.readAt_eq_ld, Memref.IsWhole.read_unread, View.ld_unit_zero (S := S1024x4096) zero2, View.ld_unit_zero (S := S4096x128) zero2, View.ld_unit_zero (S := S1024x128) zero2, View.ld_unit_zero (S := S128x128) zero2, View.ld_unit_zero (S := S128x4096) zero2])

theorem left4_B_8 (f : arg9.view.ty.Contents (Elt F)) :
    arg9.view.read (Elt F) (arg9.view.writes (Elt F) f (kernelRun4_B c i arg1 harg1 arg2 harg2 arg3 harg3 arg4 harg4 arg5 harg5 arg6 harg6 arg7 harg7 arg8 harg8 arg9 harg9 arg10 harg10 arg11 harg11 hc0 hc1 x0 x1 x2 x3 x4 x5 x6 xs).2.1) = k4_pay5 x0 x3 x1 x5 :=
  (View.read_writes_eq_canon arg9.view f _ (View.cover_of_tiledL _ S1024x128.size (by sl_kernel_rfl))).trans (by
    unfold kernelRun4_B
    dsimp only
    try sl_unfold_words
    rw [View.canon_unit_zero zero2]
    simp only [View.readAt_eq_ld, Memref.IsWhole.read_unread, View.ld_unit_zero (S := S1024x4096) zero2, View.ld_unit_zero (S := S4096x128) zero2, View.ld_unit_zero (S := S1024x128) zero2, View.ld_unit_zero (S := S128x128) zero2, View.ld_unit_zero (S := S128x4096) zero2])

theorem left4_B_S (f : arg11.view.ty.Contents (Elt F)) :
    arg11.view.read (Elt F) (arg11.view.writes (Elt F) f (kernelRun4_B c i arg1 harg1 arg2 harg2 arg3 harg3 arg4 harg4 arg5 harg5 arg6 harg6 arg7 harg7 arg8 harg8 arg9 harg9 arg10 harg10 arg11 harg11 hc0 hc1 x0 x1 x2 x3 x4 x5 x6 xs).2.2.1) = k4_pay6 x0 xs x2 :=
  (View.read_writes_eq_canon arg11.view f _ (View.cover_of_tiledL _ S128x4096.size (by sl_kernel_rfl))).trans (by
    unfold kernelRun4_B
    dsimp only
    try sl_unfold_words
    rw [View.canon_unit_zero zero2]
    simp only [View.readAt_eq_ld, Memref.IsWhole.read_unread, View.ld_unit_zero (S := S1024x4096) zero2, View.ld_unit_zero (S := S4096x128) zero2, View.ld_unit_zero (S := S1024x128) zero2, View.ld_unit_zero (S := S128x128) zero2, View.ld_unit_zero (S := S128x4096) zero2])

end

section
variable (hc0 : ¬cond4_0 i) (hc1 : cond4_1 i)
  (x0 : Vec F S1024x4096 .f32) (x1 : Vec F S4096x128 .f32) (x2 : Vec F S1024x128 .f32) (x3 : Vec F S1024x128 .f32) (x4 : Vec F S128x128 .f32) (x5 : Vec F S128x128 .f32) (x6 : Vec F S128x128 .f32) (xs : Vec F S128x4096 .f32)
include hc0 hc1

set_option maxHeartbeats 4000000 in
noncomputable def kernelRun4_C :
    Σ' (L7 : List (View.Piece (Elt F) S1024x128 .f32)) (L8 : List (View.Piece (Elt F) S1024x128 .f32)) (L9 : List (View.Piece (Elt F) S4096x128 .f32)), { LS : List (View.Piece (Elt F) S128x4096 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
                ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f LS)) -∗ K ⟨⟩))
          ⊢ wp frame (wpE (defs₀ (F := F)) Variants.none c none) E (cc4__s2_body i arg1 harg1 arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc4__s2_body_eq_skeleton]; unfold cc4__s2_body_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%fs, %hfs, HS⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5; obtain rfl := harg7.eq_unread hf6; obtain rfl := harg11.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [H9]; · iexists _; iexact H9
    iexists _; iexact HS

theorem left4_C_7 (f : arg8.view.ty.Contents (Elt F)) :
    arg8.view.read (Elt F) (arg8.view.writes (Elt F) f (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 x6 xs).1) = k4_pay4 x0 x3 x1 x4 :=
  (View.read_writes_eq_canon arg8.view f _ (View.cover_of_tiledL _ S1024x128.size (by sl_kernel_rfl))).trans (by
    unfold kernelRun4_C
    dsimp only
    try sl_unfold_words
    rw [View.canon_unit_zero zero2]
    simp only [View.readAt_eq_ld, Memref.IsWhole.read_unread, View.ld_unit_zero (S := S1024x4096) zero2, View.ld_unit_zero (S := S4096x128) zero2, View.ld_unit_zero (S := S1024x128) zero2, View.ld_unit_zero (S := S128x128) zero2, View.ld_unit_zero (S := S128x4096) zero2])

theorem left4_C_8 (f : arg9.view.ty.Contents (Elt F)) :
    arg9.view.read (Elt F) (arg9.view.writes (Elt F) f (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 x6 xs).2.1) = k4_pay5 x0 x3 x1 x5 :=
  (View.read_writes_eq_canon arg9.view f _ (View.cover_of_tiledL _ S1024x128.size (by sl_kernel_rfl))).trans (by
    unfold kernelRun4_C
    dsimp only
    try sl_unfold_words
    rw [View.canon_unit_zero zero2]
    simp only [View.readAt_eq_ld, Memref.IsWhole.read_unread, View.ld_unit_zero (S := S1024x4096) zero2, View.ld_unit_zero (S := S4096x128) zero2, View.ld_unit_zero (S := S1024x128) zero2, View.ld_unit_zero (S := S128x128) zero2, View.ld_unit_zero (S := S128x4096) zero2])

theorem left4_C_9 (f : arg10.view.ty.Contents (Elt F)) :
    arg10.view.read (Elt F) (arg10.view.writes (Elt F) f (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 x6 xs).2.2.1) = k4_pay1 (k4_pay6 x0 xs x2) x6 :=
  (View.read_writes_eq_canon arg10.view f _ (View.cover_of_tiledL _ S4096x128.size (by sl_kernel_rfl))).trans (by
    unfold kernelRun4_C
    dsimp only
    try sl_unfold_words
    rw [View.canon_unit_zero zero2, View.readCov_unit_zero (S := S128x4096) _ zero2]
    simp only [View.readAt_eq_ld, Memref.IsWhole.read_unread, View.ld_unit_zero (S := S1024x4096) zero2, View.ld_unit_zero (S := S4096x128) zero2, View.ld_unit_zero (S := S1024x128) zero2, View.ld_unit_zero (S := S128x128) zero2, View.ld_unit_zero (S := S128x4096) zero2])

theorem left4_C_S (f : arg11.view.ty.Contents (Elt F)) :
    arg11.view.read (Elt F) (arg11.view.writes (Elt F) f (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 x6 xs).2.2.2.1) = k4_pay6 x0 xs x2 :=
  (View.read_writes_eq_canon arg11.view f _ (View.cover_of_tiledL _ S128x4096.size (by sl_kernel_rfl))).trans (by
    unfold kernelRun4_C
    dsimp only
    try sl_unfold_words
    rw [View.canon_unit_zero zero2]
    simp only [View.readAt_eq_ld, Memref.IsWhole.read_unread, View.ld_unit_zero (S := S1024x4096) zero2, View.ld_unit_zero (S := S4096x128) zero2, View.ld_unit_zero (S := S1024x128) zero2, View.ld_unit_zero (S := S128x128) zero2, View.ld_unit_zero (S := S128x4096) zero2])

end

end

abbrev ms4_0 (t : Fin cfg4.N) : Memref sig .tc .vmem S1024x4096 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S4096x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1024x128 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1024x128 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S128x128 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S128x128 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S128x128 .f32 := win4_6.stage (cfg4.slots t 6)
abbrev hs4_6 (t : Fin cfg4.N) : (ms4_6 t).IsWhole := hstage4_6 ((cfg4.slots t 6).cast nbuf4_6)
abbrev ms4_7 (t : Fin cfg4.N) : Memref sig .tc .vmem S1024x128 .f32 := win4_7.stage (cfg4.slots t 7)
abbrev hs4_7 (t : Fin cfg4.N) : (ms4_7 t).IsWhole := hstage4_7 ((cfg4.slots t 7).cast nbuf4_7)
abbrev ms4_8 (t : Fin cfg4.N) : Memref sig .tc .vmem S1024x128 .f32 := win4_8.stage (cfg4.slots t 8)
abbrev hs4_8 (t : Fin cfg4.N) : (ms4_8 t).IsWhole := hstage4_8 ((cfg4.slots t 8).cast nbuf4_8)
abbrev ms4_9 (t : Fin cfg4.N) : Memref sig .tc .vmem S4096x128 .f32 := win4_9.stage (cfg4.slots t 9)
abbrev hs4_9 (t : Fin cfg4.N) : (ms4_9 t).IsWhole := hstage4_9 ((cfg4.slots t 9).cast nbuf4_9)

abbrev scM4 : Memref sig .tc .vmem S128x4096 .f32 := Memref.whole cc4_scratch0

theorem PhiA4_eq (c : Dev nD) :
    (Pipeline.ΦA spec4 c : sProp 𝕄)
      = iprop(iprop((∃ d, owns (c : Thread nD τ) scM4 fullShare d) ∗ (Pipeline.scopedRestBut (Ix := Unit) (Name := ℕ) (U := UR sig nD τ) (Lvl := ℕ) (Val := Elt F) spec4 c [cc4_scratch0] : sProp 𝕄)) ∗ (∃ r, prngReg c r)) := by
  unfold Pipeline.ΦA; rw [scopedRest4_split]; simp only [scM4, owns_whole]; try rfl

def Phi4 (c : Dev nD) : (n : ℕ) → n ≤ cfg4.N → sProp 𝕄
  | 0, _ => Pipeline.ΦA spec4 c
  | n + 1, hn => iprop(iprop(owns (c : Thread nD τ) scM4 fullShare (acc4 V c n hn) ∗ (Pipeline.scopedRestBut (Ix := Unit) (Name := ℕ) (U := UR sig nD τ) (Lvl := ℕ) (Val := Elt F) spec4 c [cc4_scratch0] : sProp 𝕄)) ∗ (∃ r, prngReg c r))

theorem Phi4_zero (c : Dev nD) (n : ℕ) (h : n ≤ cfg4.N) (hn : n = 0) : Phi4 V c n h = Pipeline.ΦA spec4 c := by
  subst hn; rfl

theorem Phi4_succ (c : Dev nD) (n : ℕ) (hn : n < cfg4.N) :
    Phi4 V c (n + 1) hn = iprop(iprop(owns (c : Thread nD τ) scM4 fullShare (acc4 V c n hn) ∗ (Pipeline.scopedRestBut (Ix := Unit) (Name := ℕ) (U := UR sig nD τ) (Lvl := ℕ) (Val := Elt F) spec4 c [cc4_scratch0] : sProp 𝕄)) ∗ (∃ r, prngReg c r)) := rfl

theorem Phi4_pos (c : Dev nD) (n : ℕ) (h : n ≤ cfg4.N) (hn : n ≠ 0) :
    Phi4 V c n h = iprop(iprop(owns (c : Thread nD τ) scM4 fullShare (acc4 V c (n - 1) (by omega)) ∗ (Pipeline.scopedRestBut (Ix := Unit) (Name := ℕ) (U := UR sig nD τ) (Lvl := ℕ) (Val := Elt F) spec4 c [cc4_scratch0] : sProp 𝕄)) ∗ (∃ r, prngReg c r)) := by
  cases n with
  | zero => exact absurd rfl hn
  | succ n => rfl

theorem acc4_first (c : Dev nD) (t : Fin cfg4.N) (ht : t.val = 0) :
    acc4 V c t.val t.isLt = k4_pay6 (iblk4 V c 0 t) (k4_pay2 (F := F)) (iblk4 V c 2 t) := by
  obtain ⟨n, hn⟩ := t
  cases n with
  | zero => rfl
  | succ n => exact absurd ht (Nat.succ_ne_zero n)

theorem acc4_later (c : Dev nD) (t : Fin cfg4.N) (ht : t.val ≠ 0) :
    acc4 V c t.val t.isLt = k4_pay6 (iblk4 V c 0 t) (acc4 V c (t.val - 1) (Nat.lt_of_le_of_lt (Nat.sub_le _ _) t.isLt)) (iblk4 V c 2 t) := by
  obtain ⟨n, hn⟩ := t
  cases n with
  | zero => exact absurd rfl ht
  | succ n => rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => k4_pay4 (iblk4 V c 0 t) (iblk4 V c 3 t) (iblk4 V c 1 t) (iblk4 V c 4 t)
    | ⟨8, _⟩ => k4_pay5 (iblk4 V c 0 t) (iblk4 V c 3 t) (iblk4 V c 1 t) (iblk4 V c 5 t)
    | ⟨9, _⟩ => k4_pay1 (acc4 V c t.val t.isLt) (iblk4 V c 6 t)
  Φ t := Phi4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem Phi4_castSucc (c : Dev nD) (t : Fin cfg4.N) :
    (dat4 V c).Φ t.castSucc = Phi4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = k4_pay4 (iblk4 V c 0 t) (iblk4 V c 3 t) (iblk4 V c 1 t) (iblk4 V c 4 t) := by dsimp only [dat4]
theorem after4_8 (c : Dev nD) (t : Fin cfg4.N) : (dat4 V c).after 8 t = k4_pay5 (iblk4 V c 0 t) (iblk4 V c 3 t) (iblk4 V c 1 t) (iblk4 V c 5 t) := by dsimp only [dat4]
theorem after4_9 (c : Dev nD) (t : Fin cfg4.N) : (dat4 V c).after 9 t = k4_pay1 (acc4 V c t.val t.isLt) (iblk4 V c 6 t) := by dsimp only [dat4]
theorem after4_9_last (c : Dev nD) (t : Fin cfg4.N) (ht : t.val = 7) : (dat4 V c).after 9 t = k4_pay1 (acc4 V c t.val t.isLt) (iblk4 V c 6 t) := after4_9 V c t

theorem before4_0 (c : Dev nD) (t : Fin cfg4.N) (d) : (dat4 V c).before 0 t d = iblk4 V c 0 t :=
  ((dat4 V c).before_in_eq_fetched 0 rfl (fun _ => rfl) (fun _ _ _ => rfl) (fun t => by rw [after4_0]; unfold Dat.blockOf iblk4; rw [A_eq4]; try rfl) t d).trans
    (by unfold Dat.fetched Dat.blockOf iblk4; rw [A_eq4]; try rfl)

theorem before4_1 (c : Dev nD) (t : Fin cfg4.N) (d) : (dat4 V c).before 1 t d = iblk4 V c 1 t :=
  ((dat4 V c).before_in_eq_fetched 1 rfl (fun _ => rfl) (fun _ _ _ => rfl) (fun t => by rw [after4_1]; unfold Dat.blockOf iblk4; rw [A_eq4]; try rfl) t d).trans
    (by unfold Dat.fetched Dat.blockOf iblk4; rw [A_eq4]; try rfl)

theorem before4_2 (c : Dev nD) (t : Fin cfg4.N) (d) : (dat4 V c).before 2 t d = iblk4 V c 2 t :=
  ((dat4 V c).before_in_eq_fetched 2 rfl (fun _ => rfl) (fun _ _ _ => rfl) (fun t => by rw [after4_2]; unfold Dat.blockOf iblk4; rw [A_eq4]; try rfl) t d).trans
    (by unfold Dat.fetched Dat.blockOf iblk4; rw [A_eq4]; try rfl)

theorem before4_3 (c : Dev nD) (t : Fin cfg4.N) (d) : (dat4 V c).before 3 t d = iblk4 V c 3 t :=
  ((dat4 V c).before_in_eq_fetched 3 rfl (fun _ => rfl) (fun _ _ _ => rfl) (fun t => by rw [after4_3]; unfold Dat.blockOf iblk4; rw [A_eq4]; try rfl) t d).trans
    (by unfold Dat.fetched Dat.blockOf iblk4; rw [A_eq4]; try rfl)

theorem before4_4 (c : Dev nD) (t : Fin cfg4.N) (d) : (dat4 V c).before 4 t d = iblk4 V c 4 t :=
  ((dat4 V c).before_in_eq_fetched 4 rfl (fun _ => rfl) (fun _ _ _ => rfl) (fun t => by rw [after4_4]; unfold Dat.blockOf iblk4; rw [A_eq4]; try rfl) t d).trans
    (by unfold Dat.fetched Dat.blockOf iblk4; rw [A_eq4]; try rfl)

theorem before4_5 (c : Dev nD) (t : Fin cfg4.N) (d) : (dat4 V c).before 5 t d = iblk4 V c 5 t :=
  ((dat4 V c).before_in_eq_fetched 5 rfl (fun _ => rfl) (fun _ _ _ => rfl) (fun t => by rw [after4_5]; unfold Dat.blockOf iblk4; rw [A_eq4]; try rfl) t d).trans
    (by unfold Dat.fetched Dat.blockOf iblk4; rw [A_eq4]; try rfl)

theorem before4_6 (c : Dev nD) (t : Fin cfg4.N) (d) : (dat4 V c).before 6 t d = iblk4 V c 6 t :=
  ((dat4 V c).before_in_eq_fetched 6 rfl (fun _ => rfl) (fun _ _ _ => rfl) (fun t => by rw [after4_6]; unfold Dat.blockOf iblk4; rw [A_eq4]; try rfl) t d).trans
    (by unfold Dat.fetched Dat.blockOf iblk4; rw [A_eq4]; try rfl)

theorem idle4_9 : ∀ t : Fin cfg4.N, ¬cond4_1 (grid4.coords t) → cfg4.idle 9 (grid4.coords t) = true := by decide +kernel
theorem noFlush4_9 : ∀ t : Fin cfg4.N, ¬cond4_1 (grid4.coords t) → (cfg4.win 9).flush t = false := by decide +kernel
theorem live4_9 : ∀ t : Fin cfg4.N, cond4_1 (grid4.coords t) → cfg4.idle 9 (grid4.coords t) = false := by decide +kernel

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d))
    ∗ (∃ d, owns (c : Thread nD τ) (ms4_7 t) fullShare ((dat4 V c).before 7 t d))
    ∗ (∃ d, owns (c : Thread nD τ) (ms4_8 t) fullShare ((dat4 V c).before 8 t d))
    ∗ (∃ d, owns (c : Thread nD τ) (ms4_9 t) fullShare ((dat4 V c).before 9 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t
    ∗ (dat4 V c).leavesExact 7 t
    ∗ (dat4 V c).leavesExact 8 t
    ∗ (dat4 V c).leavesExact 9 t)

set_option maxHeartbeats 8000000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6]
  rw [show (dat4 V c).owesAt () t.succ = (dat4 V c).owesAt () t.castSucc from rfl]
  rw [show (dat4 V c).Φ t.succ = Phi4 V c (t.val + 1) t.isLt from rfl, Phi4_succ]
  rw [show (dat4 V c).leavesExact 0 t = owns (c : Thread nD τ) (ms4_0 t) fullShare ((dat4 V c).after 0 t) from rfl, after4_0]
  rw [show (dat4 V c).leavesExact 1 t = owns (c : Thread nD τ) (ms4_1 t) fullShare ((dat4 V c).after 1 t) from rfl, after4_1]
  rw [show (dat4 V c).leavesExact 2 t = owns (c : Thread nD τ) (ms4_2 t) fullShare ((dat4 V c).after 2 t) from rfl, after4_2]
  rw [show (dat4 V c).leavesExact 3 t = owns (c : Thread nD τ) (ms4_3 t) fullShare ((dat4 V c).after 3 t) from rfl, after4_3]
  rw [show (dat4 V c).leavesExact 4 t = owns (c : Thread nD τ) (ms4_4 t) fullShare ((dat4 V c).after 4 t) from rfl, after4_4]
  rw [show (dat4 V c).leavesExact 5 t = owns (c : Thread nD τ) (ms4_5 t) fullShare ((dat4 V c).after 5 t) from rfl, after4_5]
  rw [show (dat4 V c).leavesExact 6 t = owns (c : Thread nD τ) (ms4_6 t) fullShare ((dat4 V c).after 6 t) from rfl, after4_6]
  rw [show (dat4 V c).leavesExact 7 t = owns (c : Thread nD τ) (ms4_7 t) fullShare ((dat4 V c).after 7 t) from rfl, after4_7]
  rw [show (dat4 V c).leavesExact 8 t = owns (c : Thread nD τ) (ms4_8 t) fullShare ((dat4 V c).after 8 t) from rfl, after4_8]
  have hN : t.val < 8 := lt_of_lt_of_eq t.isLt (show cfg4.N = 8 from N_4)
  by_cases h0 : t.val % 8 = 0
  · by_cases h1 : t.val % 8 = 7
    · exfalso; omega
    ·
      have ht : t.val = 0 := by omega
      rw [(dat4 V c).leavesExact_idle 9 t (idle4_9 t (fun h => h1 ((hcond4_1 t).mp h))) (noFlush4_9 t (fun h => h1 ((hcond4_1 t).mp h)))]
      rw [acc4_first V c t ht, Phi4_castSucc V c t, Phi4_zero V c _ _ ht, PhiA4_eq]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun4_A c (grid4.coords t) _ _ _ _ _ _ _ _ _ _ _ _ _ _ _ _ _ _ _ _ _ _ ((hcond4_0 t).mpr h0) (fun h => h1 ((hcond4_1 t).mp h)) (iblk4 V c 0 t) (iblk4 V c 1 t) (iblk4 V c 2 t) (iblk4 V c 3 t) (iblk4 V c 4 t) (iblk4 V c 5 t) (iblk4 V c 6 t)).2.2.2 _ Set.univ _)
      iframe H0 H1 H2 H3 H4 H5 H6
      isplitl [H7]; · iexists _; iexact H7
      isplitl [H8]; · iexists _; iexact H8
      iframe H9 HS
      iintro ⟨H0, H1, H2, H3, H4, H5, H6, ⟨%e7, H7⟩, ⟨%e8, H8⟩, H9, ⟨%es, HS⟩⟩
      isplitl [HS HR Hg]
      · isplitl [HS HR]
        · isplitl [HS]
          · unfold owns; iexists _; isplitr
            swap; · iexact HS
            ipureintro; exact left4_A_S ..
          iexact HR
        iexact Hg
      iframe Ho H0 H1 H2 H3 H4 H5 H6
      isplitl [H7]
      · unfold owns; iexists _; isplitr
        swap; · iexact H7
        ipureintro; exact left4_A_7 ..
      isplitl [H8]
      · unfold owns; iexists _; isplitr
        swap; · iexact H8
        ipureintro; exact left4_A_8 ..
      iexists _; iexact H9
  · by_cases h1 : t.val % 8 = 7
    ·
      have ht : t.val ≠ 0 := by omega
      rw [show (dat4 V c).leavesExact 9 t = owns (c : Thread nD τ) (ms4_9 t) fullShare ((dat4 V c).after 9 t) from by
        unfold Dat.leavesExact; rw [live4_9 t ((hcond4_1 t).mpr h1)], after4_9]
      rw [acc4_later V c t ht, Phi4_castSucc V c t, Phi4_pos V c _ _ ht]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun4_C c (grid4.coords t) _ _ _ _ _ _ _ _ _ _ _ _ _ _ _ _ _ _ _ _ _ _ (fun h => h0 ((hcond4_0 t).mp h)) ((hcond4_1 t).mpr h1) (iblk4 V c 0 t) (iblk4 V c 1 t) (iblk4 V c 2 t) (iblk4 V c 3 t) (iblk4 V c 4 t) (iblk4 V c 5 t) (iblk4 V c 6 t) _).2.2.2.2 Set.univ _)
      iframe H0 H1 H2 H3 H4 H5 H6
      isplitl [H7]; · iexists _; iexact H7
      isplitl [H8]; · iexists _; iexact H8
      isplitl [H9]; · iexists _; iexact H9
      iframe HS
      iintro ⟨H0, H1, H2, H3, H4, H5, H6, ⟨%e7, H7⟩, ⟨%e8, H8⟩, ⟨%e9, H9⟩, ⟨%es, HS⟩⟩
      isplitl [HS HR Hg]
      · isplitl [HS HR]
        · isplitl [HS]
          · unfold owns; iexists _; isplitr
            swap; · iexact HS
            ipureintro; exact left4_C_S ..
          iexact HR
        iexact Hg
      iframe Ho H0 H1 H2 H3 H4 H5 H6
      isplitl [H7]
      · unfold owns; iexists _; isplitr
        swap; · iexact H7
        ipureintro; exact left4_C_7 ..
      isplitl [H8]
      · unfold owns; iexists _; isplitr
        swap; · iexact H8
        ipureintro; exact left4_C_8 ..
      unfold owns; iexists _; isplitr
      swap; · iexact H9
      ipureintro; exact left4_C_9 ..
    ·
      have ht : t.val ≠ 0 := by omega
      rw [(dat4 V c).leavesExact_idle 9 t (idle4_9 t (fun h => h1 ((hcond4_1 t).mp h))) (noFlush4_9 t (fun h => h1 ((hcond4_1 t).mp h)))]
      rw [acc4_later V c t ht, Phi4_castSucc V c t, Phi4_pos V c _ _ ht]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun4_B c (grid4.coords t) _ _ _ _ _ _ _ _ _ _ _ _ _ _ _ _ _ _ _ _ _ _ (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (iblk4 V c 6 t) _).2.2.2 _ Set.univ _)
      iframe H0 H1 H2 H3 H4 H5 H6
      isplitl [H7]; · iexists _; iexact H7
      isplitl [H8]; · iexists _; iexact H8
      iframe H9 HS
      iintro ⟨H0, H1, H2, H3, H4, H5, H6, ⟨%e7, H7⟩, ⟨%e8, H8⟩, H9, ⟨%es, HS⟩⟩
      isplitl [HS HR Hg]
      · isplitl [HS HR]
        · isplitl [HS]
          · unfold owns; iexists _; isplitr
            swap; · iexact HS
            ipureintro; exact left4_B_S ..
          iexact HR
        iexact Hg
      iframe Ho H0 H1 H2 H3 H4 H5 H6
      isplitl [H7]
      · unfold owns; iexists _; isplitr
        swap; · iexact H7
        ipureintro; exact left4_B_7 ..
      isplitl [H8]
      · unfold owns; iexists _; isplitr
        swap; · iexact H8
        ipureintro; exact left4_B_8 ..
      iexists _; iexact H9

theorem body_obligation4 (c : Dev nD) : BodyObligation (dat4 (F := F) V c) (defs₀ (F := F)) Variants.none () Set.univ := fun t => by
  rw [bigSep_W4, bigSep_W4]
  exact sound_body4 V c t

theorem hin4 (c : Dev nD) : (Pipeline.ΦA spec4 c : sProp 𝕄) ⊢ (dat4 V c).Φ 0 := by
  rw [show (dat4 V c).Φ 0 = Phi4 V c 0 (Nat.zero_le _) from rfl, Phi4_zero V c 0 _ rfl]

theorem hout4 (c : Dev nD) : (dat4 V c).Φ (Fin.last cfg4.N) ⊢ (Pipeline.ΦA spec4 c : sProp 𝕄) := by
  rw [show (dat4 V c).Φ (Fin.last cfg4.N) = Phi4 V c (Fin.last cfg4.N).val (Nat.le_of_lt_succ (Fin.last cfg4.N).isLt) from rfl,
    Phi4_pos V c _ _ (by rw [Fin.val_last]; have : cfg4.N = 8 := N_4; omega), PhiA4_eq]
  iintro ⟨⟨HS, HR⟩, Hg⟩
  isplitl [HS HR]
  · isplitl [HS]
    · iexists _; iexact HS
    iexact HR
  iexact Hg

end Cert.Kernel.Hand

end
-- ==== Proof.K.D5.lean ====
import proofs.«122060_g64467459113426_cont_9to1_m_811_14_alg».proof.Proof.Gen.Kernel.Launch
import proofs.«122060_g64467459113426_cont_9to1_m_811_14_alg».proof.Proof.Gen.Kernel.Skeleton
import proofs.«122060_g64467459113426_cont_9to1_m_811_14_alg».proof.Proof.Gen.Kernel.Points
import Idealize.ShloMosaic.Lib.Pipeline.FrameBody

noncomputable section

namespace Cert.Kernel.Hand

open Idealize.ShloMosaic Idealize.ShloMosaic.TcCoe
open Idealize.SL Idealize.SL.Sem
open Cert.Kernel Cert.Kernel.Gen

variable {F : FTy → Type} [FloatOps F]

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

def acc5 (c : Dev nD) : (n : ℕ) → n < cfg5.N → Vec F S128x8192 .f32
  | 0, h => k5_pay3 (k5_pay1 (F := F)) (iblk5 V c 3 ⟨0, h⟩) (iblk5 V c 1 ⟨0, h⟩)
  | n + 1, h => k5_pay3 (acc5 c n (Nat.lt_of_succ_lt h)) (iblk5 V c 3 ⟨n + 1, h⟩) (iblk5 V c 1 ⟨n + 1, h⟩)

end Cert.Kernel.Hand

end
-- ==== Proof.K.R5.lean ====
import proofs.«122060_g64467459113426_cont_9to1_m_811_14_alg».proof.Proof.Gen.Kernel.Launch
import proofs.«122060_g64467459113426_cont_9to1_m_811_14_alg».proof.Proof.Gen.Kernel.Skeleton
import proofs.«122060_g64467459113426_cont_9to1_m_811_14_alg».proof.Proof.Gen.Kernel.Points
import proofs.«122060_g64467459113426_cont_9to1_m_811_14_alg».proof.Proof.K.D5
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz5 : (![0, 0] : Fin 2 → Nat) = fun _ => 0 := funext fun a => by fin_cases a <;> rfl

abbrev cond5_0 (i : grid5.Coords) : Prop := (Scalar.cmpi .ne (Scalar.extui (Scalar.cmpi .eq (BitVec.ofNat 32 (i 0).val) 0#32)) 0#32) = 1#1

theorem hcond5_0 : ∀ t : Fin cfg5.N, cond5_0 (grid5.coords t) ↔ t.val % 8 = 0 :=
  (by decide +kernel : ∀ t : Fin grid5.N, cond5_0 (grid5.coords t) ↔ t.val % 8 = 0)

abbrev ms5_0 (t : Fin cfg5.N) : Memref sig .tc .vmem S512x4096 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S512x8192 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S4096x128 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S512x128 .f32 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S512x128 .f32 := win5_4.stage (cfg5.slots t 4)
abbrev hs5_4 (t : Fin cfg5.N) : (ms5_4 t).IsWhole := hstage5_4 ((cfg5.slots t 4).cast nbuf5_4)
abbrev ms5_5 (t : Fin cfg5.N) : Memref sig .tc .vmem S128x8192 .f32 := win5_5.stage (cfg5.slots t 5)
abbrev hs5_5 (t : Fin cfg5.N) : (ms5_5 t).IsWhole := hstage5_5 ((cfg5.slots t 5).cast nbuf5_5)

section
variable (c : Dev nD) (i : grid5.Coords) (arg1 : Memref sig .tc .vmem S512x4096 .f32) (harg1 : arg1.IsWhole) (arg2 : Memref sig .tc .vmem S512x8192 .f32) (harg2 : arg2.IsWhole) (arg3 : Memref sig .tc .vmem S4096x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S128x8192 .f32) (harg6 : arg6.IsWhole)

section
variable (hc0 : ¬cond5_0 i)
  (x0 : Vec F S512x4096 .f32) (x1 : Vec F S512x8192 .f32) (x2 : Vec F S4096x128 .f32) (x3 : Vec F S512x128 .f32) (xo : Vec F S128x8192 .f32)
include hc0

set_option maxHeartbeats 1000000 in
noncomputable def kernelRun5_B :
    Σ' (L4 : List (View.Piece (Elt F) S512x128 .f32)), { L5 : List (View.Piece (Elt F) S128x8192 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare xo
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)) -∗ K ⟨⟩))
          ⊢ wp frame (wpE (defs₀ (F := F)) Variants.none c none) E (cc5__s4_body i arg1 harg1 arg2 harg2 arg3 harg3 arg4 harg4 arg5 harg5 arg6 harg6) K } := by
  refine ⟨?_, ?_, fun E K => ?run⟩
  case run =>
    simp only [cc5__s4_body_eq_skeleton]; unfold cc5__s4_body_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
    obtain rfl := harg1.eq_unread hf0; obtain rfl := harg2.eq_unread hf1; obtain rfl := harg3.eq_unread hf2
    obtain rfl := harg4.eq_unread hf3; obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact H5

theorem left5_B_4 (f : arg5.view.ty.Contents (Elt F)) :
    arg5.view.read (Elt F) (arg5.view.writes (Elt F) f (kernelRun5_B c i arg1 harg1 arg2 harg2 arg3 harg3 arg4 harg4 arg5 harg5 arg6 harg6 hc0 x0 x1 x2 x3 xo).1) = k5_pay2 x0 x2 :=
  (View.read_writes_eq_canon arg5.view f _ (fun y => by
      unfold kernelRun5_B; dsimp only
      refine ⟨_, List.mem_cons_self, ?_⟩
      exact View.mem_set_unit_zero (S := S512x128) hz5 inb_S512x128_S512x128_0_0 y)).trans (by
    unfold kernelRun5_B
    dsimp only
    rw [View.canon_unit_zero (S := S512x128) hz5]
    simp only [View.readAt_eq_ld, harg1.read_unread, harg3.read_unread, View.ld_unit_zero (S := S512x4096) hz5, View.ld_unit_zero (S := S4096x128) hz5])

theorem left5_B_5 (f : arg6.view.ty.Contents (Elt F)) :
    arg6.view.read (Elt F) (arg6.view.writes (Elt F) f (kernelRun5_B c i arg1 harg1 arg2 harg2 arg3 harg3 arg4 harg4 arg5 harg5 arg6 harg6 hc0 x0 x1 x2 x3 xo).2.1) = k5_pay3 xo x3 x1 :=
  (View.read_writes_eq_canon arg6.view f _ (fun y => by
      unfold kernelRun5_B; dsimp only
      refine ⟨_, List.mem_cons_self, ?_⟩
      exact View.mem_set_unit_zero (S := S128x8192) hz5 inb_S128x8192_S128x8192_0_0 y)).trans (by
    unfold kernelRun5_B
    dsimp only
    rw [View.canon_unit_zero (S := S128x8192) hz5]
    simp only [View.readAt_eq_ld, harg6.read_unread, harg4.read_unread, harg2.read_unread, View.ld_unit_zero (S := S128x8192) hz5, View.ld_unit_zero (S := S512x128) hz5, View.ld_unit_zero (S := S512x8192) hz5])

end

section
variable (hc0 : cond5_0 i)
  (x0 : Vec F S512x4096 .f32) (x1 : Vec F S512x8192 .f32) (x2 : Vec F S4096x128 .f32) (x3 : Vec F S512x128 .f32)
include hc0

set_option maxHeartbeats 1000000 in
noncomputable def kernelRun5_A :
    Σ' (L4 : List (View.Piece (Elt F) S512x128 .f32)), { L5 : List (View.Piece (Elt F) S128x8192 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)) -∗ K ⟨⟩))
          ⊢ wp frame (wpE (defs₀ (F := F)) Variants.none c none) E (cc5__s4_body i arg1 harg1 arg2 harg2 arg3 harg3 arg4 harg4 arg5 harg5 arg6 harg6) K } := by
  refine ⟨?_, ?_, fun E K => ?run⟩
  case run =>
    simp only [cc5__s4_body_eq_skeleton]; unfold cc5__s4_body_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg1.eq_unread hf0; obtain rfl := harg2.eq_unread hf1; obtain rfl := harg3.eq_unread hf2
    obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact H5

theorem left5_A_4 (f : arg5.view.ty.Contents (Elt F)) :
    arg5.view.read (Elt F) (arg5.view.writes (Elt F) f (kernelRun5_A c i arg1 harg1 arg2 harg2 arg3 harg3 arg4 harg4 arg5 harg5 arg6 harg6 hc0 x0 x1 x2 x3).1) = k5_pay2 x0 x2 :=
  (View.read_writes_eq_canon arg5.view f _ (fun y => by
      unfold kernelRun5_A; dsimp only
      refine ⟨_, List.mem_cons_self, ?_⟩
      exact View.mem_set_unit_zero (S := S512x128) hz5 inb_S512x128_S512x128_0_0 y)).trans (by
    unfold kernelRun5_A
    dsimp only
    rw [View.canon_unit_zero (S := S512x128) hz5]
    simp only [View.readAt_eq_ld, harg1.read_unread, harg3.read_unread, View.ld_unit_zero (S := S512x4096) hz5, View.ld_unit_zero (S := S4096x128) hz5])

theorem left5_A_5 (f : arg6.view.ty.Contents (Elt F)) :
    arg6.view.read (Elt F) (arg6.view.writes (Elt F) f (kernelRun5_A c i arg1 harg1 arg2 harg2 arg3 harg3 arg4 harg4 arg5 harg5 arg6 harg6 hc0 x0 x1 x2 x3).2.1) = k5_pay3 (k5_pay1 (F := F)) x3 x1 :=
  (View.read_writes_eq_canon arg6.view f _ (fun y => by
      unfold kernelRun5_A; dsimp only
      refine ⟨_, List.mem_cons_self, ?_⟩
      exact View.mem_set_unit_zero (S := S128x8192) hz5 inb_S128x8192_S128x8192_0_0 y)).trans (by
    unfold kernelRun5_A
    dsimp only
    sl_unfold_words
    rw [View.canon_cons_unit_zero (S := S128x8192) hz5, View.readCov_unit_zero (S := S128x8192) _ hz5]
    simp only [View.readAt_eq_ld, harg4.read_unread, harg2.read_unread, View.ld_unit_zero (S := S512x128) hz5, View.ld_unit_zero (S := S512x8192) hz5])

end

end

theorem acc5_first (c : Dev nD) (t : Fin cfg5.N) (h0 : t.val % 8 = 0) :
    acc5 V c t.val t.isLt = k5_pay3 (k5_pay1 (F := F)) (iblk5 V c 3 t) (iblk5 V c 1 t) := by
  have hN : t.val < 8 := lt_of_lt_of_eq t.isLt (show cfg5.N = 8 from N_5)
  obtain ⟨n, hn⟩ := t
  cases n with
  | zero => rfl
  | succ n => exact absurd h0 (by dsimp only at hN ⊢; omega)

theorem acc5_later (c : Dev nD) (t : Fin cfg5.N) (h0 : ¬t.val % 8 = 0) :
    acc5 V c t.val t.isLt = k5_pay3 (acc5 V c (t.val - 1) (Nat.lt_of_le_of_lt (Nat.sub_le _ _) t.isLt)) (iblk5 V c 3 t) (iblk5 V c 1 t) := by
  obtain ⟨n, hn⟩ := t
  cases n with
  | zero => exact absurd (Nat.zero_mod _) h0
  | succ n => rfl

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => k5_pay2 (iblk5 V c 0 t) (iblk5 V c 2 t)
    | ⟨5, _⟩ => acc5 V c t.val t.isLt
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = k5_pay2 (iblk5 V c 0 t) (iblk5 V c 2 t) := by dsimp only [dat5]
theorem after5_5 (c : Dev nD) (t : Fin cfg5.N) : (dat5 V c).after 5 t = acc5 V c t.val t.isLt := by dsimp only [dat5]

theorem before5_0 (c : Dev nD) (t : Fin cfg5.N) (d) : (dat5 V c).before 0 t d = iblk5 V c 0 t :=
  ((dat5 V c).before_in_eq_fetched 0 rfl (fun _ => rfl) (fun _ _ _ => rfl) (fun t => by rw [after5_0]; unfold Dat.blockOf iblk5; rw [A_eq5]; try rfl) t d).trans
    (by unfold Dat.fetched Dat.blockOf iblk5; rw [A_eq5]; try rfl)
theorem before5_1 (c : Dev nD) (t : Fin cfg5.N) (d) : (dat5 V c).before 1 t d = iblk5 V c 1 t :=
  ((dat5 V c).before_in_eq_fetched 1 rfl (fun _ => rfl) (fun _ _ _ => rfl) (fun t => by rw [after5_1]; unfold Dat.blockOf iblk5; rw [A_eq5]; try rfl) t d).trans
    (by unfold Dat.fetched Dat.blockOf iblk5; rw [A_eq5]; try rfl)
theorem before5_2 (c : Dev nD) (t : Fin cfg5.N) (d) : (dat5 V c).before 2 t d = iblk5 V c 2 t :=
  ((dat5 V c).before_in_eq_fetched 2 rfl (fun _ => rfl) (fun _ _ _ => rfl) (fun t => by rw [after5_2]; unfold Dat.blockOf iblk5; rw [A_eq5]; try rfl) t d).trans
    (by unfold Dat.fetched Dat.blockOf iblk5; rw [A_eq5]; try rfl)
theorem before5_3 (c : Dev nD) (t : Fin cfg5.N) (d) : (dat5 V c).before 3 t d = iblk5 V c 3 t :=
  ((dat5 V c).before_in_eq_fetched 3 rfl (fun _ => rfl) (fun _ _ _ => rfl) (fun t => by rw [after5_3]; unfold Dat.blockOf iblk5; rw [A_eq5]; try rfl) t d).trans
    (by unfold Dat.fetched Dat.blockOf iblk5; rw [A_eq5]; try rfl)

theorem before5_5_later (c : Dev nD) (t : Fin cfg5.N) (h0 : ¬t.val % 8 = 0) (d) :
    (dat5 V c).before 5 t d = acc5 V c (t.val - 1) (Nat.lt_of_le_of_lt (Nat.sub_le _ _) t.isLt) := by
  have hN : t.val < 8 := lt_of_lt_of_eq t.isLt (show cfg5.N = 8 from N_5)
  rw [Dat.before_out_kept _ 5 rfl t (by omega) (Bool.eq_false_iff.mpr fun h => by have := (flush5_5 _).mp h; dsimp only at this; omega)
    (fun _ => rfl) (fun _ _ => rfl)]
  rw [after5_5]

def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d))
    ∗ (∃ d, owns (c : Thread nD τ) (ms5_4 t) fullShare ((dat5 V c).before 4 t d))
    ∗ (∃ d, owns (c : Thread nD τ) (ms5_5 t) fullShare ((dat5 V c).before 5 t d)))

def bodyPost5 (c : Dev nD) (t : Fin cfg5.N) : sProp 𝕄 :=
  iprop((dat5 V c).Φ t.succ ∗ (dat5 V c).owesAt () t.succ
    ∗ owns (c : Thread nD τ) (ms5_0 t) fullShare ((dat5 V c).after 0 t)
    ∗ owns (c : Thread nD τ) (ms5_1 t) fullShare ((dat5 V c).after 1 t)
    ∗ owns (c : Thread nD τ) (ms5_2 t) fullShare ((dat5 V c).after 2 t)
    ∗ owns (c : Thread nD τ) (ms5_3 t) fullShare ((dat5 V c).after 3 t)
    ∗ owns (c : Thread nD τ) (ms5_4 t) fullShare ((dat5 V c).after 4 t)
    ∗ owns (c : Thread nD τ) (ms5_5 t) fullShare ((dat5 V c).after 5 t))

set_option maxHeartbeats 1000000 in
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).Φ t.succ = (dat5 V c).Φ t.castSucc from rfl,
    show (dat5 V c).owesAt () t.succ = (dat5 V c).owesAt () t.castSucc from rfl,
    after5_0, after5_1, after5_2, after5_3, after5_4, after5_5]
  by_cases h0 : t.val % 8 = 0
  · rw [acc5_first V c t h0]
    iintro ⟨HΦ, Ho, ⟨%d0, H0⟩, ⟨%d1, H1⟩, ⟨%d2, H2⟩, ⟨%d3, H3⟩, ⟨%d4, H4⟩, ⟨%d5, H5⟩⟩
    iapply ((kernelRun5_A c (grid5.coords t) (ms5_0 t) (hs5_0 t) (ms5_1 t) (hs5_1 t) (ms5_2 t) (hs5_2 t) (ms5_3 t) (hs5_3 t) (ms5_4 t) (hs5_4 t) (ms5_5 t) (hs5_5 t) ((hcond5_0 t).mpr h0) (iblk5 V c 0 t) (iblk5 V c 1 t) (iblk5 V c 2 t) (iblk5 V c 3 t)).2.2 Set.univ _)
    iframe H0 H1 H2 H3
    isplitl [H4]; · iexists _; iexact H4
    isplitl [H5]; · iexists _; iexact H5
    iintro ⟨H0, H1, H2, H3, ⟨%e4, H4⟩, ⟨%e5, H5⟩⟩
    iframe HΦ Ho H0 H1 H2 H3
    isplitl [H4]
    · unfold owns; iexists _; isplitr
      swap; · iexact H4
      ipureintro; exact left5_A_4 ..
    unfold owns; iexists _; isplitr
    swap; · iexact H5
    ipureintro; exact left5_A_5 ..
  · rw [acc5_later V c t h0]
    simp only [before5_5_later V c t h0]
    iintro ⟨HΦ, Ho, ⟨%d0, H0⟩, ⟨%d1, H1⟩, ⟨%d2, H2⟩, ⟨%d3, H3⟩, ⟨%d4, H4⟩, ⟨%d5, H5⟩⟩
    iapply ((kernelRun5_B c (grid5.coords t) (ms5_0 t) (hs5_0 t) (ms5_1 t) (hs5_1 t) (ms5_2 t) (hs5_2 t) (ms5_3 t) (hs5_3 t) (ms5_4 t) (hs5_4 t) (ms5_5 t) (hs5_5 t) (fun h => h0 ((hcond5_0 t).mp h)) (iblk5 V c 0 t) (iblk5 V c 1 t) (iblk5 V c 2 t) (iblk5 V c 3 t) (acc5 V c (t.val - 1) (Nat.lt_of_le_of_lt (Nat.sub_le _ _) t.isLt))).2.2 Set.univ _)
    iframe H0 H1 H2 H3
    isplitl [H4]; · iexists _; iexact H4
    iframe H5
    iintro ⟨H0, H1, H2, H3, ⟨%e4, H4⟩, ⟨%e5, H5⟩⟩
    iframe HΦ Ho H0 H1 H2 H3
    isplitl [H4]
    · unfold owns; iexists _; isplitr
      swap; · iexact H4
      ipureintro; exact left5_B_4 ..
    unfold owns; iexists _; isplitr
    swap; · iexact H5
    ipureintro; exact left5_B_5 ..

theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.K.D6.lean ====
import proofs.«122060_g64467459113426_cont_9to1_m_811_14_alg».proof.Proof.Gen.Kernel.Launch
import proofs.«122060_g64467459113426_cont_9to1_m_811_14_alg».proof.Proof.Gen.Kernel.Skeleton
import proofs.«122060_g64467459113426_cont_9to1_m_811_14_alg».proof.Proof.Gen.Kernel.Points
import Idealize.ShloMosaic.Lib.Pipeline.FrameBody

noncomputable section

namespace Cert.Kernel.Hand

open Idealize.ShloMosaic Idealize.ShloMosaic.TcCoe
open Idealize.SL Idealize.SL.Sem
open Cert.Kernel Cert.Kernel.Gen

variable {F : FTy → Type} [FloatOps F]

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

def acc6 (c : Dev nD) : (n : ℕ) → n < cfg6.N → Vec F S128x4096 .f32
  | 0, h => k6_pay3 (k6_pay1 (F := F)) (iblk6 V c 3 ⟨0, h⟩) (iblk6 V c 1 ⟨0, h⟩)
  | n + 1, h => k6_pay3 (acc6 c n (Nat.lt_of_succ_lt h)) (iblk6 V c 3 ⟨n + 1, h⟩) (iblk6 V c 1 ⟨n + 1, h⟩)

end Cert.Kernel.Hand

end
-- ==== Proof.K.R6.lean ====
import proofs.«122060_g64467459113426_cont_9to1_m_811_14_alg».proof.Proof.Gen.Kernel.Launch
import proofs.«122060_g64467459113426_cont_9to1_m_811_14_alg».proof.Proof.Gen.Kernel.Skeleton
import proofs.«122060_g64467459113426_cont_9to1_m_811_14_alg».proof.Proof.Gen.Kernel.Points
import proofs.«122060_g64467459113426_cont_9to1_m_811_14_alg».proof.Proof.K.D6
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem hz6 : (![0, 0] : Fin 2 → Nat) = fun _ => 0 := funext fun a => by fin_cases a <;> rfl

theorem cover6_5 (w : Vec F S256x128 .f32) (L : List (View.Piece (Elt F) S256x128 .f32)) (y : S256x128.Idx) :
    ∃ pc ∈ ((⟨Rect.unit (s := S256x128) ![0, 0] S256x128.size inb_S256x128_S256x128_0_0, w⟩ : View.Piece (Elt F) S256x128 .f32) :: L), y ∈ pc.1.set :=
  ⟨_, List.mem_cons_self, View.mem_set_unit_zero hz6 inb_S256x128_S256x128_0_0 y⟩
theorem cover6_6 (w : Vec F S128x4096 .f32) (L : List (View.Piece (Elt F) S128x4096 .f32)) (y : S128x4096.Idx) :
    ∃ pc ∈ ((⟨Rect.unit (s := S128x4096) ![0, 0] S128x4096.size inb_S128x4096_S128x4096_0_0, w⟩ : View.Piece (Elt F) S128x4096 .f32) :: L), y ∈ pc.1.set :=
  ⟨_, List.mem_cons_self, View.mem_set_unit_zero hz6 inb_S128x4096_S128x4096_0_0 y⟩

abbrev cond6_0 (i : grid6.Coords) : Prop := (Scalar.cmpi .ne (Scalar.extui (Scalar.cmpi .eq (BitVec.ofNat 32 (i 0).val) 0#32)) 0#32) = 1#1

theorem hcond6_0 : ∀ t : Fin cfg6.N, cond6_0 (grid6.coords t) ↔ t.val % 32 = 0 :=
  (by decide +kernel : ∀ t : Fin grid6.N, cond6_0 (grid6.coords t) ↔ t.val % 32 = 0)

set_option maxHeartbeats 1000000 in
theorem run6_A (c : Dev nD) (i : grid6.Coords)
    (arg1 : Memref sig .tc .vmem S256x8192 .f32) (harg1 : arg1.IsWhole) (arg2 : Memref sig .tc .vmem S256x4096 .f32) (harg2 : arg2.IsWhole)
    (arg3 : Memref sig .tc .vmem S8192x128 .f32) (harg3 : arg3.IsWhole) (arg4 : Memref sig .tc .vmem S256x128 .f32) (harg4 : arg4.IsWhole)
    (arg5 : Memref sig .tc .vmem S128x8192 .f32) (harg5 : arg5.IsWhole) (arg6 : Memref sig .tc .vmem S256x128 .f32) (harg6 : arg6.IsWhole)
    (arg7 : Memref sig .tc .vmem S128x4096 .f32) (harg7 : arg7.IsWhole) (hc0 : cond6_0 i)
    (x0 : Vec F S256x8192 .f32) (x1 : Vec F S256x4096 .f32) (x2 : Vec F S8192x128 .f32) (x3 : Vec F S256x128 .f32) (x4 : Vec F S128x8192 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare (k6_pay2 (View.ld x4 (Rect.unit (s := S128x8192) (k6_off1 i) S128x256.size (k6_off1_inb i))) x0 x2)
            ∗ owns (c : Thread nD τ) arg7 fullShare (k6_pay3 (k6_pay1 (F := F)) x3 x1)) -∗ K ⟨⟩))
      ⊢ wp frame (wpE (defs₀ (F := F)) Variants.none c none) E
          (cc6__s5_body i arg1 harg1 arg2 harg2 arg3 harg3 arg4 harg4 arg5 harg5 arg6 harg6 arg7 harg7) K := by
  simp only [cc6__s5_body_eq_skeleton]; unfold cc6__s5_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  obtain rfl := harg1.eq_unread hf0; obtain rfl := harg2.eq_unread hf1; obtain rfl := harg3.eq_unread hf2
  obtain rfl := harg4.eq_unread hf3; obtain rfl := harg5.eq_unread hf4
  sl_exec (disch := first | exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    rw [View.read_writes_eq_canon _ _ _ (cover6_5 _ _),
      View.canon_unit_zero hz6]
    simp only [View.readAt_eq_ld, harg1.read_unread, harg3.read_unread, harg5.read_unread,
      View.ld_unit_zero (S := S256x8192) hz6, View.ld_unit_zero (S := S8192x128) hz6]
  iexists _; isplitr
  swap; · iexact H6
  ipureintro
  rw [View.read_writes_eq_canon _ _ _ (cover6_6 _ _)]
  sl_unfold_words
  rw [View.canon_cons_unit_zero (S := S128x4096) hz6, View.readCov_unit_zero (S := S128x4096) _ hz6]
  simp only [View.readAt_eq_ld, harg2.read_unread, harg4.read_unread,
    View.ld_unit_zero (S := S256x128) hz6, View.ld_unit_zero (S := S256x4096) hz6]

set_option maxHeartbeats 1000000 in
theorem run6_B (c : Dev nD) (i : grid6.Coords)
    (arg1 : Memref sig .tc .vmem S256x8192 .f32) (harg1 : arg1.IsWhole) (arg2 : Memref sig .tc .vmem S256x4096 .f32) (harg2 : arg2.IsWhole)
    (arg3 : Memref sig .tc .vmem S8192x128 .f32) (harg3 : arg3.IsWhole) (arg4 : Memref sig .tc .vmem S256x128 .f32) (harg4 : arg4.IsWhole)
    (arg5 : Memref sig .tc .vmem S128x8192 .f32) (harg5 : arg5.IsWhole) (arg6 : Memref sig .tc .vmem S256x128 .f32) (harg6 : arg6.IsWhole)
    (arg7 : Memref sig .tc .vmem S128x4096 .f32) (harg7 : arg7.IsWhole) (hc0 : ¬cond6_0 i)
    (x0 : Vec F S256x8192 .f32) (x1 : Vec F S256x4096 .f32) (x2 : Vec F S8192x128 .f32) (x3 : Vec F S256x128 .f32) (x4 : Vec F S128x8192 .f32) (xo6 : Vec F S128x4096 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ owns (c : Thread nD τ) arg7 fullShare xo6
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare (k6_pay2 (View.ld x4 (Rect.unit (s := S128x8192) (k6_off1 i) S128x256.size (k6_off1_inb i))) x0 x2)
            ∗ owns (c : Thread nD τ) arg7 fullShare (k6_pay3 xo6 x3 x1)) -∗ K ⟨⟩))
      ⊢ wp frame (wpE (defs₀ (F := F)) Variants.none c none) E
          (cc6__s5_body i arg1 harg1 arg2 harg2 arg3 harg3 arg4 harg4 arg5 harg5 arg6 harg6 arg7 harg7) K := by
  simp only [cc6__s5_body_eq_skeleton]; unfold cc6__s5_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
  obtain rfl := harg1.eq_unread hf0; obtain rfl := harg2.eq_unread hf1; obtain rfl := harg3.eq_unread hf2
  obtain rfl := harg4.eq_unread hf3; obtain rfl := harg5.eq_unread hf4; obtain rfl := harg7.eq_unread hf6
  sl_exec (disch := first | exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    rw [View.read_writes_eq_canon _ _ _ (cover6_5 _ _),
      View.canon_unit_zero hz6]
    simp only [View.readAt_eq_ld, harg1.read_unread, harg3.read_unread, harg5.read_unread,
      View.ld_unit_zero (S := S256x8192) hz6, View.ld_unit_zero (S := S8192x128) hz6]
  iexists _; isplitr
  swap; · iexact H6
  ipureintro
  rw [View.read_writes_eq_canon _ _ _ (cover6_6 _ _),
    View.canon_unit_zero hz6]
  simp only [View.readAt_eq_ld, harg2.read_unread, harg4.read_unread, harg7.read_unread,
    View.ld_unit_zero (S := S256x128) hz6, View.ld_unit_zero (S := S256x4096) hz6, View.ld_unit_zero (S := S128x4096) hz6]

variable (V : (c : Dev nD) → (b : Ref sig .tc) → Buf (Elt F) ((c : Thread nD τ).loc b))

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => k6_pay2 (View.ld (iblk6 V c 4 t) (Rect.unit (s := S128x8192) (k6_off1 (grid6.coords t)) S128x256.size (k6_off1_inb (grid6.coords t)))) (iblk6 V c 0 t) (iblk6 V c 2 t)
    | ⟨6, _⟩ => acc6 V c t.val t.isLt
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = k6_pay2 (View.ld (iblk6 V c 4 t) (Rect.unit (s := S128x8192) (k6_off1 (grid6.coords t)) S128x256.size (k6_off1_inb (grid6.coords t)))) (iblk6 V c 0 t) (iblk6 V c 2 t) := by dsimp only [dat6]
theorem after6_6 (c : Dev nD) (t : Fin cfg6.N) : (dat6 V c).after 6 t = acc6 V c t.val t.isLt := by dsimp only [dat6]

theorem before6_0 (c : Dev nD) (t : Fin cfg6.N) (d) : (dat6 V c).before 0 t d = iblk6 V c 0 t :=
  ((dat6 V c).before_in_eq_fetched 0 rfl (fun _ => rfl) (fun _ _ _ => rfl)
    (fun t => by rw [after6_0]; unfold Dat.blockOf iblk6; rw [A_eq6]; try rfl) t d).trans
    (by unfold Dat.fetched Dat.blockOf iblk6; rw [A_eq6]; try rfl)
theorem before6_1 (c : Dev nD) (t : Fin cfg6.N) (d) : (dat6 V c).before 1 t d = iblk6 V c 1 t :=
  ((dat6 V c).before_in_eq_fetched 1 rfl (fun _ => rfl) (fun _ _ _ => rfl)
    (fun t => by rw [after6_1]; unfold Dat.blockOf iblk6; rw [A_eq6]; try rfl) t d).trans
    (by unfold Dat.fetched Dat.blockOf iblk6; rw [A_eq6]; try rfl)
theorem before6_2 (c : Dev nD) (t : Fin cfg6.N) (d) : (dat6 V c).before 2 t d = iblk6 V c 2 t :=
  ((dat6 V c).before_in_eq_fetched 2 rfl (fun _ => rfl) (fun _ _ _ => rfl)
    (fun t => by rw [after6_2]; unfold Dat.blockOf iblk6; rw [A_eq6]; try rfl) t d).trans
    (by unfold Dat.fetched Dat.blockOf iblk6; rw [A_eq6]; try rfl)
theorem before6_3 (c : Dev nD) (t : Fin cfg6.N) (d) : (dat6 V c).before 3 t d = iblk6 V c 3 t :=
  ((dat6 V c).before_in_eq_fetched 3 rfl (fun _ => rfl) (fun _ _ _ => rfl)
    (fun t => by rw [after6_3]; unfold Dat.blockOf iblk6; rw [A_eq6]; try rfl) t d).trans
    (by unfold Dat.fetched Dat.blockOf iblk6; rw [A_eq6]; try rfl)
theorem before6_4 (c : Dev nD) (t : Fin cfg6.N) (d) : (dat6 V c).before 4 t d = iblk6 V c 4 t :=
  ((dat6 V c).before_in_eq_fetched 4 rfl (fun _ => rfl) (fun _ _ _ => rfl)
    (fun t => by rw [after6_4]; unfold Dat.blockOf iblk6; rw [A_eq6]; try rfl) t d).trans
    (by unfold Dat.fetched Dat.blockOf iblk6; rw [A_eq6]; try rfl)

theorem before6_6_B (c : Dev nD) (t : Fin cfg6.N) (h0 : ¬t.val % 32 = 0) (d) :
    (dat6 V c).before 6 t d = acc6 V c (t.val - 1) (Nat.lt_of_le_of_lt (Nat.sub_le _ _) t.isLt) := by
  have hN : t.val < 32 := lt_of_lt_of_eq t.isLt (show cfg6.N = 32 from N_6)
  rw [Dat.before_out_kept _ 6 rfl t (by omega) (Bool.eq_false_iff.mpr fun h => by have := (flush6_6 _).mp h; dsimp only at this; omega)
    (fun _ => rfl) (fun _ _ => rfl)]
  dsimp only [dat6]

theorem acc6_A (c : Dev nD) (t : Fin cfg6.N) (h0 : t.val % 32 = 0) :
    acc6 V c t.val t.isLt = k6_pay3 (k6_pay1 (F := F)) (iblk6 V c 3 t) (iblk6 V c 1 t) := by
  have hN : t.val < 32 := lt_of_lt_of_eq t.isLt (show cfg6.N = 32 from N_6)
  obtain ⟨n, hn⟩ := t
  cases n with
  | zero => rfl
  | succ n => exfalso; dsimp only at h0 hN; omega

theorem acc6_B (c : Dev nD) (t : Fin cfg6.N) (h0 : ¬t.val % 32 = 0) :
    acc6 V c t.val t.isLt = k6_pay3 (acc6 V c (t.val - 1) (Nat.lt_of_le_of_lt (Nat.sub_le _ _) t.isLt)) (iblk6 V c 3 t) (iblk6 V c 1 t) := by
  obtain ⟨n, hn⟩ := t
  cases n with
  | zero => exact absurd (Nat.zero_mod _) h0
  | succ n => rfl

abbrev ms6_0 (t : Fin cfg6.N) : Memref sig .tc .vmem S256x8192 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S256x4096 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S8192x128 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S256x128 .f32 := win6_3.stage (cfg6.slots t 3)
abbrev hs6_3 (t : Fin cfg6.N) : (ms6_3 t).IsWhole := hstage6_3 ((cfg6.slots t 3).cast nbuf6_3)
abbrev ms6_4 (t : Fin cfg6.N) : Memref sig .tc .vmem S128x8192 .f32 := win6_4.stage (cfg6.slots t 4)
abbrev hs6_4 (t : Fin cfg6.N) : (ms6_4 t).IsWhole := hstage6_4 ((cfg6.slots t 4).cast nbuf6_4)
abbrev ms6_5 (t : Fin cfg6.N) : Memref sig .tc .vmem S256x128 .f32 := win6_5.stage (cfg6.slots t 5)
abbrev hs6_5 (t : Fin cfg6.N) : (ms6_5 t).IsWhole := hstage6_5 ((cfg6.slots t 5).cast nbuf6_5)
abbrev ms6_6 (t : Fin cfg6.N) : Memref sig .tc .vmem S128x4096 .f32 := win6_6.stage (cfg6.slots t 6)
abbrev hs6_6 (t : Fin cfg6.N) : (ms6_6 t).IsWhole := hstage6_6 ((cfg6.slots t 6).cast nbuf6_6)

def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d))
    ∗ (∃ d, owns (c : Thread nD τ) (ms6_4 t) fullShare ((dat6 V c).before 4 t d))
    ∗ (∃ d, owns (c : Thread nD τ) (ms6_5 t) fullShare ((dat6 V c).before 5 t d))
    ∗ (∃ d, owns (c : Thread nD τ) (ms6_6 t) fullShare ((dat6 V c).before 6 t d)))

def bodyPost6 (c : Dev nD) (t : Fin cfg6.N) : sProp 𝕄 :=
  iprop((dat6 V c).Φ t.succ ∗ (dat6 V c).owesAt () t.succ
    ∗ owns (c : Thread nD τ) (ms6_0 t) fullShare ((dat6 V c).after 0 t)
    ∗ owns (c : Thread nD τ) (ms6_1 t) fullShare ((dat6 V c).after 1 t)
    ∗ owns (c : Thread nD τ) (ms6_2 t) fullShare ((dat6 V c).after 2 t)
    ∗ owns (c : Thread nD τ) (ms6_3 t) fullShare ((dat6 V c).after 3 t)
    ∗ owns (c : Thread nD τ) (ms6_4 t) fullShare ((dat6 V c).after 4 t)
    ∗ owns (c : Thread nD τ) (ms6_5 t) fullShare ((dat6 V c).after 5 t)
    ∗ owns (c : Thread nD τ) (ms6_6 t) fullShare ((dat6 V c).after 6 t))

set_option maxHeartbeats 1000000 in
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6]
  by_cases h0 : t.val % 32 = 0
  · rw [acc6_A V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (run6_A c (grid6.coords t) _ _ _ _ _ _ _ _ _ _ _ _ _ _ ((hcond6_0 t).mpr h0)
      (iblk6 V c 0 t) (iblk6 V c 1 t) (iblk6 V c 2 t) (iblk6 V c 3 t) (iblk6 V c 4 t) Set.univ _)
    iframe H0 H1 H2 H3 H4
    isplitl [H5]; · iexists _; iexact H5
    isplitl [H6]; · iexists _; iexact H6
    iintro ⟨H0, H1, H2, H3, H4, H5, H6⟩
    iframe HΦ Ho H0 H1 H2 H3 H4 H5 H6
  · rw [acc6_B V c t h0]
    simp only [before6_6_B V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (run6_B c (grid6.coords t) _ _ _ _ _ _ _ _ _ _ _ _ _ _ (fun h => h0 ((hcond6_0 t).mp h))
      (iblk6 V c 0 t) (iblk6 V c 1 t) (iblk6 V c 2 t) (iblk6 V c 3 t) (iblk6 V c 4 t)
      (acc6 V c (t.val - 1) (Nat.lt_of_le_of_lt (Nat.sub_le _ _) t.isLt)) Set.univ _)
    iframe H0 H1 H2 H3 H4
    isplitl [H5]; · iexists _; iexact H5
    iframe H6
    iintro ⟨H0, H1, H2, H3, H4, H5, H6⟩
    iframe HΦ Ho H0 H1 H2 H3 H4 H5 H6

theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.K.R7.lean ====
import proofs.«122060_g64467459113426_cont_9to1_m_811_14_alg».proof.Proof.Gen.Kernel.Launch
import proofs.«122060_g64467459113426_cont_9to1_m_811_14_alg».proof.Proof.Gen.Kernel.Skeleton
import proofs.«122060_g64467459113426_cont_9to1_m_811_14_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

abbrev r7_0 : Rect S1024x4096 := Rect.unit (s := S1024x4096) ![0, 0] S1024x4096.size inb_S1024x4096_S1024x4096_0_0
abbrev r7_1 : Rect S4096x128 := Rect.unit (s := S4096x128) ![0, 0] S4096x128.size inb_S4096x128_S4096x128_0_0
abbrev r7_3 : Rect S1024x128 := Rect.unit (s := S1024x128) ![0, 0] S1024x128.size inb_S1024x128_S1024x128_0_0
abbrev r7_2 (i : grid7.Coords) : Rect S128x4096 := Rect.unit (s := S128x4096) (k7_off1 i) S128x1024.size (k7_off1_inb i)

def out7_3 (i : grid7.Coords) (x0 : Vec F S1024x4096 .f32) (x1 : Vec F S4096x128 .f32) (x2 : Vec F S128x4096 .f32) : Vec F S1024x128 .f32 :=
  View.canon [⟨r7_3, k7_pay1 (View.ld x2 (r7_2 i)) (View.ld x0 r7_0) (View.ld x1 r7_1)⟩]

theorem cover7_3 (p0 : Vec F S1024x128 .f32) (y : S1024x128.Idx) :
    ∃ pc ∈ ([⟨r7_3, p0⟩] : List (View.Piece (Elt F) S1024x128 .f32)), y ∈ pc.1.set :=
  View.cover_of_tiled [⟨r7_3, p0⟩] S1024x128.size (by rfl) y

set_option maxHeartbeats 1000000 in
theorem sound_kernel7 (c : Dev nD) (E : Set ℕ) (i : grid7.Coords) (arg1 : Memref sig .tc .vmem S1024x4096 .f32) (harg1 : arg1.IsWhole) (arg2 : Memref sig .tc .vmem S4096x128 .f32) (harg2 : arg2.IsWhole) (arg3 : Memref sig .tc .vmem S128x4096 .f32) (harg3 : arg3.IsWhole) (arg4 : Memref sig .tc .vmem S1024x128 .f32) (harg4 : arg4.IsWhole)
    (x0 : Vec F S1024x4096 .f32) (x1 : Vec F S4096x128 .f32) (x2 : Vec F S128x4096 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out7_3 i x0 x1 x2)) -∗ K ⟨⟩))
      ⊢ wp frame (wpE (defs₀ (F := F)) Variants.none c none) E (cc7__s6_body i arg1 harg1 arg2 harg2 arg3 harg3 arg4 harg4) K := by
  simp only [cc7__s6_body_eq_skeleton]; unfold cc7__s6_body_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover7_3 _)

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (grid7.coords t) (iblk7 V c 0 t) (iblk7 V c 1 t) (iblk7 V c 2 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) :
    (dat7 V c).after 3 t = out7_3 (grid7.coords t) (iblk7 V c 0 t) (iblk7 V c 1 t) (iblk7 V c 2 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t))

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3]
  iintro ⟨HΦ, Ho, ⟨%d0, H0⟩, ⟨%d1, H1⟩, ⟨%d2, H2⟩, ⟨%d3, H3⟩⟩
  iapply (sound_kernel7 c Set.univ (grid7.coords t) _ _ _ _ _ _ _ _ (iblk7 V c 0 t) (iblk7 V c 1 t) (iblk7 V c 2 t) _)
  iframe H0 H1 H2
  isplitl [H3]; · iexists _; iexact H3
  iintro ⟨H0, H1, H2, H3⟩
  iframe HΦ Ho H0 H1 H2 H3

theorem body_obligation7 (c : Dev nD) : BodyObligation (dat7 (F := F) V c) (defs₀ (F := F)) Variants.none () Set.univ := fun t => by
  rw [bigSep_W7, bigSep_W7]
  exact sound_body7 V c t

end Cert.Kernel.Hand

end
-- ==== Proof.K.Fold.lean ====
import proofs.«122060_g64467459113426_cont_9to1_m_811_14_alg».proof.Proof.K.R0
import proofs.«122060_g64467459113426_cont_9to1_m_811_14_alg».proof.Proof.K.R1
import proofs.«122060_g64467459113426_cont_9to1_m_811_14_alg».proof.Proof.K.R2
import proofs.«122060_g64467459113426_cont_9to1_m_811_14_alg».proof.Proof.K.R3
import proofs.«122060_g64467459113426_cont_9to1_m_811_14_alg».proof.Proof.K.R4
import proofs.«122060_g64467459113426_cont_9to1_m_811_14_alg».proof.Proof.K.R5
import proofs.«122060_g64467459113426_cont_9to1_m_811_14_alg».proof.Proof.K.R6
import proofs.«122060_g64467459113426_cont_9to1_m_811_14_alg».proof.Proof.K.R7
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem input_of_not_result0 : ∀ w : Fin cfg0.W, Pipeline.arrRef spec0 w ∉ ([main_v0_0, main_v0_1] : List (Ref sig .tc)) → (cfg0.win w).isOut = false := by
  decide
theorem W1_keep (c : Dev nD) (b : Ref sig .tc) (hb : b ∉ ([main_v0_0, main_v0_1] : List (Ref sig .tc))) :
    W1 m ρ c (Proc.devRef .tc b) = W0 m ρ c (Proc.devRef .tc b) := by
  by_cases h : ∃ w, Pipeline.arrRef spec0 w = b
  · obtain ⟨w, rfl⟩ := h
    exact (W1_arr m ρ c w).trans (((dat0 (V0 m ρ) c).arrAt_in w (input_of_not_result0 w hb) _).trans (A_eq0 (V0 m ρ) c w))
  · exact W1_of_ne m ρ c b fun w e => h ⟨w, e⟩

def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem input_of_not_result1 : ∀ w : Fin cfg1.W, Pipeline.arrRef spec1 w ∉ ([main_v1_0, main_v1_1] : List (Ref sig .tc)) → (cfg1.win w).isOut = false := by
  decide
theorem W2_keep (c : Dev nD) (b : Ref sig .tc) (hb : b ∉ ([main_v1_0, main_v1_1] : List (Ref sig .tc))) :
    W2 m ρ c (Proc.devRef .tc b) = W1 m ρ c (Proc.devRef .tc b) := by
  by_cases h : ∃ w, Pipeline.arrRef spec1 w = b
  · obtain ⟨w, rfl⟩ := h
    exact (W2_arr m ρ c w).trans (((dat1 (V1 m ρ) c).arrAt_in w (input_of_not_result1 w hb) _).trans (A_eq1 (V1 m ρ) c w))
  · exact W2_of_ne m ρ c b fun w e => h ⟨w, e⟩

def W3 (c : Dev nD) : Valuation τ sig (Elt F) :=
  Pipeline.withArrays spec2 c (W2 m ρ c) fun w => (dat2 (V2 m ρ) c).arrAt w cfg2.N
theorem W3_arr (c : Dev nD) (w : Fin cfg2.W) :
    W3 m ρ c (Proc.devRef .tc (Pipeline.arrRef spec2 w)) = (dat2 (V2 m ρ) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m ρ c (Proc.devRef .tc b) = W2 m ρ c (Proc.devRef .tc b) := by
  unfold W3; exact Pipeline.withArrays_of_ne spec2 c _ _ b hb
abbrev V3 : (c : Dev nD) → (b : Ref sig .tc) → Buf (Elt F) ((c : Thread nD τ).loc b) := fun c b => W3 m ρ c b
theorem input_of_not_result2 : ∀ w : Fin cfg2.W, Pipeline.arrRef spec2 w ∉ ([main_v2] : List (Ref sig .tc)) → (cfg2.win w).isOut = false := by
  decide
theorem W3_keep (c : Dev nD) (b : Ref sig .tc) (hb : b ∉ ([main_v2] : List (Ref sig .tc))) :
    W3 m ρ c (Proc.devRef .tc b) = W2 m ρ c (Proc.devRef .tc b) := by
  by_cases h : ∃ w, Pipeline.arrRef spec2 w = b
  · obtain ⟨w, rfl⟩ := h
    exact (W3_arr m ρ c w).trans (((dat2 (V2 m ρ) c).arrAt_in w (input_of_not_result2 w hb) _).trans (A_eq2 (V2 m ρ) c w))
  · exact W3_of_ne m ρ c b fun w e => h ⟨w, e⟩

def W4 (c : Dev nD) : Valuation τ sig (Elt F) :=
  Pipeline.withArrays spec3 c (W3 m ρ c) fun w => (dat3 (V3 m ρ) c).arrAt w cfg3.N
theorem W4_arr (c : Dev nD) (w : Fin cfg3.W) :
    W4 m ρ c (Proc.devRef .tc (Pipeline.arrRef spec3 w)) = (dat3 (V3 m ρ) c).arrAt w cfg3.N := by
  unfold W4; exact Pipeline.withArrays_arr spec3 launch3.win.arr_inj c _ _ w
theorem W4_of_ne (c : Dev nD) (b : Ref sig .tc) (hb : ∀ w, Pipeline.arrRef spec3 w ≠ b) :
    W4 m ρ c (Proc.devRef .tc b) = W3 m ρ c (Proc.devRef .tc b) := by
  unfold W4; exact Pipeline.withArrays_of_ne spec3 c _ _ b hb
abbrev V4 : (c : Dev nD) → (b : Ref sig .tc) → Buf (Elt F) ((c : Thread nD τ).loc b) := fun c b => W4 m ρ c b
theorem input_of_not_result3 : ∀ w : Fin cfg3.W, Pipeline.arrRef spec3 w ∉ ([main_v3_0, main_v3_1, main_v3_2] : List (Ref sig .tc)) → (cfg3.win w).isOut = false := by
  decide
theorem W4_keep (c : Dev nD) (b : Ref sig .tc) (hb : b ∉ ([main_v3_0, main_v3_1, main_v3_2] : List (Ref sig .tc))) :
    W4 m ρ c (Proc.devRef .tc b) = W3 m ρ c (Proc.devRef .tc b) := by
  by_cases h : ∃ w, Pipeline.arrRef spec3 w = b
  · obtain ⟨w, rfl⟩ := h
    exact (W4_arr m ρ c w).trans (((dat3 (V3 m ρ) c).arrAt_in w (input_of_not_result3 w hb) _).trans (A_eq3 (V3 m ρ) c w))
  · exact W4_of_ne m ρ c b fun w e => h ⟨w, e⟩

def W5 (c : Dev nD) : Valuation τ sig (Elt F) :=
  Pipeline.withArrays spec4 c (W4 m ρ c) fun w => (dat4 (V4 m ρ) c).arrAt w cfg4.N
theorem W5_arr (c : Dev nD) (w : Fin cfg4.W) :
    W5 m ρ c (Proc.devRef .tc (Pipeline.arrRef spec4 w)) = (dat4 (V4 m ρ) c).arrAt w cfg4.N := by
  unfold W5; exact Pipeline.withArrays_arr spec4 launch4.win.arr_inj c _ _ w
theorem W5_of_ne (c : Dev nD) (b : Ref sig .tc) (hb : ∀ w, Pipeline.arrRef spec4 w ≠ b) :
    W5 m ρ c (Proc.devRef .tc b) = W4 m ρ c (Proc.devRef .tc b) := by
  unfold W5; exact Pipeline.withArrays_of_ne spec4 c _ _ b hb
abbrev V5 : (c : Dev nD) → (b : Ref sig .tc) → Buf (Elt F) ((c : Thread nD τ).loc b) := fun c b => W5 m ρ c b
theorem input_of_not_result4 : ∀ w : Fin cfg4.W, Pipeline.arrRef spec4 w ∉ ([main_v4_0, main_v4_1, main_v4_2] : List (Ref sig .tc)) → (cfg4.win w).isOut = false := by
  decide
theorem W5_keep (c : Dev nD) (b : Ref sig .tc) (hb : b ∉ ([main_v4_0, main_v4_1, main_v4_2] : List (Ref sig .tc))) :
    W5 m ρ c (Proc.devRef .tc b) = W4 m ρ c (Proc.devRef .tc b) := by
  by_cases h : ∃ w, Pipeline.arrRef spec4 w = b
  · obtain ⟨w, rfl⟩ := h
    exact (W5_arr m ρ c w).trans (((dat4 (V4 m ρ) c).arrAt_in w (input_of_not_result4 w hb) _).trans (A_eq4 (V4 m ρ) c w))
  · exact W5_of_ne m ρ c b fun w e => h ⟨w, e⟩

def W6 (c : Dev nD) : Valuation τ sig (Elt F) :=
  Pipeline.withArrays spec5 c (W5 m ρ c) fun w => (dat5 (V5 m ρ) c).arrAt w cfg5.N
theorem W6_arr (c : Dev nD) (w : Fin cfg5.W) :
    W6 m ρ c (Proc.devRef .tc (Pipeline.arrRef spec5 w)) = (dat5 (V5 m ρ) c).arrAt w cfg5.N := by
  unfold W6; exact Pipeline.withArrays_arr spec5 launch5.win.arr_inj c _ _ w
theorem W6_of_ne (c : Dev nD) (b : Ref sig .tc) (hb : ∀ w, Pipeline.arrRef spec5 w ≠ b) :
    W6 m ρ c (Proc.devRef .tc b) = W5 m ρ c (Proc.devRef .tc b) := by
  unfold W6; exact Pipeline.withArrays_of_ne spec5 c _ _ b hb
abbrev V6 : (c : Dev nD) → (b : Ref sig .tc) → Buf (Elt F) ((c : Thread nD τ).loc b) := fun c b => W6 m ρ c b
theorem input_of_not_result5 : ∀ w : Fin cfg5.W, Pipeline.arrRef spec5 w ∉ ([main_v5_0, main_v5_1] : List (Ref sig .tc)) → (cfg5.win w).isOut = false := by
  decide
theorem W6_keep (c : Dev nD) (b : Ref sig .tc) (hb : b ∉ ([main_v5_0, main_v5_1] : List (Ref sig .tc))) :
    W6 m ρ c (Proc.devRef .tc b) = W5 m ρ c (Proc.devRef .tc b) := by
  by_cases h : ∃ w, Pipeline.arrRef spec5 w = b
  · obtain ⟨w, rfl⟩ := h
    exact (W6_arr m ρ c w).trans (((dat5 (V5 m ρ) c).arrAt_in w (input_of_not_result5 w hb) _).trans (A_eq5 (V5 m ρ) c w))
  · exact W6_of_ne m ρ c b fun w e => h ⟨w, e⟩

def W7 (c : Dev nD) : Valuation τ sig (Elt F) :=
  Pipeline.withArrays spec6 c (W6 m ρ c) fun w => (dat6 (V6 m ρ) c).arrAt w cfg6.N
theorem W7_arr (c : Dev nD) (w : Fin cfg6.W) :
    W7 m ρ c (Proc.devRef .tc (Pipeline.arrRef spec6 w)) = (dat6 (V6 m ρ) c).arrAt w cfg6.N := by
  unfold W7; exact Pipeline.withArrays_arr spec6 launch6.win.arr_inj c _ _ w
theorem W7_of_ne (c : Dev nD) (b : Ref sig .tc) (hb : ∀ w, Pipeline.arrRef spec6 w ≠ b) :
    W7 m ρ c (Proc.devRef .tc b) = W6 m ρ c (Proc.devRef .tc b) := by
  unfold W7; exact Pipeline.withArrays_of_ne spec6 c _ _ b hb
abbrev V7 : (c : Dev nD) → (b : Ref sig .tc) → Buf (Elt F) ((c : Thread nD τ).loc b) := fun c b => W7 m ρ c b
theorem input_of_not_result6 : ∀ w : Fin cfg6.W, Pipeline.arrRef spec6 w ∉ ([main_v6_0, main_v6_1] : List (Ref sig .tc)) → (cfg6.win w).isOut = false := by
  decide
theorem W7_keep (c : Dev nD) (b : Ref sig .tc) (hb : b ∉ ([main_v6_0, main_v6_1] : List (Ref sig .tc))) :
    W7 m ρ c (Proc.devRef .tc b) = W6 m ρ c (Proc.devRef .tc b) := by
  by_cases h : ∃ w, Pipeline.arrRef spec6 w = b
  · obtain ⟨w, rfl⟩ := h
    exact (W7_arr m ρ c w).trans (((dat6 (V6 m ρ) c).arrAt_in w (input_of_not_result6 w hb) _).trans (A_eq6 (V6 m ρ) c w))
  · exact W7_of_ne m ρ c b fun w e => h ⟨w, e⟩

def W8 (c : Dev nD) : Valuation τ sig (Elt F) :=
  Pipeline.withArrays spec7 c (W7 m ρ c) fun w => (dat7 (V7 m ρ) c).arrAt w cfg7.N
theorem W8_arr (c : Dev nD) (w : Fin cfg7.W) :
    W8 m ρ c (Proc.devRef .tc (Pipeline.arrRef spec7 w)) = (dat7 (V7 m ρ) c).arrAt w cfg7.N := by
  unfold W8; exact Pipeline.withArrays_arr spec7 launch7.win.arr_inj c _ _ w
theorem W8_of_ne (c : Dev nD) (b : Ref sig .tc) (hb : ∀ w, Pipeline.arrRef spec7 w ≠ b) :
    W8 m ρ c (Proc.devRef .tc b) = W7 m ρ c (Proc.devRef .tc b) := by
  unfold W8; exact Pipeline.withArrays_of_ne spec7 c _ _ b hb
abbrev V8 : (c : Dev nD) → (b : Ref sig .tc) → Buf (Elt F) ((c : Thread nD τ).loc b) := fun c b => W8 m ρ c b
theorem input_of_not_result7 : ∀ w : Fin cfg7.W, Pipeline.arrRef spec7 w ∉ ([main_v7] : List (Ref sig .tc)) → (cfg7.win w).isOut = false := by
  decide
theorem W8_keep (c : Dev nD) (b : Ref sig .tc) (hb : b ∉ ([main_v7] : List (Ref sig .tc))) :
    W8 m ρ c (Proc.devRef .tc b) = W7 m ρ c (Proc.devRef .tc b) := by
  by_cases h : ∃ w, Pipeline.arrRef spec7 w = b
  · obtain ⟨w, rfl⟩ := h
    exact (W8_arr m ρ c w).trans (((dat7 (V7 m ρ) c).arrAt_in w (input_of_not_result7 w hb) _).trans (A_eq7 (V7 m ρ) c w))
  · exact W8_of_ne m ρ c b fun w e => h ⟨w, e⟩

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- A buffer that is no region's result reads at the end what it held at launch: a region changes nothing but its results. -/
theorem arg_end (c : Dev nD) {mem : (ℓ : Loc nD τ sig) → Buf (Elt F) ℓ}
    (h : ∀ b ∈ Pipeline.ucRefs τ sig, mem ((c : Thread nD τ).1, b) = W8 m ρ c b) (b : Ref sig .tc)
    (hs : ¬ (Proc.devRef .tc b : DevRef τ sig).isScoped := by decide)
    (h0 : b ∉ ([main_v0_0, main_v0_1] : List (Ref sig .tc)) := by decide)
    (h1 : b ∉ ([main_v1_0, main_v1_1] : List (Ref sig .tc)) := by decide)
    (h2 : b ∉ ([main_v2] : List (Ref sig .tc)) := by decide)
    (h3 : b ∉ ([main_v3_0, main_v3_1, main_v3_2] : List (Ref sig .tc)) := by decide)
    (h4 : b ∉ ([main_v4_0, main_v4_1, main_v4_2] : List (Ref sig .tc)) := by decide)
    (h5 : b ∉ ([main_v5_0, main_v5_1] : List (Ref sig .tc)) := by decide)
    (h6 : b ∉ ([main_v6_0, main_v6_1] : List (Ref sig .tc)) := by decide)
    (h7 : b ∉ ([main_v7] : List (Ref sig .tc)) := by decide) :
    mem ((c : Thread nD τ).loc b) = m ((c : Thread nD τ).loc b) :=
  (h _ (mem_uc b hs)).trans <| (W8_keep m ρ c b h7).trans <| (W7_keep m ρ c b h6).trans <| (W6_keep m ρ c b h5).trans <| (W5_keep m ρ c b h4).trans <| (W4_keep m ρ c b h3).trans <| (W3_keep m ρ c b h2).trans <| (W2_keep m ρ c b h1).trans <| W1_keep m ρ c b h0

end Cert.Kernel.Hand

end
-- ==== Proof.K.Run.lean ====
import proofs.«122060_g64467459113426_cont_9to1_m_811_14_alg».proof.Proof.K.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev adm : (p : Fin 8) → (pcfgs (F := F) p).Adm := fun p => (cfgs p).toPCfg_adm
def pdats : (p : Fin 8) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
  | ⟨2, _⟩ => fun c => dat2 (V2 m ρ) c
  | ⟨3, _⟩ => fun c => dat3 (V3 m ρ) c
  | ⟨4, _⟩ => fun c => dat4 (V4 m ρ) c
  | ⟨5, _⟩ => fun c => dat5 (V5 m ρ) c
  | ⟨6, _⟩ => fun c => dat6 (V6 m ρ) c
  | ⟨7, _⟩ => fun c => dat7 (V7 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev Tₙ (c : Dev nD) : sProp 𝕄 := iprop(StableHlo.held (c : Thread nD τ) (Pipeline.ucRefs τ sig) (W8 m ρ c) ∗ ∃ r, prngReg c r)

theorem owesAt_of_zero {cfg : Pipeline.Cfg sig Λ₀} {c : Dev nD} (dat : Dat τ (Elt F) Unit ℕ (UR sig nD τ) ℕ cfg c)
    (t : Fin (cfg.N + 1)) (h0 : dat.owed t = 0) (hr : dat.recorded t = Set.univ) :
    iprop(∃ W, owes (c : Thread nD τ) (0 : CellTallies nD τ sig Unit) W) ⊢ (dat.owesAt () t : sProp 𝕄) := by
  unfold Pipeline.Dat.owesAt Pipeline.owesWithin Pipeline.Dat.bound
  rw [h0, hr, Set.univ_union]
  iintro ⟨%W, HO⟩
  iexists W
  isplitr; · ipureintro; exact Set.subset_univ _
  iexact HO
theorem zero_of_owesAt {cfg : Pipeline.Cfg sig Λ₀} {c : Dev nD} (dat : Dat τ (Elt F) Unit ℕ (UR sig nD τ) ℕ cfg c)
    (t : Fin (cfg.N + 1)) (h0 : dat.owed t = 0) :
    (dat.owesAt () t : sProp 𝕄) ⊢ iprop(∃ W, owes (c : Thread nD τ) (0 : CellTallies nD τ sig Unit) W) := by
  unfold Pipeline.Dat.owesAt Pipeline.owesWithin
  rw [h0]
  iintro ⟨%W, -, HO⟩
  iexists W
  iexact HO

abbrev pc (p : Fin 8) := Pipeline.pin (pcfgs (F := F)) adm p

set_option backward.isDefEq.respectTransparency.types false in
/-- A region as one step of the run, once for all eight: only its launch facts, entry and exit contents and body obligation differ. -/
def mkReg (p : Fin 8) (la : Pipeline.LaunchFacts (nD := nD) (τ := τ) cfgs p) (W W' : Dev nD → Valuation τ sig (Elt F))
    (hb : ∀ c, BodyObligation (pdats m ρ p c) (defs₀ (F := F)) 𝒱₀ () Set.univ)
    (hA : ∀ c w, (pdats m ρ p c).A w = W c (Pipeline.arrRef (pc (F := F) p).spec w))
    (hi : ∀ c, (Pipeline.ΦA (pc (F := F) p).spec c : sProp 𝕄) ⊢ (pdats m ρ p c).Φ 0 := by intro; exact .rfl)
    (hou : ∀ c, (pdats m ρ p c).Φ (Fin.last (pc (F := F) p).N) ⊢ (Pipeline.ΦA (pc (F := F) p).spec c : sProp 𝕄) := by intro; exact .rfl)
    (ho : ∀ c t, (pdats m ρ p c).owed t = 0 := by intros; rfl) (hr : ∀ c t, (pdats m ρ p c).recorded t = Set.univ := by intros; rfl)
    (hq : ∀ c w, (pdats m ρ p c).q w = fullShare := by intros; rfl)
    (hW : ∀ c, W' c = Pipeline.withArrays (pc (F := F) p).spec c (W c) fun w => (pdats m ρ p c).arrAt w (pc (F := F) p).N := by intro; rfl) :
    Pipeline.RegionSeg (pcfgs (F := F)) adm (pdats m ρ) () defs₀ 𝒱₀ L lv p where
  win := la.win.to₀
  block_pos := la.block_pos
  stage_whole := la.stage_whole
  K := PEmpty
  osem k := k.elim
  ho := Pipeline.OwnSemFacts.none _
  hbody c := (hb c).loose
  hwaits := Pipeline.hwaits_of_owed_zero _ _ _ _ L lv p ho
  pre c := iprop(StableHlo.held (c : Thread nD τ) (Pipeline.ucRefs τ sig) (W c) ∗ R c)
  post c := iprop(StableHlo.held (c : Thread nD τ) (Pipeline.ucRefs τ sig) (W' c) ∗ R c)
  X c := iprop(∃ r, prngReg c r)
  Y c := iprop(∃ r, prngReg c r)
  Z c := Pipeline.unscopedRest (Ix := Unit) (Name := ℕ) (U := UR sig nD τ) (Lvl := ℕ) (pc (F := F) p).spec c (fun b => W c b)
  hentry c := by
    rw [Pipeline.ownSems0_none]
    have hsplit := Pipeline.arrays_of_unscopedBufs (p := p) (pcfgs (F := F)) adm (pdats m ρ) la.win la.arr_whole c
      ((pdats m ρ p c).share_full (hq c)) (fun b => W c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_of_zero (pdats m ρ p c) 0 (ho c 0) (hr c 0))
      iexact HO
    isplitl [Hp]; · iexact Hp
    iexact Hrest
  hin c := by
    refine BIBase.Entails.trans ?_ (hi c)
    unfold Pipeline.ΦA
    iintro ⟨Hp, -, Hr⟩
    isplitl [Hr]; · iexact Hr
    iexact Hp
  hout c := by
    rw [Pipeline.ownSems0_none]
    refine BIBase.Entails.trans (hou c) ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      la.win la.arr_whole c (pdats m ρ) ((pdats m ρ p c).share_full (hq c))
      (fun b => W c b) (fun b => W' c b) ((pdats m ρ p c).arrAt · (pc (F := F) p).N) (fun w => by rw [hW c]; exact (Pipeline.withArrays_arr (pc (F := F) p).spec la.win.arr_inj c (W c) (fun w => (pdats m ρ p c).arrAt w (pc (F := F) p).N) w).symm)
      (fun b hb => by rw [hW c]; exact Pipeline.withArrays_of_ne (pc (F := F) p).spec c (W c) (fun w => (pdats m ρ p c).arrAt w (pc (F := F) p).N) b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    iapply (zero_of_owesAt (pdats m ρ p c) (Fin.last (pc (F := F) p).N) (ho c (Fin.last (pc (F := F) p).N)))
    iexact HO

def reg0 : Pipeline.RegionSeg (pcfgs (F := F)) adm (pdats m ρ) () defs₀ 𝒱₀ L lv 0 :=
  mkReg m ρ 0 launch0 (W0 m ρ) (W1 m ρ) (body_obligation0 (V0 m ρ)) (A_eq0 (V0 m ρ))

def reg1 : Pipeline.RegionSeg (pcfgs (F := F)) adm (pdats m ρ) () defs₀ 𝒱₀ L lv 1 :=
  mkReg m ρ 1 launch1 (W1 m ρ) (W2 m ρ) (body_obligation1 (V1 m ρ)) (A_eq1 (V1 m ρ))

def reg2 : Pipeline.RegionSeg (pcfgs (F := F)) adm (pdats m ρ) () defs₀ 𝒱₀ L lv 2 :=
  mkReg m ρ 2 launch2 (W2 m ρ) (W3 m ρ) (body_obligation2 (V2 m ρ)) (A_eq2 (V2 m ρ))

def reg3 : Pipeline.RegionSeg (pcfgs (F := F)) adm (pdats m ρ) () defs₀ 𝒱₀ L lv 3 :=
  mkReg m ρ 3 launch3 (W3 m ρ) (W4 m ρ) (body_obligation3 (V3 m ρ)) (A_eq3 (V3 m ρ)) (hin3 (V3 m ρ)) (hout3 (V3 m ρ))

def reg4 : Pipeline.RegionSeg (pcfgs (F := F)) adm (pdats m ρ) () defs₀ 𝒱₀ L lv 4 :=
  mkReg m ρ 4 launch4 (W4 m ρ) (W5 m ρ) (body_obligation4 (V4 m ρ)) (A_eq4 (V4 m ρ)) (hin4 (V4 m ρ)) (hout4 (V4 m ρ))

def reg5 : Pipeline.RegionSeg (pcfgs (F := F)) adm (pdats m ρ) () defs₀ 𝒱₀ L lv 5 :=
  mkReg m ρ 5 launch5 (W5 m ρ) (W6 m ρ) (body_obligation5 (V5 m ρ)) (A_eq5 (V5 m ρ))

def reg6 : Pipeline.RegionSeg (pcfgs (F := F)) adm (pdats m ρ) () defs₀ 𝒱₀ L lv 6 :=
  mkReg m ρ 6 launch6 (W6 m ρ) (W7 m ρ) (body_obligation6 (V6 m ρ)) (A_eq6 (V6 m ρ))

def reg7 : Pipeline.RegionSeg (pcfgs (F := F)) adm (pdats m ρ) () defs₀ 𝒱₀ L lv 7 :=
  mkReg m ρ 7 launch7 (W7 m ρ) (W8 m ρ) (body_obligation7 (V7 m ρ)) (A_eq7 (V7 m ρ))

abbrev segs : List (Pipeline.Seg (pcfgs (F := F)) adm (pdats m ρ) () defs₀ 𝒱₀ L lv) :=
  [ .region (reg0 m ρ),
    .region (reg1 m ρ),
    .region (reg2 m ρ),
    .region (reg3 m ρ),
    .region (reg4 m ρ),
    .region (reg5 m ρ),
    .region (reg6 m ρ),
    .region (reg7 m ρ) ]
theorem main_run (c : Dev nD) : main (F := F) c = Pipeline.Seg.run (segs m ρ) := (main_chain c).trans (by chain_rfl)

set_option backward.isDefEq.respectTransparency.types false in
theorem run : θ_run defs (onTc (τ := τ) (main (F := F))) ⟨m, fun _ => 0, ρ⟩ (fun r => ∀ c : Dev nD,
      ∀ b ∈ Pipeline.ucRefs τ sig, r.2.mem ((c : Thread nD τ).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => sep_assoc.2⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun _ h => h)

end Cert.Kernel.Hand

end
-- ==== Proof.KI.R0.lean ====
import proofs.«122060_g64467459113426_cont_9to1_m_811_14_alg».proof.Proof.Gen.KernelIdeal.Launch
import proofs.«122060_g64467459113426_cont_9to1_m_811_14_alg».proof.Proof.Gen.KernelIdeal.Skeleton
import proofs.«122060_g64467459113426_cont_9to1_m_811_14_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S1024x128 := Rect.unit (s := S1024x128) ![0, 0] S1024x128.size inb_S1024x128_S1024x128_0_0
abbrev r0_1 : Rect S128x128 := Rect.unit (s := S128x128) ![0, 0] S128x128.size inb_S128x128_S128x128_0_0

def out0_3 (x0 : Vec F S1024x128 .f32) (x1 : Vec F S128x128 .f32) : Vec F S1024x128 .f32 :=
  View.canon [⟨r0_0, k0_pay1 (View.ld x0 r0_0) (View.ld x1 r0_1)⟩]

def out0_4 (x0 : Vec F S1024x128 .f32) (x2 : Vec F S128x128 .f32) : Vec F S1024x128 .f32 :=
  View.canon [⟨r0_0, k0_pay2 (View.ld x0 r0_0) (View.ld x2 r0_1)⟩]

theorem cover0_3 (p0 : Vec F S1024x128 .f32) (y : S1024x128.Idx) :
    ∃ pc ∈ ([⟨r0_0, p0⟩] : List (View.Piece (Elt F) S1024x128 .f32)), y ∈ pc.1.set :=
  View.cover_of_tiled [⟨r0_0, p0⟩] S1024x128.size (by rfl) y

set_option maxHeartbeats 1000000 in
theorem sound_kernel0 (c : Dev nD) (E : Set ℕ) (arg1 : Memref sig .tc .vmem S1024x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S1024x128 .f32) (harg4 : arg4.IsWhole) (arg5 : Memref sig .tc .vmem S1024x128 .f32) (harg5 : arg5.IsWhole)
    (i : grid0.Coords) (x0 : Vec F S1024x128 .f32) (x1 : Vec F S128x128 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1) ∗ owns (c : Thread nD τ) arg5 fullShare (out0_4 x0 x2)) -∗ K ⟨⟩))
      ⊢ wp frame (wpE (defs₀ (F := F)) Variants.none c none) E (cc0__proj2_body i arg1 harg1 arg2 harg2 arg3 harg3 arg4 harg4 arg5 harg5) K := by
  simp only [cc0__proj2_body_eq_skeleton]; unfold cc0__proj2_body_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_3 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t)
    | ⟨4, _⟩ => out0_4 (iblk0 V c 0 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) _)
  iframe H0 H1 H2
  isplitl [H3]; · iexists _; iexact H3
  isplitl [H4]; · iexists _; iexact H4
  iintro ⟨H0, H1, H2, H3, H4⟩
  iframe HΦ Ho H0 H1 H2 H3 H4

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1.lean ====
import proofs.«122060_g64467459113426_cont_9to1_m_811_14_alg».proof.Proof.Gen.KernelIdeal.Launch
import proofs.«122060_g64467459113426_cont_9to1_m_811_14_alg».proof.Proof.Gen.KernelIdeal.Skeleton
import proofs.«122060_g64467459113426_cont_9to1_m_811_14_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S1024x128 := Rect.unit (s := S1024x128) ![0, 0] S1024x128.size inb_S1024x128_S1024x128_0_0
abbrev r1_1 : Rect S128x128 := Rect.unit (s := S128x128) ![0, 0] S128x128.size inb_S128x128_S128x128_0_0

def out1_3 (x0 : Vec F S1024x128 .f32) (x1 : Vec F S128x128 .f32) : Vec F S1024x128 .f32 :=
  View.canon [⟨r1_0, k1_pay1 (View.ld x0 r1_0) (View.ld x1 r1_1)⟩]

def out1_4 (x0 : Vec F S1024x128 .f32) (x2 : Vec F S128x128 .f32) : Vec F S1024x128 .f32 :=
  View.canon [⟨r1_0, k1_pay2 (View.ld x0 r1_0) (View.ld x2 r1_1)⟩]

theorem cover1_3 (p0 : Vec F S1024x128 .f32) (y : S1024x128.Idx) :
    ∃ pc ∈ ([⟨r1_0, p0⟩] : List (View.Piece (Elt F) S1024x128 .f32)), y ∈ pc.1.set :=
  View.cover_of_tiled [⟨r1_0, p0⟩] S1024x128.size (by rfl) y

set_option maxHeartbeats 1000000 in
theorem sound_kernel1 (c : Dev nD) (E : Set ℕ) (arg1 : Memref sig .tc .vmem S1024x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S1024x128 .f32) (harg4 : arg4.IsWhole) (arg5 : Memref sig .tc .vmem S1024x128 .f32) (harg5 : arg5.IsWhole)
    (i : grid1.Coords) (x0 : Vec F S1024x128 .f32) (x1 : Vec F S128x128 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1) ∗ owns (c : Thread nD τ) arg5 fullShare (out1_4 x0 x2)) -∗ K ⟨⟩))
      ⊢ wp frame (wpE (defs₀ (F := F)) Variants.none c none) E (cc1__proj2_body i arg1 harg1 arg2 harg2 arg3 harg3 arg4 harg4 arg5 harg5) K := by
  simp only [cc1__proj2_body_eq_skeleton]; unfold cc1__proj2_body_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_3 _)
  iexists _; isplitr
  swap; · iexact H4
  ipureintro
  exact View.read_writes_eq_canon _ _ _ (cover1_3 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t)
    | ⟨4, _⟩ => out1_4 (iblk1 V c 0 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) := by dsimp only [dat1]
theorem after1_4 (c : Dev nD) (t : Fin cfg1.N) : (dat1 V c).after 4 t = out1_4 (iblk1 V c 0 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) _)
  iframe H0 H1 H2
  isplitl [H3]; · iexists _; iexact H3
  isplitl [H4]; · iexists _; iexact H4
  iintro ⟨H0, H1, H2, H3, H4⟩
  iframe HΦ Ho H0 H1 H2 H3 H4

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.R2.lean ====
import proofs.«122060_g64467459113426_cont_9to1_m_811_14_alg».proof.Proof.Gen.KernelIdeal.Launch
import proofs.«122060_g64467459113426_cont_9to1_m_811_14_alg».proof.Proof.Gen.KernelIdeal.Skeleton
import proofs.«122060_g64467459113426_cont_9to1_m_811_14_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S1024x128 := Rect.unit (s := S1024x128) ![0, 0] S1024x128.size inb_S1024x128_S1024x128_0_0
abbrev r2_1 : Rect S128x128 := Rect.unit (s := S128x128) ![0, 0] S128x128.size inb_S128x128_S128x128_0_0

def out2_2 (x0 : Vec F S1024x128 .f32) (x1 : Vec F S128x128 .f32) : Vec F S1024x128 .f32 :=
  View.canon [⟨r2_0, k2_pay1 (View.ld x0 r2_0) (View.ld x1 r2_1)⟩]

theorem cover2_2 (p0 : Vec F S1024x128 .f32) (y : S1024x128.Idx) :
    ∃ pc ∈ ([⟨r2_0, p0⟩] : List (View.Piece (Elt F) S1024x128 .f32)), y ∈ pc.1.set :=
  View.cover_of_tiled [⟨r2_0, p0⟩] S1024x128.size (by rfl) y

set_option maxHeartbeats 1000000 in
theorem sound_kernel2 (c : Dev nD) (E : Set ℕ) (arg1 : Memref sig .tc .vmem S1024x128 .f32) (harg1 : arg1.IsWhole) (arg2 : Memref sig .tc .vmem S128x128 .f32) (harg2 : arg2.IsWhole) (arg3 : Memref sig .tc .vmem S1024x128 .f32) (harg3 : arg3.IsWhole)
    (i : grid2.Coords) (x0 : Vec F S1024x128 .f32) (x1 : Vec F S128x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__proj1_body i arg1 harg1 arg2 harg2 arg3 harg3) K := by
  simp only [cc2__proj1_body_eq_skeleton]; unfold cc2__proj1_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  iframe H0 H1
  isplitl [H2]; · iexists _; iexact H2
  iintro ⟨H0, H1, H2⟩
  iframe HΦ Ho H0 H1 H2

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.D3.lean ====
import proofs.«122060_g64467459113426_cont_9to1_m_811_14_alg».proof.Proof.Gen.KernelIdeal.Launch
import proofs.«122060_g64467459113426_cont_9to1_m_811_14_alg».proof.Proof.Gen.KernelIdeal.Skeleton
import proofs.«122060_g64467459113426_cont_9to1_m_811_14_alg».proof.Proof.Gen.KernelIdeal.Points
import Idealize.ShloMosaic.Lib.Pipeline.FrameBody

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F]

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def acc3 (c : Dev nD) : (n : ℕ) → n < cfg3.N → Vec F S128x8192 .f32
  | 0, h => k3_pay6 (iblk3 V c 1 ⟨0, h⟩) (k3_pay2 (F := F)) (iblk3 V c 4 ⟨0, h⟩)
  | n + 1, h => k3_pay6 (iblk3 V c 1 ⟨n + 1, h⟩) (acc3 c n (Nat.lt_of_succ_lt h)) (iblk3 V c 4 ⟨n + 1, h⟩)

end Cert.KernelIdeal.Hand

end
-- ==== Proof.KI.R3.lean ====
import proofs.«122060_g64467459113426_cont_9to1_m_811_14_alg».proof.Proof.Gen.KernelIdeal.Launch
import proofs.«122060_g64467459113426_cont_9to1_m_811_14_alg».proof.Proof.Gen.KernelIdeal.Skeleton
import proofs.«122060_g64467459113426_cont_9to1_m_811_14_alg».proof.Proof.Gen.KernelIdeal.Points
import proofs.«122060_g64467459113426_cont_9to1_m_811_14_alg».proof.Proof.KI.D3
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

abbrev cond3_0 (i : grid3.Coords) : Prop := (Scalar.cmpi .ne (Scalar.extui (Scalar.cmpi .eq (BitVec.ofNat 32 (i 0).val) 0#32)) 0#32) = 1#1
theorem hcond3_0 : ∀ t : Fin cfg3.N, cond3_0 (grid3.coords t) ↔ t.val % 16 = 0 :=
  (by decide +kernel : ∀ t : Fin grid3.N, cond3_0 (grid3.coords t) ↔ t.val % 16 = 0)

abbrev cond3_1 (i : grid3.Coords) : Prop := k3_cond2 i = 1#1
theorem hcond3_1 : ∀ t : Fin cfg3.N, cond3_1 (grid3.coords t) ↔ t.val % 16 = 15 :=
  (by decide +kernel : ∀ t : Fin grid3.N, cond3_1 (grid3.coords t) ↔ t.val % 16 = 15)

theorem read_writes_whole {sig : RefSig} {κ : Kind} {sp : Space} {S : Shape} {e : EltTy} {Val : EltTy → Type} [∀ e, Nonempty (Val e)]
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons.mpr (Or.inl rfl), View.mem_set_unit_zero h inb y⟩), View.canon_cons_unit_zero h]

section
variable (c : Dev nD) (i : grid3.Coords) (arg1 : Memref sig .tc .vmem S256x4096 .f32) (harg1 : arg1.IsWhole) (arg2 : Memref sig .tc .vmem S256x8192 .f32) (harg2 : arg2.IsWhole) (arg3 : Memref sig .tc .vmem S4096x128 .f32) (harg3 : arg3.IsWhole) (arg4 : Memref sig .tc .vmem S8192x128 .f32) (harg4 : arg4.IsWhole) (arg5 : Memref sig .tc .vmem S256x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S256x128 .f32) (harg8 : arg8.IsWhole) (arg9 : Memref sig .tc .vmem S256x128 .f32) (harg9 : arg9.IsWhole) (arg10 : Memref sig .tc .vmem S8192x128 .f32) (harg10 : arg10.IsWhole) (arg11 : Memref sig .tc .vmem S128x8192 .f32) (harg11 : arg11.IsWhole)

set_option maxHeartbeats 2000000 in
theorem run3_mid (hc0 : ¬cond3_0 i) (hc1 : ¬cond3_1 i)
    (x0 : Vec F S256x4096 .f32) (x1 : Vec F S256x8192 .f32) (x2 : Vec F S4096x128 .f32) (x3 : Vec F S8192x128 .f32) (x4 : Vec F S256x128 .f32) (x5 : Vec F S128x128 .f32) (x6 : Vec F S128x128 .f32) (xs : Vec F S128x8192 .f32) (xi9 : Vec F S8192x128 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d) ∗ (∃ d, owns (c : Thread nD τ) arg9 fullShare d)
        ∗ owns (c : Thread nD τ) arg10 fullShare xi9 ∗ owns (c : Thread nD τ) arg11 fullShare xs
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6
            ∗ owns (c : Thread nD τ) arg8 fullShare (k3_pay4 x1 x0 x2 x3 x5) ∗ owns (c : Thread nD τ) arg9 fullShare (k3_pay5 x1 x0 x2 x3 x6)
            ∗ owns (c : Thread nD τ) arg10 fullShare xi9 ∗ owns (c : Thread nD τ) arg11 fullShare (k3_pay6 x1 xs x4)) -∗ K ⟨⟩))
      ⊢ wp frame (wpE (defs₀ (F := F)) Variants.none c none) E (cc3__s1_body i arg1 harg1 arg2 harg2 arg3 harg3 arg4 harg4 arg5 harg5 arg6 harg6 arg7 harg7 arg8 harg8 arg9 harg9 arg10 harg10 arg11 harg11) K := by
  simp only [cc3__s1_body_eq_skeleton]; unfold cc3__s1_body_skel
  simp only [k3_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%fs, %hfs, HS⟩, Hk⟩
  obtain rfl := harg1.eq_unread hf0; obtain rfl := harg2.eq_unread hf1; obtain rfl := harg3.eq_unread hf2; obtain rfl := harg4.eq_unread hf3
  obtain rfl := harg5.eq_unread hf4; obtain rfl := harg6.eq_unread hf5; obtain rfl := harg7.eq_unread hf6; obtain rfl := harg11.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr
    swap; · iexact H7
    ipureintro
    refine (read_writes_whole _ _ hz2 _ _ _).trans ?_
    simp only [View.readAt_eq_ld, Memref.IsWhole.read_unread, harg11.read_unread,
      View.ld_unit_zero (S := S256x4096) hz2, View.ld_unit_zero (S := S256x8192) hz2, View.ld_unit_zero (S := S4096x128) hz2, View.ld_unit_zero (S := S8192x128) hz2,
      View.ld_unit_zero (S := S256x128) hz2, View.ld_unit_zero (S := S128x128) hz2, View.ld_unit_zero (S := S128x8192) hz2]
  isplitl [H8]
  · iexists _; isplitr
    swap; · iexact H8
    ipureintro
    refine (read_writes_whole _ _ hz2 _ _ _).trans ?_
    simp only [View.readAt_eq_ld, Memref.IsWhole.read_unread, harg11.read_unread,
      View.ld_unit_zero (S := S256x4096) hz2, View.ld_unit_zero (S := S256x8192) hz2, View.ld_unit_zero (S := S4096x128) hz2, View.ld_unit_zero (S := S8192x128) hz2,
      View.ld_unit_zero (S := S256x128) hz2, View.ld_unit_zero (S := S128x128) hz2, View.ld_unit_zero (S := S128x8192) hz2]
  isplitl [H9]
  · iexists f9; isplitr; · ipureintro; exact hf9
    iexact H9
  iexists _; isplitr
  swap; · iexact HS
  ipureintro
  refine (read_writes_whole _ _ hz2 _ _ _).trans ?_
  sl_unfold_words
  simp only [View.readAt_eq_ld, Memref.IsWhole.read_unread, harg11.read_unread,
      View.ld_unit_zero (S := S256x4096) hz2, View.ld_unit_zero (S := S256x8192) hz2, View.ld_unit_zero (S := S4096x128) hz2, View.ld_unit_zero (S := S8192x128) hz2,
      View.ld_unit_zero (S := S256x128) hz2, View.ld_unit_zero (S := S128x128) hz2, View.ld_unit_zero (S := S128x8192) hz2]

set_option maxHeartbeats 2000000 in
theorem run3_first (hc0 : cond3_0 i) (hc1 : ¬cond3_1 i)
    (x0 : Vec F S256x4096 .f32) (x1 : Vec F S256x8192 .f32) (x2 : Vec F S4096x128 .f32) (x3 : Vec F S8192x128 .f32) (x4 : Vec F S256x128 .f32) (x5 : Vec F S128x128 .f32) (x6 : Vec F S128x128 .f32) (xi9 : Vec F S8192x128 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d) ∗ (∃ d, owns (c : Thread nD τ) arg9 fullShare d)
        ∗ owns (c : Thread nD τ) arg10 fullShare xi9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6
            ∗ owns (c : Thread nD τ) arg8 fullShare (k3_pay4 x1 x0 x2 x3 x5) ∗ owns (c : Thread nD τ) arg9 fullShare (k3_pay5 x1 x0 x2 x3 x6)
            ∗ owns (c : Thread nD τ) arg10 fullShare xi9 ∗ owns (c : Thread nD τ) arg11 fullShare (k3_pay6 x1 (k3_pay2 (F := F)) x4)) -∗ K ⟨⟩))
      ⊢ wp frame (wpE (defs₀ (F := F)) Variants.none c none) E (cc3__s1_body i arg1 harg1 arg2 harg2 arg3 harg3 arg4 harg4 arg5 harg5 arg6 harg6 arg7 harg7 arg8 harg8 arg9 harg9 arg10 harg10 arg11 harg11) K := by
  simp only [cc3__s1_body_eq_skeleton]; unfold cc3__s1_body_skel
  simp only [k3_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%ds, %fs, -, HS⟩, Hk⟩
  obtain rfl := harg1.eq_unread hf0; obtain rfl := harg2.eq_unread hf1; obtain rfl := harg3.eq_unread hf2; obtain rfl := harg4.eq_unread hf3
  obtain rfl := harg5.eq_unread hf4; obtain rfl := harg6.eq_unread hf5; obtain rfl := harg7.eq_unread hf6
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr
    swap; · iexact H7
    ipureintro
    refine (read_writes_whole _ _ hz2 _ _ _).trans ?_
    simp only [View.readAt_eq_ld, Memref.IsWhole.read_unread, harg11.read_unread,
      View.ld_unit_zero (S := S256x4096) hz2, View.ld_unit_zero (S := S256x8192) hz2, View.ld_unit_zero (S := S4096x128) hz2, View.ld_unit_zero (S := S8192x128) hz2,
      View.ld_unit_zero (S := S256x128) hz2, View.ld_unit_zero (S := S128x128) hz2, View.ld_unit_zero (S := S128x8192) hz2]
  isplitl [H8]
  · iexists _; isplitr
    swap; · iexact H8
    ipureintro
    refine (read_writes_whole _ _ hz2 _ _ _).trans ?_
    simp only [View.readAt_eq_ld, Memref.IsWhole.read_unread, harg11.read_unread,
      View.ld_unit_zero (S := S256x4096) hz2, View.ld_unit_zero (S := S256x8192) hz2, View.ld_unit_zero (S := S4096x128) hz2, View.ld_unit_zero (S := S8192x128) hz2,
      View.ld_unit_zero (S := S256x128) hz2, View.ld_unit_zero (S := S128x128) hz2, View.ld_unit_zero (S := S128x8192) hz2]
  isplitl [H9]
  · iexists f9; isplitr; · ipureintro; exact hf9
    iexact H9
  iexists _; isplitr
  swap; · iexact HS
  ipureintro
  refine (read_writes_whole _ _ hz2 _ _ _).trans ?_
  sl_unfold_words
  simp only [View.readAt_eq_ld, Memref.IsWhole.read_unread, harg11.read_unread,
      View.ld_unit_zero (S := S256x4096) hz2, View.ld_unit_zero (S := S256x8192) hz2, View.ld_unit_zero (S := S4096x128) hz2, View.ld_unit_zero (S := S8192x128) hz2,
      View.ld_unit_zero (S := S256x128) hz2, View.ld_unit_zero (S := S128x128) hz2, View.ld_unit_zero (S := S128x8192) hz2, View.readCov_unit_zero (S := S128x8192) _ hz2]

set_option maxHeartbeats 2000000 in
theorem run3_last (hc0 : ¬cond3_0 i) (hc1 : cond3_1 i)
    (x0 : Vec F S256x4096 .f32) (x1 : Vec F S256x8192 .f32) (x2 : Vec F S4096x128 .f32) (x3 : Vec F S8192x128 .f32) (x4 : Vec F S256x128 .f32) (x5 : Vec F S128x128 .f32) (x6 : Vec F S128x128 .f32) (xs : Vec F S128x8192 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d) ∗ (∃ d, owns (c : Thread nD τ) arg9 fullShare d)
        ∗ (∃ d, owns (c : Thread nD τ) arg10 fullShare d) ∗ owns (c : Thread nD τ) arg11 fullShare xs
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6
            ∗ owns (c : Thread nD τ) arg8 fullShare (k3_pay4 x1 x0 x2 x3 x5) ∗ owns (c : Thread nD τ) arg9 fullShare (k3_pay5 x1 x0 x2 x3 x6)
            ∗ owns (c : Thread nD τ) arg10 fullShare (k3_pay1 (k3_pay6 x1 xs x4)) ∗ owns (c : Thread nD τ) arg11 fullShare (k3_pay6 x1 xs x4)) -∗ K ⟨⟩))
      ⊢ wp frame (wpE (defs₀ (F := F)) Variants.none c none) E (cc3__s1_body i arg1 harg1 arg2 harg2 arg3 harg3 arg4 harg4 arg5 harg5 arg6 harg6 arg7 harg7 arg8 harg8 arg9 harg9 arg10 harg10 arg11 harg11) K := by
  simp only [cc3__s1_body_eq_skeleton]; unfold cc3__s1_body_skel
  simp only [k3_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%fs, %hfs, HS⟩, Hk⟩
  obtain rfl := harg1.eq_unread hf0; obtain rfl := harg2.eq_unread hf1; obtain rfl := harg3.eq_unread hf2; obtain rfl := harg4.eq_unread hf3
  obtain rfl := harg5.eq_unread hf4; obtain rfl := harg6.eq_unread hf5; obtain rfl := harg7.eq_unread hf6; obtain rfl := harg11.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr
    swap; · iexact H7
    ipureintro
    refine (read_writes_whole _ _ hz2 _ _ _).trans ?_
    simp only [View.readAt_eq_ld, Memref.IsWhole.read_unread, harg11.read_unread,
      View.ld_unit_zero (S := S256x4096) hz2, View.ld_unit_zero (S := S256x8192) hz2, View.ld_unit_zero (S := S4096x128) hz2, View.ld_unit_zero (S := S8192x128) hz2,
      View.ld_unit_zero (S := S256x128) hz2, View.ld_unit_zero (S := S128x128) hz2, View.ld_unit_zero (S := S128x8192) hz2]
  isplitl [H8]
  · iexists _; isplitr
    swap; · iexact H8
    ipureintro
    refine (read_writes_whole _ _ hz2 _ _ _).trans ?_
    simp only [View.readAt_eq_ld, Memref.IsWhole.read_unread, harg11.read_unread,
      View.ld_unit_zero (S := S256x4096) hz2, View.ld_unit_zero (S := S256x8192) hz2, View.ld_unit_zero (S := S4096x128) hz2, View.ld_unit_zero (S := S8192x128) hz2,
      View.ld_unit_zero (S := S256x128) hz2, View.ld_unit_zero (S := S128x128) hz2, View.ld_unit_zero (S := S128x8192) hz2]
  isplitl [H9]
  · iexists _; isplitr
    swap; · iexact H9
    ipureintro
    refine (read_writes_whole _ _ hz2 _ _ _).trans ?_
    sl_unfold_words
    simp only [View.readAt_eq_ld, Memref.IsWhole.read_unread, harg11.read_unread,
      View.ld_unit_zero (S := S256x4096) hz2, View.ld_unit_zero (S := S256x8192) hz2, View.ld_unit_zero (S := S4096x128) hz2, View.ld_unit_zero (S := S8192x128) hz2,
      View.ld_unit_zero (S := S256x128) hz2, View.ld_unit_zero (S := S128x128) hz2, View.ld_unit_zero (S := S128x8192) hz2, View.readCov_unit_zero (S := S128x8192) _ hz2]
  iexists _; isplitr
  swap; · iexact HS
  ipureintro
  refine (read_writes_whole _ _ hz2 _ _ _).trans ?_
  sl_unfold_words
  simp only [View.readAt_eq_ld, Memref.IsWhole.read_unread, harg11.read_unread,
      View.ld_unit_zero (S := S256x4096) hz2, View.ld_unit_zero (S := S256x8192) hz2, View.ld_unit_zero (S := S4096x128) hz2, View.ld_unit_zero (S := S8192x128) hz2,
      View.ld_unit_zero (S := S256x128) hz2, View.ld_unit_zero (S := S128x128) hz2, View.ld_unit_zero (S := S128x8192) hz2, View.readCov_unit_zero (S := S128x8192) _ hz2]

end

theorem liveAt3_9 : ∀ t : Fin cfg3.N, cond3_1 (grid3.coords t) → cfg3.idle 9 (grid3.coords t) = false := by decide +kernel
theorem idleAt3_9 : ∀ t : Fin cfg3.N, ¬cond3_1 (grid3.coords t) → cfg3.idle 9 (grid3.coords t) = true := by decide +kernel
theorem noFlush3_9 : ∀ t : Fin cfg3.N, ¬cond3_1 (grid3.coords t) → (cfg3.win 9).flush t = false := by decide +kernel

abbrev scM3 : Memref sig .tc .vmem S128x8192 .f32 := Memref.whole cc3_scratch0

variable (V : (c : Dev nD) → (b : Ref sig .tc) → Buf (Elt F) ((c : Thread nD τ).loc b))

theorem acc3_first (c : Dev nD) (t : Fin cfg3.N) (h : t.val = 0) :
    acc3 V c t.val t.isLt = k3_pay6 (iblk3 V c 1 t) (k3_pay2 (F := F)) (iblk3 V c 4 t) := by
  obtain ⟨n, hn⟩ := t
  cases n with
  | zero => rfl
  | succ n => exact absurd h (Nat.succ_ne_zero n)

theorem acc3_later (c : Dev nD) (t : Fin cfg3.N) (h : t.val ≠ 0) :
    acc3 V c t.val t.isLt
      = k3_pay6 (iblk3 V c 1 t) (acc3 V c (t.val - 1) (Nat.lt_of_le_of_lt (Nat.sub_le _ _) t.isLt)) (iblk3 V c 4 t) := by
  obtain ⟨n, hn⟩ := t
  cases n with
  | zero => exact absurd rfl h
  | succ n => rfl

def Phi3 (c : Dev nD) : (n : ℕ) → n ≤ cfg3.N → sProp 𝕄
  | 0, _ => Pipeline.ΦA spec3 c
  | n + 1, hn => iprop(iprop(owns (c : Thread nD τ) scM3 fullShare (acc3 V c n hn) ∗ Pipeline.scopedRestBut (Ix := Unit) (Name := ℕ) (U := UR sig nD τ) (Lvl := ℕ) (Val := Elt F) spec3 c [cc3_scratch0]) ∗ (∃ r, prngReg c r))

theorem Phi3_zero (c : Dev nD) (n : ℕ) (h : n ≤ cfg3.N) (hz : n = 0) : Phi3 V c n h = Pipeline.ΦA spec3 c := by
  subst hz; rfl

theorem Phi3_succ (c : Dev nD) (n : ℕ) (hn : n < cfg3.N) :
    Phi3 V c (n + 1) hn = iprop(iprop(owns (c : Thread nD τ) scM3 fullShare (acc3 V c n hn) ∗ Pipeline.scopedRestBut (Ix := Unit) (Name := ℕ) (U := UR sig nD τ) (Lvl := ℕ) (Val := Elt F) spec3 c [cc3_scratch0]) ∗ (∃ r, prngReg c r)) := rfl

theorem Phi3_pos (c : Dev nD) (n : ℕ) (h : n ≤ cfg3.N) (hz : n ≠ 0) :
    Phi3 V c n h = iprop(iprop(owns (c : Thread nD τ) scM3 fullShare (acc3 V c (n - 1) (by omega)) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

theorem PhiA3_eq (c : Dev nD) :
    (Pipeline.ΦA spec3 c : sProp 𝕄)
      = iprop(iprop((∃ d, owns (c : Thread nD τ) scM3 fullShare d) ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => k3_pay4 (iblk3 V c 1 t) (iblk3 V c 0 t) (iblk3 V c 2 t) (iblk3 V c 3 t) (iblk3 V c 5 t)
    | ⟨8, _⟩ => k3_pay5 (iblk3 V c 1 t) (iblk3 V c 0 t) (iblk3 V c 2 t) (iblk3 V c 3 t) (iblk3 V c 6 t)
    | ⟨9, _⟩ => k3_pay1 (acc3 V c t.val t.isLt)
  Φ t := Phi3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem Phi3_castSucc (c : Dev nD) (t : Fin cfg3.N) :
    (dat3 V c).Φ t.castSucc = Phi3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = k3_pay4 (iblk3 V c 1 t) (iblk3 V c 0 t) (iblk3 V c 2 t) (iblk3 V c 3 t) (iblk3 V c 5 t) := by dsimp only [dat3]
theorem after3_8 (c : Dev nD) (t : Fin cfg3.N) : (dat3 V c).after 8 t = k3_pay5 (iblk3 V c 1 t) (iblk3 V c 0 t) (iblk3 V c 2 t) (iblk3 V c 3 t) (iblk3 V c 6 t) := by dsimp only [dat3]
theorem after3_9 (c : Dev nD) (t : Fin cfg3.N) : (dat3 V c).after 9 t = k3_pay1 (acc3 V c t.val t.isLt) := by dsimp only [dat3]
theorem after3_9_last (c : Dev nD) (t : Fin cfg3.N) (ht : t.val = 15) : (dat3 V c).after 9 t = k3_pay1 (acc3 V c t.val t.isLt) := after3_9 V c t

theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl) (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl) (fun t => by rw [after3_3]; unfold Dat.blockOf iblk3; rw [A_eq3]; try rfl) t d).trans
    (by unfold Dat.fetched Dat.blockOf iblk3; rw [A_eq3]; try rfl)
theorem before3_4 (c : Dev nD) (t : Fin cfg3.N) (d) : (dat3 V c).before 4 t d = iblk3 V c 4 t :=
  ((dat3 V c).before_in_eq_fetched 4 rfl (fun _ => rfl) (fun _ _ _ => rfl) (fun t => by rw [after3_4]; unfold Dat.blockOf iblk3; rw [A_eq3]; try rfl) t d).trans
    (by unfold Dat.fetched Dat.blockOf iblk3; rw [A_eq3]; try rfl)
theorem before3_5 (c : Dev nD) (t : Fin cfg3.N) (d) : (dat3 V c).before 5 t d = iblk3 V c 5 t :=
  ((dat3 V c).before_in_eq_fetched 5 rfl (fun _ => rfl) (fun _ _ _ => rfl) (fun t => by rw [after3_5]; unfold Dat.blockOf iblk3; rw [A_eq3]; try rfl) t d).trans
    (by unfold Dat.fetched Dat.blockOf iblk3; rw [A_eq3]; try rfl)
theorem before3_6 (c : Dev nD) (t : Fin cfg3.N) (d) : (dat3 V c).before 6 t d = iblk3 V c 6 t :=
  ((dat3 V c).before_in_eq_fetched 6 rfl (fun _ => rfl) (fun _ _ _ => rfl) (fun t => by rw [after3_6]; unfold Dat.blockOf iblk3; rw [A_eq3]; try rfl) t d).trans
    (by unfold Dat.fetched Dat.blockOf iblk3; rw [A_eq3]; try rfl)

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ (dat3 V c).leavesExact 9 t)

set_option maxHeartbeats 4800000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).owesAt () t.succ = (dat3 V c).owesAt () t.castSucc from rfl]
  rw [show (dat3 V c).Φ t.succ = Phi3 V c (t.val + 1) t.isLt from rfl, Phi3_succ]
  rw [after3_0, after3_1, after3_2, after3_3, after3_4, after3_5, after3_6, after3_7, after3_8]
  have hN : t.val < 16 := lt_of_lt_of_eq t.isLt (show cfg3.N = 16 from N_3)
  by_cases h0 : t.val % 16 = 0
  · have hz : t.val = 0 := by omega
    have h1 : ¬t.val % 16 = 15 := by omega
    rw [Dat.leavesExact_idle (dat3 V c) 9 t (idleAt3_9 t (fun h => h1 ((hcond3_1 t).mp h))) (noFlush3_9 t (fun h => h1 ((hcond3_1 t).mp h)))]
    rw [acc3_first V c t hz]
    rw [Phi3_castSucc V c t, Phi3_zero V c _ _ hz, PhiA3_eq]
    iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run3_first c (grid3.coords t) _ _ _ _ _ _ _ _ _ _ _ _ _ _ _ _ _ _ _ _ _ _ ((hcond3_0 t).mpr h0) (fun h => h1 ((hcond3_1 t).mp h)) (iblk3 V c 0 t) (iblk3 V c 1 t) (iblk3 V c 2 t) (iblk3 V c 3 t) (iblk3 V c 4 t) (iblk3 V c 5 t) (iblk3 V c 6 t) _ Set.univ _)
    iframe H0 H1 H2 H3 H4 H5 H6
    isplitl [H7]; · iexists _; iexact H7
    isplitl [H8]; · iexists _; iexact H8
    iframe H9 HS
    iintro ⟨H0, H1, H2, H3, H4, H5, H6, H7, H8, H9, HS⟩
    isplitl [HS Hr Hg]
    · isplitl [HS Hr]
      · isplitl [HS]; · iexact HS
        iexact Hr
      iexact Hg
    iframe Ho H0 H1 H2 H3 H4 H5 H6 H7 H8
    iexists _; iexact H9
  · have hz : t.val ≠ 0 := fun h => h0 (by rw [h])
    by_cases h1 : t.val % 16 = 15
    · rw [show (dat3 V c).leavesExact 9 t = owns (c : Thread nD τ) (st3_9 t) fullShare ((dat3 V c).after 9 t) from by
        unfold Dat.leavesExact; rw [liveAt3_9 t ((hcond3_1 t).mpr h1)], after3_9]
      rw [acc3_later V c t hz]
      rw [Phi3_castSucc V c t, Phi3_pos V c _ _ hz]
      iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run3_last c (grid3.coords t) _ _ _ _ _ _ _ _ _ _ _ _ _ _ _ _ _ _ _ _ _ _ (fun h => h0 ((hcond3_0 t).mp h)) ((hcond3_1 t).mpr h1) (iblk3 V c 0 t) (iblk3 V c 1 t) (iblk3 V c 2 t) (iblk3 V c 3 t) (iblk3 V c 4 t) (iblk3 V c 5 t) (iblk3 V c 6 t) _ Set.univ _)
      iframe H0 H1 H2 H3 H4 H5 H6
      isplitl [H7]; · iexists _; iexact H7
      isplitl [H8]; · iexists _; iexact H8
      isplitl [H9]; · iexists _; iexact H9
      iframe HS
      iintro ⟨H0, H1, H2, H3, H4, H5, H6, H7, H8, H9, HS⟩
      isplitl [HS Hr Hg]
      · isplitl [HS Hr]
        · isplitl [HS]; · iexact HS
          iexact Hr
        iexact Hg
      iframe Ho H0 H1 H2 H3 H4 H5 H6 H7 H8 H9
    · rw [Dat.leavesExact_idle (dat3 V c) 9 t (idleAt3_9 t (fun h => h1 ((hcond3_1 t).mp h))) (noFlush3_9 t (fun h => h1 ((hcond3_1 t).mp h)))]
      rw [acc3_later V c t hz]
      rw [Phi3_castSucc V c t, Phi3_pos V c _ _ hz]
      iintro ⟨⟨⟨HS, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run3_mid c (grid3.coords t) _ _ _ _ _ _ _ _ _ _ _ _ _ _ _ _ _ _ _ _ _ _ (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (iblk3 V c 6 t) _ _ Set.univ _)
      iframe H0 H1 H2 H3 H4 H5 H6
      isplitl [H7]; · iexists _; iexact H7
      isplitl [H8]; · iexists _; iexact H8
      iframe H9 HS
      iintro ⟨H0, H1, H2, H3, H4, H5, H6, H7, H8, H9, HS⟩
      isplitl [HS Hr Hg]
      · isplitl [HS Hr]
        · isplitl [HS]; · iexact HS
          iexact Hr
        iexact Hg
      iframe Ho H0 H1 H2 H3 H4 H5 H6 H7 H8
      iexists _; iexact H9

theorem body_obligation3 (c : Dev nD) : BodyObligation (dat3 (F := F) V c) (defs₀ (F := F)) Variants.none () Set.univ := fun t => by
  rw [bigSep_W3, bigSep_W3]
  exact sound_body3 V c t

theorem hin3 (c : Dev nD) : (Pipeline.ΦA spec3 c : sProp 𝕄) ⊢ (dat3 V c).Φ 0 := by
  rw [show (dat3 V c).Φ 0 = Phi3 V c 0 (Nat.zero_le _) from rfl, Phi3_zero V c 0 _ rfl]

theorem hout3 (c : Dev nD) : (dat3 V c).Φ (Fin.last cfg3.N) ⊢ (Pipeline.ΦA spec3 c : sProp 𝕄) := by
  have hN : (Fin.last cfg3.N).val ≠ 0 := by rw [Fin.val_last]; have : cfg3.N = 16 := N_3; omega
  rw [show (dat3 V c).Φ (Fin.last cfg3.N) = Phi3 V c (Fin.last cfg3.N).val (Nat.le_of_lt_succ (Fin.last cfg3.N).isLt) from rfl,
    Phi3_pos V c _ _ hN, PhiA3_eq]
  iintro ⟨⟨HS, Hr⟩, Hg⟩
  isplitl [HS Hr]
  · isplitl [HS]
    · iexists _; iexact HS
    iexact Hr
  iexact Hg

end Cert.KernelIdeal.Hand

end
-- ==== Proof.KI.D4.lean ====
import proofs.«122060_g64467459113426_cont_9to1_m_811_14_alg».proof.Proof.Gen.KernelIdeal.Launch
import proofs.«122060_g64467459113426_cont_9to1_m_811_14_alg».proof.Proof.Gen.KernelIdeal.Skeleton
import proofs.«122060_g64467459113426_cont_9to1_m_811_14_alg».proof.Proof.Gen.KernelIdeal.Points
import Idealize.ShloMosaic.Lib.Pipeline.FrameBody

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F]

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def acc4 (c : Dev nD) : (n : ℕ) → n < cfg4.N → Vec F S128x4096 .f32
  | 0, h => k4_pay6 (iblk4 V c 0 ⟨0, h⟩) (k4_pay2 (F := F)) (iblk4 V c 2 ⟨0, h⟩)
  | n + 1, h => k4_pay6 (iblk4 V c 0 ⟨n + 1, h⟩) (acc4 c n (Nat.lt_of_succ_lt h)) (iblk4 V c 2 ⟨n + 1, h⟩)

end Cert.KernelIdeal.Hand

end
-- ==== Proof.KI.R4.lean ====
import proofs.«122060_g64467459113426_cont_9to1_m_811_14_alg».proof.Proof.Gen.KernelIdeal.Launch
import proofs.«122060_g64467459113426_cont_9to1_m_811_14_alg».proof.Proof.Gen.KernelIdeal.Skeleton
import proofs.«122060_g64467459113426_cont_9to1_m_811_14_alg».proof.Proof.Gen.KernelIdeal.Points
import proofs.«122060_g64467459113426_cont_9to1_m_811_14_alg».proof.Proof.KI.D4
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond4_0 (i : grid4.Coords) : Prop :=
  (Scalar.cmpi .ne (Scalar.extui (Scalar.cmpi .eq (BitVec.ofNat 32 (i 0).val) 0#32)) 0#32) = 1#1

theorem hcond4_0 : ∀ t : Fin cfg4.N, cond4_0 (grid4.coords t) ↔ t.val % 8 = 0 :=
  (by decide +kernel : ∀ t : Fin grid4.N, cond4_0 (grid4.coords t) ↔ t.val % 8 = 0)

abbrev cond4_1 (i : grid4.Coords) : Prop := k4_cond2 i = 1#1

theorem hcond4_1 : ∀ t : Fin cfg4.N, cond4_1 (grid4.coords t) ↔ t.val % 8 = 7 :=
  (by decide +kernel : ∀ t : Fin grid4.N, cond4_1 (grid4.coords t) ↔ t.val % 8 = 7)

theorem zero2 : (![0, 0] : Fin 2 → Nat) = fun _ => 0 := funext fun a => by fin_cases a <;> rfl

section
variable (c : Dev nD) (i : grid4.Coords) (arg1 : Memref sig .tc .vmem S1024x4096 .f32) (harg1 : arg1.IsWhole) (arg2 : Memref sig .tc .vmem S4096x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S4096x128 .f32) (harg10 : arg10.IsWhole) (arg11 : Memref sig .tc .vmem S128x4096 .f32) (harg11 : arg11.IsWhole)

section
variable (hc0 : cond4_0 i) (hc1 : ¬cond4_1 i)
  (x0 : Vec F S1024x4096 .f32) (x1 : Vec F S4096x128 .f32) (x2 : Vec F S1024x128 .f32) (x3 : Vec F S1024x128 .f32) (x4 : Vec F S128x128 .f32) (x5 : Vec F S128x128 .f32) (x6 : Vec F S128x128 .f32)
include hc0 hc1

set_option maxHeartbeats 4000000 in
noncomputable def kernelRun4_A :
    Σ' (L7 : List (View.Piece (Elt F) S1024x128 .f32)) (L8 : List (View.Piece (Elt F) S1024x128 .f32)), { LS : List (View.Piece (Elt F) S128x4096 .f32) //
      ∀ (xi9 : Vec F S4096x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ (∃ d, owns (c : Thread nD τ) arg8 fullShare d) ∗ (∃ d, owns (c : Thread nD τ) arg9 fullShare d) ∗ owns (c : Thread nD τ) arg10 fullShare xi9 ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
                ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ owns (c : Thread nD τ) arg10 fullShare xi9 ∗ (∃ f, arg11.view.loc (c : Thread nD τ) ↦[arg11.view.set]{fullShare} arg11.view.writes (Elt F) f LS)) -∗ K ⟨⟩))
          ⊢ wp frame (wpE (defs₀ (F := F)) Variants.none c none) E (cc4__s2_body i arg1 harg1 arg2 harg2 arg3 harg3 arg4 harg4 arg5 harg5 arg6 harg6 arg7 harg7 arg8 harg8 arg9 harg9 arg10 harg10 arg11 harg11) K } := by
  refine ⟨?_, ?_, ?_, fun xi9 E K => ?run⟩
  case run =>
    simp only [cc4__s2_body_eq_skeleton]; unfold cc4__s2_body_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%ds, %fs, -, HS⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5; obtain rfl := harg7.eq_unread hf6; obtain rfl := harg10.eq_unread hf9
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [H9]
    · iexists _; isplitr; · ipureintro; exact harg10.read_unread _
      iexact H9
    iexists _; iexact HS

theorem left4_A_7 (f : arg8.view.ty.Contents (Elt F)) :
    arg8.view.read (Elt F) (arg8.view.writes (Elt F) f (kernelRun4_A c i arg1 harg1 arg2 harg2 arg3 harg3 arg4 harg4 arg5 harg5 arg6 harg6 arg7 harg7 arg8 harg8 arg9 harg9 arg10 harg10 arg11 harg11 hc0 hc1 x0 x1 x2 x3 x4 x5 x6).1) = k4_pay4 x0 x3 x1 x4 :=
  (View.read_writes_eq_canon arg8.view f _ (View.cover_of_tiledL _ S1024x128.size (by sl_kernel_rfl))).trans (by
    unfold kernelRun4_A
    dsimp only
    try sl_unfold_words
    rw [View.canon_unit_zero zero2]
    simp only [View.readAt_eq_ld, Memref.IsWhole.read_unread, View.ld_unit_zero (S := S1024x4096) zero2, View.ld_unit_zero (S := S4096x128) zero2, View.ld_unit_zero (S := S1024x128) zero2, View.ld_unit_zero (S := S128x128) zero2, View.ld_unit_zero (S := S128x4096) zero2])

theorem left4_A_8 (f : arg9.view.ty.Contents (Elt F)) :
    arg9.view.read (Elt F) (arg9.view.writes (Elt F) f (kernelRun4_A c i arg1 harg1 arg2 harg2 arg3 harg3 arg4 harg4 arg5 harg5 arg6 harg6 arg7 harg7 arg8 harg8 arg9 harg9 arg10 harg10 arg11 harg11 hc0 hc1 x0 x1 x2 x3 x4 x5 x6).2.1) = k4_pay5 x0 x3 x1 x5 :=
  (View.read_writes_eq_canon arg9.view f _ (View.cover_of_tiledL _ S1024x128.size (by sl_kernel_rfl))).trans (by
    unfold kernelRun4_A
    dsimp only
    try sl_unfold_words
    rw [View.canon_unit_zero zero2]
    simp only [View.readAt_eq_ld, Memref.IsWhole.read_unread, View.ld_unit_zero (S := S1024x4096) zero2, View.ld_unit_zero (S := S4096x128) zero2, View.ld_unit_zero (S := S1024x128) zero2, View.ld_unit_zero (S := S128x128) zero2, View.ld_unit_zero (S := S128x4096) zero2])

theorem left4_A_S (f : arg11.view.ty.Contents (Elt F)) :
    arg11.view.read (Elt F) (arg11.view.writes (Elt F) f (kernelRun4_A c i arg1 harg1 arg2 harg2 arg3 harg3 arg4 harg4 arg5 harg5 arg6 harg6 arg7 harg7 arg8 harg8 arg9 harg9 arg10 harg10 arg11 harg11 hc0 hc1 x0 x1 x2 x3 x4 x5 x6).2.2.1) = k4_pay6 x0 (k4_pay2 (F := F)) x2 :=
  (View.read_writes_eq_canon arg11.view f _ (View.cover_of_tiledL _ S128x4096.size (by sl_kernel_rfl))).trans (by
    unfold kernelRun4_A
    dsimp only
    try sl_unfold_words
    rw [View.canon_cons_unit_zero (S := S128x4096) zero2]
    simp only [View.readCov_unit_zero (S := S128x4096) _ zero2, View.readAt_eq_ld, Memref.IsWhole.read_unread, View.ld_unit_zero (S := S1024x4096) zero2, View.ld_unit_zero (S := S4096x128) zero2, View.ld_unit_zero (S := S1024x128) zero2, View.ld_unit_zero (S := S128x128) zero2, View.ld_unit_zero (S := S128x4096) zero2])

end

section
variable (hc0 : ¬cond4_0 i) (hc1 : ¬cond4_1 i)
  (x0 : Vec F S1024x4096 .f32) (x1 : Vec F S4096x128 .f32) (x2 : Vec F S1024x128 .f32) (x3 : Vec F S1024x128 .f32) (x4 : Vec F S128x128 .f32) (x5 : Vec F S128x128 .f32) (x6 : Vec F S128x128 .f32) (xs : Vec F S128x4096 .f32)
include hc0 hc1

set_option maxHeartbeats 4000000 in
noncomputable def kernelRun4_B :
    Σ' (L7 : List (View.Piece (Elt F) S1024x128 .f32)) (L8 : List (View.Piece (Elt F) S1024x128 .f32)), { LS : List (View.Piece (Elt F) S128x4096 .f32) //
      ∀ (xi9 : Vec F S4096x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ (∃ d, owns (c : Thread nD τ) arg8 fullShare d) ∗ (∃ d, owns (c : Thread nD τ) arg9 fullShare d) ∗ owns (c : Thread nD τ) arg10 fullShare xi9 ∗ owns (c : Thread nD τ) arg11 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
                ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ owns (c : Thread nD τ) arg10 fullShare xi9 ∗ (∃ f, arg11.view.loc (c : Thread nD τ) ↦[arg11.view.set]{fullShare} arg11.view.writes (Elt F) f LS)) -∗ K ⟨⟩))
          ⊢ wp frame (wpE (defs₀ (F := F)) Variants.none c none) E (cc4__s2_body i arg1 harg1 arg2 harg2 arg3 harg3 arg4 harg4 arg5 harg5 arg6 harg6 arg7 harg7 arg8 harg8 arg9 harg9 arg10 harg10 arg11 harg11) K } := by
  refine ⟨?_, ?_, ?_, fun xi9 E K => ?run⟩
  case run =>
    simp only [cc4__s2_body_eq_skeleton]; unfold cc4__s2_body_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%fs, %hfs, HS⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5; obtain rfl := harg7.eq_unread hf6; obtain rfl := harg10.eq_unread hf9; obtain rfl := harg11.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [H9]
    · iexists _; isplitr; · ipureintro; exact harg10.read_unread _
      iexact H9
    iexists _; iexact HS

theorem left4_B_7 (f : arg8.view.ty.Contents (Elt F)) :
    arg8.view.read (Elt F) (arg8.view.writes (Elt F) f (kernelRun4_B c i arg1 harg1 arg2 harg2 arg3 harg3 arg4 harg4 arg5 harg5 arg6 harg6 arg7 harg7 arg8 harg8 arg9 harg9 arg10 harg10 arg11 harg11 hc0 hc1 x0 x1 x2 x3 x4 x5 x6 xs).1) = k4_pay4 x0 x3 x1 x4 :=
  (View.read_writes_eq_canon arg8.view f _ (View.cover_of_tiledL _ S1024x128.size (by sl_kernel_rfl))).trans (by
    unfold kernelRun4_B
    dsimp only
    try sl_unfold_words
    rw [View.canon_unit_zero zero2]
    simp only [View.readAt_eq_ld, Memref.IsWhole.read_unread, View.ld_unit_zero (S := S1024x4096) zero2, View.ld_unit_zero (S := S4096x128) zero2, View.ld_unit_zero (S := S1024x128) zero2, View.ld_unit_zero (S := S128x128) zero2, View.ld_unit_zero (S := S128x4096) zero2])

theorem left4_B_8 (f : arg9.view.ty.Contents (Elt F)) :
    arg9.view.read (Elt F) (arg9.view.writes (Elt F) f (kernelRun4_B c i arg1 harg1 arg2 harg2 arg3 harg3 arg4 harg4 arg5 harg5 arg6 harg6 arg7 harg7 arg8 harg8 arg9 harg9 arg10 harg10 arg11 harg11 hc0 hc1 x0 x1 x2 x3 x4 x5 x6 xs).2.1) = k4_pay5 x0 x3 x1 x5 :=
  (View.read_writes_eq_canon arg9.view f _ (View.cover_of_tiledL _ S1024x128.size (by sl_kernel_rfl))).trans (by
    unfold kernelRun4_B
    dsimp only
    try sl_unfold_words
    rw [View.canon_unit_zero zero2]
    simp only [View.readAt_eq_ld, Memref.IsWhole.read_unread, View.ld_unit_zero (S := S1024x4096) zero2, View.ld_unit_zero (S := S4096x128) zero2, View.ld_unit_zero (S := S1024x128) zero2, View.ld_unit_zero (S := S128x128) zero2, View.ld_unit_zero (S := S128x4096) zero2])

theorem left4_B_S (f : arg11.view.ty.Contents (Elt F)) :
    arg11.view.read (Elt F) (arg11.view.writes (Elt F) f (kernelRun4_B c i arg1 harg1 arg2 harg2 arg3 harg3 arg4 harg4 arg5 harg5 arg6 harg6 arg7 harg7 arg8 harg8 arg9 harg9 arg10 harg10 arg11 harg11 hc0 hc1 x0 x1 x2 x3 x4 x5 x6 xs).2.2.1) = k4_pay6 x0 xs x2 :=
  (View.read_writes_eq_canon arg11.view f _ (View.cover_of_tiledL _ S128x4096.size (by sl_kernel_rfl))).trans (by
    unfold kernelRun4_B
    dsimp only
    try sl_unfold_words
    rw [View.canon_unit_zero zero2]
    simp only [View.readAt_eq_ld, Memref.IsWhole.read_unread, View.ld_unit_zero (S := S1024x4096) zero2, View.ld_unit_zero (S := S4096x128) zero2, View.ld_unit_zero (S := S1024x128) zero2, View.ld_unit_zero (S := S128x128) zero2, View.ld_unit_zero (S := S128x4096) zero2])

end

section
variable (hc0 : ¬cond4_0 i) (hc1 : cond4_1 i)
  (x0 : Vec F S1024x4096 .f32) (x1 : Vec F S4096x128 .f32) (x2 : Vec F S1024x128 .f32) (x3 : Vec F S1024x128 .f32) (x4 : Vec F S128x128 .f32) (x5 : Vec F S128x128 .f32) (x6 : Vec F S128x128 .f32) (xs : Vec F S128x4096 .f32)
include hc0 hc1

set_option maxHeartbeats 4000000 in
noncomputable def kernelRun4_C :
    Σ' (L7 : List (View.Piece (Elt F) S1024x128 .f32)) (L8 : List (View.Piece (Elt F) S1024x128 .f32)) (L9 : List (View.Piece (Elt F) S4096x128 .f32)), { LS : List (View.Piece (Elt F) S128x4096 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
                ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f LS)) -∗ K ⟨⟩))
          ⊢ wp frame (wpE (defs₀ (F := F)) Variants.none c none) E (cc4__s2_body i arg1 harg1 arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc4__s2_body_eq_skeleton]; unfold cc4__s2_body_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%fs, %hfs, HS⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5; obtain rfl := harg7.eq_unread hf6; obtain rfl := harg11.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [H9]; · iexists _; iexact H9
    iexists _; iexact HS

theorem left4_C_7 (f : arg8.view.ty.Contents (Elt F)) :
    arg8.view.read (Elt F) (arg8.view.writes (Elt F) f (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 x6 xs).1) = k4_pay4 x0 x3 x1 x4 :=
  (View.read_writes_eq_canon arg8.view f _ (View.cover_of_tiledL _ S1024x128.size (by sl_kernel_rfl))).trans (by
    unfold kernelRun4_C
    dsimp only
    try sl_unfold_words
    rw [View.canon_unit_zero zero2]
    simp only [View.readAt_eq_ld, Memref.IsWhole.read_unread, View.ld_unit_zero (S := S1024x4096) zero2, View.ld_unit_zero (S := S4096x128) zero2, View.ld_unit_zero (S := S1024x128) zero2, View.ld_unit_zero (S := S128x128) zero2, View.ld_unit_zero (S := S128x4096) zero2])

theorem left4_C_8 (f : arg9.view.ty.Contents (Elt F)) :
    arg9.view.read (Elt F) (arg9.view.writes (Elt F) f (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 x6 xs).2.1) = k4_pay5 x0 x3 x1 x5 :=
  (View.read_writes_eq_canon arg9.view f _ (View.cover_of_tiledL _ S1024x128.size (by sl_kernel_rfl))).trans (by
    unfold kernelRun4_C
    dsimp only
    try sl_unfold_words
    rw [View.canon_unit_zero zero2]
    simp only [View.readAt_eq_ld, Memref.IsWhole.read_unread, View.ld_unit_zero (S := S1024x4096) zero2, View.ld_unit_zero (S := S4096x128) zero2, View.ld_unit_zero (S := S1024x128) zero2, View.ld_unit_zero (S := S128x128) zero2, View.ld_unit_zero (S := S128x4096) zero2])

theorem left4_C_9 (f : arg10.view.ty.Contents (Elt F)) :
    arg10.view.read (Elt F) (arg10.view.writes (Elt F) f (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 x6 xs).2.2.1) = k4_pay1 (k4_pay6 x0 xs x2) x6 :=
  (View.read_writes_eq_canon arg10.view f _ (View.cover_of_tiledL _ S4096x128.size (by sl_kernel_rfl))).trans (by
    unfold kernelRun4_C
    dsimp only
    try sl_unfold_words
    rw [View.canon_unit_zero zero2, View.readCov_unit_zero (S := S128x4096) _ zero2]
    simp only [View.readAt_eq_ld, Memref.IsWhole.read_unread, View.ld_unit_zero (S := S1024x4096) zero2, View.ld_unit_zero (S := S4096x128) zero2, View.ld_unit_zero (S := S1024x128) zero2, View.ld_unit_zero (S := S128x128) zero2, View.ld_unit_zero (S := S128x4096) zero2])

theorem left4_C_S (f : arg11.view.ty.Contents (Elt F)) :
    arg11.view.read (Elt F) (arg11.view.writes (Elt F) f (kernelRun4_C c i arg1 harg1 arg2 harg2 arg3 harg3 arg4 harg4 arg5 harg5 arg6 harg6 arg7 harg7 arg8 harg8 arg9 harg9 arg10 harg10 arg11 harg11 hc0 hc1 x0 x1 x2 x3 x4 x5 x6 xs).2.2.2.1) = k4_pay6 x0 xs x2 :=
  (View.read_writes_eq_canon arg11.view f _ (View.cover_of_tiledL _ S128x4096.size (by sl_kernel_rfl))).trans (by
    unfold kernelRun4_C
    dsimp only
    try sl_unfold_words
    rw [View.canon_unit_zero zero2]
    simp only [View.readAt_eq_ld, Memref.IsWhole.read_unread, View.ld_unit_zero (S := S1024x4096) zero2, View.ld_unit_zero (S := S4096x128) zero2, View.ld_unit_zero (S := S1024x128) zero2, View.ld_unit_zero (S := S128x128) zero2, View.ld_unit_zero (S := S128x4096) zero2])

end

end

abbrev ms4_0 (t : Fin cfg4.N) : Memref sig .tc .vmem S1024x4096 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S4096x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1024x128 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1024x128 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S128x128 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S128x128 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S128x128 .f32 := win4_6.stage (cfg4.slots t 6)
abbrev hs4_6 (t : Fin cfg4.N) : (ms4_6 t).IsWhole := hstage4_6 ((cfg4.slots t 6).cast nbuf4_6)
abbrev ms4_7 (t : Fin cfg4.N) : Memref sig .tc .vmem S1024x128 .f32 := win4_7.stage (cfg4.slots t 7)
abbrev hs4_7 (t : Fin cfg4.N) : (ms4_7 t).IsWhole := hstage4_7 ((cfg4.slots t 7).cast nbuf4_7)
abbrev ms4_8 (t : Fin cfg4.N) : Memref sig .tc .vmem S1024x128 .f32 := win4_8.stage (cfg4.slots t 8)
abbrev hs4_8 (t : Fin cfg4.N) : (ms4_8 t).IsWhole := hstage4_8 ((cfg4.slots t 8).cast nbuf4_8)
abbrev ms4_9 (t : Fin cfg4.N) : Memref sig .tc .vmem S4096x128 .f32 := win4_9.stage (cfg4.slots t 9)
abbrev hs4_9 (t : Fin cfg4.N) : (ms4_9 t).IsWhole := hstage4_9 ((cfg4.slots t 9).cast nbuf4_9)

abbrev scM4 : Memref sig .tc .vmem S128x4096 .f32 := Memref.whole cc4_scratch0

theorem PhiA4_eq (c : Dev nD) :
    (Pipeline.ΦA spec4 c : sProp 𝕄)
      = iprop(iprop((∃ d, owns (c : Thread nD τ) scM4 fullShare d) ∗ (Pipeline.scopedRestBut (Ix := Unit) (Name := ℕ) (U := UR sig nD τ) (Lvl := ℕ) (Val := Elt F) spec4 c [cc4_scratch0] : sProp 𝕄)) ∗ (∃ r, prngReg c r)) := by
  unfold Pipeline.ΦA; rw [scopedRest4_split]; simp only [scM4, owns_whole]; try rfl

def Phi4 (c : Dev nD) : (n : ℕ) → n ≤ cfg4.N → sProp 𝕄
  | 0, _ => Pipeline.ΦA spec4 c
  | n + 1, hn => iprop(iprop(owns (c : Thread nD τ) scM4 fullShare (acc4 V c n hn) ∗ (Pipeline.scopedRestBut (Ix := Unit) (Name := ℕ) (U := UR sig nD τ) (Lvl := ℕ) (Val := Elt F) spec4 c [cc4_scratch0] : sProp 𝕄)) ∗ (∃ r, prngReg c r))

theorem Phi4_zero (c : Dev nD) (n : ℕ) (h : n ≤ cfg4.N) (hn : n = 0) : Phi4 V c n h = Pipeline.ΦA spec4 c := by
  subst hn; rfl

theorem Phi4_succ (c : Dev nD) (n : ℕ) (hn : n < cfg4.N) :
    Phi4 V c (n + 1) hn = iprop(iprop(owns (c : Thread nD τ) scM4 fullShare (acc4 V c n hn) ∗ (Pipeline.scopedRestBut (Ix := Unit) (Name := ℕ) (U := UR sig nD τ) (Lvl := ℕ) (Val := Elt F) spec4 c [cc4_scratch0] : sProp 𝕄)) ∗ (∃ r, prngReg c r)) := rfl

theorem Phi4_pos (c : Dev nD) (n : ℕ) (h : n ≤ cfg4.N) (hn : n ≠ 0) :
    Phi4 V c n h = iprop(iprop(owns (c : Thread nD τ) scM4 fullShare (acc4 V c (n - 1) (by omega)) ∗ (Pipeline.scopedRestBut (Ix := Unit) (Name := ℕ) (U := UR sig nD τ) (Lvl := ℕ) (Val := Elt F) spec4 c [cc4_scratch0] : sProp 𝕄)) ∗ (∃ r, prngReg c r)) := by
  cases n with
  | zero => exact absurd rfl hn
  | succ n => rfl

theorem acc4_first (c : Dev nD) (t : Fin cfg4.N) (ht : t.val = 0) :
    acc4 V c t.val t.isLt = k4_pay6 (iblk4 V c 0 t) (k4_pay2 (F := F)) (iblk4 V c 2 t) := by
  obtain ⟨n, hn⟩ := t
  cases n with
  | zero => rfl
  | succ n => exact absurd ht (Nat.succ_ne_zero n)

theorem acc4_later (c : Dev nD) (t : Fin cfg4.N) (ht : t.val ≠ 0) :
    acc4 V c t.val t.isLt = k4_pay6 (iblk4 V c 0 t) (acc4 V c (t.val - 1) (Nat.lt_of_le_of_lt (Nat.sub_le _ _) t.isLt)) (iblk4 V c 2 t) := by
  obtain ⟨n, hn⟩ := t
  cases n with
  | zero => exact absurd rfl ht
  | succ n => rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => k4_pay4 (iblk4 V c 0 t) (iblk4 V c 3 t) (iblk4 V c 1 t) (iblk4 V c 4 t)
    | ⟨8, _⟩ => k4_pay5 (iblk4 V c 0 t) (iblk4 V c 3 t) (iblk4 V c 1 t) (iblk4 V c 5 t)
    | ⟨9, _⟩ => k4_pay1 (acc4 V c t.val t.isLt) (iblk4 V c 6 t)
  Φ t := Phi4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem Phi4_castSucc (c : Dev nD) (t : Fin cfg4.N) :
    (dat4 V c).Φ t.castSucc = Phi4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = k4_pay4 (iblk4 V c 0 t) (iblk4 V c 3 t) (iblk4 V c 1 t) (iblk4 V c 4 t) := by dsimp only [dat4]
theorem after4_8 (c : Dev nD) (t : Fin cfg4.N) : (dat4 V c).after 8 t = k4_pay5 (iblk4 V c 0 t) (iblk4 V c 3 t) (iblk4 V c 1 t) (iblk4 V c 5 t) := by dsimp only [dat4]
theorem after4_9 (c : Dev nD) (t : Fin cfg4.N) : (dat4 V c).after 9 t = k4_pay1 (acc4 V c t.val t.isLt) (iblk4 V c 6 t) := by dsimp only [dat4]
theorem after4_9_last (c : Dev nD) (t : Fin cfg4.N) (ht : t.val = 7) : (dat4 V c).after 9 t = k4_pay1 (acc4 V c t.val t.isLt) (iblk4 V c 6 t) := after4_9 V c t

theorem before4_0 (c : Dev nD) (t : Fin cfg4.N) (d) : (dat4 V c).before 0 t d = iblk4 V c 0 t :=
  ((dat4 V c).before_in_eq_fetched 0 rfl (fun _ => rfl) (fun _ _ _ => rfl) (fun t => by rw [after4_0]; unfold Dat.blockOf iblk4; rw [A_eq4]; try rfl) t d).trans
    (by unfold Dat.fetched Dat.blockOf iblk4; rw [A_eq4]; try rfl)

theorem before4_1 (c : Dev nD) (t : Fin cfg4.N) (d) : (dat4 V c).before 1 t d = iblk4 V c 1 t :=
  ((dat4 V c).before_in_eq_fetched 1 rfl (fun _ => rfl) (fun _ _ _ => rfl) (fun t => by rw [after4_1]; unfold Dat.blockOf iblk4; rw [A_eq4]; try rfl) t d).trans
    (by unfold Dat.fetched Dat.blockOf iblk4; rw [A_eq4]; try rfl)

theorem before4_2 (c : Dev nD) (t : Fin cfg4.N) (d) : (dat4 V c).before 2 t d = iblk4 V c 2 t :=
  ((dat4 V c).before_in_eq_fetched 2 rfl (fun _ => rfl) (fun _ _ _ => rfl) (fun t => by rw [after4_2]; unfold Dat.blockOf iblk4; rw [A_eq4]; try rfl) t d).trans
    (by unfold Dat.fetched Dat.blockOf iblk4; rw [A_eq4]; try rfl)

theorem before4_3 (c : Dev nD) (t : Fin cfg4.N) (d) : (dat4 V c).before 3 t d = iblk4 V c 3 t :=
  ((dat4 V c).before_in_eq_fetched 3 rfl (fun _ => rfl) (fun _ _ _ => rfl) (fun t => by rw [after4_3]; unfold Dat.blockOf iblk4; rw [A_eq4]; try rfl) t d).trans
    (by unfold Dat.fetched Dat.blockOf iblk4; rw [A_eq4]; try rfl)

theorem before4_4 (c : Dev nD) (t : Fin cfg4.N) (d) : (dat4 V c).before 4 t d = iblk4 V c 4 t :=
  ((dat4 V c).before_in_eq_fetched 4 rfl (fun _ => rfl) (fun _ _ _ => rfl) (fun t => by rw [after4_4]; unfold Dat.blockOf iblk4; rw [A_eq4]; try rfl) t d).trans
    (by unfold Dat.fetched Dat.blockOf iblk4; rw [A_eq4]; try rfl)

theorem before4_5 (c : Dev nD) (t : Fin cfg4.N) (d) : (dat4 V c).before 5 t d = iblk4 V c 5 t :=
  ((dat4 V c).before_in_eq_fetched 5 rfl (fun _ => rfl) (fun _ _ _ => rfl) (fun t => by rw [after4_5]; unfold Dat.blockOf iblk4; rw [A_eq4]; try rfl) t d).trans
    (by unfold Dat.fetched Dat.blockOf iblk4; rw [A_eq4]; try rfl)

theorem before4_6 (c : Dev nD) (t : Fin cfg4.N) (d) : (dat4 V c).before 6 t d = iblk4 V c 6 t :=
  ((dat4 V c).before_in_eq_fetched 6 rfl (fun _ => rfl) (fun _ _ _ => rfl) (fun t => by rw [after4_6]; unfold Dat.blockOf iblk4; rw [A_eq4]; try rfl) t d).trans
    (by unfold Dat.fetched Dat.blockOf iblk4; rw [A_eq4]; try rfl)

theorem idle4_9 : ∀ t : Fin cfg4.N, ¬cond4_1 (grid4.coords t) → cfg4.idle 9 (grid4.coords t) = true := by decide +kernel
theorem noFlush4_9 : ∀ t : Fin cfg4.N, ¬cond4_1 (grid4.coords t) → (cfg4.win 9).flush t = false := by decide +kernel
theorem live4_9 : ∀ t : Fin cfg4.N, cond4_1 (grid4.coords t) → cfg4.idle 9 (grid4.coords t) = false := by decide +kernel

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d))
    ∗ (∃ d, owns (c : Thread nD τ) (ms4_7 t) fullShare ((dat4 V c).before 7 t d))
    ∗ (∃ d, owns (c : Thread nD τ) (ms4_8 t) fullShare ((dat4 V c).before 8 t d))
    ∗ (∃ d, owns (c : Thread nD τ) (ms4_9 t) fullShare ((dat4 V c).before 9 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t
    ∗ (dat4 V c).leavesExact 7 t
    ∗ (dat4 V c).leavesExact 8 t
    ∗ (dat4 V c).leavesExact 9 t)

set_option maxHeartbeats 8000000 in
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6]
  rw [show (dat4 V c).owesAt () t.succ = (dat4 V c).owesAt () t.castSucc from rfl]
  rw [show (dat4 V c).Φ t.succ = Phi4 V c (t.val + 1) t.isLt from rfl, Phi4_succ]
  rw [show (dat4 V c).leavesExact 0 t = owns (c : Thread nD τ) (ms4_0 t) fullShare ((dat4 V c).after 0 t) from rfl, after4_0]
  rw [show (dat4 V c).leavesExact 1 t = owns (c : Thread nD τ) (ms4_1 t) fullShare ((dat4 V c).after 1 t) from rfl, after4_1]
  rw [show (dat4 V c).leavesExact 2 t = owns (c : Thread nD τ) (ms4_2 t) fullShare ((dat4 V c).after 2 t) from rfl, after4_2]
  rw [show (dat4 V c).leavesExact 3 t = owns (c : Thread nD τ) (ms4_3 t) fullShare ((dat4 V c).after 3 t) from rfl, after4_3]
  rw [show (dat4 V c).leavesExact 4 t = owns (c : Thread nD τ) (ms4_4 t) fullShare ((dat4 V c).after 4 t) from rfl, after4_4]
  rw [show (dat4 V c).leavesExact 5 t = owns (c : Thread nD τ) (ms4_5 t) fullShare ((dat4 V c).after 5 t) from rfl, after4_5]
  rw [show (dat4 V c).leavesExact 6 t = owns (c : Thread nD τ) (ms4_6 t) fullShare ((dat4 V c).after 6 t) from rfl, after4_6]
  rw [show (dat4 V c).leavesExact 7 t = owns (c : Thread nD τ) (ms4_7 t) fullShare ((dat4 V c).after 7 t) from rfl, after4_7]
  rw [show (dat4 V c).leavesExact 8 t = owns (c : Thread nD τ) (ms4_8 t) fullShare ((dat4 V c).after 8 t) from rfl, after4_8]
  have hN : t.val < 8 := lt_of_lt_of_eq t.isLt (show cfg4.N = 8 from N_4)
  by_cases h0 : t.val % 8 = 0
  · by_cases h1 : t.val % 8 = 7
    · exfalso; omega
    ·
      have ht : t.val = 0 := by omega
      rw [(dat4 V c).leavesExact_idle 9 t (idle4_9 t (fun h => h1 ((hcond4_1 t).mp h))) (noFlush4_9 t (fun h => h1 ((hcond4_1 t).mp h)))]
      rw [acc4_first V c t ht, Phi4_castSucc V c t, Phi4_zero V c _ _ ht, PhiA4_eq]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun4_A c (grid4.coords t) _ _ _ _ _ _ _ _ _ _ _ _ _ _ _ _ _ _ _ _ _ _ ((hcond4_0 t).mpr h0) (fun h => h1 ((hcond4_1 t).mp h)) (iblk4 V c 0 t) (iblk4 V c 1 t) (iblk4 V c 2 t) (iblk4 V c 3 t) (iblk4 V c 4 t) (iblk4 V c 5 t) (iblk4 V c 6 t)).2.2.2 _ Set.univ _)
      iframe H0 H1 H2 H3 H4 H5 H6
      isplitl [H7]; · iexists _; iexact H7
      isplitl [H8]; · iexists _; iexact H8
      iframe H9 HS
      iintro ⟨H0, H1, H2, H3, H4, H5, H6, ⟨%e7, H7⟩, ⟨%e8, H8⟩, H9, ⟨%es, HS⟩⟩
      isplitl [HS HR Hg]
      · isplitl [HS HR]
        · isplitl [HS]
          · unfold owns; iexists _; isplitr
            swap; · iexact HS
            ipureintro; exact left4_A_S ..
          iexact HR
        iexact Hg
      iframe Ho H0 H1 H2 H3 H4 H5 H6
      isplitl [H7]
      · unfold owns; iexists _; isplitr
        swap; · iexact H7
        ipureintro; exact left4_A_7 ..
      isplitl [H8]
      · unfold owns; iexists _; isplitr
        swap; · iexact H8
        ipureintro; exact left4_A_8 ..
      iexists _; iexact H9
  · by_cases h1 : t.val % 8 = 7
    ·
      have ht : t.val ≠ 0 := by omega
      rw [show (dat4 V c).leavesExact 9 t = owns (c : Thread nD τ) (ms4_9 t) fullShare ((dat4 V c).after 9 t) from by
        unfold Dat.leavesExact; rw [live4_9 t ((hcond4_1 t).mpr h1)], after4_9]
      rw [acc4_later V c t ht, Phi4_castSucc V c t, Phi4_pos V c _ _ ht]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun4_C c (grid4.coords t) _ _ _ _ _ _ _ _ _ _ _ _ _ _ _ _ _ _ _ _ _ _ (fun h => h0 ((hcond4_0 t).mp h)) ((hcond4_1 t).mpr h1) (iblk4 V c 0 t) (iblk4 V c 1 t) (iblk4 V c 2 t) (iblk4 V c 3 t) (iblk4 V c 4 t) (iblk4 V c 5 t) (iblk4 V c 6 t) _).2.2.2.2 Set.univ _)
      iframe H0 H1 H2 H3 H4 H5 H6
      isplitl [H7]; · iexists _; iexact H7
      isplitl [H8]; · iexists _; iexact H8
      isplitl [H9]; · iexists _; iexact H9
      iframe HS
      iintro ⟨H0, H1, H2, H3, H4, H5, H6, ⟨%e7, H7⟩, ⟨%e8, H8⟩, ⟨%e9, H9⟩, ⟨%es, HS⟩⟩
      isplitl [HS HR Hg]
      · isplitl [HS HR]
        · isplitl [HS]
          · unfold owns; iexists _; isplitr
            swap; · iexact HS
            ipureintro; exact left4_C_S ..
          iexact HR
        iexact Hg
      iframe Ho H0 H1 H2 H3 H4 H5 H6
      isplitl [H7]
      · unfold owns; iexists _; isplitr
        swap; · iexact H7
        ipureintro; exact left4_C_7 ..
      isplitl [H8]
      · unfold owns; iexists _; isplitr
        swap; · iexact H8
        ipureintro; exact left4_C_8 ..
      unfold owns; iexists _; isplitr
      swap; · iexact H9
      ipureintro; exact left4_C_9 ..
    ·
      have ht : t.val ≠ 0 := by omega
      rw [(dat4 V c).leavesExact_idle 9 t (idle4_9 t (fun h => h1 ((hcond4_1 t).mp h))) (noFlush4_9 t (fun h => h1 ((hcond4_1 t).mp h)))]
      rw [acc4_later V c t ht, Phi4_castSucc V c t, Phi4_pos V c _ _ ht]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun4_B c (grid4.coords t) _ _ _ _ _ _ _ _ _ _ _ _ _ _ _ _ _ _ _ _ _ _ (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (iblk4 V c 6 t) _).2.2.2 _ Set.univ _)
      iframe H0 H1 H2 H3 H4 H5 H6
      isplitl [H7]; · iexists _; iexact H7
      isplitl [H8]; · iexists _; iexact H8
      iframe H9 HS
      iintro ⟨H0, H1, H2, H3, H4, H5, H6, ⟨%e7, H7⟩, ⟨%e8, H8⟩, H9, ⟨%es, HS⟩⟩
      isplitl [HS HR Hg]
      · isplitl [HS HR]
        · isplitl [HS]
          · unfold owns; iexists _; isplitr
            swap; · iexact HS
            ipureintro; exact left4_B_S ..
          iexact HR
        iexact Hg
      iframe Ho H0 H1 H2 H3 H4 H5 H6
      isplitl [H7]
      · unfold owns; iexists _; isplitr
        swap; · iexact H7
        ipureintro; exact left4_B_7 ..
      isplitl [H8]
      · unfold owns; iexists _; isplitr
        swap; · iexact H8
        ipureintro; exact left4_B_8 ..
      iexists _; iexact H9

theorem body_obligation4 (c : Dev nD) : BodyObligation (dat4 (F := F) V c) (defs₀ (F := F)) Variants.none () Set.univ := fun t => by
  rw [bigSep_W4, bigSep_W4]
  exact sound_body4 V c t

theorem hin4 (c : Dev nD) : (Pipeline.ΦA spec4 c : sProp 𝕄) ⊢ (dat4 V c).Φ 0 := by
  rw [show (dat4 V c).Φ 0 = Phi4 V c 0 (Nat.zero_le _) from rfl, Phi4_zero V c 0 _ rfl]

theorem hout4 (c : Dev nD) : (dat4 V c).Φ (Fin.last cfg4.N) ⊢ (Pipeline.ΦA spec4 c : sProp 𝕄) := by
  rw [show (dat4 V c).Φ (Fin.last cfg4.N) = Phi4 V c (Fin.last cfg4.N).val (Nat.le_of_lt_succ (Fin.last cfg4.N).isLt) from rfl,
    Phi4_pos V c _ _ (by rw [Fin.val_last]; have : cfg4.N = 8 := N_4; omega), PhiA4_eq]
  iintro ⟨⟨HS, HR⟩, Hg⟩
  isplitl [HS HR]
  · isplitl [HS]
    · iexists _; iexact HS
    iexact HR
  iexact Hg

end Cert.KernelIdeal.Hand

end
-- ==== Proof.KI.D5.lean ====
import proofs.«122060_g64467459113426_cont_9to1_m_811_14_alg».proof.Proof.Gen.KernelIdeal.Launch
import proofs.«122060_g64467459113426_cont_9to1_m_811_14_alg».proof.Proof.Gen.KernelIdeal.Skeleton
import proofs.«122060_g64467459113426_cont_9to1_m_811_14_alg».proof.Proof.Gen.KernelIdeal.Points
import Idealize.ShloMosaic.Lib.Pipeline.FrameBody

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F]

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

def acc5 (c : Dev nD) : (n : ℕ) → n < cfg5.N → Vec F S128x8192 .f32
  | 0, h => k5_pay3 (k5_pay1 (F := F)) (iblk5 V c 3 ⟨0, h⟩) (iblk5 V c 1 ⟨0, h⟩)
  | n + 1, h => k5_pay3 (acc5 c n (Nat.lt_of_succ_lt h)) (iblk5 V c 3 ⟨n + 1, h⟩) (iblk5 V c 1 ⟨n + 1, h⟩)

end Cert.KernelIdeal.Hand

end
-- ==== Proof.KI.R5.lean ====
import proofs.«122060_g64467459113426_cont_9to1_m_811_14_alg».proof.Proof.Gen.KernelIdeal.Launch
import proofs.«122060_g64467459113426_cont_9to1_m_811_14_alg».proof.Proof.Gen.KernelIdeal.Skeleton
import proofs.«122060_g64467459113426_cont_9to1_m_811_14_alg».proof.Proof.Gen.KernelIdeal.Points
import proofs.«122060_g64467459113426_cont_9to1_m_811_14_alg».proof.Proof.KI.D5
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz5 : (![0, 0] : Fin 2 → Nat) = fun _ => 0 := funext fun a => by fin_cases a <;> rfl

abbrev cond5_0 (i : grid5.Coords) : Prop := (Scalar.cmpi .ne (Scalar.extui (Scalar.cmpi .eq (BitVec.ofNat 32 (i 0).val) 0#32)) 0#32) = 1#1

theorem hcond5_0 : ∀ t : Fin cfg5.N, cond5_0 (grid5.coords t) ↔ t.val % 8 = 0 :=
  (by decide +kernel : ∀ t : Fin grid5.N, cond5_0 (grid5.coords t) ↔ t.val % 8 = 0)

abbrev ms5_0 (t : Fin cfg5.N) : Memref sig .tc .vmem S512x4096 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S512x8192 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S4096x128 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S512x128 .f32 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S512x128 .f32 := win5_4.stage (cfg5.slots t 4)
abbrev hs5_4 (t : Fin cfg5.N) : (ms5_4 t).IsWhole := hstage5_4 ((cfg5.slots t 4).cast nbuf5_4)
abbrev ms5_5 (t : Fin cfg5.N) : Memref sig .tc .vmem S128x8192 .f32 := win5_5.stage (cfg5.slots t 5)
abbrev hs5_5 (t : Fin cfg5.N) : (ms5_5 t).IsWhole := hstage5_5 ((cfg5.slots t 5).cast nbuf5_5)

section
variable (c : Dev nD) (i : grid5.Coords) (arg1 : Memref sig .tc .vmem S512x4096 .f32) (harg1 : arg1.IsWhole) (arg2 : Memref sig .tc .vmem S512x8192 .f32) (harg2 : arg2.IsWhole) (arg3 : Memref sig .tc .vmem S4096x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S128x8192 .f32) (harg6 : arg6.IsWhole)

section
variable (hc0 : ¬cond5_0 i)
  (x0 : Vec F S512x4096 .f32) (x1 : Vec F S512x8192 .f32) (x2 : Vec F S4096x128 .f32) (x3 : Vec F S512x128 .f32) (xo : Vec F S128x8192 .f32)
include hc0

set_option maxHeartbeats 1000000 in
noncomputable def kernelRun5_B :
    Σ' (L4 : List (View.Piece (Elt F) S512x128 .f32)), { L5 : List (View.Piece (Elt F) S128x8192 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare xo
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)) -∗ K ⟨⟩))
          ⊢ wp frame (wpE (defs₀ (F := F)) Variants.none c none) E (cc5__s4_body i arg1 harg1 arg2 harg2 arg3 harg3 arg4 harg4 arg5 harg5 arg6 harg6) K } := by
  refine ⟨?_, ?_, fun E K => ?run⟩
  case run =>
    simp only [cc5__s4_body_eq_skeleton]; unfold cc5__s4_body_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
    obtain rfl := harg1.eq_unread hf0; obtain rfl := harg2.eq_unread hf1; obtain rfl := harg3.eq_unread hf2
    obtain rfl := harg4.eq_unread hf3; obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact H5

theorem left5_B_4 (f : arg5.view.ty.Contents (Elt F)) :
    arg5.view.read (Elt F) (arg5.view.writes (Elt F) f (kernelRun5_B c i arg1 harg1 arg2 harg2 arg3 harg3 arg4 harg4 arg5 harg5 arg6 harg6 hc0 x0 x1 x2 x3 xo).1) = k5_pay2 x0 x2 :=
  (View.read_writes_eq_canon arg5.view f _ (fun y => by
      unfold kernelRun5_B; dsimp only
      refine ⟨_, List.mem_cons_self, ?_⟩
      exact View.mem_set_unit_zero (S := S512x128) hz5 inb_S512x128_S512x128_0_0 y)).trans (by
    unfold kernelRun5_B
    dsimp only
    rw [View.canon_unit_zero (S := S512x128) hz5]
    simp only [View.readAt_eq_ld, harg1.read_unread, harg3.read_unread, View.ld_unit_zero (S := S512x4096) hz5, View.ld_unit_zero (S := S4096x128) hz5])

theorem left5_B_5 (f : arg6.view.ty.Contents (Elt F)) :
    arg6.view.read (Elt F) (arg6.view.writes (Elt F) f (kernelRun5_B c i arg1 harg1 arg2 harg2 arg3 harg3 arg4 harg4 arg5 harg5 arg6 harg6 hc0 x0 x1 x2 x3 xo).2.1) = k5_pay3 xo x3 x1 :=
  (View.read_writes_eq_canon arg6.view f _ (fun y => by
      unfold kernelRun5_B; dsimp only
      refine ⟨_, List.mem_cons_self, ?_⟩
      exact View.mem_set_unit_zero (S := S128x8192) hz5 inb_S128x8192_S128x8192_0_0 y)).trans (by
    unfold kernelRun5_B
    dsimp only
    rw [View.canon_unit_zero (S := S128x8192) hz5]
    simp only [View.readAt_eq_ld, harg6.read_unread, harg4.read_unread, harg2.read_unread, View.ld_unit_zero (S := S128x8192) hz5, View.ld_unit_zero (S := S512x128) hz5, View.ld_unit_zero (S := S512x8192) hz5])

end

section
variable (hc0 : cond5_0 i)
  (x0 : Vec F S512x4096 .f32) (x1 : Vec F S512x8192 .f32) (x2 : Vec F S4096x128 .f32) (x3 : Vec F S512x128 .f32)
include hc0

set_option maxHeartbeats 1000000 in
noncomputable def kernelRun5_A :
    Σ' (L4 : List (View.Piece (Elt F) S512x128 .f32)), { L5 : List (View.Piece (Elt F) S128x8192 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)) -∗ K ⟨⟩))
          ⊢ wp frame (wpE (defs₀ (F := F)) Variants.none c none) E (cc5__s4_body i arg1 harg1 arg2 harg2 arg3 harg3 arg4 harg4 arg5 harg5 arg6 harg6) K } := by
  refine ⟨?_, ?_, fun E K => ?run⟩
  case run =>
    simp only [cc5__s4_body_eq_skeleton]; unfold cc5__s4_body_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg1.eq_unread hf0; obtain rfl := harg2.eq_unread hf1; obtain rfl := harg3.eq_unread hf2
    obtain rfl := harg4.eq_unread hf3
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact H5

theorem left5_A_4 (f : arg5.view.ty.Contents (Elt F)) :
    arg5.view.read (Elt F) (arg5.view.writes (Elt F) f (kernelRun5_A c i arg1 harg1 arg2 harg2 arg3 harg3 arg4 harg4 arg5 harg5 arg6 harg6 hc0 x0 x1 x2 x3).1) = k5_pay2 x0 x2 :=
  (View.read_writes_eq_canon arg5.view f _ (fun y => by
      unfold kernelRun5_A; dsimp only
      refine ⟨_, List.mem_cons_self, ?_⟩
      exact View.mem_set_unit_zero (S := S512x128) hz5 inb_S512x128_S512x128_0_0 y)).trans (by
    unfold kernelRun5_A
    dsimp only
    rw [View.canon_unit_zero (S := S512x128) hz5]
    simp only [View.readAt_eq_ld, harg1.read_unread, harg3.read_unread, View.ld_unit_zero (S := S512x4096) hz5, View.ld_unit_zero (S := S4096x128) hz5])

theorem left5_A_5 (f : arg6.view.ty.Contents (Elt F)) :
    arg6.view.read (Elt F) (arg6.view.writes (Elt F) f (kernelRun5_A c i arg1 harg1 arg2 harg2 arg3 harg3 arg4 harg4 arg5 harg5 arg6 harg6 hc0 x0 x1 x2 x3).2.1) = k5_pay3 (k5_pay1 (F := F)) x3 x1 :=
  (View.read_writes_eq_canon arg6.view f _ (fun y => by
      unfold kernelRun5_A; dsimp only
      refine ⟨_, List.mem_cons_self, ?_⟩
      exact View.mem_set_unit_zero (S := S128x8192) hz5 inb_S128x8192_S128x8192_0_0 y)).trans (by
    unfold kernelRun5_A
    dsimp only
    sl_unfold_words
    rw [View.canon_cons_unit_zero (S := S128x8192) hz5, View.readCov_unit_zero (S := S128x8192) _ hz5]
    simp only [View.readAt_eq_ld, harg4.read_unread, harg2.read_unread, View.ld_unit_zero (S := S512x128) hz5, View.ld_unit_zero (S := S512x8192) hz5])

end

end

theorem acc5_first (c : Dev nD) (t : Fin cfg5.N) (h0 : t.val % 8 = 0) :
    acc5 V c t.val t.isLt = k5_pay3 (k5_pay1 (F := F)) (iblk5 V c 3 t) (iblk5 V c 1 t) := by
  have hN : t.val < 8 := lt_of_lt_of_eq t.isLt (show cfg5.N = 8 from N_5)
  obtain ⟨n, hn⟩ := t
  cases n with
  | zero => rfl
  | succ n => exact absurd h0 (by dsimp only at hN ⊢; omega)

theorem acc5_later (c : Dev nD) (t : Fin cfg5.N) (h0 : ¬t.val % 8 = 0) :
    acc5 V c t.val t.isLt = k5_pay3 (acc5 V c (t.val - 1) (Nat.lt_of_le_of_lt (Nat.sub_le _ _) t.isLt)) (iblk5 V c 3 t) (iblk5 V c 1 t) := by
  obtain ⟨n, hn⟩ := t
  cases n with
  | zero => exact absurd (Nat.zero_mod _) h0
  | succ n => rfl

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => k5_pay2 (iblk5 V c 0 t) (iblk5 V c 2 t)
    | ⟨5, _⟩ => acc5 V c t.val t.isLt
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = k5_pay2 (iblk5 V c 0 t) (iblk5 V c 2 t) := by dsimp only [dat5]
theorem after5_5 (c : Dev nD) (t : Fin cfg5.N) : (dat5 V c).after 5 t = acc5 V c t.val t.isLt := by dsimp only [dat5]

theorem before5_0 (c : Dev nD) (t : Fin cfg5.N) (d) : (dat5 V c).before 0 t d = iblk5 V c 0 t :=
  ((dat5 V c).before_in_eq_fetched 0 rfl (fun _ => rfl) (fun _ _ _ => rfl) (fun t => by rw [after5_0]; unfold Dat.blockOf iblk5; rw [A_eq5]; try rfl) t d).trans
    (by unfold Dat.fetched Dat.blockOf iblk5; rw [A_eq5]; try rfl)
theorem before5_1 (c : Dev nD) (t : Fin cfg5.N) (d) : (dat5 V c).before 1 t d = iblk5 V c 1 t :=
  ((dat5 V c).before_in_eq_fetched 1 rfl (fun _ => rfl) (fun _ _ _ => rfl) (fun t => by rw [after5_1]; unfold Dat.blockOf iblk5; rw [A_eq5]; try rfl) t d).trans
    (by unfold Dat.fetched Dat.blockOf iblk5; rw [A_eq5]; try rfl)
theorem before5_2 (c : Dev nD) (t : Fin cfg5.N) (d) : (dat5 V c).before 2 t d = iblk5 V c 2 t :=
  ((dat5 V c).before_in_eq_fetched 2 rfl (fun _ => rfl) (fun _ _ _ => rfl) (fun t => by rw [after5_2]; unfold Dat.blockOf iblk5; rw [A_eq5]; try rfl) t d).trans
    (by unfold Dat.fetched Dat.blockOf iblk5; rw [A_eq5]; try rfl)
theorem before5_3 (c : Dev nD) (t : Fin cfg5.N) (d) : (dat5 V c).before 3 t d = iblk5 V c 3 t :=
  ((dat5 V c).before_in_eq_fetched 3 rfl (fun _ => rfl) (fun _ _ _ => rfl) (fun t => by rw [after5_3]; unfold Dat.blockOf iblk5; rw [A_eq5]; try rfl) t d).trans
    (by unfold Dat.fetched Dat.blockOf iblk5; rw [A_eq5]; try rfl)

theorem before5_5_later (c : Dev nD) (t : Fin cfg5.N) (h0 : ¬t.val % 8 = 0) (d) :
    (dat5 V c).before 5 t d = acc5 V c (t.val - 1) (Nat.lt_of_le_of_lt (Nat.sub_le _ _) t.isLt) := by
  have hN : t.val < 8 := lt_of_lt_of_eq t.isLt (show cfg5.N = 8 from N_5)
  rw [Dat.before_out_kept _ 5 rfl t (by omega) (Bool.eq_false_iff.mpr fun h => by have := (flush5_5 _).mp h; dsimp only at this; omega)
    (fun _ => rfl) (fun _ _ => rfl)]
  rw [after5_5]

def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d))
    ∗ (∃ d, owns (c : Thread nD τ) (ms5_4 t) fullShare ((dat5 V c).before 4 t d))
    ∗ (∃ d, owns (c : Thread nD τ) (ms5_5 t) fullShare ((dat5 V c).before 5 t d)))

def bodyPost5 (c : Dev nD) (t : Fin cfg5.N) : sProp 𝕄 :=
  iprop((dat5 V c).Φ t.succ ∗ (dat5 V c).owesAt () t.succ
    ∗ owns (c : Thread nD τ) (ms5_0 t) fullShare ((dat5 V c).after 0 t)
    ∗ owns (c : Thread nD τ) (ms5_1 t) fullShare ((dat5 V c).after 1 t)
    ∗ owns (c : Thread nD τ) (ms5_2 t) fullShare ((dat5 V c).after 2 t)
    ∗ owns (c : Thread nD τ) (ms5_3 t) fullShare ((dat5 V c).after 3 t)
    ∗ owns (c : Thread nD τ) (ms5_4 t) fullShare ((dat5 V c).after 4 t)
    ∗ owns (c : Thread nD τ) (ms5_5 t) fullShare ((dat5 V c).after 5 t))

set_option maxHeartbeats 1000000 in
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).Φ t.succ = (dat5 V c).Φ t.castSucc from rfl,
    show (dat5 V c).owesAt () t.succ = (dat5 V c).owesAt () t.castSucc from rfl,
    after5_0, after5_1, after5_2, after5_3, after5_4, after5_5]
  by_cases h0 : t.val % 8 = 0
  · rw [acc5_first V c t h0]
    iintro ⟨HΦ, Ho, ⟨%d0, H0⟩, ⟨%d1, H1⟩, ⟨%d2, H2⟩, ⟨%d3, H3⟩, ⟨%d4, H4⟩, ⟨%d5, H5⟩⟩
    iapply ((kernelRun5_A c (grid5.coords t) (ms5_0 t) (hs5_0 t) (ms5_1 t) (hs5_1 t) (ms5_2 t) (hs5_2 t) (ms5_3 t) (hs5_3 t) (ms5_4 t) (hs5_4 t) (ms5_5 t) (hs5_5 t) ((hcond5_0 t).mpr h0) (iblk5 V c 0 t) (iblk5 V c 1 t) (iblk5 V c 2 t) (iblk5 V c 3 t)).2.2 Set.univ _)
    iframe H0 H1 H2 H3
    isplitl [H4]; · iexists _; iexact H4
    isplitl [H5]; · iexists _; iexact H5
    iintro ⟨H0, H1, H2, H3, ⟨%e4, H4⟩, ⟨%e5, H5⟩⟩
    iframe HΦ Ho H0 H1 H2 H3
    isplitl [H4]
    · unfold owns; iexists _; isplitr
      swap; · iexact H4
      ipureintro; exact left5_A_4 ..
    unfold owns; iexists _; isplitr
    swap; · iexact H5
    ipureintro; exact left5_A_5 ..
  · rw [acc5_later V c t h0]
    simp only [before5_5_later V c t h0]
    iintro ⟨HΦ, Ho, ⟨%d0, H0⟩, ⟨%d1, H1⟩, ⟨%d2, H2⟩, ⟨%d3, H3⟩, ⟨%d4, H4⟩, ⟨%d5, H5⟩⟩
    iapply ((kernelRun5_B c (grid5.coords t) (ms5_0 t) (hs5_0 t) (ms5_1 t) (hs5_1 t) (ms5_2 t) (hs5_2 t) (ms5_3 t) (hs5_3 t) (ms5_4 t) (hs5_4 t) (ms5_5 t) (hs5_5 t) (fun h => h0 ((hcond5_0 t).mp h)) (iblk5 V c 0 t) (iblk5 V c 1 t) (iblk5 V c 2 t) (iblk5 V c 3 t) (acc5 V c (t.val - 1) (Nat.lt_of_le_of_lt (Nat.sub_le _ _) t.isLt))).2.2 Set.univ _)
    iframe H0 H1 H2 H3
    isplitl [H4]; · iexists _; iexact H4
    iframe H5
    iintro ⟨H0, H1, H2, H3, ⟨%e4, H4⟩, ⟨%e5, H5⟩⟩
    iframe HΦ Ho H0 H1 H2 H3
    isplitl [H4]
    · unfold owns; iexists _; isplitr
      swap; · iexact H4
      ipureintro; exact left5_B_4 ..
    unfold owns; iexists _; isplitr
    swap; · iexact H5
    ipureintro; exact left5_B_5 ..

theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.D6.lean ====
import proofs.«122060_g64467459113426_cont_9to1_m_811_14_alg».proof.Proof.Gen.KernelIdeal.Launch
import proofs.«122060_g64467459113426_cont_9to1_m_811_14_alg».proof.Proof.Gen.KernelIdeal.Skeleton
import proofs.«122060_g64467459113426_cont_9to1_m_811_14_alg».proof.Proof.Gen.KernelIdeal.Points
import Idealize.ShloMosaic.Lib.Pipeline.FrameBody

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F]

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

def acc6 (c : Dev nD) : (n : ℕ) → n < cfg6.N → Vec F S128x4096 .f32
  | 0, h => k6_pay3 (k6_pay1 (F := F)) (iblk6 V c 3 ⟨0, h⟩) (iblk6 V c 1 ⟨0, h⟩)
  | n + 1, h => k6_pay3 (acc6 c n (Nat.lt_of_succ_lt h)) (iblk6 V c 3 ⟨n + 1, h⟩) (iblk6 V c 1 ⟨n + 1, h⟩)

end Cert.KernelIdeal.Hand

end
-- ==== Proof.KI.R6.lean ====
import proofs.«122060_g64467459113426_cont_9to1_m_811_14_alg».proof.Proof.Gen.KernelIdeal.Launch
import proofs.«122060_g64467459113426_cont_9to1_m_811_14_alg».proof.Proof.Gen.KernelIdeal.Skeleton
import proofs.«122060_g64467459113426_cont_9to1_m_811_14_alg».proof.Proof.Gen.KernelIdeal.Points
import proofs.«122060_g64467459113426_cont_9to1_m_811_14_alg».proof.Proof.KI.D6
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz6 : (![0, 0] : Fin 2 → Nat) = fun _ => 0 := funext fun a => by fin_cases a <;> rfl

theorem cover6_5 (w : Vec F S256x128 .f32) (L : List (View.Piece (Elt F) S256x128 .f32)) (y : S256x128.Idx) :
    ∃ pc ∈ ((⟨Rect.unit (s := S256x128) ![0, 0] S256x128.size inb_S256x128_S256x128_0_0, w⟩ : View.Piece (Elt F) S256x128 .f32) :: L), y ∈ pc.1.set :=
  ⟨_, List.mem_cons_self, View.mem_set_unit_zero hz6 inb_S256x128_S256x128_0_0 y⟩
theorem cover6_6 (w : Vec F S128x4096 .f32) (L : List (View.Piece (Elt F) S128x4096 .f32)) (y : S128x4096.Idx) :
    ∃ pc ∈ ((⟨Rect.unit (s := S128x4096) ![0, 0] S128x4096.size inb_S128x4096_S128x4096_0_0, w⟩ : View.Piece (Elt F) S128x4096 .f32) :: L), y ∈ pc.1.set :=
  ⟨_, List.mem_cons_self, View.mem_set_unit_zero hz6 inb_S128x4096_S128x4096_0_0 y⟩

abbrev cond6_0 (i : grid6.Coords) : Prop := (Scalar.cmpi .ne (Scalar.extui (Scalar.cmpi .eq (BitVec.ofNat 32 (i 0).val) 0#32)) 0#32) = 1#1

theorem hcond6_0 : ∀ t : Fin cfg6.N, cond6_0 (grid6.coords t) ↔ t.val % 32 = 0 :=
  (by decide +kernel : ∀ t : Fin grid6.N, cond6_0 (grid6.coords t) ↔ t.val % 32 = 0)

set_option maxHeartbeats 1000000 in
theorem run6_A (c : Dev nD) (i : grid6.Coords)
    (arg1 : Memref sig .tc .vmem S256x8192 .f32) (harg1 : arg1.IsWhole) (arg2 : Memref sig .tc .vmem S256x4096 .f32) (harg2 : arg2.IsWhole)
    (arg3 : Memref sig .tc .vmem S8192x128 .f32) (harg3 : arg3.IsWhole) (arg4 : Memref sig .tc .vmem S256x128 .f32) (harg4 : arg4.IsWhole)
    (arg5 : Memref sig .tc .vmem S128x8192 .f32) (harg5 : arg5.IsWhole) (arg6 : Memref sig .tc .vmem S256x128 .f32) (harg6 : arg6.IsWhole)
    (arg7 : Memref sig .tc .vmem S128x4096 .f32) (harg7 : arg7.IsWhole) (hc0 : cond6_0 i)
    (x0 : Vec F S256x8192 .f32) (x1 : Vec F S256x4096 .f32) (x2 : Vec F S8192x128 .f32) (x3 : Vec F S256x128 .f32) (x4 : Vec F S128x8192 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare (k6_pay2 (View.ld x4 (Rect.unit (s := S128x8192) (k6_off1 i) S128x256.size (k6_off1_inb i))) x0 x2)
            ∗ owns (c : Thread nD τ) arg7 fullShare (k6_pay3 (k6_pay1 (F := F)) x3 x1)) -∗ K ⟨⟩))
      ⊢ wp frame (wpE (defs₀ (F := F)) Variants.none c none) E
          (cc6__s5_body i arg1 harg1 arg2 harg2 arg3 harg3 arg4 harg4 arg5 harg5 arg6 harg6 arg7 harg7) K := by
  simp only [cc6__s5_body_eq_skeleton]; unfold cc6__s5_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  obtain rfl := harg1.eq_unread hf0; obtain rfl := harg2.eq_unread hf1; obtain rfl := harg3.eq_unread hf2
  obtain rfl := harg4.eq_unread hf3; obtain rfl := harg5.eq_unread hf4
  sl_exec (disch := first | exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    rw [View.read_writes_eq_canon _ _ _ (cover6_5 _ _),
      View.canon_unit_zero hz6]
    simp only [View.readAt_eq_ld, harg1.read_unread, harg3.read_unread, harg5.read_unread,
      View.ld_unit_zero (S := S256x8192) hz6, View.ld_unit_zero (S := S8192x128) hz6]
  iexists _; isplitr
  swap; · iexact H6
  ipureintro
  rw [View.read_writes_eq_canon _ _ _ (cover6_6 _ _)]
  sl_unfold_words
  rw [View.canon_cons_unit_zero (S := S128x4096) hz6, View.readCov_unit_zero (S := S128x4096) _ hz6]
  simp only [View.readAt_eq_ld, harg2.read_unread, harg4.read_unread,
    View.ld_unit_zero (S := S256x128) hz6, View.ld_unit_zero (S := S256x4096) hz6]

set_option maxHeartbeats 1000000 in
theorem run6_B (c : Dev nD) (i : grid6.Coords)
    (arg1 : Memref sig .tc .vmem S256x8192 .f32) (harg1 : arg1.IsWhole) (arg2 : Memref sig .tc .vmem S256x4096 .f32) (harg2 : arg2.IsWhole)
    (arg3 : Memref sig .tc .vmem S8192x128 .f32) (harg3 : arg3.IsWhole) (arg4 : Memref sig .tc .vmem S256x128 .f32) (harg4 : arg4.IsWhole)
    (arg5 : Memref sig .tc .vmem S128x8192 .f32) (harg5 : arg5.IsWhole) (arg6 : Memref sig .tc .vmem S256x128 .f32) (harg6 : arg6.IsWhole)
    (arg7 : Memref sig .tc .vmem S128x4096 .f32) (harg7 : arg7.IsWhole) (hc0 : ¬cond6_0 i)
    (x0 : Vec F S256x8192 .f32) (x1 : Vec F S256x4096 .f32) (x2 : Vec F S8192x128 .f32) (x3 : Vec F S256x128 .f32) (x4 : Vec F S128x8192 .f32) (xo6 : Vec F S128x4096 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ owns (c : Thread nD τ) arg7 fullShare xo6
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
            ∗ owns (c : Thread nD τ) arg6 fullShare (k6_pay2 (View.ld x4 (Rect.unit (s := S128x8192) (k6_off1 i) S128x256.size (k6_off1_inb i))) x0 x2)
            ∗ owns (c : Thread nD τ) arg7 fullShare (k6_pay3 xo6 x3 x1)) -∗ K ⟨⟩))
      ⊢ wp frame (wpE (defs₀ (F := F)) Variants.none c none) E
          (cc6__s5_body i arg1 harg1 arg2 harg2 arg3 harg3 arg4 harg4 arg5 harg5 arg6 harg6 arg7 harg7) K := by
  simp only [cc6__s5_body_eq_skeleton]; unfold cc6__s5_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
  obtain rfl := harg1.eq_unread hf0; obtain rfl := harg2.eq_unread hf1; obtain rfl := harg3.eq_unread hf2
  obtain rfl := harg4.eq_unread hf3; obtain rfl := harg5.eq_unread hf4; obtain rfl := harg7.eq_unread hf6
  sl_exec (disch := first | exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    rw [View.read_writes_eq_canon _ _ _ (cover6_5 _ _),
      View.canon_unit_zero hz6]
    simp only [View.readAt_eq_ld, harg1.read_unread, harg3.read_unread, harg5.read_unread,
      View.ld_unit_zero (S := S256x8192) hz6, View.ld_unit_zero (S := S8192x128) hz6]
  iexists _; isplitr
  swap; · iexact H6
  ipureintro
  rw [View.read_writes_eq_canon _ _ _ (cover6_6 _ _),
    View.canon_unit_zero hz6]
  simp only [View.readAt_eq_ld, harg2.read_unread, harg4.read_unread, harg7.read_unread,
    View.ld_unit_zero (S := S256x128) hz6, View.ld_unit_zero (S := S256x4096) hz6, View.ld_unit_zero (S := S128x4096) hz6]

variable (V : (c : Dev nD) → (b : Ref sig .tc) → Buf (Elt F) ((c : Thread nD τ).loc b))

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => k6_pay2 (View.ld (iblk6 V c 4 t) (Rect.unit (s := S128x8192) (k6_off1 (grid6.coords t)) S128x256.size (k6_off1_inb (grid6.coords t)))) (iblk6 V c 0 t) (iblk6 V c 2 t)
    | ⟨6, _⟩ => acc6 V c t.val t.isLt
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = k6_pay2 (View.ld (iblk6 V c 4 t) (Rect.unit (s := S128x8192) (k6_off1 (grid6.coords t)) S128x256.size (k6_off1_inb (grid6.coords t)))) (iblk6 V c 0 t) (iblk6 V c 2 t) := by dsimp only [dat6]
theorem after6_6 (c : Dev nD) (t : Fin cfg6.N) : (dat6 V c).after 6 t = acc6 V c t.val t.isLt := by dsimp only [dat6]

theorem before6_0 (c : Dev nD) (t : Fin cfg6.N) (d) : (dat6 V c).before 0 t d = iblk6 V c 0 t :=
  ((dat6 V c).before_in_eq_fetched 0 rfl (fun _ => rfl) (fun _ _ _ => rfl)
    (fun t => by rw [after6_0]; unfold Dat.blockOf iblk6; rw [A_eq6]; try rfl) t d).trans
    (by unfold Dat.fetched Dat.blockOf iblk6; rw [A_eq6]; try rfl)
theorem before6_1 (c : Dev nD) (t : Fin cfg6.N) (d) : (dat6 V c).before 1 t d = iblk6 V c 1 t :=
  ((dat6 V c).before_in_eq_fetched 1 rfl (fun _ => rfl) (fun _ _ _ => rfl)
    (fun t => by rw [after6_1]; unfold Dat.blockOf iblk6; rw [A_eq6]; try rfl) t d).trans
    (by unfold Dat.fetched Dat.blockOf iblk6; rw [A_eq6]; try rfl)
theorem before6_2 (c : Dev nD) (t : Fin cfg6.N) (d) : (dat6 V c).before 2 t d = iblk6 V c 2 t :=
  ((dat6 V c).before_in_eq_fetched 2 rfl (fun _ => rfl) (fun _ _ _ => rfl)
    (fun t => by rw [after6_2]; unfold Dat.blockOf iblk6; rw [A_eq6]; try rfl) t d).trans
    (by unfold Dat.fetched Dat.blockOf iblk6; rw [A_eq6]; try rfl)
theorem before6_3 (c : Dev nD) (t : Fin cfg6.N) (d) : (dat6 V c).before 3 t d = iblk6 V c 3 t :=
  ((dat6 V c).before_in_eq_fetched 3 rfl (fun _ => rfl) (fun _ _ _ => rfl)
    (fun t => by rw [after6_3]; unfold Dat.blockOf iblk6; rw [A_eq6]; try rfl) t d).trans
    (by unfold Dat.fetched Dat.blockOf iblk6; rw [A_eq6]; try rfl)
theorem before6_4 (c : Dev nD) (t : Fin cfg6.N) (d) : (dat6 V c).before 4 t d = iblk6 V c 4 t :=
  ((dat6 V c).before_in_eq_fetched 4 rfl (fun _ => rfl) (fun _ _ _ => rfl)
    (fun t => by rw [after6_4]; unfold Dat.blockOf iblk6; rw [A_eq6]; try rfl) t d).trans
    (by unfold Dat.fetched Dat.blockOf iblk6; rw [A_eq6]; try rfl)

theorem before6_6_B (c : Dev nD) (t : Fin cfg6.N) (h0 : ¬t.val % 32 = 0) (d) :
    (dat6 V c).before 6 t d = acc6 V c (t.val - 1) (Nat.lt_of_le_of_lt (Nat.sub_le _ _) t.isLt) := by
  have hN : t.val < 32 := lt_of_lt_of_eq t.isLt (show cfg6.N = 32 from N_6)
  rw [Dat.before_out_kept _ 6 rfl t (by omega) (Bool.eq_false_iff.mpr fun h => by have := (flush6_6 _).mp h; dsimp only at this; omega)
    (fun _ => rfl) (fun _ _ => rfl)]
  dsimp only [dat6]

theorem acc6_A (c : Dev nD) (t : Fin cfg6.N) (h0 : t.val % 32 = 0) :
    acc6 V c t.val t.isLt = k6_pay3 (k6_pay1 (F := F)) (iblk6 V c 3 t) (iblk6 V c 1 t) := by
  have hN : t.val < 32 := lt_of_lt_of_eq t.isLt (show cfg6.N = 32 from N_6)
  obtain ⟨n, hn⟩ := t
  cases n with
  | zero => rfl
  | succ n => exfalso; dsimp only at h0 hN; omega

theorem acc6_B (c : Dev nD) (t : Fin cfg6.N) (h0 : ¬t.val % 32 = 0) :
    acc6 V c t.val t.isLt = k6_pay3 (acc6 V c (t.val - 1) (Nat.lt_of_le_of_lt (Nat.sub_le _ _) t.isLt)) (iblk6 V c 3 t) (iblk6 V c 1 t) := by
  obtain ⟨n, hn⟩ := t
  cases n with
  | zero => exact absurd (Nat.zero_mod _) h0
  | succ n => rfl

abbrev ms6_0 (t : Fin cfg6.N) : Memref sig .tc .vmem S256x8192 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S256x4096 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S8192x128 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S256x128 .f32 := win6_3.stage (cfg6.slots t 3)
abbrev hs6_3 (t : Fin cfg6.N) : (ms6_3 t).IsWhole := hstage6_3 ((cfg6.slots t 3).cast nbuf6_3)
abbrev ms6_4 (t : Fin cfg6.N) : Memref sig .tc .vmem S128x8192 .f32 := win6_4.stage (cfg6.slots t 4)
abbrev hs6_4 (t : Fin cfg6.N) : (ms6_4 t).IsWhole := hstage6_4 ((cfg6.slots t 4).cast nbuf6_4)
abbrev ms6_5 (t : Fin cfg6.N) : Memref sig .tc .vmem S256x128 .f32 := win6_5.stage (cfg6.slots t 5)
abbrev hs6_5 (t : Fin cfg6.N) : (ms6_5 t).IsWhole := hstage6_5 ((cfg6.slots t 5).cast nbuf6_5)
abbrev ms6_6 (t : Fin cfg6.N) : Memref sig .tc .vmem S128x4096 .f32 := win6_6.stage (cfg6.slots t 6)
abbrev hs6_6 (t : Fin cfg6.N) : (ms6_6 t).IsWhole := hstage6_6 ((cfg6.slots t 6).cast nbuf6_6)

def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d))
    ∗ (∃ d, owns (c : Thread nD τ) (ms6_4 t) fullShare ((dat6 V c).before 4 t d))
    ∗ (∃ d, owns (c : Thread nD τ) (ms6_5 t) fullShare ((dat6 V c).before 5 t d))
    ∗ (∃ d, owns (c : Thread nD τ) (ms6_6 t) fullShare ((dat6 V c).before 6 t d)))

def bodyPost6 (c : Dev nD) (t : Fin cfg6.N) : sProp 𝕄 :=
  iprop((dat6 V c).Φ t.succ ∗ (dat6 V c).owesAt () t.succ
    ∗ owns (c : Thread nD τ) (ms6_0 t) fullShare ((dat6 V c).after 0 t)
    ∗ owns (c : Thread nD τ) (ms6_1 t) fullShare ((dat6 V c).after 1 t)
    ∗ owns (c : Thread nD τ) (ms6_2 t) fullShare ((dat6 V c).after 2 t)
    ∗ owns (c : Thread nD τ) (ms6_3 t) fullShare ((dat6 V c).after 3 t)
    ∗ owns (c : Thread nD τ) (ms6_4 t) fullShare ((dat6 V c).after 4 t)
    ∗ owns (c : Thread nD τ) (ms6_5 t) fullShare ((dat6 V c).after 5 t)
    ∗ owns (c : Thread nD τ) (ms6_6 t) fullShare ((dat6 V c).after 6 t))

set_option maxHeartbeats 1000000 in
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6]
  by_cases h0 : t.val % 32 = 0
  · rw [acc6_A V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (run6_A c (grid6.coords t) _ _ _ _ _ _ _ _ _ _ _ _ _ _ ((hcond6_0 t).mpr h0)
      (iblk6 V c 0 t) (iblk6 V c 1 t) (iblk6 V c 2 t) (iblk6 V c 3 t) (iblk6 V c 4 t) Set.univ _)
    iframe H0 H1 H2 H3 H4
    isplitl [H5]; · iexists _; iexact H5
    isplitl [H6]; · iexists _; iexact H6
    iintro ⟨H0, H1, H2, H3, H4, H5, H6⟩
    iframe HΦ Ho H0 H1 H2 H3 H4 H5 H6
  · rw [acc6_B V c t h0]
    simp only [before6_6_B V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (run6_B c (grid6.coords t) _ _ _ _ _ _ _ _ _ _ _ _ _ _ (fun h => h0 ((hcond6_0 t).mp h))
      (iblk6 V c 0 t) (iblk6 V c 1 t) (iblk6 V c 2 t) (iblk6 V c 3 t) (iblk6 V c 4 t)
      (acc6 V c (t.val - 1) (Nat.lt_of_le_of_lt (Nat.sub_le _ _) t.isLt)) Set.univ _)
    iframe H0 H1 H2 H3 H4
    isplitl [H5]; · iexists _; iexact H5
    iframe H6
    iintro ⟨H0, H1, H2, H3, H4, H5, H6⟩
    iframe HΦ Ho H0 H1 H2 H3 H4 H5 H6

theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KI.R7.lean ====
import proofs.«122060_g64467459113426_cont_9to1_m_811_14_alg».proof.Proof.Gen.KernelIdeal.Launch
import proofs.«122060_g64467459113426_cont_9to1_m_811_14_alg».proof.Proof.Gen.KernelIdeal.Skeleton
import proofs.«122060_g64467459113426_cont_9to1_m_811_14_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

abbrev r7_0 : Rect S1024x4096 := Rect.unit (s := S1024x4096) ![0, 0] S1024x4096.size inb_S1024x4096_S1024x4096_0_0
abbrev r7_1 : Rect S4096x128 := Rect.unit (s := S4096x128) ![0, 0] S4096x128.size inb_S4096x128_S4096x128_0_0
abbrev r7_3 : Rect S1024x128 := Rect.unit (s := S1024x128) ![0, 0] S1024x128.size inb_S1024x128_S1024x128_0_0
abbrev r7_2 (i : grid7.Coords) : Rect S128x4096 := Rect.unit (s := S128x4096) (k7_off1 i) S128x1024.size (k7_off1_inb i)

def out7_3 (i : grid7.Coords) (x0 : Vec F S1024x4096 .f32) (x1 : Vec F S4096x128 .f32) (x2 : Vec F S128x4096 .f32) : Vec F S1024x128 .f32 :=
  View.canon [⟨r7_3, k7_pay1 (View.ld x2 (r7_2 i)) (View.ld x0 r7_0) (View.ld x1 r7_1)⟩]

theorem cover7_3 (p0 : Vec F S1024x128 .f32) (y : S1024x128.Idx) :
    ∃ pc ∈ ([⟨r7_3, p0⟩] : List (View.Piece (Elt F) S1024x128 .f32)), y ∈ pc.1.set :=
  View.cover_of_tiled [⟨r7_3, p0⟩] S1024x128.size (by rfl) y

set_option maxHeartbeats 1000000 in
theorem sound_kernel7 (c : Dev nD) (E : Set ℕ) (i : grid7.Coords) (arg1 : Memref sig .tc .vmem S1024x4096 .f32) (harg1 : arg1.IsWhole) (arg2 : Memref sig .tc .vmem S4096x128 .f32) (harg2 : arg2.IsWhole) (arg3 : Memref sig .tc .vmem S128x4096 .f32) (harg3 : arg3.IsWhole) (arg4 : Memref sig .tc .vmem S1024x128 .f32) (harg4 : arg4.IsWhole)
    (x0 : Vec F S1024x4096 .f32) (x1 : Vec F S4096x128 .f32) (x2 : Vec F S128x4096 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out7_3 i x0 x1 x2)) -∗ K ⟨⟩))
      ⊢ wp frame (wpE (defs₀ (F := F)) Variants.none c none) E (cc7__s6_body i arg1 harg1 arg2 harg2 arg3 harg3 arg4 harg4) K := by
  simp only [cc7__s6_body_eq_skeleton]; unfold cc7__s6_body_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover7_3 _)

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (grid7.coords t) (iblk7 V c 0 t) (iblk7 V c 1 t) (iblk7 V c 2 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) :
    (dat7 V c).after 3 t = out7_3 (grid7.coords t) (iblk7 V c 0 t) (iblk7 V c 1 t) (iblk7 V c 2 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t))

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3]
  iintro ⟨HΦ, Ho, ⟨%d0, H0⟩, ⟨%d1, H1⟩, ⟨%d2, H2⟩, ⟨%d3, H3⟩⟩
  iapply (sound_kernel7 c Set.univ (grid7.coords t) _ _ _ _ _ _ _ _ (iblk7 V c 0 t) (iblk7 V c 1 t) (iblk7 V c 2 t) _)
  iframe H0 H1 H2
  isplitl [H3]; · iexists _; iexact H3
  iintro ⟨H0, H1, H2, H3⟩
  iframe HΦ Ho H0 H1 H2 H3

theorem body_obligation7 (c : Dev nD) : BodyObligation (dat7 (F := F) V c) (defs₀ (F := F)) Variants.none () Set.univ := fun t => by
  rw [bigSep_W7, bigSep_W7]
  exact sound_body7 V c t

end Cert.KernelIdeal.Hand

end
-- ==== Proof.KI.Fold.lean ====
import proofs.«122060_g64467459113426_cont_9to1_m_811_14_alg».proof.Proof.KI.R0
import proofs.«122060_g64467459113426_cont_9to1_m_811_14_alg».proof.Proof.KI.R1
import proofs.«122060_g64467459113426_cont_9to1_m_811_14_alg».proof.Proof.KI.R2
import proofs.«122060_g64467459113426_cont_9to1_m_811_14_alg».proof.Proof.KI.R3
import proofs.«122060_g64467459113426_cont_9to1_m_811_14_alg».proof.Proof.KI.R4
import proofs.«122060_g64467459113426_cont_9to1_m_811_14_alg».proof.Proof.KI.R5
import proofs.«122060_g64467459113426_cont_9to1_m_811_14_alg».proof.Proof.KI.R6
import proofs.«122060_g64467459113426_cont_9to1_m_811_14_alg».proof.Proof.KI.R7
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem input_of_not_result0 : ∀ w : Fin cfg0.W, Pipeline.arrRef spec0 w ∉ ([main_v0_0, main_v0_1] : List (Ref sig .tc)) → (cfg0.win w).isOut = false := by
  decide
theorem W1_keep (c : Dev nD) (b : Ref sig .tc) (hb : b ∉ ([main_v0_0, main_v0_1] : List (Ref sig .tc))) :
    W1 m ρ c (Proc.devRef .tc b) = W0 m ρ c (Proc.devRef .tc b) := by
  by_cases h : ∃ w, Pipeline.arrRef spec0 w = b
  · obtain ⟨w, rfl⟩ := h
    exact (W1_arr m ρ c w).trans (((dat0 (V0 m ρ) c).arrAt_in w (input_of_not_result0 w hb) _).trans (A_eq0 (V0 m ρ) c w))
  · exact W1_of_ne m ρ c b fun w e => h ⟨w, e⟩

def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem input_of_not_result1 : ∀ w : Fin cfg1.W, Pipeline.arrRef spec1 w ∉ ([main_v1_0, main_v1_1] : List (Ref sig .tc)) → (cfg1.win w).isOut = false := by
  decide
theorem W2_keep (c : Dev nD) (b : Ref sig .tc) (hb : b ∉ ([main_v1_0, main_v1_1] : List (Ref sig .tc))) :
    W2 m ρ c (Proc.devRef .tc b) = W1 m ρ c (Proc.devRef .tc b) := by
  by_cases h : ∃ w, Pipeline.arrRef spec1 w = b
  · obtain ⟨w, rfl⟩ := h
    exact (W2_arr m ρ c w).trans (((dat1 (V1 m ρ) c).arrAt_in w (input_of_not_result1 w hb) _).trans (A_eq1 (V1 m ρ) c w))
  · exact W2_of_ne m ρ c b fun w e => h ⟨w, e⟩

def W3 (c : Dev nD) : Valuation τ sig (Elt F) :=
  Pipeline.withArrays spec2 c (W2 m ρ c) fun w => (dat2 (V2 m ρ) c).arrAt w cfg2.N
theorem W3_arr (c : Dev nD) (w : Fin cfg2.W) :
    W3 m ρ c (Proc.devRef .tc (Pipeline.arrRef spec2 w)) = (dat2 (V2 m ρ) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m ρ c (Proc.devRef .tc b) = W2 m ρ c (Proc.devRef .tc b) := by
  unfold W3; exact Pipeline.withArrays_of_ne spec2 c _ _ b hb
abbrev V3 : (c : Dev nD) → (b : Ref sig .tc) → Buf (Elt F) ((c : Thread nD τ).loc b) := fun c b => W3 m ρ c b
theorem input_of_not_result2 : ∀ w : Fin cfg2.W, Pipeline.arrRef spec2 w ∉ ([main_v2] : List (Ref sig .tc)) → (cfg2.win w).isOut = false := by
  decide
theorem W3_keep (c : Dev nD) (b : Ref sig .tc) (hb : b ∉ ([main_v2] : List (Ref sig .tc))) :
    W3 m ρ c (Proc.devRef .tc b) = W2 m ρ c (Proc.devRef .tc b) := by
  by_cases h : ∃ w, Pipeline.arrRef spec2 w = b
  · obtain ⟨w, rfl⟩ := h
    exact (W3_arr m ρ c w).trans (((dat2 (V2 m ρ) c).arrAt_in w (input_of_not_result2 w hb) _).trans (A_eq2 (V2 m ρ) c w))
  · exact W3_of_ne m ρ c b fun w e => h ⟨w, e⟩

def W4 (c : Dev nD) : Valuation τ sig (Elt F) :=
  Pipeline.withArrays spec3 c (W3 m ρ c) fun w => (dat3 (V3 m ρ) c).arrAt w cfg3.N
theorem W4_arr (c : Dev nD) (w : Fin cfg3.W) :
    W4 m ρ c (Proc.devRef .tc (Pipeline.arrRef spec3 w)) = (dat3 (V3 m ρ) c).arrAt w cfg3.N := by
  unfold W4; exact Pipeline.withArrays_arr spec3 launch3.win.arr_inj c _ _ w
theorem W4_of_ne (c : Dev nD) (b : Ref sig .tc) (hb : ∀ w, Pipeline.arrRef spec3 w ≠ b) :
    W4 m ρ c (Proc.devRef .tc b) = W3 m ρ c (Proc.devRef .tc b) := by
  unfold W4; exact Pipeline.withArrays_of_ne spec3 c _ _ b hb
abbrev V4 : (c : Dev nD) → (b : Ref sig .tc) → Buf (Elt F) ((c : Thread nD τ).loc b) := fun c b => W4 m ρ c b
theorem input_of_not_result3 : ∀ w : Fin cfg3.W, Pipeline.arrRef spec3 w ∉ ([main_v3_0, main_v3_1, main_v3_2] : List (Ref sig .tc)) → (cfg3.win w).isOut = false := by
  decide
theorem W4_keep (c : Dev nD) (b : Ref sig .tc) (hb : b ∉ ([main_v3_0, main_v3_1, main_v3_2] : List (Ref sig .tc))) :
    W4 m ρ c (Proc.devRef .tc b) = W3 m ρ c (Proc.devRef .tc b) := by
  by_cases h : ∃ w, Pipeline.arrRef spec3 w = b
  · obtain ⟨w, rfl⟩ := h
    exact (W4_arr m ρ c w).trans (((dat3 (V3 m ρ) c).arrAt_in w (input_of_not_result3 w hb) _).trans (A_eq3 (V3 m ρ) c w))
  · exact W4_of_ne m ρ c b fun w e => h ⟨w, e⟩

def W5 (c : Dev nD) : Valuation τ sig (Elt F) :=
  Pipeline.withArrays spec4 c (W4 m ρ c) fun w => (dat4 (V4 m ρ) c).arrAt w cfg4.N
theorem W5_arr (c : Dev nD) (w : Fin cfg4.W) :
    W5 m ρ c (Proc.devRef .tc (Pipeline.arrRef spec4 w)) = (dat4 (V4 m ρ) c).arrAt w cfg4.N := by
  unfold W5; exact Pipeline.withArrays_arr spec4 launch4.win.arr_inj c _ _ w
theorem W5_of_ne (c : Dev nD) (b : Ref sig .tc) (hb : ∀ w, Pipeline.arrRef spec4 w ≠ b) :
    W5 m ρ c (Proc.devRef .tc b) = W4 m ρ c (Proc.devRef .tc b) := by
  unfold W5; exact Pipeline.withArrays_of_ne spec4 c _ _ b hb
abbrev V5 : (c : Dev nD) → (b : Ref sig .tc) → Buf (Elt F) ((c : Thread nD τ).loc b) := fun c b => W5 m ρ c b
theorem input_of_not_result4 : ∀ w : Fin cfg4.W, Pipeline.arrRef spec4 w ∉ ([main_v4_0, main_v4_1, main_v4_2] : List (Ref sig .tc)) → (cfg4.win w).isOut = false := by
  decide
theorem W5_keep (c : Dev nD) (b : Ref sig .tc) (hb : b ∉ ([main_v4_0, main_v4_1, main_v4_2] : List (Ref sig .tc))) :
    W5 m ρ c (Proc.devRef .tc b) = W4 m ρ c (Proc.devRef .tc b) := by
  by_cases h : ∃ w, Pipeline.arrRef spec4 w = b
  · obtain ⟨w, rfl⟩ := h
    exact (W5_arr m ρ c w).trans (((dat4 (V4 m ρ) c).arrAt_in w (input_of_not_result4 w hb) _).trans (A_eq4 (V4 m ρ) c w))
  · exact W5_of_ne m ρ c b fun w e => h ⟨w, e⟩

def W6 (c : Dev nD) : Valuation τ sig (Elt F) :=
  Pipeline.withArrays spec5 c (W5 m ρ c) fun w => (dat5 (V5 m ρ) c).arrAt w cfg5.N
theorem W6_arr (c : Dev nD) (w : Fin cfg5.W) :
    W6 m ρ c (Proc.devRef .tc (Pipeline.arrRef spec5 w)) = (dat5 (V5 m ρ) c).arrAt w cfg5.N := by
  unfold W6; exact Pipeline.withArrays_arr spec5 launch5.win.arr_inj c _ _ w
theorem W6_of_ne (c : Dev nD) (b : Ref sig .tc) (hb : ∀ w, Pipeline.arrRef spec5 w ≠ b) :
    W6 m ρ c (Proc.devRef .tc b) = W5 m ρ c (Proc.devRef .tc b) := by
  unfold W6; exact Pipeline.withArrays_of_ne spec5 c _ _ b hb
abbrev V6 : (c : Dev nD) → (b : Ref sig .tc) → Buf (Elt F) ((c : Thread nD τ).loc b) := fun c b => W6 m ρ c b
theorem input_of_not_result5 : ∀ w : Fin cfg5.W, Pipeline.arrRef spec5 w ∉ ([main_v5_0, main_v5_1] : List (Ref sig .tc)) → (cfg5.win w).isOut = false := by
  decide
theorem W6_keep (c : Dev nD) (b : Ref sig .tc) (hb : b ∉ ([main_v5_0, main_v5_1] : List (Ref sig .tc))) :
    W6 m ρ c (Proc.devRef .tc b) = W5 m ρ c (Proc.devRef .tc b) := by
  by_cases h : ∃ w, Pipeline.arrRef spec5 w = b
  · obtain ⟨w, rfl⟩ := h
    exact (W6_arr m ρ c w).trans (((dat5 (V5 m ρ) c).arrAt_in w (input_of_not_result5 w hb) _).trans (A_eq5 (V5 m ρ) c w))
  · exact W6_of_ne m ρ c b fun w e => h ⟨w, e⟩

def W7 (c : Dev nD) : Valuation τ sig (Elt F) :=
  Pipeline.withArrays spec6 c (W6 m ρ c) fun w => (dat6 (V6 m ρ) c).arrAt w cfg6.N
theorem W7_arr (c : Dev nD) (w : Fin cfg6.W) :
    W7 m ρ c (Proc.devRef .tc (Pipeline.arrRef spec6 w)) = (dat6 (V6 m ρ) c).arrAt w cfg6.N := by
  unfold W7; exact Pipeline.withArrays_arr spec6 launch6.win.arr_inj c _ _ w
theorem W7_of_ne (c : Dev nD) (b : Ref sig .tc) (hb : ∀ w, Pipeline.arrRef spec6 w ≠ b) :
    W7 m ρ c (Proc.devRef .tc b) = W6 m ρ c (Proc.devRef .tc b) := by
  unfold W7; exact Pipeline.withArrays_of_ne spec6 c _ _ b hb
abbrev V7 : (c : Dev nD) → (b : Ref sig .tc) → Buf (Elt F) ((c : Thread nD τ).loc b) := fun c b => W7 m ρ c b
theorem input_of_not_result6 : ∀ w : Fin cfg6.W, Pipeline.arrRef spec6 w ∉ ([main_v6_0, main_v6_1] : List (Ref sig .tc)) → (cfg6.win w).isOut = false := by
  decide
theorem W7_keep (c : Dev nD) (b : Ref sig .tc) (hb : b ∉ ([main_v6_0, main_v6_1] : List (Ref sig .tc))) :
    W7 m ρ c (Proc.devRef .tc b) = W6 m ρ c (Proc.devRef .tc b) := by
  by_cases h : ∃ w, Pipeline.arrRef spec6 w = b
  · obtain ⟨w, rfl⟩ := h
    exact (W7_arr m ρ c w).trans (((dat6 (V6 m ρ) c).arrAt_in w (input_of_not_result6 w hb) _).trans (A_eq6 (V6 m ρ) c w))
  · exact W7_of_ne m ρ c b fun w e => h ⟨w, e⟩

def W8 (c : Dev nD) : Valuation τ sig (Elt F) :=
  Pipeline.withArrays spec7 c (W7 m ρ c) fun w => (dat7 (V7 m ρ) c).arrAt w cfg7.N
theorem W8_arr (c : Dev nD) (w : Fin cfg7.W) :
    W8 m ρ c (Proc.devRef .tc (Pipeline.arrRef spec7 w)) = (dat7 (V7 m ρ) c).arrAt w cfg7.N := by
  unfold W8; exact Pipeline.withArrays_arr spec7 launch7.win.arr_inj c _ _ w
theorem W8_of_ne (c : Dev nD) (b : Ref sig .tc) (hb : ∀ w, Pipeline.arrRef spec7 w ≠ b) :
    W8 m ρ c (Proc.devRef .tc b) = W7 m ρ c (Proc.devRef .tc b) := by
  unfold W8; exact Pipeline.withArrays_of_ne spec7 c _ _ b hb
abbrev V8 : (c : Dev nD) → (b : Ref sig .tc) → Buf (Elt F) ((c : Thread nD τ).loc b) := fun c b => W8 m ρ c b
theorem input_of_not_result7 : ∀ w : Fin cfg7.W, Pipeline.arrRef spec7 w ∉ ([main_v7] : List (Ref sig .tc)) → (cfg7.win w).isOut = false := by
  decide
theorem W8_keep (c : Dev nD) (b : Ref sig .tc) (hb : b ∉ ([main_v7] : List (Ref sig .tc))) :
    W8 m ρ c (Proc.devRef .tc b) = W7 m ρ c (Proc.devRef .tc b) := by
  by_cases h : ∃ w, Pipeline.arrRef spec7 w = b
  · obtain ⟨w, rfl⟩ := h
    exact (W8_arr m ρ c w).trans (((dat7 (V7 m ρ) c).arrAt_in w (input_of_not_result7 w hb) _).trans (A_eq7 (V7 m ρ) c w))
  · exact W8_of_ne m ρ c b fun w e => h ⟨w, e⟩

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- A buffer that is no region's result reads at the end what it held at launch: a region changes nothing but its results. -/
theorem arg_end (c : Dev nD) {mem : (ℓ : Loc nD τ sig) → Buf (Elt F) ℓ}
    (h : ∀ b ∈ Pipeline.ucRefs τ sig, mem ((c : Thread nD τ).1, b) = W8 m ρ c b) (b : Ref sig .tc)
    (hs : ¬ (Proc.devRef .tc b : DevRef τ sig).isScoped := by decide)
    (h0 : b ∉ ([main_v0_0, main_v0_1] : List (Ref sig .tc)) := by decide)
    (h1 : b ∉ ([main_v1_0, main_v1_1] : List (Ref sig .tc)) := by decide)
    (h2 : b ∉ ([main_v2] : List (Ref sig .tc)) := by decide)
    (h3 : b ∉ ([main_v3_0, main_v3_1, main_v3_2] : List (Ref sig .tc)) := by decide)
    (h4 : b ∉ ([main_v4_0, main_v4_1, main_v4_2] : List (Ref sig .tc)) := by decide)
    (h5 : b ∉ ([main_v5_0, main_v5_1] : List (Ref sig .tc)) := by decide)
    (h6 : b ∉ ([main_v6_0, main_v6_1] : List (Ref sig .tc)) := by decide)
    (h7 : b ∉ ([main_v7] : List (Ref sig .tc)) := by decide) :
    mem ((c : Thread nD τ).loc b) = m ((c : Thread nD τ).loc b) :=
  (h _ (mem_uc b hs)).trans <| (W8_keep m ρ c b h7).trans <| (W7_keep m ρ c b h6).trans <| (W6_keep m ρ c b h5).trans <| (W5_keep m ρ c b h4).trans <| (W4_keep m ρ c b h3).trans <| (W3_keep m ρ c b h2).trans <| (W2_keep m ρ c b h1).trans <| W1_keep m ρ c b h0

end Cert.KernelIdeal.Hand

end
-- ==== Proof.KI.Run.lean ====
import proofs.«122060_g64467459113426_cont_9to1_m_811_14_alg».proof.Proof.KI.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev adm : (p : Fin 8) → (pcfgs (F := F) p).Adm := fun p => (cfgs p).toPCfg_adm
def pdats : (p : Fin 8) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
  | ⟨2, _⟩ => fun c => dat2 (V2 m ρ) c
  | ⟨3, _⟩ => fun c => dat3 (V3 m ρ) c
  | ⟨4, _⟩ => fun c => dat4 (V4 m ρ) c
  | ⟨5, _⟩ => fun c => dat5 (V5 m ρ) c
  | ⟨6, _⟩ => fun c => dat6 (V6 m ρ) c
  | ⟨7, _⟩ => fun c => dat7 (V7 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev Tₙ (c : Dev nD) : sProp 𝕄 := iprop(StableHlo.held (c : Thread nD τ) (Pipeline.ucRefs τ sig) (W8 m ρ c) ∗ ∃ r, prngReg c r)

theorem owesAt_of_zero {cfg : Pipeline.Cfg sig Λ₀} {c : Dev nD} (dat : Dat τ (Elt F) Unit ℕ (UR sig nD τ) ℕ cfg c)
    (t : Fin (cfg.N + 1)) (h0 : dat.owed t = 0) (hr : dat.recorded t = Set.univ) :
    iprop(∃ W, owes (c : Thread nD τ) (0 : CellTallies nD τ sig Unit) W) ⊢ (dat.owesAt () t : sProp 𝕄) := by
  unfold Pipeline.Dat.owesAt Pipeline.owesWithin Pipeline.Dat.bound
  rw [h0, hr, Set.univ_union]
  iintro ⟨%W, HO⟩
  iexists W
  isplitr; · ipureintro; exact Set.subset_univ _
  iexact HO
theorem zero_of_owesAt {cfg : Pipeline.Cfg sig Λ₀} {c : Dev nD} (dat : Dat τ (Elt F) Unit ℕ (UR sig nD τ) ℕ cfg c)
    (t : Fin (cfg.N + 1)) (h0 : dat.owed t = 0) :
    (dat.owesAt () t : sProp 𝕄) ⊢ iprop(∃ W, owes (c : Thread nD τ) (0 : CellTallies nD τ sig Unit) W) := by
  unfold Pipeline.Dat.owesAt Pipeline.owesWithin
  rw [h0]
  iintro ⟨%W, -, HO⟩
  iexists W
  iexact HO

abbrev pc (p : Fin 8) := Pipeline.pin (pcfgs (F := F)) adm p

set_option backward.isDefEq.respectTransparency.types false in
/-- A region as one step of the run, once for all eight: only its launch facts, entry and exit contents and body obligation differ. -/
def mkReg (p : Fin 8) (la : Pipeline.LaunchFacts (nD := nD) (τ := τ) cfgs p) (W W' : Dev nD → Valuation τ sig (Elt F))
    (hb : ∀ c, BodyObligation (pdats m ρ p c) (defs₀ (F := F)) 𝒱₀ () Set.univ)
    (hA : ∀ c w, (pdats m ρ p c).A w = W c (Pipeline.arrRef (pc (F := F) p).spec w))
    (hi : ∀ c, (Pipeline.ΦA (pc (F := F) p).spec c : sProp 𝕄) ⊢ (pdats m ρ p c).Φ 0 := by intro; exact .rfl)
    (hou : ∀ c, (pdats m ρ p c).Φ (Fin.last (pc (F := F) p).N) ⊢ (Pipeline.ΦA (pc (F := F) p).spec c : sProp 𝕄) := by intro; exact .rfl)
    (ho : ∀ c t, (pdats m ρ p c).owed t = 0 := by intros; rfl) (hr : ∀ c t, (pdats m ρ p c).recorded t = Set.univ := by intros; rfl)
    (hq : ∀ c w, (pdats m ρ p c).q w = fullShare := by intros; rfl)
    (hW : ∀ c, W' c = Pipeline.withArrays (pc (F := F) p).spec c (W c) fun w => (pdats m ρ p c).arrAt w (pc (F := F) p).N := by intro; rfl) :
    Pipeline.RegionSeg (pcfgs (F := F)) adm (pdats m ρ) () defs₀ 𝒱₀ L lv p where
  win := la.win.to₀
  block_pos := la.block_pos
  stage_whole := la.stage_whole
  K := PEmpty
  osem k := k.elim
  ho := Pipeline.OwnSemFacts.none _
  hbody c := (hb c).loose
  hwaits := Pipeline.hwaits_of_owed_zero _ _ _ _ L lv p ho
  pre c := iprop(StableHlo.held (c : Thread nD τ) (Pipeline.ucRefs τ sig) (W c) ∗ R c)
  post c := iprop(StableHlo.held (c : Thread nD τ) (Pipeline.ucRefs τ sig) (W' c) ∗ R c)
  X c := iprop(∃ r, prngReg c r)
  Y c := iprop(∃ r, prngReg c r)
  Z c := Pipeline.unscopedRest (Ix := Unit) (Name := ℕ) (U := UR sig nD τ) (Lvl := ℕ) (pc (F := F) p).spec c (fun b => W c b)
  hentry c := by
    rw [Pipeline.ownSems0_none]
    have hsplit := Pipeline.arrays_of_unscopedBufs (p := p) (pcfgs (F := F)) adm (pdats m ρ) la.win la.arr_whole c
      ((pdats m ρ p c).share_full (hq c)) (fun b => W c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_of_zero (pdats m ρ p c) 0 (ho c 0) (hr c 0))
      iexact HO
    isplitl [Hp]; · iexact Hp
    iexact Hrest
  hin c := by
    refine BIBase.Entails.trans ?_ (hi c)
    unfold Pipeline.ΦA
    iintro ⟨Hp, -, Hr⟩
    isplitl [Hr]; · iexact Hr
    iexact Hp
  hout c := by
    rw [Pipeline.ownSems0_none]
    refine BIBase.Entails.trans (hou c) ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      la.win la.arr_whole c (pdats m ρ) ((pdats m ρ p c).share_full (hq c))
      (fun b => W c b) (fun b => W' c b) ((pdats m ρ p c).arrAt · (pc (F := F) p).N) (fun w => by rw [hW c]; exact (Pipeline.withArrays_arr (pc (F := F) p).spec la.win.arr_inj c (W c) (fun w => (pdats m ρ p c).arrAt w (pc (F := F) p).N) w).symm)
      (fun b hb => by rw [hW c]; exact Pipeline.withArrays_of_ne (pc (F := F) p).spec c (W c) (fun w => (pdats m ρ p c).arrAt w (pc (F := F) p).N) b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    iapply (zero_of_owesAt (pdats m ρ p c) (Fin.last (pc (F := F) p).N) (ho c (Fin.last (pc (F := F) p).N)))
    iexact HO

def reg0 : Pipeline.RegionSeg (pcfgs (F := F)) adm (pdats m ρ) () defs₀ 𝒱₀ L lv 0 :=
  mkReg m ρ 0 launch0 (W0 m ρ) (W1 m ρ) (body_obligation0 (V0 m ρ)) (A_eq0 (V0 m ρ))

def reg1 : Pipeline.RegionSeg (pcfgs (F := F)) adm (pdats m ρ) () defs₀ 𝒱₀ L lv 1 :=
  mkReg m ρ 1 launch1 (W1 m ρ) (W2 m ρ) (body_obligation1 (V1 m ρ)) (A_eq1 (V1 m ρ))

def reg2 : Pipeline.RegionSeg (pcfgs (F := F)) adm (pdats m ρ) () defs₀ 𝒱₀ L lv 2 :=
  mkReg m ρ 2 launch2 (W2 m ρ) (W3 m ρ) (body_obligation2 (V2 m ρ)) (A_eq2 (V2 m ρ))

def reg3 : Pipeline.RegionSeg (pcfgs (F := F)) adm (pdats m ρ) () defs₀ 𝒱₀ L lv 3 :=
  mkReg m ρ 3 launch3 (W3 m ρ) (W4 m ρ) (body_obligation3 (V3 m ρ)) (A_eq3 (V3 m ρ)) (hin3 (V3 m ρ)) (hout3 (V3 m ρ))

def reg4 : Pipeline.RegionSeg (pcfgs (F := F)) adm (pdats m ρ) () defs₀ 𝒱₀ L lv 4 :=
  mkReg m ρ 4 launch4 (W4 m ρ) (W5 m ρ) (body_obligation4 (V4 m ρ)) (A_eq4 (V4 m ρ)) (hin4 (V4 m ρ)) (hout4 (V4 m ρ))

def reg5 : Pipeline.RegionSeg (pcfgs (F := F)) adm (pdats m ρ) () defs₀ 𝒱₀ L lv 5 :=
  mkReg m ρ 5 launch5 (W5 m ρ) (W6 m ρ) (body_obligation5 (V5 m ρ)) (A_eq5 (V5 m ρ))

def reg6 : Pipeline.RegionSeg (pcfgs (F := F)) adm (pdats m ρ) () defs₀ 𝒱₀ L lv 6 :=
  mkReg m ρ 6 launch6 (W6 m ρ) (W7 m ρ) (body_obligation6 (V6 m ρ)) (A_eq6 (V6 m ρ))

def reg7 : Pipeline.RegionSeg (pcfgs (F := F)) adm (pdats m ρ) () defs₀ 𝒱₀ L lv 7 :=
  mkReg m ρ 7 launch7 (W7 m ρ) (W8 m ρ) (body_obligation7 (V7 m ρ)) (A_eq7 (V7 m ρ))

abbrev segs : List (Pipeline.Seg (pcfgs (F := F)) adm (pdats m ρ) () defs₀ 𝒱₀ L lv) :=
  [ .region (reg0 m ρ),
    .region (reg1 m ρ),
    .region (reg2 m ρ),
    .region (reg3 m ρ),
    .region (reg4 m ρ),
    .region (reg5 m ρ),
    .region (reg6 m ρ),
    .region (reg7 m ρ) ]
theorem main_run (c : Dev nD) : main (F := F) c = Pipeline.Seg.run (segs m ρ) := (main_chain c).trans (by chain_rfl)

set_option backward.isDefEq.respectTransparency.types false in
theorem run : θ_run defs (onTc (τ := τ) (main (F := F))) ⟨m, fun _ => 0, ρ⟩ (fun r => ∀ c : Dev nD,
      ∀ b ∈ Pipeline.ucRefs τ sig, r.2.mem ((c : Thread nD τ).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => sep_assoc.2⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun _ h => h)

end Cert.KernelIdeal.Hand

end
-- ==== Proof.Spec.lean ====
import Idealize.ShloMosaic.PureOps.Ideal
import Idealize.ShloMosaic.Lib.ValueIdx

noncomputable section

namespace Cert.Hmc

open Idealize.ShloMosaic Idealize.ShloMosaic.ValueIdx

abbrev Mat (a b : ℕ) : Type := (⟨2, ![a, b]⟩ : Shape).Idx → EReal

def mm {a k b : ℕ} (A : Mat a k) (B : Mat k b) : Mat a b :=
  fun j => ∑ l : Fin k, A (ix2 (show Fin a from j 0) l) * B (ix2 l (show Fin b from j 1))

def mmT {k a b : ℕ} (A : Mat k a) (B : Mat k b) : Mat a b :=
  fun j => ∑ r : Fin k, A (ix2 r (show Fin a from j 0)) * B (ix2 r (show Fin b from j 1))

def tr {a b : ℕ} (X : Mat a b) : Mat b a :=
  fun j => X (ix2 (show Fin a from j 1) (show Fin b from j 0))

def sg {a b : ℕ} (X : Mat a b) : Mat a b := fun j => Ideal.logistic (X j)

def add {a b : ℕ} (X Y : Mat a b) : Mat a b := fun j => X j + Y j

theorem mm_ix2 {a k b : ℕ} (A : Mat a k) (B : Mat k b) (p : Fin a) (q : Fin b) :
    mm A B (ix2 p q) = ∑ l : Fin k, A (ix2 p l) * B (ix2 l q) := rfl

theorem mmT_ix2 {k a b : ℕ} (A : Mat k a) (B : Mat k b) (p : Fin a) (q : Fin b) :
    mmT A B (ix2 p q) = ∑ r : Fin k, A (ix2 r p) * B (ix2 r q) := rfl

theorem tr_ix2 {a b : ℕ} (X : Mat a b) (p : Fin b) (q : Fin a) : tr X (ix2 p q) = X (ix2 q p) := rfl

theorem sg_apply {a b : ℕ} (X : Mat a b) (j) : sg X j = Ideal.logistic (X j) := rfl

theorem add_apply {a b : ℕ} (X Y : Mat a b) (j) : add X Y j = X j + Y j := rfl

theorem tr_tr {a b : ℕ} (X : Mat a b) : tr (tr X) = X := by
  funext j
  rw [eq_ix2 j]
  rfl

section Layer

variable (x0 : Mat 4096 128) (x1 : Mat 8192 128) (x2 : Mat 4096 128)
  (A0 : Mat 4096 4096) (A1 : Mat 8192 8192) (C2 : Mat 4096 4096) (I1 : Mat 4096 8192) (I2 : Mat 8192 4096)
  (W1_00 W1_01 W1_12 W1_21 W2_00 W2_01 W2_11 W2_12 W2_22 : Mat 128 128)

def s0 : Mat 4096 128 := sg (add (mm A0 (mm x0 W1_00)) (mm I1 (mm x1 W1_01)))
def s1 : Mat 8192 128 := sg (add (mmT I1 (mm x0 W1_01)) (mm I2 (mm x2 W1_21)))
def s2 : Mat 4096 128 := mmT I2 (mm x1 W1_12)

def out0 : Mat 4096 128 := mm A0 (mm (s0 x0 x1 A0 I1 W1_00 W1_01) W2_00)
def out1 : Mat 8192 128 :=
  sg (add (mmT I1 (mm (s0 x0 x1 A0 I1 W1_00 W1_01) W2_01)) (mm A1 (mm (s1 x0 x2 I1 I2 W1_01 W1_21) W2_11)))
def out2 : Mat 4096 128 :=
  sg (add (mmT I2 (mm (s1 x0 x2 I1 I2 W1_01 W1_21) W2_12)) (mm C2 (mm (s2 x1 I2 W1_12) W2_22)))

end Layer

end Cert.Hmc

end
-- ==== Proof.Val.Proj.lean ====
import proofs.«122060_g64467459113426_cont_9to1_m_811_14_alg».proof.Proof.Gen.KernelIdeal
import proofs.«122060_g64467459113426_cont_9to1_m_811_14_alg».proof.Proof.Spec
import Idealize.ShloMosaic.Lib.ValueIdx
import Idealize.ShloMosaic.PureOps.Ideal.Laws

noncomputable section

namespace Cert.KernelIdeal.HandVal

open Cert.KernelIdeal Cert.KernelIdeal.Gen Cert.Hmc
open Idealize.ShloMosaic Idealize.ShloMosaic.ValueIdx

/-- A product of two blocks added onto zero, read at entry (p, q): the sum over the one contracted axis, for blocks of any size. -/
theorem mm_ix2_of {a k b : ℕ} {φ₁ φ₂ : FTy} (d : DotDims ⟨2, ![a, k]⟩ ⟨2, ![k, b]⟩ ⟨2, ![a, b]⟩)
    (hr : d.contr.rank = 1) (hs : d.contr.size ⟨0, by omega⟩ = k)
    (h1 : ∀ i q, (d.lhsIdx i q 0).val = (i 0).val) (h2 : ∀ i q, (d.lhsIdx i q 1).val = (q ⟨0, by omega⟩).val)
    (h3 : ∀ i q, (d.rhsIdx i q 0).val = (q ⟨0, by omega⟩).val) (h4 : ∀ i q, (d.rhsIdx i q 1).val = (i 1).val)
    (x : FVec Ideal ⟨2, ![a, k]⟩ φ₁) (y : FVec Ideal ⟨2, ![k, b]⟩ φ₂) (p : Fin a) (q : Fin b) :
    matmul (F := Ideal) d none x y (constant ⟨2, ![a, b]⟩ .f32 0x00000000#32) (ix2 p q) = ∑ l : Fin k, x (ix2 p l) * y (ix2 l q) := by
  simp only [matmul]
  rw [Ideal.matmul_constant_zero_apply, ← Equiv.sum_comp (contrEquiv1 d k hr hs).symm]
  refine Finset.sum_congr rfl fun l _ => ?_
  have hl := contrEquiv1_symm_val d k hr hs l
  have el : d.lhsIdx (ix2 p q) ((contrEquiv1 d k hr hs).symm l) = ix2 p l := funext fun a => Fin.ext (by
    match a with
    | ⟨0, _⟩ => exact h1 _ _
    | ⟨1, _⟩ => exact (h2 _ _).trans hl)
  have er : d.rhsIdx (ix2 p q) ((contrEquiv1 d k hr hs).symm l) = ix2 l q := funext fun a => Fin.ext (by
    match a with
    | ⟨0, _⟩ => exact (h3 _ _).trans hl
    | ⟨1, _⟩ => exact h4 _ _)
  rw [el, er]

/-- The same when the left factor is contracted along its rows: entry (p, q) sums x[l, p] · y[l, q]. -/
theorem mmT_ix2_of {a k b : ℕ} {φ₁ φ₂ : FTy} (d : DotDims ⟨2, ![k, a]⟩ ⟨2, ![k, b]⟩ ⟨2, ![a, b]⟩)
    (hr : d.contr.rank = 1) (hs : d.contr.size ⟨0, by omega⟩ = k)
    (h1 : ∀ i q, (d.lhsIdx i q 0).val = (q ⟨0, by omega⟩).val) (h2 : ∀ i q, (d.lhsIdx i q 1).val = (i 0).val)
    (h3 : ∀ i q, (d.rhsIdx i q 0).val = (q ⟨0, by omega⟩).val) (h4 : ∀ i q, (d.rhsIdx i q 1).val = (i 1).val)
    (x : FVec Ideal ⟨2, ![k, a]⟩ φ₁) (y : FVec Ideal ⟨2, ![k, b]⟩ φ₂) (p : Fin a) (q : Fin b) :
    matmul (F := Ideal) d none x y (constant ⟨2, ![a, b]⟩ .f32 0x00000000#32) (ix2 p q) = ∑ l : Fin k, x (ix2 l p) * y (ix2 l q) := by
  simp only [matmul]
  rw [Ideal.matmul_constant_zero_apply, ← Equiv.sum_comp (contrEquiv1 d k hr hs).symm]
  refine Finset.sum_congr rfl fun l _ => ?_
  have hl := contrEquiv1_symm_val d k hr hs l
  have el : d.lhsIdx (ix2 p q) ((contrEquiv1 d k hr hs).symm l) = ix2 l p := funext fun a => Fin.ext (by
    match a with
    | ⟨0, _⟩ => exact (h1 _ _).trans hl
    | ⟨1, _⟩ => exact h2 _ _)
  have er : d.rhsIdx (ix2 p q) ((contrEquiv1 d k hr hs).symm l) = ix2 l q := funext fun a => Fin.ext (by
    match a with
    | ⟨0, _⟩ => exact (h3 _ _).trans hl
    | ⟨1, _⟩ => exact h4 _ _)
  rw [el, er]

theorem projDot_lhs_0 (i : S1024x128.Idx) (q : dot_S1024x128_S128x128_S1024x128_1_0_0_1_n_n.contr.Idx) :
    (dot_S1024x128_S128x128_S1024x128_1_0_0_1_n_n.lhsIdx i q 0).val = (i 0).val := by
  unfold DotDims.lhsIdx
  rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
  rfl
theorem projDot_lhs_1 (i : S1024x128.Idx) (q : dot_S1024x128_S128x128_S1024x128_1_0_0_1_n_n.contr.Idx) :
    (dot_S1024x128_S128x128_S1024x128_1_0_0_1_n_n.lhsIdx i q 1).val = (q ⟨0, by decide⟩).val :=
  dot_S1024x128_S128x128_S1024x128_1_0_0_1_n_n.lhsIdx_val_of_single rfl i q
theorem projDot_rhs_0 (i : S1024x128.Idx) (q : dot_S1024x128_S128x128_S1024x128_1_0_0_1_n_n.contr.Idx) :
    (dot_S1024x128_S128x128_S1024x128_1_0_0_1_n_n.rhsIdx i q 0).val = (q ⟨0, by decide⟩).val :=
  dot_S1024x128_S128x128_S1024x128_1_0_0_1_n_n.rhsIdx_val_of_single rfl i q
theorem projDot_rhs_1 (i : S1024x128.Idx) (q : dot_S1024x128_S128x128_S1024x128_1_0_0_1_n_n.contr.Idx) :
    (dot_S1024x128_S128x128_S1024x128_1_0_0_1_n_n.rhsIdx i q 1).val = (i 1).val := by
  unfold DotDims.rhsIdx
  rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
  rfl

theorem proj_block_apply (x : Vec Ideal S1024x128 .f32) (w : Vec Ideal S128x128 .f32) (p : Fin 1024) (q : Fin 128) :
    matmul (F := Ideal) (φ₁ := .f32) (φ₂ := .f32) dot_S1024x128_S128x128_S1024x128_1_0_0_1_n_n none x w (constant S1024x128 .f32 0x00000000#32) (ix2 p q)
      = ∑ l : Fin 128, x (ix2 p l) * w (ix2 l q) :=
  mm_ix2_of _ rfl rfl projDot_lhs_0 projDot_lhs_1 projDot_rhs_0 projDot_rhs_1 x w p q

theorem hz2 : (![0, 0] : Fin 2 → Nat) = fun _ => 0 := funext fun a => by fin_cases a <;> rfl

end Cert.KernelIdeal.HandVal

end
-- ==== Proof.Val.V0.lean ====
import proofs.«122060_g64467459113426_cont_9to1_m_811_14_alg».proof.Proof.KI.R0
import proofs.«122060_g64467459113426_cont_9to1_m_811_14_alg».proof.Proof.Val.Proj
import Idealize.ShloMosaic.Lib.Pipeline.Value

noncomputable section

namespace Cert.KernelIdeal.HandVal

open Cert.KernelIdeal Cert.KernelIdeal.Gen Cert.KernelIdeal.Hand Cert.Hmc
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem pay0_1_apply (x : Vec Ideal S1024x128 .f32) (w : Vec Ideal S128x128 .f32) (p : Fin 1024) (q : Fin 128) :
    k0_pay1 (F := Ideal) x w (ix2 p q) = ∑ l : Fin 128, x (ix2 p l) * w (ix2 l q) := by
  unfold k0_pay1
  exact proj_block_apply x w p q

theorem pay0_2_apply (x : Vec Ideal S1024x128 .f32) (w : Vec Ideal S128x128 .f32) (p : Fin 1024) (q : Fin 128) :
    k0_pay2 (F := Ideal) x w (ix2 p q) = ∑ l : Fin 128, x (ix2 p l) * w (ix2 l q) := by
  unfold k0_pay2
  exact proj_block_apply x w p q

theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

theorem row_lt0 (t : Fin cfg0.N) (p : Fin 1024) : t.val * 1024 + p.val < 4096 := by
  have hN : cfg0.N = 4 := N_0
  have := t.isLt; have := p.isLt; omega

theorem iblk0_0_apply (c : Dev nD) (t : Fin cfg0.N) (p : Fin 1024) (l : Fin 128) :
    (iblk0 V c 0 t : Vec Ideal S1024x128 .f32) (ix2 p l) = (V c main_arg0 : Mat 4096 128) (ix2 ⟨t.val * 1024 + p.val, row_lt0 t p⟩ l) := by
  obtain ⟨e0, e1, -⟩ := idx_facts0 t
  show V c main_arg0 (((cfg0.win 0).blk t).view.emb (ix2 p l)) = _
  congr 1
  funext a; apply Fin.ext
  match a with
  | ⟨0, _⟩ => show win0_0.index t (0 : Fin 2) * 1024 + 1 * p.val = t.val * 1024 + p.val; omega
  | ⟨1, _⟩ => show win0_0.index t (1 : Fin 2) * 128 + 1 * l.val = l.val; omega

theorem iblk0_1_apply (c : Dev nD) (t : Fin cfg0.N) (l : Fin 128) (q : Fin 128) :
    (iblk0 V c 1 t : Vec Ideal S128x128 .f32) (ix2 l q) = (V c main_arg8 : Mat 128 128) (ix2 l q) := by
  obtain ⟨-, -, e2, e3, -⟩ := idx_facts0 t
  show V c main_arg8 (((cfg0.win 1).blk t).view.emb (ix2 l q)) = _
  congr 1
  funext a; apply Fin.ext
  match a with
  | ⟨0, _⟩ => show win0_1.index t (0 : Fin 2) * 128 + 1 * l.val = l.val; omega
  | ⟨1, _⟩ => show win0_1.index t (1 : Fin 2) * 128 + 1 * q.val = q.val; omega

theorem iblk0_2_apply (c : Dev nD) (t : Fin cfg0.N) (l : Fin 128) (q : Fin 128) :
    (iblk0 V c 2 t : Vec Ideal S128x128 .f32) (ix2 l q) = (V c main_arg9 : Mat 128 128) (ix2 l q) := by
  obtain ⟨-, -, -, -, e4, e5, -⟩ := idx_facts0 t
  show V c main_arg9 (((cfg0.win 2).blk t).view.emb (ix2 l q)) = _
  congr 1
  funext a; apply Fin.ext
  match a with
  | ⟨0, _⟩ => show win0_2.index t (0 : Fin 2) * 128 + 1 * l.val = l.val; omega
  | ⟨1, _⟩ => show win0_2.index t (1 : Fin 2) * 128 + 1 * q.val = q.val; omega

theorem emb0_3 (t : Fin cfg0.N) (p : Fin 1024) (q : Fin 128) :
    ((cfg0.win 3).blk t).view.emb (ix2 p q) = (ix2 ⟨t.val * 1024 + p.val, row_lt0 t p⟩ q : S4096x128.Idx) := by
  obtain ⟨-, -, -, -, -, -, e6, e7, -⟩ := idx_facts0 t
  funext a; apply Fin.ext
  match a with
  | ⟨0, _⟩ => show win0_3.index t (0 : Fin 2) * 1024 + 1 * p.val = t.val * 1024 + p.val; omega
  | ⟨1, _⟩ => show win0_3.index t (1 : Fin 2) * 128 + 1 * q.val = q.val; omega

theorem emb0_4 (t : Fin cfg0.N) (p : Fin 1024) (q : Fin 128) :
    ((cfg0.win 4).blk t).view.emb (ix2 p q) = (ix2 ⟨t.val * 1024 + p.val, row_lt0 t p⟩ q : S4096x128.Idx) := by
  obtain ⟨-, -, -, -, -, -, -, -, e8, e9⟩ := idx_facts0 t
  funext a; apply Fin.ext
  match a with
  | ⟨0, _⟩ => show win0_4.index t (0 : Fin 2) * 1024 + 1 * p.val = t.val * 1024 + p.val; omega
  | ⟨1, _⟩ => show win0_4.index t (1 : Fin 2) * 128 + 1 * q.val = q.val; omega

theorem flushed0_3_eq (c : Dev nD) (t : Fin cfg0.N) :
    (dat0 (F := Ideal) V c).flushed 3 t = ((cfg0.win 3).blk t).view.read (Elt Ideal) (mm (a := 4096) (k := 128) (b := 128) (V c main_arg0) (V c main_arg8)) := by
  show (cfg0.win 3).cut (grid0.coords t) ((dat0 V c).after 3 t) = _
  rw [after0_3]
  unfold out0_3
  rw [View.canon_unit_zero hz2]
  simp only [View.ld_unit_zero (S := S1024x128) hz2, View.ld_unit_zero (S := S128x128) hz2]
  funext j
  obtain ⟨p, q, rfl⟩ : ∃ (p : Fin 1024) (q : Fin 128), j = ix2 p q := ⟨j 0, j 1, eq_ix2 j⟩
  show k0_pay1 (F := Ideal) (iblk0 V c 0 t) (iblk0 V c 1 t) (ix2 p q)
    = mm (a := 4096) (k := 128) (b := 128) (V c main_arg0) (V c main_arg8) (((cfg0.win 3).blk t).view.emb (ix2 p q))
  refine (pay0_1_apply _ _ p q).trans ?_
  rw [emb0_3, mm_ix2]
  refine Finset.sum_congr rfl fun l _ => ?_
  rw [iblk0_0_apply, iblk0_1_apply]

theorem flushed0_4_eq (c : Dev nD) (t : Fin cfg0.N) :
    (dat0 (F := Ideal) V c).flushed 4 t = ((cfg0.win 4).blk t).view.read (Elt Ideal) (mm (a := 4096) (k := 128) (b := 128) (V c main_arg0) (V c main_arg9)) := by
  show (cfg0.win 4).cut (grid0.coords t) ((dat0 V c).after 4 t) = _
  rw [after0_4]
  unfold out0_4
  rw [View.canon_unit_zero hz2]
  simp only [View.ld_unit_zero (S := S1024x128) hz2, View.ld_unit_zero (S := S128x128) hz2]
  funext j
  obtain ⟨p, q, rfl⟩ : ∃ (p : Fin 1024) (q : Fin 128), j = ix2 p q := ⟨j 0, j 1, eq_ix2 j⟩
  show k0_pay2 (F := Ideal) (iblk0 V c 0 t) (iblk0 V c 2 t) (ix2 p q)
    = mm (a := 4096) (k := 128) (b := 128) (V c main_arg0) (V c main_arg9) (((cfg0.win 4).blk t).view.emb (ix2 p q))
  refine (pay0_2_apply _ _ p q).trans ?_
  rw [emb0_4, mm_ix2]
  refine Finset.sum_congr rfl fun l _ => ?_
  rw [iblk0_0_apply, iblk0_2_apply]

theorem mem_blk0_3 (t : Fin cfg0.N) (i : S4096x128.Idx) :
    i ∈ ((cfg0.win 3).blk t).view.set ↔ ∀ a : Fin 2, win0_3.index t a * S1024x128.size a ≤ (i a).val ∧ (i a).val < win0_3.index t a * S1024x128.size a + S1024x128.size a := by
  show i ∈ ((View.whole main_v0_0).slice (win0_3.rect t)).set ↔ _
  rw [View.set_slice_whole, Rect.mem_set_unit]
  exact Iff.rfl

theorem mem_blk0_4 (t : Fin cfg0.N) (i : S4096x128.Idx) :
    i ∈ ((cfg0.win 4).blk t).view.set ↔ ∀ a : Fin 2, win0_4.index t a * S1024x128.size a ≤ (i a).val ∧ (i a).val < win0_4.index t a * S1024x128.size a + S1024x128.size a := by
  show i ∈ ((View.whole main_v0_1).slice (win0_4.rect t)).set ↔ _
  rw [View.set_slice_whole, Rect.mem_set_unit]
  exact Iff.rfl

theorem rows_covered0_3 (i : S4096x128.Idx) : ∃ t : Fin cfg0.N, (cfg0.win 3).flush t = true ∧ i ∈ ((cfg0.win 3).blk t).view.set := by
  have hi0 : (i 0).val < 4096 := (i 0).isLt
  have hi1 : (i 1).val < 128 := (i 1).isLt
  have hN : cfg0.N = 4 := N_0
  refine ⟨⟨(i 0).val / 1024, by omega⟩, flush0_3 _, ?_⟩
  rw [mem_blk0_3]
  obtain ⟨-, -, -, -, -, -, e6, e7, -⟩ := idx_facts0 ⟨(i 0).val / 1024, by omega⟩
  intro a
  match a with
  | ⟨0, _⟩ =>
    show win0_3.index _ (0 : Fin 2) * 1024 ≤ (i 0).val ∧ (i 0).val < win0_3.index _ (0 : Fin 2) * 1024 + 1024
    rw [e6]; show (i 0).val / 1024 * 1024 ≤ (i 0).val ∧ (i 0).val < (i 0).val / 1024 * 1024 + 1024; omega
  | ⟨1, _⟩ =>
    show win0_3.index _ (1 : Fin 2) * 128 ≤ (i 1).val ∧ (i 1).val < win0_3.index _ (1 : Fin 2) * 128 + 128
    rw [e7]; omega

theorem rows_covered0_4 (i : S4096x128.Idx) : ∃ t : Fin cfg0.N, (cfg0.win 4).flush t = true ∧ i ∈ ((cfg0.win 4).blk t).view.set := by
  have hi0 : (i 0).val < 4096 := (i 0).isLt
  have hi1 : (i 1).val < 128 := (i 1).isLt
  have hN : cfg0.N = 4 := N_0
  refine ⟨⟨(i 0).val / 1024, by omega⟩, flush0_4 _, ?_⟩
  rw [mem_blk0_4]
  obtain ⟨-, -, -, -, -, -, -, -, e8, e9⟩ := idx_facts0 ⟨(i 0).val / 1024, by omega⟩
  intro a
  match a with
  | ⟨0, _⟩ =>
    show win0_4.index _ (0 : Fin 2) * 1024 ≤ (i 0).val ∧ (i 0).val < win0_4.index _ (0 : Fin 2) * 1024 + 1024
    rw [e8]; show (i 0).val / 1024 * 1024 ≤ (i 0).val ∧ (i 0).val < (i 0).val / 1024 * 1024 + 1024; omega
  | ⟨1, _⟩ =>
    show win0_4.index _ (1 : Fin 2) * 128 ≤ (i 1).val ∧ (i 1).val < win0_4.index _ (1 : Fin 2) * 128 + 128
    rw [e9]; omega

theorem val0_3 (c : Dev nD) : (dat0 (F := Ideal) V c).arrAt 3 cfg0.N = Cert.Hmc.mm (V c main_arg0) (V c main_arg8) :=
  (dat0 V c).arrAt_eq_of_cover 3 _ (fun t _ => flushed0_3_eq V c t) rows_covered0_3

theorem val0_4 (c : Dev nD) : (dat0 (F := Ideal) V c).arrAt 4 cfg0.N = Cert.Hmc.mm (V c main_arg0) (V c main_arg9) :=
  (dat0 V c).arrAt_eq_of_cover 4 _ (fun t _ => flushed0_4_eq V c t) rows_covered0_4

end Cert.KernelIdeal.HandVal

end
-- ==== Proof.Val.V1.lean ====
import proofs.«122060_g64467459113426_cont_9to1_m_811_14_alg».proof.Proof.KI.R1
import proofs.«122060_g64467459113426_cont_9to1_m_811_14_alg».proof.Proof.Val.Proj
import Idealize.ShloMosaic.Lib.Pipeline.Value

noncomputable section

namespace Cert.KernelIdeal.HandVal

open Cert.KernelIdeal Cert.KernelIdeal.Gen Cert.KernelIdeal.Hand Cert.Hmc
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem pay1_1_apply (x : Vec Ideal S1024x128 .f32) (w : Vec Ideal S128x128 .f32) (p : Fin 1024) (q : Fin 128) :
    k1_pay1 (F := Ideal) x w (ix2 p q) = ∑ l : Fin 128, x (ix2 p l) * w (ix2 l q) := by
  unfold k1_pay1
  exact proj_block_apply x w p q

theorem pay1_2_apply (x : Vec Ideal S1024x128 .f32) (w : Vec Ideal S128x128 .f32) (p : Fin 1024) (q : Fin 128) :
    k1_pay2 (F := Ideal) x w (ix2 p q) = ∑ l : Fin 128, x (ix2 p l) * w (ix2 l q) := by
  unfold k1_pay2
  exact proj_block_apply x w p q

theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

theorem row_lt1 (t : Fin cfg1.N) (p : Fin 1024) : t.val * 1024 + p.val < 8192 := by
  have hN : cfg1.N = 8 := N_1
  have := t.isLt; have := p.isLt; omega

theorem iblk1_0_apply (c : Dev nD) (t : Fin cfg1.N) (p : Fin 1024) (l : Fin 128) :
    (iblk1 V c 0 t : Vec Ideal S1024x128 .f32) (ix2 p l) = (V c main_arg1 : Mat 8192 128) (ix2 ⟨t.val * 1024 + p.val, row_lt1 t p⟩ l) := by
  obtain ⟨e0, e1, -⟩ := idx_facts1 t
  show V c main_arg1 (((cfg1.win 0).blk t).view.emb (ix2 p l)) = _
  congr 1
  funext a; apply Fin.ext
  match a with
  | ⟨0, _⟩ => show win1_0.index t (0 : Fin 2) * 1024 + 1 * p.val = t.val * 1024 + p.val; omega
  | ⟨1, _⟩ => show win1_0.index t (1 : Fin 2) * 128 + 1 * l.val = l.val; omega

theorem iblk1_1_apply (c : Dev nD) (t : Fin cfg1.N) (l : Fin 128) (q : Fin 128) :
    (iblk1 V c 1 t : Vec Ideal S128x128 .f32) (ix2 l q) = (V c main_arg9 : Mat 128 128) (ix2 l q) := by
  obtain ⟨-, -, e2, e3, -⟩ := idx_facts1 t
  show V c main_arg9 (((cfg1.win 1).blk t).view.emb (ix2 l q)) = _
  congr 1
  funext a; apply Fin.ext
  match a with
  | ⟨0, _⟩ => show win1_1.index t (0 : Fin 2) * 128 + 1 * l.val = l.val; omega
  | ⟨1, _⟩ => show win1_1.index t (1 : Fin 2) * 128 + 1 * q.val = q.val; omega

theorem iblk1_2_apply (c : Dev nD) (t : Fin cfg1.N) (l : Fin 128) (q : Fin 128) :
    (iblk1 V c 2 t : Vec Ideal S128x128 .f32) (ix2 l q) = (V c main_arg10 : Mat 128 128) (ix2 l q) := by
  obtain ⟨-, -, -, -, e4, e5, -⟩ := idx_facts1 t
  show V c main_arg10 (((cfg1.win 2).blk t).view.emb (ix2 l q)) = _
  congr 1
  funext a; apply Fin.ext
  match a with
  | ⟨0, _⟩ => show win1_2.index t (0 : Fin 2) * 128 + 1 * l.val = l.val; omega
  | ⟨1, _⟩ => show win1_2.index t (1 : Fin 2) * 128 + 1 * q.val = q.val; omega

theorem emb1_3 (t : Fin cfg1.N) (p : Fin 1024) (q : Fin 128) :
    ((cfg1.win 3).blk t).view.emb (ix2 p q) = (ix2 ⟨t.val * 1024 + p.val, row_lt1 t p⟩ q : S8192x128.Idx) := by
  obtain ⟨-, -, -, -, -, -, e6, e7, -⟩ := idx_facts1 t
  funext a; apply Fin.ext
  match a with
  | ⟨0, _⟩ => show win1_3.index t (0 : Fin 2) * 1024 + 1 * p.val = t.val * 1024 + p.val; omega
  | ⟨1, _⟩ => show win1_3.index t (1 : Fin 2) * 128 + 1 * q.val = q.val; omega

theorem emb1_4 (t : Fin cfg1.N) (p : Fin 1024) (q : Fin 128) :
    ((cfg1.win 4).blk t).view.emb (ix2 p q) = (ix2 ⟨t.val * 1024 + p.val, row_lt1 t p⟩ q : S8192x128.Idx) := by
  obtain ⟨-, -, -, -, -, -, -, -, e8, e9⟩ := idx_facts1 t
  funext a; apply Fin.ext
  match a with
  | ⟨0, _⟩ => show win1_4.index t (0 : Fin 2) * 1024 + 1 * p.val = t.val * 1024 + p.val; omega
  | ⟨1, _⟩ => show win1_4.index t (1 : Fin 2) * 128 + 1 * q.val = q.val; omega

theorem flushed1_3_eq (c : Dev nD) (t : Fin cfg1.N) :
    (dat1 (F := Ideal) V c).flushed 3 t = ((cfg1.win 3).blk t).view.read (Elt Ideal) (mm (a := 8192) (k := 128) (b := 128) (V c main_arg1) (V c main_arg9)) := by
  show (cfg1.win 3).cut (grid1.coords t) ((dat1 V c).after 3 t) = _
  rw [after1_3]
  unfold out1_3
  rw [View.canon_unit_zero hz2]
  simp only [View.ld_unit_zero (S := S1024x128) hz2, View.ld_unit_zero (S := S128x128) hz2]
  funext j
  obtain ⟨p, q, rfl⟩ : ∃ (p : Fin 1024) (q : Fin 128), j = ix2 p q := ⟨j 0, j 1, eq_ix2 j⟩
  show k1_pay1 (F := Ideal) (iblk1 V c 0 t) (iblk1 V c 1 t) (ix2 p q)
    = mm (a := 8192) (k := 128) (b := 128) (V c main_arg1) (V c main_arg9) (((cfg1.win 3).blk t).view.emb (ix2 p q))
  refine (pay1_1_apply _ _ p q).trans ?_
  rw [emb1_3, mm_ix2]
  refine Finset.sum_congr rfl fun l _ => ?_
  rw [iblk1_0_apply, iblk1_1_apply]

theorem flushed1_4_eq (c : Dev nD) (t : Fin cfg1.N) :
    (dat1 (F := Ideal) V c).flushed 4 t = ((cfg1.win 4).blk t).view.read (Elt Ideal) (mm (a := 8192) (k := 128) (b := 128) (V c main_arg1) (V c main_arg10)) := by
  show (cfg1.win 4).cut (grid1.coords t) ((dat1 V c).after 4 t) = _
  rw [after1_4]
  unfold out1_4
  rw [View.canon_unit_zero hz2]
  simp only [View.ld_unit_zero (S := S1024x128) hz2, View.ld_unit_zero (S := S128x128) hz2]
  funext j
  obtain ⟨p, q, rfl⟩ : ∃ (p : Fin 1024) (q : Fin 128), j = ix2 p q := ⟨j 0, j 1, eq_ix2 j⟩
  show k1_pay2 (F := Ideal) (iblk1 V c 0 t) (iblk1 V c 2 t) (ix2 p q)
    = mm (a := 8192) (k := 128) (b := 128) (V c main_arg1) (V c main_arg10) (((cfg1.win 4).blk t).view.emb (ix2 p q))
  refine (pay1_2_apply _ _ p q).trans ?_
  rw [emb1_4, mm_ix2]
  refine Finset.sum_congr rfl fun l _ => ?_
  rw [iblk1_0_apply, iblk1_2_apply]

theorem mem_blk1_3 (t : Fin cfg1.N) (i : S8192x128.Idx) :
    i ∈ ((cfg1.win 3).blk t).view.set ↔ ∀ a : Fin 2, win1_3.index t a * S1024x128.size a ≤ (i a).val ∧ (i a).val < win1_3.index t a * S1024x128.size a + S1024x128.size a := by
  show i ∈ ((View.whole main_v1_0).slice (win1_3.rect t)).set ↔ _
  rw [View.set_slice_whole, Rect.mem_set_unit]
  exact Iff.rfl

theorem mem_blk1_4 (t : Fin cfg1.N) (i : S8192x128.Idx) :
    i ∈ ((cfg1.win 4).blk t).view.set ↔ ∀ a : Fin 2, win1_4.index t a * S1024x128.size a ≤ (i a).val ∧ (i a).val < win1_4.index t a * S1024x128.size a + S1024x128.size a := by
  show i ∈ ((View.whole main_v1_1).slice (win1_4.rect t)).set ↔ _
  rw [View.set_slice_whole, Rect.mem_set_unit]
  exact Iff.rfl

theorem rows_covered1_3 (i : S8192x128.Idx) : ∃ t : Fin cfg1.N, (cfg1.win 3).flush t = true ∧ i ∈ ((cfg1.win 3).blk t).view.set := by
  have hi0 : (i 0).val < 8192 := (i 0).isLt
  have hi1 : (i 1).val < 128 := (i 1).isLt
  have hN : cfg1.N = 8 := N_1
  refine ⟨⟨(i 0).val / 1024, by omega⟩, flush1_3 _, ?_⟩
  rw [mem_blk1_3]
  obtain ⟨-, -, -, -, -, -, e6, e7, -⟩ := idx_facts1 ⟨(i 0).val / 1024, by omega⟩
  intro a
  match a with
  | ⟨0, _⟩ =>
    show win1_3.index _ (0 : Fin 2) * 1024 ≤ (i 0).val ∧ (i 0).val < win1_3.index _ (0 : Fin 2) * 1024 + 1024
    rw [e6]; show (i 0).val / 1024 * 1024 ≤ (i 0).val ∧ (i 0).val < (i 0).val / 1024 * 1024 + 1024; omega
  | ⟨1, _⟩ =>
    show win1_3.index _ (1 : Fin 2) * 128 ≤ (i 1).val ∧ (i 1).val < win1_3.index _ (1 : Fin 2) * 128 + 128
    rw [e7]; omega

theorem rows_covered1_4 (i : S8192x128.Idx) : ∃ t : Fin cfg1.N, (cfg1.win 4).flush t = true ∧ i ∈ ((cfg1.win 4).blk t).view.set := by
  have hi0 : (i 0).val < 8192 := (i 0).isLt
  have hi1 : (i 1).val < 128 := (i 1).isLt
  have hN : cfg1.N = 8 := N_1
  refine ⟨⟨(i 0).val / 1024, by omega⟩, flush1_4 _, ?_⟩
  rw [mem_blk1_4]
  obtain ⟨-, -, -, -, -, -, -, -, e8, e9⟩ := idx_facts1 ⟨(i 0).val / 1024, by omega⟩
  intro a
  match a with
  | ⟨0, _⟩ =>
    show win1_4.index _ (0 : Fin 2) * 1024 ≤ (i 0).val ∧ (i 0).val < win1_4.index _ (0 : Fin 2) * 1024 + 1024
    rw [e8]; show (i 0).val / 1024 * 1024 ≤ (i 0).val ∧ (i 0).val < (i 0).val / 1024 * 1024 + 1024; omega
  | ⟨1, _⟩ =>
    show win1_4.index _ (1 : Fin 2) * 128 ≤ (i 1).val ∧ (i 1).val < win1_4.index _ (1 : Fin 2) * 128 + 128
    rw [e9]; omega

theorem val1_3 (c : Dev nD) : (dat1 (F := Ideal) V c).arrAt 3 cfg1.N = Cert.Hmc.mm (V c main_arg1) (V c main_arg9) :=
  (dat1 V c).arrAt_eq_of_cover 3 _ (fun t _ => flushed1_3_eq V c t) rows_covered1_3

theorem val1_4 (c : Dev nD) : (dat1 (F := Ideal) V c).arrAt 4 cfg1.N = Cert.Hmc.mm (V c main_arg1) (V c main_arg10) :=
  (dat1 V c).arrAt_eq_of_cover 4 _ (fun t _ => flushed1_4_eq V c t) rows_covered1_4

end Cert.KernelIdeal.HandVal

end
-- ==== Proof.Val.V2.lean ====
import proofs.«122060_g64467459113426_cont_9to1_m_811_14_alg».proof.Proof.KI.R2
import proofs.«122060_g64467459113426_cont_9to1_m_811_14_alg».proof.Proof.Val.Proj
import Idealize.ShloMosaic.Lib.Pipeline.Value

noncomputable section

namespace Cert.KernelIdeal.HandVal

open Cert.KernelIdeal Cert.KernelIdeal.Gen Cert.KernelIdeal.Hand Cert.Hmc
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem pay2_1_apply (x : Vec Ideal S1024x128 .f32) (w : Vec Ideal S128x128 .f32) (p : Fin 1024) (q : Fin 128) :
    k2_pay1 (F := Ideal) x w (ix2 p q) = ∑ l : Fin 128, x (ix2 p l) * w (ix2 l q) := by
  unfold k2_pay1
  exact proj_block_apply x w p q

theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

theorem row_lt2 (t : Fin cfg2.N) (p : Fin 1024) : t.val * 1024 + p.val < 4096 := by
  have hN : cfg2.N = 4 := N_2
  have := t.isLt; have := p.isLt; omega

theorem iblk2_0_apply (c : Dev nD) (t : Fin cfg2.N) (p : Fin 1024) (l : Fin 128) :
    (iblk2 V c 0 t : Vec Ideal S1024x128 .f32) (ix2 p l) = (V c main_arg2 : Mat 4096 128) (ix2 ⟨t.val * 1024 + p.val, row_lt2 t p⟩ l) := by
  obtain ⟨e0, e1, -⟩ := idx_facts2 t
  show V c main_arg2 (((cfg2.win 0).blk t).view.emb (ix2 p l)) = _
  congr 1
  funext a; apply Fin.ext
  match a with
  | ⟨0, _⟩ => show win2_0.index t (0 : Fin 2) * 1024 + 1 * p.val = t.val * 1024 + p.val; omega
  | ⟨1, _⟩ => show win2_0.index t (1 : Fin 2) * 128 + 1 * l.val = l.val; omega

theorem iblk2_1_apply (c : Dev nD) (t : Fin cfg2.N) (l : Fin 128) (q : Fin 128) :
    (iblk2 V c 1 t : Vec Ideal S128x128 .f32) (ix2 l q) = (V c main_arg11 : Mat 128 128) (ix2 l q) := by
  obtain ⟨-, -, e2, e3, -⟩ := idx_facts2 t
  show V c main_arg11 (((cfg2.win 1).blk t).view.emb (ix2 l q)) = _
  congr 1
  funext a; apply Fin.ext
  match a with
  | ⟨0, _⟩ => show win2_1.index t (0 : Fin 2) * 128 + 1 * l.val = l.val; omega
  | ⟨1, _⟩ => show win2_1.index t (1 : Fin 2) * 128 + 1 * q.val = q.val; omega

theorem emb2_2 (t : Fin cfg2.N) (p : Fin 1024) (q : Fin 128) :
    ((cfg2.win 2).blk t).view.emb (ix2 p q) = (ix2 ⟨t.val * 1024 + p.val, row_lt2 t p⟩ q : S4096x128.Idx) := by
  obtain ⟨-, -, -, -, e4, e5⟩ := idx_facts2 t
  funext a; apply Fin.ext
  match a with
  | ⟨0, _⟩ => show win2_2.index t (0 : Fin 2) * 1024 + 1 * p.val = t.val * 1024 + p.val; omega
  | ⟨1, _⟩ => show win2_2.index t (1 : Fin 2) * 128 + 1 * q.val = q.val; omega

theorem flushed2_2_eq (c : Dev nD) (t : Fin cfg2.N) :
    (dat2 (F := Ideal) V c).flushed 2 t = ((cfg2.win 2).blk t).view.read (Elt Ideal) (mm (a := 4096) (k := 128) (b := 128) (V c main_arg2) (V c main_arg11)) := by
  show (cfg2.win 2).cut (grid2.coords t) ((dat2 V c).after 2 t) = _
  rw [after2_2]
  unfold out2_2
  rw [View.canon_unit_zero hz2]
  simp only [View.ld_unit_zero (S := S1024x128) hz2, View.ld_unit_zero (S := S128x128) hz2]
  funext j
  obtain ⟨p, q, rfl⟩ : ∃ (p : Fin 1024) (q : Fin 128), j = ix2 p q := ⟨j 0, j 1, eq_ix2 j⟩
  show k2_pay1 (F := Ideal) (iblk2 V c 0 t) (iblk2 V c 1 t) (ix2 p q)
    = mm (a := 4096) (k := 128) (b := 128) (V c main_arg2) (V c main_arg11) (((cfg2.win 2).blk t).view.emb (ix2 p q))
  refine (pay2_1_apply _ _ p q).trans ?_
  rw [emb2_2, mm_ix2]
  refine Finset.sum_congr rfl fun l _ => ?_
  rw [iblk2_0_apply, iblk2_1_apply]

theorem mem_blk2_2 (t : Fin cfg2.N) (i : S4096x128.Idx) :
    i ∈ ((cfg2.win 2).blk t).view.set ↔ ∀ a : Fin 2, win2_2.index t a * S1024x128.size a ≤ (i a).val ∧ (i a).val < win2_2.index t a * S1024x128.size a + S1024x128.size a := by
  show i ∈ ((View.whole main_v2).slice (win2_2.rect t)).set ↔ _
  rw [View.set_slice_whole, Rect.mem_set_unit]
  exact Iff.rfl

theorem rows_covered2_2 (i : S4096x128.Idx) : ∃ t : Fin cfg2.N, (cfg2.win 2).flush t = true ∧ i ∈ ((cfg2.win 2).blk t).view.set := by
  have hi0 : (i 0).val < 4096 := (i 0).isLt
  have hi1 : (i 1).val < 128 := (i 1).isLt
  have hN : cfg2.N = 4 := N_2
  refine ⟨⟨(i 0).val / 1024, by omega⟩, flush2_2 _, ?_⟩
  rw [mem_blk2_2]
  obtain ⟨-, -, -, -, e4, e5⟩ := idx_facts2 ⟨(i 0).val / 1024, by omega⟩
  intro a
  match a with
  | ⟨0, _⟩ =>
    show win2_2.index _ (0 : Fin 2) * 1024 ≤ (i 0).val ∧ (i 0).val < win2_2.index _ (0 : Fin 2) * 1024 + 1024
    rw [e4]; show (i 0).val / 1024 * 1024 ≤ (i 0).val ∧ (i 0).val < (i 0).val / 1024 * 1024 + 1024; omega
  | ⟨1, _⟩ =>
    show win2_2.index _ (1 : Fin 2) * 128 ≤ (i 1).val ∧ (i 1).val < win2_2.index _ (1 : Fin 2) * 128 + 128
    rw [e5]; omega

theorem val2_2 (c : Dev nD) : (dat2 (F := Ideal) V c).arrAt 2 cfg2.N = Cert.Hmc.mm (V c main_arg2) (V c main_arg11) :=
  (dat2 V c).arrAt_eq_of_cover 2 _ (fun t _ => flushed2_2_eq V c t) rows_covered2_2

end Cert.KernelIdeal.HandVal

end
-- ==== Proof.LibSumBlocks.lean ====
import Mathlib.Data.Fintype.BigOperators
import Mathlib.Logic.Equiv.Fin.Basic

theorem Fin.rowMajor_lt {m n : ℕ} (a : Fin m) (b : Fin n) : a.val * n + b.val < m * n :=
  calc a.val * n + b.val < a.val * n + n := Nat.add_lt_add_left b.isLt _
    _ = (a.val + 1) * n := (Nat.succ_mul _ _).symm
    _ ≤ m * n := Nat.mul_le_mul_right n a.isLt

theorem Fin.sum_rowMajor2 {M : Type*} [AddCommMonoid M] (m n : ℕ) (f : Fin (m * n) → M) :
    ∑ e, f e = ∑ a : Fin m, ∑ b : Fin n, f ⟨a.val * n + b.val, Fin.rowMajor_lt a b⟩ := by
  rw [← Fintype.sum_prod_type' (f := fun (a : Fin m) (b : Fin n) => f ⟨a.val * n + b.val, Fin.rowMajor_lt a b⟩)]
  exact (Fintype.sum_equiv finProdFinEquiv (fun p : Fin m × Fin n => f ⟨p.1.val * n + p.2.val, Fin.rowMajor_lt p.1 p.2⟩) f
    (fun p => congrArg f (Fin.ext (by simp [Nat.mul_comm, Nat.add_comm])))).symm

theorem Fin.sum_rowMajor4 {M : Type*} [AddCommMonoid M] (n0 n1 n2 n3 : ℕ) (f : Fin (n0 * n1 * n2 * n3) → M) :
    ∑ e, f e = ∑ a : Fin n0, ∑ b : Fin n1, ∑ c : Fin n2, ∑ d : Fin n3,
      f ⟨((a.val * n1 + b.val) * n2 + c.val) * n3 + d.val,
        Fin.rowMajor_lt (⟨(a.val * n1 + b.val) * n2 + c.val,
          Fin.rowMajor_lt (⟨a.val * n1 + b.val, Fin.rowMajor_lt a b⟩ : Fin (n0 * n1)) c⟩ : Fin (n0 * n1 * n2)) d⟩ :=
  (Fin.sum_rowMajor2 (n0 * n1 * n2) n3 f).trans <|
  (Fin.sum_rowMajor2 (n0 * n1) n2 (fun x => ∑ d : Fin n3, f ⟨x.val * n3 + d.val, Fin.rowMajor_lt x d⟩)).trans <|
  Fin.sum_rowMajor2 n0 n1 (fun y => ∑ c : Fin n2, ∑ d : Fin n3,
    f ⟨(y.val * n2 + c.val) * n3 + d.val, Fin.rowMajor_lt (⟨y.val * n2 + c.val, Fin.rowMajor_lt y c⟩ : Fin (n0 * n1 * n2)) d⟩)

theorem sum_flat_2x2x6250x128 {M : Type*} [AddCommMonoid M] (f : Fin 3200000 → M) :
    ∑ e, f e = ∑ a : Fin 2, ∑ b : Fin 2, ∑ r : Fin 6250, ∑ l : Fin 128,
      f ⟨((a.val * 2 + b.val) * 6250 + r.val) * 128 + l.val, by omega⟩ :=
  Fin.sum_rowMajor4 2 2 6250 128 f
-- ==== Proof.Val.P3.lean ====
import proofs.«122060_g64467459113426_cont_9to1_m_811_14_alg».proof.Proof.Gen.KernelIdeal.Skeleton
import proofs.«122060_g64467459113426_cont_9to1_m_811_14_alg».proof.Proof.Val.Proj
import proofs.«122060_g64467459113426_cont_9to1_m_811_14_alg».proof.Proof.Spec
import proofs.«122060_g64467459113426_cont_9to1_m_811_14_alg».proof.Proof.LibSumBlocks
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.HandVal

open Idealize.ShloMosaic Idealize.ShloMosaic.ValueIdx
open Cert.KernelIdeal Cert.KernelIdeal.Gen Cert.Hmc

theorem lhs_A_0 (j : S256x128.Idx) (k : dot_S256x4096_S4096x128_S256x128_1_0_0_1_n_n.contr.Idx) :
    (dot_S256x4096_S4096x128_S256x128_1_0_0_1_n_n.lhsIdx j k 0).val = (j 0).val := by
  unfold DotDims.lhsIdx
  rw [dif_neg (show ¬(0 : Fin S256x4096.rank) ∈ dot_S256x4096_S4096x128_S256x128_1_0_0_1_n_n.lhsBatch by decide), dif_pos (show (0 : Fin S256x4096.rank) ∈ dot_S256x4096_S4096x128_S256x128_1_0_0_1_n_n.lhsNonContracting by decide)]
  rfl
theorem lhs_A_1 (j : S256x128.Idx) (k : dot_S256x4096_S4096x128_S256x128_1_0_0_1_n_n.contr.Idx) :
    (dot_S256x4096_S4096x128_S256x128_1_0_0_1_n_n.lhsIdx j k 1).val = (k ⟨0, by decide⟩).val :=
  dot_S256x4096_S4096x128_S256x128_1_0_0_1_n_n.lhsIdx_val_of_single rfl j k
theorem rhs_A_0 (j : S256x128.Idx) (k : dot_S256x4096_S4096x128_S256x128_1_0_0_1_n_n.contr.Idx) :
    (dot_S256x4096_S4096x128_S256x128_1_0_0_1_n_n.rhsIdx j k 0).val = (k ⟨0, by decide⟩).val :=
  dot_S256x4096_S4096x128_S256x128_1_0_0_1_n_n.rhsIdx_val_of_single rfl j k
theorem rhs_A_1 (j : S256x128.Idx) (k : dot_S256x4096_S4096x128_S256x128_1_0_0_1_n_n.contr.Idx) :
    (dot_S256x4096_S4096x128_S256x128_1_0_0_1_n_n.rhsIdx j k 1).val = (j 1).val := by
  unfold DotDims.rhsIdx
  rw [dif_neg (show ¬(1 : Fin S4096x128.rank) ∈ dot_S256x4096_S4096x128_S256x128_1_0_0_1_n_n.rhsBatch by decide), dif_pos (show (1 : Fin S4096x128.rank) ∈ dot_S256x4096_S4096x128_S256x128_1_0_0_1_n_n.rhsNonContracting by decide)]
  rfl

theorem matmul_A_apply (x : FVec Ideal S256x4096 .f32) (y : FVec Ideal S4096x128 .f32) (p : Fin 256) (q : Fin 128) :
    matmul dot_S256x4096_S4096x128_S256x128_1_0_0_1_n_n none x y (constant (F := Ideal) S256x128 .f32 0x00000000#32) (ix2 p q)
      = ∑ l : Fin 4096, x (ix2 p l) * y (ix2 l q) :=
  mm_ix2_of _ rfl rfl lhs_A_0 lhs_A_1 rhs_A_0 rhs_A_1 x y p q

theorem lhs_M_0 (j : S256x128.Idx) (k : dot_S256x8192_S8192x128_S256x128_1_0_0_1_n_n.contr.Idx) :
    (dot_S256x8192_S8192x128_S256x128_1_0_0_1_n_n.lhsIdx j k 0).val = (j 0).val := by
  unfold DotDims.lhsIdx
  rw [dif_neg (show ¬(0 : Fin S256x8192.rank) ∈ dot_S256x8192_S8192x128_S256x128_1_0_0_1_n_n.lhsBatch by decide), dif_pos (show (0 : Fin S256x8192.rank) ∈ dot_S256x8192_S8192x128_S256x128_1_0_0_1_n_n.lhsNonContracting by decide)]
  rfl
theorem lhs_M_1 (j : S256x128.Idx) (k : dot_S256x8192_S8192x128_S256x128_1_0_0_1_n_n.contr.Idx) :
    (dot_S256x8192_S8192x128_S256x128_1_0_0_1_n_n.lhsIdx j k 1).val = (k ⟨0, by decide⟩).val :=
  dot_S256x8192_S8192x128_S256x128_1_0_0_1_n_n.lhsIdx_val_of_single rfl j k
theorem rhs_M_0 (j : S256x128.Idx) (k : dot_S256x8192_S8192x128_S256x128_1_0_0_1_n_n.contr.Idx) :
    (dot_S256x8192_S8192x128_S256x128_1_0_0_1_n_n.rhsIdx j k 0).val = (k ⟨0, by decide⟩).val :=
  dot_S256x8192_S8192x128_S256x128_1_0_0_1_n_n.rhsIdx_val_of_single rfl j k
theorem rhs_M_1 (j : S256x128.Idx) (k : dot_S256x8192_S8192x128_S256x128_1_0_0_1_n_n.contr.Idx) :
    (dot_S256x8192_S8192x128_S256x128_1_0_0_1_n_n.rhsIdx j k 1).val = (j 1).val := by
  unfold DotDims.rhsIdx
  rw [dif_neg (show ¬(1 : Fin S8192x128.rank) ∈ dot_S256x8192_S8192x128_S256x128_1_0_0_1_n_n.rhsBatch by decide), dif_pos (show (1 : Fin S8192x128.rank) ∈ dot_S256x8192_S8192x128_S256x128_1_0_0_1_n_n.rhsNonContracting by decide)]
  rfl

theorem matmul_M_apply (x : FVec Ideal S256x8192 .f32) (y : FVec Ideal S8192x128 .f32) (p : Fin 256) (q : Fin 128) :
    matmul dot_S256x8192_S8192x128_S256x128_1_0_0_1_n_n none x y (constant (F := Ideal) S256x128 .f32 0x00000000#32) (ix2 p q)
      = ∑ l : Fin 8192, x (ix2 p l) * y (ix2 l q) :=
  mm_ix2_of _ rfl rfl lhs_M_0 lhs_M_1 rhs_M_0 rhs_M_1 x y p q

theorem lhs_W_0 (j : S256x128.Idx) (k : dot_S256x128_S128x128_S256x128_1_0_0_1_n_n.contr.Idx) :
    (dot_S256x128_S128x128_S256x128_1_0_0_1_n_n.lhsIdx j k 0).val = (j 0).val := by
  unfold DotDims.lhsIdx
  rw [dif_neg (show ¬(0 : Fin S256x128.rank) ∈ dot_S256x128_S128x128_S256x128_1_0_0_1_n_n.lhsBatch by decide), dif_pos (show (0 : Fin S256x128.rank) ∈ dot_S256x128_S128x128_S256x128_1_0_0_1_n_n.lhsNonContracting by decide)]
  rfl
theorem lhs_W_1 (j : S256x128.Idx) (k : dot_S256x128_S128x128_S256x128_1_0_0_1_n_n.contr.Idx) :
    (dot_S256x128_S128x128_S256x128_1_0_0_1_n_n.lhsIdx j k 1).val = (k ⟨0, by decide⟩).val :=
  dot_S256x128_S128x128_S256x128_1_0_0_1_n_n.lhsIdx_val_of_single rfl j k
theorem rhs_W_0 (j : S256x128.Idx) (k : dot_S256x128_S128x128_S256x128_1_0_0_1_n_n.contr.Idx) :
    (dot_S256x128_S128x128_S256x128_1_0_0_1_n_n.rhsIdx j k 0).val = (k ⟨0, by decide⟩).val :=
  dot_S256x128_S128x128_S256x128_1_0_0_1_n_n.rhsIdx_val_of_single rfl j k
theorem rhs_W_1 (j : S256x128.Idx) (k : dot_S256x128_S128x128_S256x128_1_0_0_1_n_n.contr.Idx) :
    (dot_S256x128_S128x128_S256x128_1_0_0_1_n_n.rhsIdx j k 1).val = (j 1).val := by
  unfold DotDims.rhsIdx
  rw [dif_neg (show ¬(1 : Fin S128x128.rank) ∈ dot_S256x128_S128x128_S256x128_1_0_0_1_n_n.rhsBatch by decide), dif_pos (show (1 : Fin S128x128.rank) ∈ dot_S256x128_S128x128_S256x128_1_0_0_1_n_n.rhsNonContracting by decide)]
  rfl

theorem matmul_W_apply (x : FVec Ideal S256x128 .f32) (y : FVec Ideal S128x128 .f32) (p : Fin 256) (q : Fin 128) :
    matmul dot_S256x128_S128x128_S256x128_1_0_0_1_n_n none x y (constant (F := Ideal) S256x128 .f32 0x00000000#32) (ix2 p q)
      = ∑ l : Fin 128, x (ix2 p l) * y (ix2 l q) :=
  mm_ix2_of _ rfl rfl lhs_W_0 lhs_W_1 rhs_W_0 rhs_W_1 x y p q

theorem lhs_T_0 (j : S128x8192.Idx) (k : dot_S256x128_S256x8192_S128x8192_0_0_1_1_n_n.contr.Idx) :
    (dot_S256x128_S256x8192_S128x8192_0_0_1_1_n_n.lhsIdx j k 0).val = (k ⟨0, by decide⟩).val :=
  dot_S256x128_S256x8192_S128x8192_0_0_1_1_n_n.lhsIdx_val_of_single rfl j k
theorem lhs_T_1 (j : S128x8192.Idx) (k : dot_S256x128_S256x8192_S128x8192_0_0_1_1_n_n.contr.Idx) :
    (dot_S256x128_S256x8192_S128x8192_0_0_1_1_n_n.lhsIdx j k 1).val = (j 0).val := by
  unfold DotDims.lhsIdx
  rw [dif_neg (show ¬(1 : Fin S256x128.rank) ∈ dot_S256x128_S256x8192_S128x8192_0_0_1_1_n_n.lhsBatch by decide), dif_pos (show (1 : Fin S256x128.rank) ∈ dot_S256x128_S256x8192_S128x8192_0_0_1_1_n_n.lhsNonContracting by decide)]
  rfl
theorem rhs_T_0 (j : S128x8192.Idx) (k : dot_S256x128_S256x8192_S128x8192_0_0_1_1_n_n.contr.Idx) :
    (dot_S256x128_S256x8192_S128x8192_0_0_1_1_n_n.rhsIdx j k 0).val = (k ⟨0, by decide⟩).val :=
  dot_S256x128_S256x8192_S128x8192_0_0_1_1_n_n.rhsIdx_val_of_single rfl j k
theorem rhs_T_1 (j : S128x8192.Idx) (k : dot_S256x128_S256x8192_S128x8192_0_0_1_1_n_n.contr.Idx) :
    (dot_S256x128_S256x8192_S128x8192_0_0_1_1_n_n.rhsIdx j k 1).val = (j 1).val := by
  unfold DotDims.rhsIdx
  rw [dif_neg (show ¬(1 : Fin S256x8192.rank) ∈ dot_S256x128_S256x8192_S128x8192_0_0_1_1_n_n.rhsBatch by decide), dif_pos (show (1 : Fin S256x8192.rank) ∈ dot_S256x128_S256x8192_S128x8192_0_0_1_1_n_n.rhsNonContracting by decide)]
  rfl

theorem matmul_T_apply (x : FVec Ideal S256x128 .f32) (y : FVec Ideal S256x8192 .f32) (d : Fin 128) (c : Fin 8192) :
    matmul dot_S256x128_S256x8192_S128x8192_0_0_1_1_n_n none x y (constant (F := Ideal) S128x8192 .f32 0x00000000#32) (ix2 d c)
      = ∑ r : Fin 256, x (ix2 r d) * y (ix2 r c) :=
  mmT_ix2_of _ rfl rfl lhs_T_0 lhs_T_1 rhs_T_0 rhs_T_1 x y d c

theorem pay2_apply (d : Fin 128) (c : Fin 8192) : k3_pay2 (F := Ideal) (ix2 d c) = 0 := by
  unfold k3_pay2
  rw [shapeCast_self]
  exact Ideal.ofBits_zero_f32

theorem pay3_apply (v3 : Vec Ideal S256x8192 .f32) (v4 : Vec Ideal S256x4096 .f32) (v5 : Vec Ideal S4096x128 .f32)
    (v8 : Vec Ideal S8192x128 .f32) (p : Fin 256) (q : Fin 128) :
    k3_pay3 v3 v4 v5 v8 (ix2 p q)
      = Ideal.logistic ((∑ l : Fin 4096, v4 (ix2 p l) * v5 (ix2 l q)) + ∑ l : Fin 8192, v3 (ix2 p l) * v8 (ix2 l q)) := by
  unfold k3_pay3
  rw [shapeCast_self, shapeCast_self]
  show Ideal.logistic (_ + _) = _
  rw [matmul_A_apply, matmul_M_apply]

theorem pay4_apply (v3 : Vec Ideal S256x8192 .f32) (v4 : Vec Ideal S256x4096 .f32) (v5 : Vec Ideal S4096x128 .f32)
    (v8 : Vec Ideal S8192x128 .f32) (v13 : Vec Ideal S128x128 .f32) (p : Fin 256) (q : Fin 128) :
    k3_pay4 v3 v4 v5 v8 v13 (ix2 p q) = ∑ l : Fin 128, k3_pay3 v3 v4 v5 v8 (ix2 p l) * v13 (ix2 l q) := by
  unfold k3_pay4
  exact matmul_W_apply _ _ p q

theorem pay5_apply (v3 : Vec Ideal S256x8192 .f32) (v4 : Vec Ideal S256x4096 .f32) (v5 : Vec Ideal S4096x128 .f32)
    (v8 : Vec Ideal S8192x128 .f32) (v16 : Vec Ideal S128x128 .f32) (p : Fin 256) (q : Fin 128) :
    k3_pay5 v3 v4 v5 v8 v16 (ix2 p q) = ∑ l : Fin 128, k3_pay3 v3 v4 v5 v8 (ix2 p l) * v16 (ix2 l q) := by
  unfold k3_pay5
  exact matmul_W_apply _ _ p q

theorem pay6_apply (v3 : Vec Ideal S256x8192 .f32) (v19 : Vec Ideal S128x8192 .f32) (v20 : Vec Ideal S256x128 .f32)
    (d : Fin 128) (c : Fin 8192) :
    k3_pay6 v3 v19 v20 (ix2 d c) = v19 (ix2 d c) + ∑ r : Fin 256, v20 (ix2 r d) * v3 (ix2 r c) := by
  unfold k3_pay6
  rw [shapeCast_self, shapeCast_self]
  show _ + _ = _
  rw [matmul_T_apply]

theorem pay1_apply (v30 : Vec Ideal S128x8192 .f32) (c : Fin 8192) (d : Fin 128) :
    k3_pay1 v30 (ix2 c d) = v30 (ix2 d c) := by
  unfold k3_pay1
  exact transpose_apply [1, 0] v30 transposes_S128x8192_p1_0_S8192x128 (ix2 c d) (ix2 d c) (fun b => match b with
    | ⟨0, _⟩ => rfl
    | ⟨1, _⟩ => rfl)

end Cert.KernelIdeal.HandVal

end
-- ==== Proof.Val.V3.lean ====
import proofs.«122060_g64467459113426_cont_9to1_m_811_14_alg».proof.Proof.KI.R3
import proofs.«122060_g64467459113426_cont_9to1_m_811_14_alg».proof.Proof.KI.D3
import proofs.«122060_g64467459113426_cont_9to1_m_811_14_alg».proof.Proof.Val.P3
import proofs.«122060_g64467459113426_cont_9to1_m_811_14_alg».proof.Proof.Spec
import proofs.«122060_g64467459113426_cont_9to1_m_811_14_alg».proof.Proof.LibSumBlocks
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.HandVal

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand Cert.Hmc

variable (V : (c : Dev nD) → (b : Ref sig .tc) → Buf (Elt Ideal) ((c : Thread nD τ).loc b))

theorem idx_facts3 : ∀ t : Fin cfg3.N,
    (win3_0.index t (0 : Fin 2) = t.val ∧ win3_0.index t (1 : Fin 2) = 0)
    ∧ (win3_1.index t (0 : Fin 2) = t.val ∧ win3_1.index t (1 : Fin 2) = 0)
    ∧ (win3_2.index t (0 : Fin 2) = 0 ∧ win3_2.index t (1 : Fin 2) = 0)
    ∧ (win3_3.index t (0 : Fin 2) = 0 ∧ win3_3.index t (1 : Fin 2) = 0)
    ∧ (win3_4.index t (0 : Fin 2) = t.val ∧ win3_4.index t (1 : Fin 2) = 0)
    ∧ (win3_5.index t (0 : Fin 2) = 0 ∧ win3_5.index t (1 : Fin 2) = 0)
    ∧ (win3_6.index t (0 : Fin 2) = 0 ∧ win3_6.index t (1 : Fin 2) = 0)
    ∧ (win3_7.index t (0 : Fin 2) = t.val ∧ win3_7.index t (1 : Fin 2) = 0)
    ∧ (win3_8.index t (0 : Fin 2) = t.val ∧ win3_8.index t (1 : Fin 2) = 0)
    ∧ (win3_9.index t (0 : Fin 2) = 0 ∧ win3_9.index t (1 : Fin 2) = 0) :=
  (by decide +kernel : ∀ t : Fin grid3.N, _)

theorem t_lt3 (t : Fin cfg3.N) : t.val < 16 := lt_of_lt_of_eq t.isLt (show cfg3.N = 16 from N_3)

theorem row_lt3 (t : Fin cfg3.N) (r : Fin 256) : t.val * 256 + r.val < 4096 := by
  have := t_lt3 t; have := r.isLt; omega

abbrev row3 (t : Fin cfg3.N) (r : Fin 256) : Fin 4096 := ⟨t.val * 256 + r.val, row_lt3 t r⟩

theorem iblk3_0_apply (c : Dev nD) (t : Fin cfg3.N) (r : Fin 256) (q : Fin 4096) :
    (iblk3 V c 0 t : Vec Ideal S256x4096 .f32) (ix2 r q) = (V c main_arg3 : S4096x4096.Idx → EReal) (ix2 (row3 t r) q) := by
  obtain ⟨⟨e0, e1⟩, -⟩ := idx_facts3 t
  unfold iblk3
  rw [View.read_apply]
  show V c main_arg3 _ = V c main_arg3 _
  congr 1
  funext a
  apply Fin.ext
  match a with
  | ⟨0, _⟩ => show win3_0.index t (0 : Fin 2) * 256 + 1 * r.val = t.val * 256 + r.val; rw [e0]; omega
  | ⟨1, _⟩ => show win3_0.index t (1 : Fin 2) * 4096 + 1 * q.val = q.val; rw [e1]; omega

theorem iblk3_1_apply (c : Dev nD) (t : Fin cfg3.N) (r : Fin 256) (q : Fin 8192) :
    (iblk3 V c 1 t : Vec Ideal S256x8192 .f32) (ix2 r q) = (V c main_arg6 : S4096x8192.Idx → EReal) (ix2 (row3 t r) q) := by
  obtain ⟨-, ⟨e0, e1⟩, -⟩ := idx_facts3 t
  unfold iblk3
  rw [View.read_apply]
  show V c main_arg6 _ = V c main_arg6 _
  congr 1
  funext a
  apply Fin.ext
  match a with
  | ⟨0, _⟩ => show win3_1.index t (0 : Fin 2) * 256 + 1 * r.val = t.val * 256 + r.val; rw [e0]; omega
  | ⟨1, _⟩ => show win3_1.index t (1 : Fin 2) * 8192 + 1 * q.val = q.val; rw [e1]; omega

theorem iblk3_2_apply (c : Dev nD) (t : Fin cfg3.N) (l : Fin 4096) (q : Fin 128) :
    (iblk3 V c 2 t : Vec Ideal S4096x128 .f32) (ix2 l q) = (V c main_v0_0 : S4096x128.Idx → EReal) (ix2 l q) := by
  obtain ⟨-, -, ⟨e0, e1⟩, -⟩ := idx_facts3 t
  unfold iblk3
  rw [View.read_apply]
  show V c main_v0_0 _ = V c main_v0_0 _
  congr 1
  funext a
  apply Fin.ext
  match a with
  | ⟨0, _⟩ => show win3_2.index t (0 : Fin 2) * 4096 + 1 * l.val = l.val; rw [e0]; omega
  | ⟨1, _⟩ => show win3_2.index t (1 : Fin 2) * 128 + 1 * q.val = q.val; rw [e1]; omega

theorem iblk3_3_apply (c : Dev nD) (t : Fin cfg3.N) (l : Fin 8192) (q : Fin 128) :
    (iblk3 V c 3 t : Vec Ideal S8192x128 .f32) (ix2 l q) = (V c main_v1_0 : S8192x128.Idx → EReal) (ix2 l q) := by
  obtain ⟨-, -, -, ⟨e0, e1⟩, -⟩ := idx_facts3 t
  unfold iblk3
  rw [View.read_apply]
  show V c main_v1_0 _ = V c main_v1_0 _
  congr 1
  funext a
  apply Fin.ext
  match a with
  | ⟨0, _⟩ => show win3_3.index t (0 : Fin 2) * 8192 + 1 * l.val = l.val; rw [e0]; omega
  | ⟨1, _⟩ => show win3_3.index t (1 : Fin 2) * 128 + 1 * q.val = q.val; rw [e1]; omega

theorem iblk3_4_apply (c : Dev nD) (t : Fin cfg3.N) (r : Fin 256) (q : Fin 128) :
    (iblk3 V c 4 t : Vec Ideal S256x128 .f32) (ix2 r q) = (V c main_v0_1 : S4096x128.Idx → EReal) (ix2 (row3 t r) q) := by
  obtain ⟨-, -, -, -, ⟨e0, e1⟩, -⟩ := idx_facts3 t
  unfold iblk3
  rw [View.read_apply]
  show V c main_v0_1 _ = V c main_v0_1 _
  congr 1
  funext a
  apply Fin.ext
  match a with
  | ⟨0, _⟩ => show win3_4.index t (0 : Fin 2) * 256 + 1 * r.val = t.val * 256 + r.val; rw [e0]; omega
  | ⟨1, _⟩ => show win3_4.index t (1 : Fin 2) * 128 + 1 * q.val = q.val; rw [e1]; omega

theorem iblk3_5_apply (c : Dev nD) (t : Fin cfg3.N) (l : Fin 128) (q : Fin 128) :
    (iblk3 V c 5 t : Vec Ideal S128x128 .f32) (ix2 l q) = (V c main_arg12 : S128x128.Idx → EReal) (ix2 l q) := by
  obtain ⟨-, -, -, -, -, ⟨e0, e1⟩, -⟩ := idx_facts3 t
  unfold iblk3
  rw [View.read_apply]
  show V c main_arg12 _ = V c main_arg12 _
  congr 1
  funext a
  apply Fin.ext
  match a with
  | ⟨0, _⟩ => show win3_5.index t (0 : Fin 2) * 128 + 1 * l.val = l.val; rw [e0]; omega
  | ⟨1, _⟩ => show win3_5.index t (1 : Fin 2) * 128 + 1 * q.val = q.val; rw [e1]; omega

theorem iblk3_6_apply (c : Dev nD) (t : Fin cfg3.N) (l : Fin 128) (q : Fin 128) :
    (iblk3 V c 6 t : Vec Ideal S128x128 .f32) (ix2 l q) = (V c main_arg13 : S128x128.Idx → EReal) (ix2 l q) := by
  obtain ⟨-, -, -, -, -, -, ⟨e0, e1⟩, -⟩ := idx_facts3 t
  unfold iblk3
  rw [View.read_apply]
  show V c main_arg13 _ = V c main_arg13 _
  congr 1
  funext a
  apply Fin.ext
  match a with
  | ⟨0, _⟩ => show win3_6.index t (0 : Fin 2) * 128 + 1 * l.val = l.val; rw [e0]; omega
  | ⟨1, _⟩ => show win3_6.index t (1 : Fin 2) * 128 + 1 * q.val = q.val; rw [e1]; omega

abbrev act3 (c : Dev nD) : Mat 4096 128 :=
  sg (add (mm (V c main_arg3) (V c main_v0_0)) (mm (V c main_arg6) (V c main_v1_0)))

theorem pay3_blk (c : Dev nD) (t : Fin cfg3.N) (p : Fin 256) (l : Fin 128) :
    k3_pay3 (iblk3 V c 1 t) (iblk3 V c 0 t) (iblk3 V c 2 t) (iblk3 V c 3 t) (ix2 p l) = act3 V c (ix2 (row3 t p) l) := by
  refine (pay3_apply _ _ _ _ p l).trans ?_
  unfold act3
  rw [sg_apply, add_apply, mm_ix2, mm_ix2]
  congr 2
  · exact Finset.sum_congr rfl fun k _ => by rw [iblk3_0_apply, iblk3_2_apply]
  · exact Finset.sum_congr rfl fun k _ => by rw [iblk3_1_apply, iblk3_3_apply]

theorem emb3_7 (t : Fin cfg3.N) (p : Fin 256) (q : Fin 128) :
    ((cfg3.win 7).blk t).view.emb (ix2 p q) = ix2 (row3 t p) q := by
  obtain ⟨-, -, -, -, -, -, -, ⟨e0, e1⟩, -⟩ := idx_facts3 t
  funext a
  apply Fin.ext
  match a with
  | ⟨0, _⟩ => show win3_7.index t (0 : Fin 2) * 256 + 1 * p.val = t.val * 256 + p.val; rw [e0]; omega
  | ⟨1, _⟩ => show win3_7.index t (1 : Fin 2) * 128 + 1 * q.val = q.val; rw [e1]; omega

theorem emb3_8 (t : Fin cfg3.N) (p : Fin 256) (q : Fin 128) :
    ((cfg3.win 8).blk t).view.emb (ix2 p q) = ix2 (row3 t p) q := by
  obtain ⟨-, -, -, -, -, -, -, -, ⟨e0, e1⟩, -⟩ := idx_facts3 t
  funext a
  apply Fin.ext
  match a with
  | ⟨0, _⟩ => show win3_8.index t (0 : Fin 2) * 256 + 1 * p.val = t.val * 256 + p.val; rw [e0]; omega
  | ⟨1, _⟩ => show win3_8.index t (1 : Fin 2) * 128 + 1 * q.val = q.val; rw [e1]; omega

theorem flushed3_7_eq (c : Dev nD) (t : Fin cfg3.N) :
    (dat3 V c).flushed 7 t = ((cfg3.win 7).blk t).view.read (Elt Ideal) (mm (act3 V c) (V c main_arg12)) := by
  show (cfg3.win 7).cut (grid3.coords t) ((dat3 V c).after 7 t) = _
  rw [after3_7]
  funext j
  obtain ⟨p, q, rfl⟩ : ∃ (p : Fin 256) (q : Fin 128), j = ix2 p q := ⟨j 0, j 1, eq_ix2 j⟩
  rw [View.read_apply, emb3_7]
  show k3_pay4 (F := Ideal) _ _ _ _ _ (ix2 p q) = mm (act3 V c) (V c main_arg12) (ix2 (row3 t p) q)
  refine (pay4_apply _ _ _ _ _ p q).trans ?_
  rw [mm_ix2]
  exact Finset.sum_congr rfl fun l _ => by rw [pay3_blk, iblk3_5_apply]

theorem flushed3_8_eq (c : Dev nD) (t : Fin cfg3.N) :
    (dat3 V c).flushed 8 t = ((cfg3.win 8).blk t).view.read (Elt Ideal) (mm (act3 V c) (V c main_arg13)) := by
  show (cfg3.win 8).cut (grid3.coords t) ((dat3 V c).after 8 t) = _
  rw [after3_8]
  funext j
  obtain ⟨p, q, rfl⟩ : ∃ (p : Fin 256) (q : Fin 128), j = ix2 p q := ⟨j 0, j 1, eq_ix2 j⟩
  rw [View.read_apply, emb3_8]
  show k3_pay5 (F := Ideal) _ _ _ _ _ (ix2 p q) = mm (act3 V c) (V c main_arg13) (ix2 (row3 t p) q)
  refine (pay5_apply _ _ _ _ _ p q).trans ?_
  rw [mm_ix2]
  exact Finset.sum_congr rfl fun l _ => by rw [pay3_blk, iblk3_6_apply]

theorem mem_blk3_7 (t : Fin cfg3.N) (i : S4096x128.Idx) :
    i ∈ ((cfg3.win 7).blk t).view.set ↔ ∀ a : Fin 2, win3_7.index t a * S256x128.size a ≤ (i a).val ∧ (i a).val < win3_7.index t a * S256x128.size a + S256x128.size a := by
  show i ∈ ((View.whole main_v3_0).slice (win3_7.rect t)).set ↔ _
  rw [View.set_slice_whole, Rect.mem_set_unit]
  exact Iff.rfl

theorem mem_blk3_8 (t : Fin cfg3.N) (i : S4096x128.Idx) :
    i ∈ ((cfg3.win 8).blk t).view.set ↔ ∀ a : Fin 2, win3_8.index t a * S256x128.size a ≤ (i a).val ∧ (i a).val < win3_8.index t a * S256x128.size a + S256x128.size a := by
  show i ∈ ((View.whole main_v3_1).slice (win3_8.rect t)).set ↔ _
  rw [View.set_slice_whole, Rect.mem_set_unit]
  exact Iff.rfl

def stripOf3 (i : S4096x128.Idx) : Fin cfg3.N :=
  ⟨(i 0).val / 256, lt_of_lt_of_eq (by have := idx2_lt0 i; omega : (i 0).val / 256 < 16) (show cfg3.N = 16 from N_3).symm⟩

theorem cover3_7 (i : S4096x128.Idx) : ∃ t : Fin cfg3.N, (cfg3.win 7).flush t = true ∧ i ∈ ((cfg3.win 7).blk t).view.set := by
  refine ⟨stripOf3 i, flush3_7 _, ?_⟩
  obtain ⟨-, -, -, -, -, -, -, ⟨e0, e1⟩, -⟩ := idx_facts3 (stripOf3 i)
  have h0 := idx2_lt0 i
  have h1 := idx2_lt1 i
  rw [mem_blk3_7]
  intro a
  match a with
  | ⟨0, _⟩ => show win3_7.index (stripOf3 i) (0 : Fin 2) * 256 ≤ (i 0).val ∧ (i 0).val < win3_7.index (stripOf3 i) (0 : Fin 2) * 256 + 256
              rw [e0]; show (i 0).val / 256 * 256 ≤ (i 0).val ∧ (i 0).val < (i 0).val / 256 * 256 + 256; omega
  | ⟨1, _⟩ => show win3_7.index (stripOf3 i) (1 : Fin 2) * 128 ≤ (i 1).val ∧ (i 1).val < win3_7.index (stripOf3 i) (1 : Fin 2) * 128 + 128
              rw [e1]; omega

theorem cover3_8 (i : S4096x128.Idx) : ∃ t : Fin cfg3.N, (cfg3.win 8).flush t = true ∧ i ∈ ((cfg3.win 8).blk t).view.set := by
  refine ⟨stripOf3 i, flush3_8 _, ?_⟩
  obtain ⟨-, -, -, -, -, -, -, -, ⟨e0, e1⟩, -⟩ := idx_facts3 (stripOf3 i)
  have h0 := idx2_lt0 i
  have h1 := idx2_lt1 i
  rw [mem_blk3_8]
  intro a
  match a with
  | ⟨0, _⟩ => show win3_8.index (stripOf3 i) (0 : Fin 2) * 256 ≤ (i 0).val ∧ (i 0).val < win3_8.index (stripOf3 i) (0 : Fin 2) * 256 + 256
              rw [e0]; show (i 0).val / 256 * 256 ≤ (i 0).val ∧ (i 0).val < (i 0).val / 256 * 256 + 256; omega
  | ⟨1, _⟩ => show win3_8.index (stripOf3 i) (1 : Fin 2) * 128 ≤ (i 1).val ∧ (i 1).val < win3_8.index (stripOf3 i) (1 : Fin 2) * 128 + 128
              rw [e1]; omega

theorem val3_7 (c : Dev nD) :
    (dat3 V c).arrAt 7 cfg3.N
      = mm (sg (add (mm (V c main_arg3) (V c main_v0_0)) (mm (V c main_arg6) (V c main_v1_0)))) (V c main_arg12) :=
  (dat3 V c).arrAt_eq_of_cover 7 (mm (act3 V c) (V c main_arg12)) (fun t _ => flushed3_7_eq V c t) cover3_7

theorem val3_8 (c : Dev nD) :
    (dat3 V c).arrAt 8 cfg3.N
      = mm (sg (add (mm (V c main_arg3) (V c main_v0_0)) (mm (V c main_arg6) (V c main_v1_0)))) (V c main_arg13) :=
  (dat3 V c).arrAt_eq_of_cover 8 (mm (act3 V c) (V c main_arg13)) (fun t _ => flushed3_8_eq V c t) cover3_8

def strip3 (w : Mat 4096 128) (x : Mat 4096 8192) (a : ℕ) (ha : a < 16) (d : Fin 128) (q : Fin 8192) : EReal :=
  ∑ r : Fin 256, w (ix2 ⟨a * 256 + r.val, by have := r.isLt; omega⟩ d) * x (ix2 ⟨a * 256 + r.val, by have := r.isLt; omega⟩ q)

theorem strips_total (w : Mat 4096 128) (x : Mat 4096 8192) (d : Fin 128) (q : Fin 8192) :
    ∑ a : Fin 16, strip3 w x a.val a.isLt d q = mmT x w (ix2 q d) := by
  rw [mmT_ix2]
  unfold strip3
  refine Eq.trans ?_ (Fin.sum_rowMajor2 16 256 fun r : Fin 4096 => x (ix2 r q) * w (ix2 r d)).symm
  exact Finset.sum_congr rfl fun a _ => Finset.sum_congr rfl fun r _ => mul_comm _ _

theorem pay6_blk (c : Dev nD) (t : Fin cfg3.N) (acc : Vec Ideal S128x8192 .f32) (d : Fin 128) (q : Fin 8192) :
    k3_pay6 (F := Ideal) (iblk3 V c 1 t) acc (iblk3 V c 4 t) (ix2 d q)
      = acc (ix2 d q) + strip3 (V c main_v0_1) (V c main_arg6) t.val (t_lt3 t) d q := by
  refine (pay6_apply _ _ _ d q).trans ?_
  refine congrArg (acc (ix2 d q) + ·) ?_
  exact Finset.sum_congr rfl fun r _ => by rw [iblk3_4_apply, iblk3_1_apply]

theorem acc3_apply (c : Dev nD) : ∀ (n : ℕ) (h : n < cfg3.N) (d : Fin 128) (q : Fin 8192),
    acc3 V c n h (ix2 d q)
      = ∑ a : Fin (n + 1), strip3 (V c main_v0_1) (V c main_arg6) a.val
          (lt_of_lt_of_le a.isLt (Nat.succ_le_of_lt (lt_of_lt_of_eq h N_3))) d q
  | 0, h, d, q => by
    show k3_pay6 (F := Ideal) (iblk3 V c 1 ⟨0, h⟩) (k3_pay2 (F := Ideal)) (iblk3 V c 4 ⟨0, h⟩) (ix2 d q) = _
    rw [pay6_blk, pay2_apply, zero_add, Fin.sum_univ_castSucc, Fin.sum_univ_zero, zero_add]
    rfl
  | n + 1, h, d, q => by
    show k3_pay6 (F := Ideal) (iblk3 V c 1 ⟨n + 1, h⟩) (acc3 V c n (Nat.lt_of_succ_lt h)) (iblk3 V c 4 ⟨n + 1, h⟩) (ix2 d q) = _
    rw [pay6_blk, Fin.sum_univ_castSucc, acc3_apply c n _ d q]
    rfl

theorem acc3_total (c : Dev nD) (h : 15 < cfg3.N) (d : Fin 128) (q : Fin 8192) :
    acc3 V c 15 h (ix2 d q) = mmT (V c main_arg6) (V c main_v0_1) (ix2 q d) := by
  rw [acc3_apply]
  exact strips_total (V c main_v0_1) (V c main_arg6) d q

theorem emb3_9 (t : Fin cfg3.N) (p : Fin 8192) (q : Fin 128) :
    ((cfg3.win 9).blk t).view.emb (ix2 p q) = ix2 p q := by
  obtain ⟨-, -, -, -, -, -, -, -, -, ⟨e0, e1⟩⟩ := idx_facts3 t
  funext a
  apply Fin.ext
  match a with
  | ⟨0, _⟩ => show win3_9.index t (0 : Fin 2) * 8192 + 1 * p.val = p.val; rw [e0]; omega
  | ⟨1, _⟩ => show win3_9.index t (1 : Fin 2) * 128 + 1 * q.val = q.val; rw [e1]; omega

theorem flushed3_9_eq (c : Dev nD) (t : Fin cfg3.N) (hf : (cfg3.win 9).flush t = true) :
    (dat3 V c).flushed 9 t = ((cfg3.win 9).blk t).view.read (Elt Ideal) (mmT (V c main_arg6) (V c main_v0_1)) := by
  have h15 : t.val = 15 := by have := (flush3_9 t).mp hf; have := t_lt3 t; omega
  show (cfg3.win 9).cut (grid3.coords t) ((dat3 V c).after 9 t) = _
  rw [after3_9_last V c t h15]
  funext j
  obtain ⟨p, q, rfl⟩ : ∃ (p : Fin 8192) (q : Fin 128), j = ix2 p q := ⟨j 0, j 1, eq_ix2 j⟩
  rw [View.read_apply, emb3_9]
  show k3_pay1 (F := Ideal) _ (ix2 p q) = mmT (V c main_arg6) (V c main_v0_1) (ix2 p q)
  refine (pay1_apply _ p q).trans ?_
  obtain ⟨n, hn⟩ := t
  obtain rfl : n = 15 := h15
  exact acc3_total V c hn q p

theorem mem_blk3_9 (t : Fin cfg3.N) (i : S8192x128.Idx) :
    i ∈ ((cfg3.win 9).blk t).view.set ↔ ∀ a : Fin 2, win3_9.index t a * S8192x128.size a ≤ (i a).val ∧ (i a).val < win3_9.index t a * S8192x128.size a + S8192x128.size a := by
  show i ∈ ((View.whole main_v3_2).slice (win3_9.rect t)).set ↔ _
  rw [View.set_slice_whole, Rect.mem_set_unit]
  exact Iff.rfl

def last3 : Fin cfg3.N := ⟨15, lt_of_lt_of_eq (by decide : 15 < 16) (show cfg3.N = 16 from N_3).symm⟩

theorem cover3_9 (i : S8192x128.Idx) : ∃ t : Fin cfg3.N, (cfg3.win 9).flush t = true ∧ i ∈ ((cfg3.win 9).blk t).view.set := by
  refine ⟨last3, (flush3_9 _).mpr rfl, ?_⟩
  obtain ⟨-, -, -, -, -, -, -, -, -, ⟨e0, e1⟩⟩ := idx_facts3 last3
  have h0 := idx2_lt0 i
  have h1 := idx2_lt1 i
  rw [mem_blk3_9]
  intro a
  match a with
  | ⟨0, _⟩ => show win3_9.index last3 (0 : Fin 2) * 8192 ≤ (i 0).val ∧ (i 0).val < win3_9.index last3 (0 : Fin 2) * 8192 + 8192
              rw [e0]; omega
  | ⟨1, _⟩ => show win3_9.index last3 (1 : Fin 2) * 128 ≤ (i 1).val ∧ (i 1).val < win3_9.index last3 (1 : Fin 2) * 128 + 128
              rw [e1]; omega

theorem val3_9 (c : Dev nD) :
    (dat3 V c).arrAt 9 cfg3.N = mmT (V c main_arg6) (V c main_v0_1) :=
  (dat3 V c).arrAt_eq_of_cover 9 (mmT (V c main_arg6) (V c main_v0_1)) (flushed3_9_eq V c) cover3_9

end Cert.KernelIdeal.HandVal

end
-- ==== Proof.Val.P4.lean ====
import proofs.«122060_g64467459113426_cont_9to1_m_811_14_alg».proof.Proof.Gen.KernelIdeal.Skeleton
import proofs.«122060_g64467459113426_cont_9to1_m_811_14_alg».proof.Proof.Val.Proj
import proofs.«122060_g64467459113426_cont_9to1_m_811_14_alg».proof.Proof.Spec
import proofs.«122060_g64467459113426_cont_9to1_m_811_14_alg».proof.Proof.LibSumBlocks
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.HandVal

open Idealize.ShloMosaic Idealize.ShloMosaic.ValueIdx
open Cert.KernelIdeal Cert.KernelIdeal.Gen Cert.Hmc

theorem lhs_agg_0 (i : S1024x128.Idx) (k : dot_S1024x4096_S4096x128_S1024x128_1_0_0_1_n_n.contr.Idx) :
    (dot_S1024x4096_S4096x128_S1024x128_1_0_0_1_n_n.lhsIdx i k 0).val = (i 0).val := by
  unfold DotDims.lhsIdx
  rw [dif_neg (show ¬(0 : Fin S1024x4096.rank) ∈ dot_S1024x4096_S4096x128_S1024x128_1_0_0_1_n_n.lhsBatch by decide), dif_pos (show (0 : Fin S1024x4096.rank) ∈ dot_S1024x4096_S4096x128_S1024x128_1_0_0_1_n_n.lhsNonContracting by decide)]
  rfl
theorem lhs_agg_1 (i : S1024x128.Idx) (k : dot_S1024x4096_S4096x128_S1024x128_1_0_0_1_n_n.contr.Idx) :
    (dot_S1024x4096_S4096x128_S1024x128_1_0_0_1_n_n.lhsIdx i k 1).val = (k ⟨0, by decide⟩).val :=
  dot_S1024x4096_S4096x128_S1024x128_1_0_0_1_n_n.lhsIdx_val_of_single rfl i k
theorem rhs_agg_0 (i : S1024x128.Idx) (k : dot_S1024x4096_S4096x128_S1024x128_1_0_0_1_n_n.contr.Idx) :
    (dot_S1024x4096_S4096x128_S1024x128_1_0_0_1_n_n.rhsIdx i k 0).val = (k ⟨0, by decide⟩).val :=
  dot_S1024x4096_S4096x128_S1024x128_1_0_0_1_n_n.rhsIdx_val_of_single rfl i k
theorem rhs_agg_1 (i : S1024x128.Idx) (k : dot_S1024x4096_S4096x128_S1024x128_1_0_0_1_n_n.contr.Idx) :
    (dot_S1024x4096_S4096x128_S1024x128_1_0_0_1_n_n.rhsIdx i k 1).val = (i 1).val := by
  unfold DotDims.rhsIdx
  rw [dif_neg (show ¬(1 : Fin S4096x128.rank) ∈ dot_S1024x4096_S4096x128_S1024x128_1_0_0_1_n_n.rhsBatch by decide), dif_pos (show (1 : Fin S4096x128.rank) ∈ dot_S1024x4096_S4096x128_S1024x128_1_0_0_1_n_n.rhsNonContracting by decide)]
  rfl

theorem mm_agg_apply (x : FVec Ideal S1024x4096 .f32) (y : FVec Ideal S4096x128 .f32) (p : Fin 1024) (q : Fin 128) :
    matmul (F := Ideal) dot_S1024x4096_S4096x128_S1024x128_1_0_0_1_n_n none x y (constant S1024x128 .f32 0x00000000#32) (ix2 p q)
      = ∑ l : Fin 4096, x (ix2 p l) * y (ix2 l q) :=
  mm_ix2_of _ rfl rfl lhs_agg_0 lhs_agg_1 rhs_agg_0 rhs_agg_1 x y p q

theorem mm_wgt_apply (x : FVec Ideal S1024x128 .f32) (y : FVec Ideal S128x128 .f32) (p : Fin 1024) (q : Fin 128) :
    matmul (F := Ideal) dot_S1024x128_S128x128_S1024x128_1_0_0_1_n_n none x y (constant S1024x128 .f32 0x00000000#32) (ix2 p q)
      = ∑ l : Fin 128, x (ix2 p l) * y (ix2 l q) :=
  mm_ix2_of _ rfl rfl projDot_lhs_0 projDot_lhs_1 projDot_rhs_0 projDot_rhs_1 x y p q

theorem lhs_out_0 (i : S4096x128.Idx) (k : dot_S4096x128_S128x128_S4096x128_1_0_0_1_n_n.contr.Idx) :
    (dot_S4096x128_S128x128_S4096x128_1_0_0_1_n_n.lhsIdx i k 0).val = (i 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
theorem lhs_out_1 (i : S4096x128.Idx) (k : dot_S4096x128_S128x128_S4096x128_1_0_0_1_n_n.contr.Idx) :
    (dot_S4096x128_S128x128_S4096x128_1_0_0_1_n_n.lhsIdx i k 1).val = (k ⟨0, by decide⟩).val :=
  dot_S4096x128_S128x128_S4096x128_1_0_0_1_n_n.lhsIdx_val_of_single rfl i k
theorem rhs_out_0 (i : S4096x128.Idx) (k : dot_S4096x128_S128x128_S4096x128_1_0_0_1_n_n.contr.Idx) :
    (dot_S4096x128_S128x128_S4096x128_1_0_0_1_n_n.rhsIdx i k 0).val = (k ⟨0, by decide⟩).val :=
  dot_S4096x128_S128x128_S4096x128_1_0_0_1_n_n.rhsIdx_val_of_single rfl i k
theorem rhs_out_1 (i : S4096x128.Idx) (k : dot_S4096x128_S128x128_S4096x128_1_0_0_1_n_n.contr.Idx) :
    (dot_S4096x128_S128x128_S4096x128_1_0_0_1_n_n.rhsIdx i k 1).val = (i 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

theorem mm_out_apply (x : FVec Ideal S4096x128 .f32) (y : FVec Ideal S128x128 .f32) (p : Fin 4096) (q : Fin 128) :
    matmul (F := Ideal) dot_S4096x128_S128x128_S4096x128_1_0_0_1_n_n none x y (constant S4096x128 .f32 0x00000000#32) (ix2 p q)
      = ∑ l : Fin 128, x (ix2 p l) * y (ix2 l q) :=
  mm_ix2_of _ rfl rfl lhs_out_0 lhs_out_1 rhs_out_0 rhs_out_1 x y p q

theorem lhs_acc_0 (i : S128x4096.Idx) (k : dot_S1024x128_S1024x4096_S128x4096_0_0_1_1_n_n.contr.Idx) :
    (dot_S1024x128_S1024x4096_S128x4096_0_0_1_1_n_n.lhsIdx i k 0).val = (k ⟨0, by decide⟩).val :=
  dot_S1024x128_S1024x4096_S128x4096_0_0_1_1_n_n.lhsIdx_val_of_single rfl i k
theorem lhs_acc_1 (i : S128x4096.Idx) (k : dot_S1024x128_S1024x4096_S128x4096_0_0_1_1_n_n.contr.Idx) :
    (dot_S1024x128_S1024x4096_S128x4096_0_0_1_1_n_n.lhsIdx i k 1).val = (i 0).val := by
  unfold DotDims.lhsIdx
  rw [dif_neg (show ¬(1 : Fin S1024x128.rank) ∈ dot_S1024x128_S1024x4096_S128x4096_0_0_1_1_n_n.lhsBatch by decide), dif_pos (show (1 : Fin S1024x128.rank) ∈ dot_S1024x128_S1024x4096_S128x4096_0_0_1_1_n_n.lhsNonContracting by decide)]
  rfl
theorem rhs_acc_0 (i : S128x4096.Idx) (k : dot_S1024x128_S1024x4096_S128x4096_0_0_1_1_n_n.contr.Idx) :
    (dot_S1024x128_S1024x4096_S128x4096_0_0_1_1_n_n.rhsIdx i k 0).val = (k ⟨0, by decide⟩).val :=
  dot_S1024x128_S1024x4096_S128x4096_0_0_1_1_n_n.rhsIdx_val_of_single rfl i k
theorem rhs_acc_1 (i : S128x4096.Idx) (k : dot_S1024x128_S1024x4096_S128x4096_0_0_1_1_n_n.contr.Idx) :
    (dot_S1024x128_S1024x4096_S128x4096_0_0_1_1_n_n.rhsIdx i k 1).val = (i 1).val := by
  unfold DotDims.rhsIdx
  rw [dif_neg (show ¬(1 : Fin S1024x4096.rank) ∈ dot_S1024x128_S1024x4096_S128x4096_0_0_1_1_n_n.rhsBatch by decide), dif_pos (show (1 : Fin S1024x4096.rank) ∈ dot_S1024x128_S1024x4096_S128x4096_0_0_1_1_n_n.rhsNonContracting by decide)]
  rfl

theorem mm_acc_apply (x : FVec Ideal S1024x128 .f32) (y : FVec Ideal S1024x4096 .f32) (p : Fin 128) (q : Fin 4096) :
    matmul (F := Ideal) dot_S1024x128_S1024x4096_S128x4096_0_0_1_1_n_n none x y (constant S128x4096 .f32 0x00000000#32) (ix2 p q)
      = ∑ l : Fin 1024, x (ix2 l p) * y (ix2 l q) :=
  mmT_ix2_of _ rfl rfl lhs_acc_0 lhs_acc_1 rhs_acc_0 rhs_acc_1 x y p q

theorem k4_pay2_apply (d : Fin 128) (c : Fin 4096) : k4_pay2 (F := Ideal) (ix2 d c) = 0 := by
  unfold k4_pay2
  rw [shapeCast_self]
  exact Ideal.ofBits_zero_f32

theorem k4_pay3_apply (x : Vec Ideal S1024x4096 .f32) (y : Vec Ideal S1024x128 .f32) (w : Vec Ideal S4096x128 .f32)
    (p : Fin 1024) (q : Fin 128) :
    k4_pay3 (F := Ideal) x y w (ix2 p q) = Ideal.logistic (y (ix2 p q) + ∑ l : Fin 4096, x (ix2 p l) * w (ix2 l q)) := by
  unfold k4_pay3
  rw [shapeCast_self, shapeCast_self]
  show Ideal.logistic (y (ix2 p q) + _) = _
  exact congrArg (fun z => Ideal.logistic (y (ix2 p q) + z)) (mm_agg_apply x w p q)

theorem k4_pay4_apply (x : Vec Ideal S1024x4096 .f32) (y : Vec Ideal S1024x128 .f32) (w : Vec Ideal S4096x128 .f32)
    (W : Vec Ideal S128x128 .f32) (p : Fin 1024) (q : Fin 128) :
    k4_pay4 (F := Ideal) x y w W (ix2 p q) = ∑ l : Fin 128, k4_pay3 (F := Ideal) x y w (ix2 p l) * W (ix2 l q) := by
  unfold k4_pay4
  exact mm_wgt_apply (k4_pay3 (F := Ideal) x y w) W p q

theorem k4_pay5_apply (x : Vec Ideal S1024x4096 .f32) (y : Vec Ideal S1024x128 .f32) (w : Vec Ideal S4096x128 .f32)
    (W : Vec Ideal S128x128 .f32) (p : Fin 1024) (q : Fin 128) :
    k4_pay5 (F := Ideal) x y w W (ix2 p q) = ∑ l : Fin 128, k4_pay3 (F := Ideal) x y w (ix2 p l) * W (ix2 l q) := by
  unfold k4_pay5
  exact mm_wgt_apply (k4_pay3 (F := Ideal) x y w) W p q

theorem k4_pay6_apply (x : Vec Ideal S1024x4096 .f32) (acc : Vec Ideal S128x4096 .f32) (v : Vec Ideal S1024x128 .f32)
    (d : Fin 128) (c : Fin 4096) :
    k4_pay6 (F := Ideal) x acc v (ix2 d c) = acc (ix2 d c) + ∑ r : Fin 1024, v (ix2 r d) * x (ix2 r c) := by
  unfold k4_pay6
  rw [shapeCast_self, shapeCast_self]
  show acc (ix2 d c) + _ = _
  exact congrArg (fun z => acc (ix2 d c) + z) (mm_acc_apply v x d c)

theorem k4_pay1_apply (acc : Vec Ideal S128x4096 .f32) (W : Vec Ideal S128x128 .f32) (c : Fin 4096) (q : Fin 128) :
    k4_pay1 (F := Ideal) acc W (ix2 c q) = ∑ d : Fin 128, acc (ix2 d c) * W (ix2 d q) := by
  unfold k4_pay1
  refine (mm_out_apply _ W c q).trans (Finset.sum_congr rfl fun d _ => ?_)
  exact congrArg (· * W (ix2 d q)) (transpose_apply [1, 0] acc transposes_S128x4096_p1_0_S4096x128 (ix2 c d) (ix2 d c)
    (fun b => match b with
      | ⟨0, _⟩ => rfl
      | ⟨1, _⟩ => rfl))

end Cert.KernelIdeal.HandVal

end
-- ==== Proof.Val.V4.lean ====
import proofs.«122060_g64467459113426_cont_9to1_m_811_14_alg».proof.Proof.KI.R4
import proofs.«122060_g64467459113426_cont_9to1_m_811_14_alg».proof.Proof.KI.D4
import proofs.«122060_g64467459113426_cont_9to1_m_811_14_alg».proof.Proof.Val.P4
import proofs.«122060_g64467459113426_cont_9to1_m_811_14_alg».proof.Proof.Spec
import proofs.«122060_g64467459113426_cont_9to1_m_811_14_alg».proof.Proof.LibSumBlocks
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.HandVal

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand Cert.Hmc

variable (V : (c : Dev nD) → (b : Ref sig .tc) → Buf (Elt Ideal) ((c : Thread nD τ).loc b))

abbrev aI2 (c : Dev nD) : Mat 8192 4096 := V c main_arg7
abbrev aP21 (c : Dev nD) : Mat 4096 128 := V c main_v2
abbrev aP12 (c : Dev nD) : Mat 8192 128 := V c main_v1_1
abbrev aY (c : Dev nD) : Mat 8192 128 := V c main_v3_2
abbrev aW11 (c : Dev nD) : Mat 128 128 := V c main_arg14
abbrev aW12 (c : Dev nD) : Mat 128 128 := V c main_arg15
abbrev aW22 (c : Dev nD) : Mat 128 128 := V c main_arg16

abbrev bI2 (c : Dev nD) (t : Fin cfg4.N) : Vec Ideal S1024x4096 .f32 := iblk4 V c 0 t
abbrev bP21 (c : Dev nD) (t : Fin cfg4.N) : Vec Ideal S4096x128 .f32 := iblk4 V c 1 t
abbrev bP12 (c : Dev nD) (t : Fin cfg4.N) : Vec Ideal S1024x128 .f32 := iblk4 V c 2 t
abbrev bY (c : Dev nD) (t : Fin cfg4.N) : Vec Ideal S1024x128 .f32 := iblk4 V c 3 t
abbrev bW11 (c : Dev nD) (t : Fin cfg4.N) : Vec Ideal S128x128 .f32 := iblk4 V c 4 t
abbrev bW12 (c : Dev nD) (t : Fin cfg4.N) : Vec Ideal S128x128 .f32 := iblk4 V c 5 t
abbrev bW22 (c : Dev nD) (t : Fin cfg4.N) : Vec Ideal S128x128 .f32 := iblk4 V c 6 t

theorem idx_facts4 : ∀ t : Fin cfg4.N,
    (win4_0.index t (0 : Fin 2) = t.val ∧ win4_0.index t (1 : Fin 2) = 0)
    ∧ (win4_1.index t (0 : Fin 2) = 0 ∧ win4_1.index t (1 : Fin 2) = 0)
    ∧ (win4_2.index t (0 : Fin 2) = t.val ∧ win4_2.index t (1 : Fin 2) = 0)
    ∧ (win4_3.index t (0 : Fin 2) = t.val ∧ win4_3.index t (1 : Fin 2) = 0)
    ∧ (win4_4.index t (0 : Fin 2) = 0 ∧ win4_4.index t (1 : Fin 2) = 0)
    ∧ (win4_5.index t (0 : Fin 2) = 0 ∧ win4_5.index t (1 : Fin 2) = 0)
    ∧ (win4_6.index t (0 : Fin 2) = 0 ∧ win4_6.index t (1 : Fin 2) = 0)
    ∧ (win4_7.index t (0 : Fin 2) = t.val ∧ win4_7.index t (1 : Fin 2) = 0)
    ∧ (win4_8.index t (0 : Fin 2) = t.val ∧ win4_8.index t (1 : Fin 2) = 0)
    ∧ (win4_9.index t (0 : Fin 2) = 0 ∧ win4_9.index t (1 : Fin 2) = 0) :=
  (by decide +kernel : ∀ t : Fin grid4.N, _)

theorem N4 : cfg4.N = 8 := N_4

theorem row_lt (t : Fin cfg4.N) (r : Fin 1024) : t.val * 1024 + r.val < 8192 := by
  have := t.isLt; have := N4; have := r.isLt; omega

theorem bI2_apply (c : Dev nD) (t : Fin cfg4.N) (r : Fin 1024) (q : Fin 4096) :
    bI2 V c t (ix2 r q) = aI2 V c (ix2 ⟨t.val * 1024 + r.val, row_lt t r⟩ q) := by
  obtain ⟨h0, h1, h2, h3, h4, h5, h6, h7, h8, h9⟩ := idx_facts4 t
  show ((cfg4.win 0).blk t).view.read (Elt Ideal) (V c (Pipeline.arrRef spec4 0)) (ix2 r q) = _
  rw [View.read_apply]
  show V c main_arg7 _ = V c main_arg7 _
  congr 1
  funext a
  apply Fin.ext
  match a with
  | ⟨0, _⟩ => show win4_0.index t (0 : Fin 2) * 1024 + 1 * r.val = t.val * 1024 + r.val; rw [h0.1]; omega
  | ⟨1, _⟩ => show win4_0.index t (1 : Fin 2) * 4096 + 1 * q.val = q.val; rw [h0.2]; omega

theorem bP21_apply (c : Dev nD) (t : Fin cfg4.N) (r : Fin 4096) (q : Fin 128) :
    bP21 V c t (ix2 r q) = aP21 V c (ix2 r q) := by
  obtain ⟨h0, h1, h2, h3, h4, h5, h6, h7, h8, h9⟩ := idx_facts4 t
  show ((cfg4.win 1).blk t).view.read (Elt Ideal) (V c (Pipeline.arrRef spec4 1)) (ix2 r q) = _
  rw [View.read_apply]
  show V c main_v2 _ = V c main_v2 _
  congr 1
  funext a
  apply Fin.ext
  match a with
  | ⟨0, _⟩ => show win4_1.index t (0 : Fin 2) * 4096 + 1 * r.val = r.val; rw [h1.1]; omega
  | ⟨1, _⟩ => show win4_1.index t (1 : Fin 2) * 128 + 1 * q.val = q.val; rw [h1.2]; omega

theorem bP12_apply (c : Dev nD) (t : Fin cfg4.N) (r : Fin 1024) (q : Fin 128) :
    bP12 V c t (ix2 r q) = aP12 V c (ix2 ⟨t.val * 1024 + r.val, row_lt t r⟩ q) := by
  obtain ⟨h0, h1, h2, h3, h4, h5, h6, h7, h8, h9⟩ := idx_facts4 t
  show ((cfg4.win 2).blk t).view.read (Elt Ideal) (V c (Pipeline.arrRef spec4 2)) (ix2 r q) = _
  rw [View.read_apply]
  show V c main_v1_1 _ = V c main_v1_1 _
  congr 1
  funext a
  apply Fin.ext
  match a with
  | ⟨0, _⟩ => show win4_2.index t (0 : Fin 2) * 1024 + 1 * r.val = t.val * 1024 + r.val; rw [h2.1]; omega
  | ⟨1, _⟩ => show win4_2.index t (1 : Fin 2) * 128 + 1 * q.val = q.val; rw [h2.2]; omega

theorem bY_apply (c : Dev nD) (t : Fin cfg4.N) (r : Fin 1024) (q : Fin 128) :
    bY V c t (ix2 r q) = aY V c (ix2 ⟨t.val * 1024 + r.val, row_lt t r⟩ q) := by
  obtain ⟨h0, h1, h2, h3, h4, h5, h6, h7, h8, h9⟩ := idx_facts4 t
  show ((cfg4.win 3).blk t).view.read (Elt Ideal) (V c (Pipeline.arrRef spec4 3)) (ix2 r q) = _
  rw [View.read_apply]
  show V c main_v3_2 _ = V c main_v3_2 _
  congr 1
  funext a
  apply Fin.ext
  match a with
  | ⟨0, _⟩ => show win4_3.index t (0 : Fin 2) * 1024 + 1 * r.val = t.val * 1024 + r.val; rw [h3.1]; omega
  | ⟨1, _⟩ => show win4_3.index t (1 : Fin 2) * 128 + 1 * q.val = q.val; rw [h3.2]; omega

theorem bW11_apply (c : Dev nD) (t : Fin cfg4.N) (r : Fin 128) (q : Fin 128) :
    bW11 V c t (ix2 r q) = aW11 V c (ix2 r q) := by
  obtain ⟨h0, h1, h2, h3, h4, h5, h6, h7, h8, h9⟩ := idx_facts4 t
  show ((cfg4.win 4).blk t).view.read (Elt Ideal) (V c (Pipeline.arrRef spec4 4)) (ix2 r q) = _
  rw [View.read_apply]
  show V c main_arg14 _ = V c main_arg14 _
  congr 1
  funext a
  apply Fin.ext
  match a with
  | ⟨0, _⟩ => show win4_4.index t (0 : Fin 2) * 128 + 1 * r.val = r.val; rw [h4.1]; omega
  | ⟨1, _⟩ => show win4_4.index t (1 : Fin 2) * 128 + 1 * q.val = q.val; rw [h4.2]; omega

theorem bW12_apply (c : Dev nD) (t : Fin cfg4.N) (r : Fin 128) (q : Fin 128) :
    bW12 V c t (ix2 r q) = aW12 V c (ix2 r q) := by
  obtain ⟨h0, h1, h2, h3, h4, h5, h6, h7, h8, h9⟩ := idx_facts4 t
  show ((cfg4.win 5).blk t).view.read (Elt Ideal) (V c (Pipeline.arrRef spec4 5)) (ix2 r q) = _
  rw [View.read_apply]
  show V c main_arg15 _ = V c main_arg15 _
  congr 1
  funext a
  apply Fin.ext
  match a with
  | ⟨0, _⟩ => show win4_5.index t (0 : Fin 2) * 128 + 1 * r.val = r.val; rw [h5.1]; omega
  | ⟨1, _⟩ => show win4_5.index t (1 : Fin 2) * 128 + 1 * q.val = q.val; rw [h5.2]; omega

theorem bW22_apply (c : Dev nD) (t : Fin cfg4.N) (r : Fin 128) (q : Fin 128) :
    bW22 V c t (ix2 r q) = aW22 V c (ix2 r q) := by
  obtain ⟨h0, h1, h2, h3, h4, h5, h6, h7, h8, h9⟩ := idx_facts4 t
  show ((cfg4.win 6).blk t).view.read (Elt Ideal) (V c (Pipeline.arrRef spec4 6)) (ix2 r q) = _
  rw [View.read_apply]
  show V c main_arg16 _ = V c main_arg16 _
  congr 1
  funext a
  apply Fin.ext
  match a with
  | ⟨0, _⟩ => show win4_6.index t (0 : Fin 2) * 128 + 1 * r.val = r.val; rw [h6.1]; omega
  | ⟨1, _⟩ => show win4_6.index t (1 : Fin 2) * 128 + 1 * q.val = q.val; rw [h6.2]; omega

abbrev act (c : Dev nD) : Mat 8192 128 := sg (add (aY V c) (mm (aI2 V c) (aP21 V c)))

theorem act_apply (c : Dev nD) (t : Fin cfg4.N) (r : Fin 1024) (l : Fin 128) :
    k4_pay3 (F := Ideal) (bI2 V c t) (bY V c t) (bP21 V c t) (ix2 r l)
      = act V c (ix2 ⟨t.val * 1024 + r.val, row_lt t r⟩ l) := by
  refine (k4_pay3_apply (bI2 V c t) (bY V c t) (bP21 V c t) r l).trans ?_
  show _ = Ideal.logistic (aY V c (ix2 ⟨t.val * 1024 + r.val, row_lt t r⟩ l)
    + ∑ k : Fin 4096, aI2 V c (ix2 ⟨t.val * 1024 + r.val, row_lt t r⟩ k) * aP21 V c (ix2 k l))
  rw [bY_apply]
  refine congrArg (fun z => Ideal.logistic (aY V c (ix2 ⟨t.val * 1024 + r.val, row_lt t r⟩ l) + z)) ?_
  refine Finset.sum_congr rfl fun k _ => ?_
  rw [bI2_apply, bP21_apply]

theorem act_mul_apply (c : Dev nD) (t : Fin cfg4.N) (W : Vec Ideal S128x128 .f32) (A : Mat 128 128)
    (hW : ∀ (l : Fin 128) (q : Fin 128), W (ix2 l q) = A (ix2 l q)) (r : Fin 1024) (q : Fin 128) :
    (∑ l : Fin 128, k4_pay3 (F := Ideal) (bI2 V c t) (bY V c t) (bP21 V c t) (ix2 r l) * W (ix2 l q))
      = mm (act V c) A (ix2 ⟨t.val * 1024 + r.val, row_lt t r⟩ q) := by
  rw [mm_ix2]
  refine Finset.sum_congr rfl fun l _ => ?_
  rw [act_apply, hW]

def stripSum (c : Dev nD) (d : Fin 128) (k : Fin 4096) (s : ℕ) : EReal :=
  if hs : s < 8 then
    ∑ r : Fin 1024, aP12 V c (ix2 ⟨s * 1024 + r.val, by have := r.isLt; omega⟩ d)
      * aI2 V c (ix2 ⟨s * 1024 + r.val, by have := r.isLt; omega⟩ k)
  else 0

theorem strip_apply (c : Dev nD) (t : Fin cfg4.N) (d : Fin 128) (k : Fin 4096) :
    (∑ r : Fin 1024, bP12 V c t (ix2 r d) * bI2 V c t (ix2 r k)) = stripSum V c d k t.val := by
  have ht : t.val < 8 := by have := t.isLt; have := N4; omega
  unfold stripSum
  rw [dif_pos ht]
  refine Finset.sum_congr rfl fun r _ => ?_
  rw [bP12_apply, bI2_apply]

theorem acc4_apply (c : Dev nD) (d : Fin 128) (k : Fin 4096) :
    ∀ (n : ℕ) (h : n < cfg4.N), acc4 V c n h (ix2 d k) = ∑ s ∈ Finset.range (n + 1), stripSum V c d k s
  | 0, h => by
    show k4_pay6 (F := Ideal) (bI2 V c ⟨0, h⟩) (k4_pay2 (F := Ideal)) (bP12 V c ⟨0, h⟩) (ix2 d k) = _
    refine (k4_pay6_apply (bI2 V c ⟨0, h⟩) (k4_pay2 (F := Ideal)) (bP12 V c ⟨0, h⟩) d k).trans ?_
    rw [k4_pay2_apply, zero_add, Finset.sum_range_one]
    exact strip_apply V c ⟨0, h⟩ d k
  | n + 1, h => by
    show k4_pay6 (F := Ideal) (bI2 V c ⟨n + 1, h⟩) (acc4 V c n (Nat.lt_of_succ_lt h)) (bP12 V c ⟨n + 1, h⟩) (ix2 d k) = _
    refine (k4_pay6_apply (bI2 V c ⟨n + 1, h⟩) (acc4 V c n (Nat.lt_of_succ_lt h)) (bP12 V c ⟨n + 1, h⟩) d k).trans ?_
    rw [acc4_apply c d k n (Nat.lt_of_succ_lt h), Finset.sum_range_succ _ (n + 1)]
    exact congrArg (fun z => (∑ s ∈ Finset.range (n + 1), stripSum V c d k s) + z) (strip_apply V c ⟨n + 1, h⟩ d k)

theorem total_apply (c : Dev nD) (d : Fin 128) (k : Fin 4096) :
    ∑ s ∈ Finset.range 8, stripSum V c d k s = mmT (aI2 V c) (aP12 V c) (ix2 k d) := by
  rw [mmT_ix2, Finset.sum_range]
  refine Eq.trans ?_ (Fin.sum_rowMajor2 8 1024 (fun e : Fin (8 * 1024) => aI2 V c (ix2 e k) * aP12 V c (ix2 e d))).symm
  refine Finset.sum_congr rfl fun a _ => ?_
  unfold stripSum
  rw [dif_pos a.isLt]
  exact Finset.sum_congr rfl fun b _ => mul_comm _ _

abbrev G7 (c : Dev nD) : Mat 8192 128 := mm (act V c) (aW11 V c)
abbrev G8 (c : Dev nD) : Mat 8192 128 := mm (act V c) (aW12 V c)
abbrev G9 (c : Dev nD) : Mat 4096 128 := mm (mmT (aI2 V c) (aP12 V c)) (aW22 V c)

theorem flushed4_7_eq (c : Dev nD) (t : Fin cfg4.N) :
    (dat4 V c).flushed 7 t = ((cfg4.win 7).blk t).view.read (Elt Ideal) (G7 V c) := by
  obtain ⟨h0, h1, h2, h3, h4, h5, h6, h7, h8, h9⟩ := idx_facts4 t
  show (cfg4.win 7).cut (grid4.coords t) ((dat4 V c).after 7 t) = _
  rw [after4_7]
  funext (j : S1024x128.Idx)
  obtain ⟨p, q, rfl⟩ : ∃ (p : Fin 1024) (q : Fin 128), j = ix2 p q := ⟨j 0, j 1, eq_ix2 j⟩
  rw [View.read_apply]
  have hemb : ((cfg4.win 7).blk t).view.emb (ix2 p q) = (ix2 ⟨t.val * 1024 + p.val, row_lt t p⟩ q : S8192x128.Idx) := by
    funext a
    apply Fin.ext
    match a with
    | ⟨0, _⟩ => show win4_7.index t (0 : Fin 2) * 1024 + 1 * p.val = t.val * 1024 + p.val; rw [h7.1]; omega
    | ⟨1, _⟩ => show win4_7.index t (1 : Fin 2) * 128 + 1 * q.val = q.val; rw [h7.2]; omega
  rw [hemb]
  show k4_pay4 (F := Ideal) (bI2 V c t) (bY V c t) (bP21 V c t) (bW11 V c t) (ix2 p q) = _
  refine (k4_pay4_apply (bI2 V c t) (bY V c t) (bP21 V c t) (bW11 V c t) p q).trans ?_
  exact act_mul_apply V c t (bW11 V c t) (aW11 V c) (fun l q' => bW11_apply V c t l q') p q

theorem flushed4_8_eq (c : Dev nD) (t : Fin cfg4.N) :
    (dat4 V c).flushed 8 t = ((cfg4.win 8).blk t).view.read (Elt Ideal) (G8 V c) := by
  obtain ⟨h0, h1, h2, h3, h4, h5, h6, h7, h8, h9⟩ := idx_facts4 t
  show (cfg4.win 8).cut (grid4.coords t) ((dat4 V c).after 8 t) = _
  rw [after4_8]
  funext (j : S1024x128.Idx)
  obtain ⟨p, q, rfl⟩ : ∃ (p : Fin 1024) (q : Fin 128), j = ix2 p q := ⟨j 0, j 1, eq_ix2 j⟩
  rw [View.read_apply]
  have hemb : ((cfg4.win 8).blk t).view.emb (ix2 p q) = (ix2 ⟨t.val * 1024 + p.val, row_lt t p⟩ q : S8192x128.Idx) := by
    funext a
    apply Fin.ext
    match a with
    | ⟨0, _⟩ => show win4_8.index t (0 : Fin 2) * 1024 + 1 * p.val = t.val * 1024 + p.val; rw [h8.1]; omega
    | ⟨1, _⟩ => show win4_8.index t (1 : Fin 2) * 128 + 1 * q.val = q.val; rw [h8.2]; omega
  rw [hemb]
  show k4_pay5 (F := Ideal) (bI2 V c t) (bY V c t) (bP21 V c t) (bW12 V c t) (ix2 p q) = _
  refine (k4_pay5_apply (bI2 V c t) (bY V c t) (bP21 V c t) (bW12 V c t) p q).trans ?_
  exact act_mul_apply V c t (bW12 V c t) (aW12 V c) (fun l q' => bW12_apply V c t l q') p q

theorem flushed4_9_eq (c : Dev nD) (t : Fin cfg4.N) (hf : (cfg4.win 9).flush t = true) :
    (dat4 V c).flushed 9 t = ((cfg4.win 9).blk t).view.read (Elt Ideal) (G9 V c) := by
  have h7' : t.val = 7 := by have := (flush4_9 t).mp hf; have := t.isLt; have := N4; omega
  obtain ⟨h0, h1, h2, h3, h4, h5, h6, h7, h8, h9⟩ := idx_facts4 t
  show (cfg4.win 9).cut (grid4.coords t) ((dat4 V c).after 9 t) = _
  rw [after4_9_last V c t h7']
  funext (j : S4096x128.Idx)
  obtain ⟨k, q, rfl⟩ : ∃ (k : Fin 4096) (q : Fin 128), j = ix2 k q := ⟨j 0, j 1, eq_ix2 j⟩
  rw [View.read_apply]
  have hemb : ((cfg4.win 9).blk t).view.emb (ix2 k q) = (ix2 k q : S4096x128.Idx) := by
    funext a
    apply Fin.ext
    match a with
    | ⟨0, _⟩ => show win4_9.index t (0 : Fin 2) * 4096 + 1 * k.val = k.val; rw [h9.1]; omega
    | ⟨1, _⟩ => show win4_9.index t (1 : Fin 2) * 128 + 1 * q.val = q.val; rw [h9.2]; omega
  rw [hemb]
  show k4_pay1 (F := Ideal) (acc4 V c t.val t.isLt) (bW22 V c t) (ix2 k q) = _
  refine (k4_pay1_apply (acc4 V c t.val t.isLt) (bW22 V c t) k q).trans ?_
  show _ = ∑ d : Fin 128, mmT (aI2 V c) (aP12 V c) (ix2 k d) * aW22 V c (ix2 d q)
  refine Finset.sum_congr rfl fun d _ => ?_
  rw [acc4_apply V c d k t.val t.isLt, bW22_apply, h7', total_apply]

theorem cover4_7 (i : S8192x128.Idx) :
    ∃ t : Fin cfg4.N, (cfg4.win 7).flush t = true ∧ i ∈ ((cfg4.win 7).blk t).view.set := by
  have hi0 : (i 0).val < 8192 := (i 0).isLt
  have hi1 : (i 1).val < 128 := (i 1).isLt
  have ht : (i 0).val / 1024 < cfg4.N := by rw [N4]; omega
  obtain ⟨h0, h1, h2, h3, h4, h5, h6, h7, h8, h9⟩ := idx_facts4 ⟨(i 0).val / 1024, ht⟩
  refine ⟨⟨(i 0).val / 1024, ht⟩, flush4_7 _, ?_⟩
  show i ∈ ((View.whole main_v4_0).slice (win4_7.rect ⟨(i 0).val / 1024, ht⟩)).set
  rw [View.set_slice_whole, Rect.mem_set_unit]
  intro a
  match a with
  | ⟨0, _⟩ =>
    show win4_7.index ⟨(i 0).val / 1024, ht⟩ (0 : Fin 2) * 1024 ≤ (i 0).val
      ∧ (i 0).val < win4_7.index ⟨(i 0).val / 1024, ht⟩ (0 : Fin 2) * 1024 + 1024
    rw [h7.1]
    show (i 0).val / 1024 * 1024 ≤ (i 0).val ∧ (i 0).val < (i 0).val / 1024 * 1024 + 1024
    omega
  | ⟨1, _⟩ =>
    show win4_7.index ⟨(i 0).val / 1024, ht⟩ (1 : Fin 2) * 128 ≤ (i 1).val
      ∧ (i 1).val < win4_7.index ⟨(i 0).val / 1024, ht⟩ (1 : Fin 2) * 128 + 128
    rw [h7.2]
    omega

theorem cover4_8 (i : S8192x128.Idx) :
    ∃ t : Fin cfg4.N, (cfg4.win 8).flush t = true ∧ i ∈ ((cfg4.win 8).blk t).view.set := by
  have hi0 : (i 0).val < 8192 := (i 0).isLt
  have hi1 : (i 1).val < 128 := (i 1).isLt
  have ht : (i 0).val / 1024 < cfg4.N := by rw [N4]; omega
  obtain ⟨h0, h1, h2, h3, h4, h5, h6, h7, h8, h9⟩ := idx_facts4 ⟨(i 0).val / 1024, ht⟩
  refine ⟨⟨(i 0).val / 1024, ht⟩, flush4_8 _, ?_⟩
  show i ∈ ((View.whole main_v4_1).slice (win4_8.rect ⟨(i 0).val / 1024, ht⟩)).set
  rw [View.set_slice_whole, Rect.mem_set_unit]
  intro a
  match a with
  | ⟨0, _⟩ =>
    show win4_8.index ⟨(i 0).val / 1024, ht⟩ (0 : Fin 2) * 1024 ≤ (i 0).val
      ∧ (i 0).val < win4_8.index ⟨(i 0).val / 1024, ht⟩ (0 : Fin 2) * 1024 + 1024
    rw [h8.1]
    show (i 0).val / 1024 * 1024 ≤ (i 0).val ∧ (i 0).val < (i 0).val / 1024 * 1024 + 1024
    omega
  | ⟨1, _⟩ =>
    show win4_8.index ⟨(i 0).val / 1024, ht⟩ (1 : Fin 2) * 128 ≤ (i 1).val
      ∧ (i 1).val < win4_8.index ⟨(i 0).val / 1024, ht⟩ (1 : Fin 2) * 128 + 128
    rw [h8.2]
    omega

theorem cover4_9 (i : S4096x128.Idx) :
    ∃ t : Fin cfg4.N, (cfg4.win 9).flush t = true ∧ i ∈ ((cfg4.win 9).blk t).view.set := by
  have hi0 : (i 0).val < 4096 := (i 0).isLt
  have hi1 : (i 1).val < 128 := (i 1).isLt
  have ht : 7 < cfg4.N := by rw [N4]; omega
  obtain ⟨h0, h1, h2, h3, h4, h5, h6, h7, h8, h9⟩ := idx_facts4 ⟨7, ht⟩
  refine ⟨⟨7, ht⟩, (flush4_9 _).mpr rfl, ?_⟩
  show i ∈ ((View.whole main_v4_2).slice (win4_9.rect ⟨7, ht⟩)).set
  rw [View.set_slice_whole, Rect.mem_set_unit]
  intro a
  match a with
  | ⟨0, _⟩ =>
    show win4_9.index ⟨7, ht⟩ (0 : Fin 2) * 4096 ≤ (i 0).val ∧ (i 0).val < win4_9.index ⟨7, ht⟩ (0 : Fin 2) * 4096 + 4096
    rw [h9.1]
    omega
  | ⟨1, _⟩ =>
    show win4_9.index ⟨7, ht⟩ (1 : Fin 2) * 128 ≤ (i 1).val ∧ (i 1).val < win4_9.index ⟨7, ht⟩ (1 : Fin 2) * 128 + 128
    rw [h9.2]
    omega

theorem val4_7 (c : Dev nD) :
    (dat4 (F := Ideal) V c).arrAt 7 cfg4.N
      = Cert.Hmc.mm (Cert.Hmc.sg (Cert.Hmc.add (V c main_v3_2) (Cert.Hmc.mm (V c main_arg7) (V c main_v2)))) (V c main_arg14) :=
  (dat4 V c).arrAt_eq_of_cover 7 (G7 V c) (fun t _ => flushed4_7_eq V c t) (cover4_7)

theorem val4_8 (c : Dev nD) :
    (dat4 (F := Ideal) V c).arrAt 8 cfg4.N
      = Cert.Hmc.mm (Cert.Hmc.sg (Cert.Hmc.add (V c main_v3_2) (Cert.Hmc.mm (V c main_arg7) (V c main_v2)))) (V c main_arg15) :=
  (dat4 V c).arrAt_eq_of_cover 8 (G8 V c) (fun t _ => flushed4_8_eq V c t) (cover4_8)

theorem val4_9 (c : Dev nD) :
    (dat4 (F := Ideal) V c).arrAt 9 cfg4.N
      = Cert.Hmc.mm (Cert.Hmc.mmT (V c main_arg7) (V c main_v1_1)) (V c main_arg16) :=
  (dat4 V c).arrAt_eq_of_cover 9 (G9 V c) (fun t hf => flushed4_9_eq V c t hf) (cover4_9)

end Cert.KernelIdeal.HandVal

end
-- ==== Proof.Val.P5.lean ====
import proofs.«122060_g64467459113426_cont_9to1_m_811_14_alg».proof.Proof.Gen.KernelIdeal.Skeleton
import proofs.«122060_g64467459113426_cont_9to1_m_811_14_alg».proof.Proof.Val.Proj
import proofs.«122060_g64467459113426_cont_9to1_m_811_14_alg».proof.Proof.Spec
import proofs.«122060_g64467459113426_cont_9to1_m_811_14_alg».proof.Proof.LibSumBlocks
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.HandVal

open Idealize.ShloMosaic Idealize.ShloMosaic.ValueIdx Idealize.SL.Sem
open Cert.KernelIdeal Cert.KernelIdeal.Gen Cert.Hmc

theorem k5_pay1_ix2 (d : Fin 128) (c : Fin 8192) : k5_pay1 (F := Ideal) (ix2 d c) = 0 := by
  unfold k5_pay1
  show Ideal.ofBits .f32 0x00000000#32 = 0
  exact Ideal.ofBits_zero_f32

theorem lhs_k5_pay2_0 (i : S512x128.Idx) (q : dot_S512x4096_S4096x128_S512x128_1_0_0_1_n_n.contr.Idx) :
    (dot_S512x4096_S4096x128_S512x128_1_0_0_1_n_n.lhsIdx i q 0).val = (i 0).val := by
  unfold DotDims.lhsIdx
  rw [dif_neg (show ¬(0 : Fin S512x4096.rank) ∈ dot_S512x4096_S4096x128_S512x128_1_0_0_1_n_n.lhsBatch by decide), dif_pos (show (0 : Fin S512x4096.rank) ∈ dot_S512x4096_S4096x128_S512x128_1_0_0_1_n_n.lhsNonContracting by decide)]
  rfl
theorem lhs_k5_pay2_1 (i : S512x128.Idx) (q : dot_S512x4096_S4096x128_S512x128_1_0_0_1_n_n.contr.Idx) :
    (dot_S512x4096_S4096x128_S512x128_1_0_0_1_n_n.lhsIdx i q 1).val = (q ⟨0, by decide⟩).val :=
  dot_S512x4096_S4096x128_S512x128_1_0_0_1_n_n.lhsIdx_val_of_single rfl i q
theorem rhs_k5_pay2_0 (i : S512x128.Idx) (q : dot_S512x4096_S4096x128_S512x128_1_0_0_1_n_n.contr.Idx) :
    (dot_S512x4096_S4096x128_S512x128_1_0_0_1_n_n.rhsIdx i q 0).val = (q ⟨0, by decide⟩).val :=
  dot_S512x4096_S4096x128_S512x128_1_0_0_1_n_n.rhsIdx_val_of_single rfl i q
theorem rhs_k5_pay2_1 (i : S512x128.Idx) (q : dot_S512x4096_S4096x128_S512x128_1_0_0_1_n_n.contr.Idx) :
    (dot_S512x4096_S4096x128_S512x128_1_0_0_1_n_n.rhsIdx i q 1).val = (i 1).val := by
  unfold DotDims.rhsIdx
  rw [dif_neg (show ¬(1 : Fin S4096x128.rank) ∈ dot_S512x4096_S4096x128_S512x128_1_0_0_1_n_n.rhsBatch by decide), dif_pos (show (1 : Fin S4096x128.rank) ∈ dot_S512x4096_S4096x128_S512x128_1_0_0_1_n_n.rhsNonContracting by decide)]
  rfl

theorem k5_pay2_ix2 (a : Vec Ideal S512x4096 .f32) (u : Vec Ideal S4096x128 .f32) (p : Fin 512) (q : Fin 128) :
    k5_pay2 (F := Ideal) a u (ix2 p q) = ∑ l : Fin 4096, a (ix2 p l) * u (ix2 l q) := by
  unfold k5_pay2
  simp only [matmul]
  rw [shapeCast_self]
  exact mm_ix2_of _ rfl rfl lhs_k5_pay2_0 lhs_k5_pay2_1 rhs_k5_pay2_0 rhs_k5_pay2_1 a u p q

theorem lhs_k5_pay3_0 (i : S128x8192.Idx) (q : dot_S512x128_S512x8192_S128x8192_0_0_1_1_n_n.contr.Idx) :
    (dot_S512x128_S512x8192_S128x8192_0_0_1_1_n_n.lhsIdx i q 0).val = (q ⟨0, by decide⟩).val :=
  dot_S512x128_S512x8192_S128x8192_0_0_1_1_n_n.lhsIdx_val_of_single rfl i q
theorem lhs_k5_pay3_1 (i : S128x8192.Idx) (q : dot_S512x128_S512x8192_S128x8192_0_0_1_1_n_n.contr.Idx) :
    (dot_S512x128_S512x8192_S128x8192_0_0_1_1_n_n.lhsIdx i q 1).val = (i 0).val := by
  unfold DotDims.lhsIdx
  rw [dif_neg (show ¬(1 : Fin S512x128.rank) ∈ dot_S512x128_S512x8192_S128x8192_0_0_1_1_n_n.lhsBatch by decide), dif_pos (show (1 : Fin S512x128.rank) ∈ dot_S512x128_S512x8192_S128x8192_0_0_1_1_n_n.lhsNonContracting by decide)]
  rfl
theorem rhs_k5_pay3_0 (i : S128x8192.Idx) (q : dot_S512x128_S512x8192_S128x8192_0_0_1_1_n_n.contr.Idx) :
    (dot_S512x128_S512x8192_S128x8192_0_0_1_1_n_n.rhsIdx i q 0).val = (q ⟨0, by decide⟩).val :=
  dot_S512x128_S512x8192_S128x8192_0_0_1_1_n_n.rhsIdx_val_of_single rfl i q
theorem rhs_k5_pay3_1 (i : S128x8192.Idx) (q : dot_S512x128_S512x8192_S128x8192_0_0_1_1_n_n.contr.Idx) :
    (dot_S512x128_S512x8192_S128x8192_0_0_1_1_n_n.rhsIdx i q 1).val = (i 1).val := by
  unfold DotDims.rhsIdx
  rw [dif_neg (show ¬(1 : Fin S512x8192.rank) ∈ dot_S512x128_S512x8192_S128x8192_0_0_1_1_n_n.rhsBatch by decide), dif_pos (show (1 : Fin S512x8192.rank) ∈ dot_S512x128_S512x8192_S128x8192_0_0_1_1_n_n.rhsNonContracting by decide)]
  rfl

theorem k5_pay3_ix2 (acc : Vec Ideal S128x8192 .f32) (w : Vec Ideal S512x128 .f32) (x : Vec Ideal S512x8192 .f32)
    (d : Fin 128) (c : Fin 8192) :
    k5_pay3 (F := Ideal) acc w x (ix2 d c) = acc (ix2 d c) + ∑ r : Fin 512, w (ix2 r d) * x (ix2 r c) := by
  unfold k5_pay3
  simp only [matmul]
  rw [addf_apply, shapeCast_self, shapeCast_self]
  exact congrArg (acc (ix2 d c) + ·) (mmT_ix2_of _ rfl rfl lhs_k5_pay3_0 lhs_k5_pay3_1 rhs_k5_pay3_0 rhs_k5_pay3_1 w x d c)

end Cert.KernelIdeal.HandVal

end
-- ==== Proof.Val.V5.lean ====
import proofs.«122060_g64467459113426_cont_9to1_m_811_14_alg».proof.Proof.KI.R5
import proofs.«122060_g64467459113426_cont_9to1_m_811_14_alg».proof.Proof.KI.D5
import proofs.«122060_g64467459113426_cont_9to1_m_811_14_alg».proof.Proof.Val.P5
import proofs.«122060_g64467459113426_cont_9to1_m_811_14_alg».proof.Proof.Spec
import proofs.«122060_g64467459113426_cont_9to1_m_811_14_alg».proof.Proof.LibSumBlocks
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.HandVal

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand Cert.Hmc

variable (V : (c : Dev nD) → (b : Ref sig .tc) → Buf (Elt Ideal) ((c : Thread nD τ).loc b))

theorem idx_facts5 : ∀ t : Fin cfg5.N,
      win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0
    ∧ win5_4.index t (0 : Fin 2) = t.val ∧ win5_4.index t (1 : Fin 2) = 0
    ∧ win5_5.index t (0 : Fin 2) = 0 ∧ win5_5.index t (1 : Fin 2) = 0 :=
  (by decide +kernel : ∀ t : Fin grid5.N, _)

theorem strip5_row_lt (t : Fin cfg5.N) (r : Fin 512) : t.val * 512 + r.val < 4096 := by
  have hN : grid5.N = 8 := N_5
  have ht : t.val < grid5.N := t.isLt
  have hr := r.isLt
  omega

theorem iblk5_0_apply (c : Dev nD) (t : Fin cfg5.N) (p : Fin 512) (l : Fin 4096) :
    (iblk5 V c 0 t : Vec Ideal S512x4096 .f32) (ix2 p l)
      = (V c main_arg3 : S4096x4096.Idx → EReal) (ix2 ⟨t.val * 512 + p.val, strip5_row_lt t p⟩ l) := by
  obtain ⟨e0, e1, -⟩ := idx_facts5 t
  unfold iblk5
  rw [View.read_apply]
  show V c main_arg3 _ = V c main_arg3 _
  congr 1
  funext a
  apply Fin.ext
  match a with
  | ⟨0, _⟩ => show win5_0.index t (0 : Fin 2) * 512 + 1 * p.val = t.val * 512 + p.val; rw [e0]; omega
  | ⟨1, _⟩ => show win5_0.index t (1 : Fin 2) * 4096 + 1 * l.val = l.val; rw [e1]; omega

theorem iblk5_1_apply (c : Dev nD) (t : Fin cfg5.N) (r : Fin 512) (q : Fin 8192) :
    (iblk5 V c 1 t : Vec Ideal S512x8192 .f32) (ix2 r q)
      = (V c main_arg6 : S4096x8192.Idx → EReal) (ix2 ⟨t.val * 512 + r.val, strip5_row_lt t r⟩ q) := by
  obtain ⟨-, -, e0, e1, -⟩ := idx_facts5 t
  unfold iblk5
  rw [View.read_apply]
  show V c main_arg6 _ = V c main_arg6 _
  congr 1
  funext a
  apply Fin.ext
  match a with
  | ⟨0, _⟩ => show win5_1.index t (0 : Fin 2) * 512 + 1 * r.val = t.val * 512 + r.val; rw [e0]; omega
  | ⟨1, _⟩ => show win5_1.index t (1 : Fin 2) * 8192 + 1 * q.val = q.val; rw [e1]; omega

theorem iblk5_2_apply (c : Dev nD) (t : Fin cfg5.N) (l : Fin 4096) (q : Fin 128) :
    (iblk5 V c 2 t : Vec Ideal S4096x128 .f32) (ix2 l q) = (V c main_v3_0 : S4096x128.Idx → EReal) (ix2 l q) := by
  obtain ⟨-, -, -, -, e0, e1, -⟩ := idx_facts5 t
  unfold iblk5
  rw [View.read_apply]
  show V c main_v3_0 _ = V c main_v3_0 _
  congr 1
  funext a
  apply Fin.ext
  match a with
  | ⟨0, _⟩ => show win5_2.index t (0 : Fin 2) * 4096 + 1 * l.val = l.val; rw [e0]; omega
  | ⟨1, _⟩ => show win5_2.index t (1 : Fin 2) * 128 + 1 * q.val = q.val; rw [e1]; omega

theorem iblk5_3_apply (c : Dev nD) (t : Fin cfg5.N) (r : Fin 512) (d : Fin 128) :
    (iblk5 V c 3 t : Vec Ideal S512x128 .f32) (ix2 r d)
      = (V c main_v3_1 : S4096x128.Idx → EReal) (ix2 ⟨t.val * 512 + r.val, strip5_row_lt t r⟩ d) := by
  obtain ⟨-, -, -, -, -, -, e0, e1, -⟩ := idx_facts5 t
  unfold iblk5
  rw [View.read_apply]
  show V c main_v3_1 _ = V c main_v3_1 _
  congr 1
  funext a
  apply Fin.ext
  match a with
  | ⟨0, _⟩ => show win5_3.index t (0 : Fin 2) * 512 + 1 * r.val = t.val * 512 + r.val; rw [e0]; omega
  | ⟨1, _⟩ => show win5_3.index t (1 : Fin 2) * 128 + 1 * d.val = d.val; rw [e1]; omega

abbrev arr5_A0 (c : Dev nD) : Mat 4096 4096 := V c main_arg3
abbrev arr5_I1 (c : Dev nD) : Mat 4096 8192 := V c main_arg6
abbrev arr5_u00 (c : Dev nD) : Mat 4096 128 := V c main_v3_0
abbrev arr5_u01 (c : Dev nD) : Mat 4096 128 := V c main_v3_1

def stripSum5 (c : Dev nD) (d : Fin 128) (q : Fin 8192) (a : Fin cfg5.N) : EReal :=
  ∑ r : Fin 512, arr5_u01 V c (ix2 ⟨a.val * 512 + r.val, strip5_row_lt a r⟩ d) * arr5_I1 V c (ix2 ⟨a.val * 512 + r.val, strip5_row_lt a r⟩ q)

theorem k5_pay3_at (c : Dev nD) (t : Fin cfg5.N) (acc : Vec Ideal S128x8192 .f32) (d : Fin 128) (q : Fin 8192) :
    k5_pay3 (F := Ideal) acc (iblk5 V c 3 t) (iblk5 V c 1 t) (ix2 d q) = acc (ix2 d q) + stripSum5 V c d q t := by
  refine (k5_pay3_ix2 acc (iblk5 V c 3 t) (iblk5 V c 1 t) d q).trans ?_
  refine congrArg (acc (ix2 d q) + ·) (Finset.sum_congr rfl fun r _ => ?_)
  exact congrArg₂ (· * ·) (iblk5_3_apply V c t r d) (iblk5_1_apply V c t r q)

theorem acc5_apply (c : Dev nD) (d : Fin 128) (q : Fin 8192) : ∀ (n : ℕ) (h : n < cfg5.N),
    acc5 V c n h (ix2 d q) = ∑ a : Fin (n + 1), stripSum5 V c d q ⟨a.val, Nat.lt_of_lt_of_le a.isLt h⟩
  | 0, h => by
    show k5_pay3 (F := Ideal) (k5_pay1 (F := Ideal)) (iblk5 V c 3 ⟨0, h⟩) (iblk5 V c 1 ⟨0, h⟩) (ix2 d q) = _
    rw [k5_pay3_at, k5_pay1_ix2, zero_add]
    exact (Fin.sum_univ_one (fun a : Fin 1 => stripSum5 V c d q ⟨a.val, Nat.lt_of_lt_of_le a.isLt h⟩)).symm
  | n + 1, h => by
    show k5_pay3 (F := Ideal) (acc5 V c n (Nat.lt_of_succ_lt h)) (iblk5 V c 3 ⟨n + 1, h⟩) (iblk5 V c 1 ⟨n + 1, h⟩) (ix2 d q) = _
    rw [k5_pay3_at, acc5_apply c d q n (Nat.lt_of_succ_lt h)]
    exact (Fin.sum_univ_castSucc (fun a : Fin (n + 1 + 1) => stripSum5 V c d q ⟨a.val, Nat.lt_of_lt_of_le a.isLt h⟩)).symm

theorem acc5_total (c : Dev nD) (d : Fin 128) (q : Fin 8192) (h : 7 < cfg5.N) :
    acc5 V c 7 h (ix2 d q) = ∑ r : Fin 4096, arr5_u01 V c (ix2 r d) * arr5_I1 V c (ix2 r q) := by
  rw [acc5_apply]
  unfold stripSum5
  exact (Fin.sum_rowMajor2 8 512 (fun e : Fin 4096 => arr5_u01 V c (ix2 e d) * arr5_I1 V c (ix2 e q))).symm

theorem flushed5_4 (c : Dev nD) (t : Fin cfg5.N) :
    (dat5 (F := Ideal) V c).flushed 4 t = ((cfg5.win 4).blk t).view.read (Elt Ideal) (mm (arr5_A0 V c) (arr5_u00 V c)) := by
  obtain ⟨-, -, -, -, -, -, -, -, e0, e1, -⟩ := idx_facts5 t
  show (cfg5.win 4).cut (grid5.coords t) ((dat5 V c).after 4 t) = _
  rw [after5_4]
  refine funext fun (j : S512x128.Idx) => ?_
  obtain ⟨p, q, rfl⟩ : ∃ (p : Fin 512) (q : Fin 128), j = ix2 p q := ⟨j 0, j 1, eq_ix2 j⟩
  rw [View.read_apply]
  show k5_pay2 (F := Ideal) (iblk5 V c 0 t) (iblk5 V c 2 t) ((cfg5.win 4).xinj (grid5.coords t) (ix2 p q))
    = mm (arr5_A0 V c) (arr5_u00 V c) (((cfg5.win 4).blk t).view.emb (ix2 p q))
  have hx : (cfg5.win 4).xinj (grid5.coords t) (ix2 p q) = ix2 p q := funext fun a => by
    match a with
    | ⟨0, _⟩ => rfl
    | ⟨1, _⟩ => rfl
  have hy : ((cfg5.win 4).blk t).view.emb (ix2 p q) = ix2 ⟨t.val * 512 + p.val, strip5_row_lt t p⟩ q := funext fun a => Fin.ext (by
    match a with
    | ⟨0, _⟩ => show win5_4.index t (0 : Fin 2) * 512 + 1 * p.val = t.val * 512 + p.val; rw [e0]; omega
    | ⟨1, _⟩ => show win5_4.index t (1 : Fin 2) * 128 + 1 * q.val = q.val; rw [e1]; omega)
  rw [hx, hy, mm_ix2]
  refine (k5_pay2_ix2 (iblk5 V c 0 t) (iblk5 V c 2 t) p q).trans (Finset.sum_congr rfl fun l _ => ?_)
  exact congrArg₂ (· * ·) (iblk5_0_apply V c t p l) (iblk5_2_apply V c t l q)

theorem mem_blk5_4 (t : Fin cfg5.N) (i : S4096x128.Idx) :
    i ∈ ((cfg5.win 4).blk t).view.set ↔ ∀ a : Fin 2, win5_4.index t a * S512x128.size a ≤ (i a).val ∧ (i a).val < win5_4.index t a * S512x128.size a + S512x128.size a := by
  show i ∈ ((View.whole main_v5_0).slice (win5_4.rect t)).set ↔ _
  rw [View.set_slice_whole, Rect.mem_set_unit]
  exact Iff.rfl

theorem val5_4 (c : Dev nD) : (dat5 (F := Ideal) V c).arrAt 4 cfg5.N = Cert.Hmc.mm (V c main_arg3) (V c main_v3_0) :=
  (dat5 (F := Ideal) V c).arrAt_eq_of_cover 4 (mm (arr5_A0 V c) (arr5_u00 V c)) (fun t _ => flushed5_4 V c t) fun (i : S4096x128.Idx) => by
    have hi0 : (i 0).val < 4096 := (i 0).isLt
    have hi1 : (i 1).val < 128 := (i 1).isLt
    have hN : grid5.N = 8 := N_5
    have ht : (i 0).val / 512 < cfg5.N := by show (i 0).val / 512 < grid5.N; omega
    obtain ⟨-, -, -, -, -, -, -, -, e0, e1, -⟩ := idx_facts5 ⟨(i 0).val / 512, ht⟩
    refine ⟨⟨(i 0).val / 512, ht⟩, flush5_4 _, ?_⟩
    rw [mem_blk5_4]
    intro a
    match a with
    | ⟨0, _⟩ =>
      show win5_4.index ⟨(i 0).val / 512, ht⟩ (0 : Fin 2) * 512 ≤ (i 0).val ∧ (i 0).val < win5_4.index ⟨(i 0).val / 512, ht⟩ (0 : Fin 2) * 512 + 512
      rw [e0]; show (i 0).val / 512 * 512 ≤ (i 0).val ∧ (i 0).val < (i 0).val / 512 * 512 + 512; omega
    | ⟨1, _⟩ =>
      show win5_4.index ⟨(i 0).val / 512, ht⟩ (1 : Fin 2) * 128 ≤ (i 1).val ∧ (i 1).val < win5_4.index ⟨(i 0).val / 512, ht⟩ (1 : Fin 2) * 128 + 128
      rw [e1]; omega

theorem flushed5_5 (c : Dev nD) (t : Fin cfg5.N) (hf : (cfg5.win 5).flush t = true) :
    (dat5 (F := Ideal) V c).flushed 5 t = ((cfg5.win 5).blk t).view.read (Elt Ideal) (tr (mmT (arr5_I1 V c) (arr5_u01 V c))) := by
  have h7 : t.val = 7 := by
    have h := (flush5_5 t).mp hf
    have ht : t.val < grid5.N := t.isLt
    have hN : grid5.N = 8 := N_5
    omega
  obtain ⟨-, -, -, -, -, -, -, -, -, -, e0, e1⟩ := idx_facts5 t
  obtain ⟨tv, htv⟩ := t
  change tv = 7 at h7
  subst h7
  show (cfg5.win 5).cut (grid5.coords ⟨7, htv⟩) ((dat5 V c).after 5 ⟨7, htv⟩) = _
  rw [after5_5]
  refine funext fun (j : S128x8192.Idx) => ?_
  obtain ⟨d, q, rfl⟩ : ∃ (d : Fin 128) (q : Fin 8192), j = ix2 d q := ⟨j 0, j 1, eq_ix2 j⟩
  rw [View.read_apply]
  show acc5 V c 7 htv ((cfg5.win 5).xinj (grid5.coords ⟨7, htv⟩) (ix2 d q))
    = tr (mmT (arr5_I1 V c) (arr5_u01 V c)) (((cfg5.win 5).blk ⟨7, htv⟩).view.emb (ix2 d q))
  have hx : (cfg5.win 5).xinj (grid5.coords ⟨7, htv⟩) (ix2 d q) = ix2 d q := funext fun a => by
    match a with
    | ⟨0, _⟩ => rfl
    | ⟨1, _⟩ => rfl
  have hy : ((cfg5.win 5).blk ⟨7, htv⟩).view.emb (ix2 d q) = ix2 d q := funext fun a => Fin.ext (by
    match a with
    | ⟨0, _⟩ => show win5_5.index ⟨7, htv⟩ (0 : Fin 2) * 128 + 1 * d.val = d.val; rw [e0]; omega
    | ⟨1, _⟩ => show win5_5.index ⟨7, htv⟩ (1 : Fin 2) * 8192 + 1 * q.val = q.val; rw [e1]; omega)
  rw [hx, hy, tr_ix2, mmT_ix2, acc5_total]
  exact Finset.sum_congr rfl fun r _ => mul_comm _ _

theorem mem_blk5_5 (t : Fin cfg5.N) (i : S128x8192.Idx) :
    i ∈ ((cfg5.win 5).blk t).view.set ↔ ∀ a : Fin 2, win5_5.index t a * S128x8192.size a ≤ (i a).val ∧ (i a).val < win5_5.index t a * S128x8192.size a + S128x8192.size a := by
  show i ∈ ((View.whole main_v5_1).slice (win5_5.rect t)).set ↔ _
  rw [View.set_slice_whole, Rect.mem_set_unit]
  exact Iff.rfl

theorem val5_5 (c : Dev nD) : (dat5 (F := Ideal) V c).arrAt 5 cfg5.N = Cert.Hmc.tr (Cert.Hmc.mmT (V c main_arg6) (V c main_v3_1)) :=
  (dat5 (F := Ideal) V c).arrAt_eq_of_cover 5 (tr (mmT (arr5_I1 V c) (arr5_u01 V c))) (flushed5_5 V c) fun (i : S128x8192.Idx) => by
    have hi0 : (i 0).val < 128 := (i 0).isLt
    have hi1 : (i 1).val < 8192 := (i 1).isLt
    have hN : grid5.N = 8 := N_5
    have ht : 7 < cfg5.N := by show 7 < grid5.N; omega
    obtain ⟨-, -, -, -, -, -, -, -, -, -, e0, e1⟩ := idx_facts5 ⟨7, ht⟩
    refine ⟨⟨7, ht⟩, (flush5_5 _).mpr rfl, ?_⟩
    rw [mem_blk5_5]
    intro a
    match a with
    | ⟨0, _⟩ =>
      show win5_5.index ⟨7, ht⟩ (0 : Fin 2) * 128 ≤ (i 0).val ∧ (i 0).val < win5_5.index ⟨7, ht⟩ (0 : Fin 2) * 128 + 128
      rw [e0]; omega
    | ⟨1, _⟩ =>
      show win5_5.index ⟨7, ht⟩ (1 : Fin 2) * 8192 ≤ (i 1).val ∧ (i 1).val < win5_5.index ⟨7, ht⟩ (1 : Fin 2) * 8192 + 8192
      rw [e1]; omega

end Cert.KernelIdeal.HandVal

end
-- ==== Proof.Val.P6.lean ====
import proofs.«122060_g64467459113426_cont_9to1_m_811_14_alg».proof.Proof.Gen.KernelIdeal.Skeleton
import proofs.«122060_g64467459113426_cont_9to1_m_811_14_alg».proof.Proof.Val.P3
import proofs.«122060_g64467459113426_cont_9to1_m_811_14_alg».proof.Proof.Val.Proj
import proofs.«122060_g64467459113426_cont_9to1_m_811_14_alg».proof.Proof.Spec
import proofs.«122060_g64467459113426_cont_9to1_m_811_14_alg».proof.Proof.LibSumBlocks
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.HandVal

open Idealize.ShloMosaic Idealize.ShloMosaic.ValueIdx
open Cert.KernelIdeal Cert.KernelIdeal.Gen

theorem matmul_plain6_apply (a : Vec Ideal S256x8192 .f32) (u : Vec Ideal S8192x128 .f32) (p : Fin 256) (q : Fin 128) :
    matmul (F := Ideal) (φ₁ := .f32) (φ₂ := .f32) dot_S256x8192_S8192x128_S256x128_1_0_0_1_n_n none a u (constant S256x128 .f32 0x00000000#32) (ix2 p q)
      = ∑ l : Fin 8192, a (ix2 p l) * u (ix2 l q) :=
  mm_ix2_of _ rfl rfl lhs_M_0 lhs_M_1 rhs_M_0 rhs_M_1 a u p q

theorem lhs_tr6_0 (i : S128x4096.Idx) (q : dot_S256x128_S256x4096_S128x4096_0_0_1_1_n_n.contr.Idx) :
    (dot_S256x128_S256x4096_S128x4096_0_0_1_1_n_n.lhsIdx i q 0).val = (q ⟨0, by decide⟩).val :=
  dot_S256x128_S256x4096_S128x4096_0_0_1_1_n_n.lhsIdx_val_of_single rfl i q
theorem lhs_tr6_1 (i : S128x4096.Idx) (q : dot_S256x128_S256x4096_S128x4096_0_0_1_1_n_n.contr.Idx) :
    (dot_S256x128_S256x4096_S128x4096_0_0_1_1_n_n.lhsIdx i q 1).val = (i 0).val := by
  unfold DotDims.lhsIdx
  rw [dif_neg (show ¬(1 : Fin S256x128.rank) ∈ dot_S256x128_S256x4096_S128x4096_0_0_1_1_n_n.lhsBatch by decide), dif_pos (show (1 : Fin S256x128.rank) ∈ dot_S256x128_S256x4096_S128x4096_0_0_1_1_n_n.lhsNonContracting by decide)]
  rfl
theorem rhs_tr6_0 (i : S128x4096.Idx) (q : dot_S256x128_S256x4096_S128x4096_0_0_1_1_n_n.contr.Idx) :
    (dot_S256x128_S256x4096_S128x4096_0_0_1_1_n_n.rhsIdx i q 0).val = (q ⟨0, by decide⟩).val :=
  dot_S256x128_S256x4096_S128x4096_0_0_1_1_n_n.rhsIdx_val_of_single rfl i q
theorem rhs_tr6_1 (i : S128x4096.Idx) (q : dot_S256x128_S256x4096_S128x4096_0_0_1_1_n_n.contr.Idx) :
    (dot_S256x128_S256x4096_S128x4096_0_0_1_1_n_n.rhsIdx i q 1).val = (i 1).val := by
  unfold DotDims.rhsIdx
  rw [dif_neg (show ¬(1 : Fin S256x4096.rank) ∈ dot_S256x128_S256x4096_S128x4096_0_0_1_1_n_n.rhsBatch by decide), dif_pos (show (1 : Fin S256x4096.rank) ∈ dot_S256x128_S256x4096_S128x4096_0_0_1_1_n_n.rhsNonContracting by decide)]
  rfl

theorem matmul_tr6_apply (w : Vec Ideal S256x128 .f32) (x : Vec Ideal S256x4096 .f32) (d : Fin 128) (c : Fin 4096) :
    matmul (F := Ideal) (φ₁ := .f32) (φ₂ := .f32) dot_S256x128_S256x4096_S128x4096_0_0_1_1_n_n none w x (constant S128x4096 .f32 0x00000000#32) (ix2 d c)
      = ∑ r : Fin 256, w (ix2 r d) * x (ix2 r c) :=
  mmT_ix2_of _ rfl rfl lhs_tr6_0 lhs_tr6_1 rhs_tr6_0 rhs_tr6_1 w x d c

theorem k6_pay1_apply (j : S128x4096.Idx) : k6_pay1 (F := Ideal) j = 0 := by
  unfold k6_pay1
  show Ideal.ofBits .f32 0x00000000#32 = 0
  exact Ideal.ofBits_zero_f32

theorem k6_pay2_apply (s : Vec Ideal S128x256 .f32) (a : Vec Ideal S256x8192 .f32) (u : Vec Ideal S8192x128 .f32)
    (p : Fin 256) (q : Fin 128) :
    k6_pay2 (F := Ideal) s a u (ix2 p q) = Ideal.logistic (s (ix2 q p) + ∑ l : Fin 8192, a (ix2 p l) * u (ix2 l q)) := by
  unfold k6_pay2
  simp only [shapeCast_self]
  show Ideal.logistic (transpose S256x128 [1, 0] s transposes_S128x256_p1_0_S256x128 (ix2 p q)
    + matmul (F := Ideal) (φ₁ := .f32) (φ₂ := .f32) dot_S256x8192_S8192x128_S256x128_1_0_0_1_n_n none a u (constant S256x128 .f32 0x00000000#32) (ix2 p q)) = _
  rw [transpose_ix2_apply, matmul_plain6_apply]

theorem k6_pay3_apply (acc : Vec Ideal S128x4096 .f32) (w : Vec Ideal S256x128 .f32) (x : Vec Ideal S256x4096 .f32)
    (d : Fin 128) (c : Fin 4096) :
    k6_pay3 (F := Ideal) acc w x (ix2 d c) = acc (ix2 d c) + ∑ r : Fin 256, w (ix2 r d) * x (ix2 r c) := by
  unfold k6_pay3
  simp only [shapeCast_self]
  show acc (ix2 d c) + matmul (F := Ideal) (φ₁ := .f32) (φ₂ := .f32) dot_S256x128_S256x4096_S128x4096_0_0_1_1_n_n none w x (constant S128x4096 .f32 0x00000000#32) (ix2 d c) = _
  rw [matmul_tr6_apply]

end Cert.KernelIdeal.HandVal

end
-- ==== Proof.Val.V6.lean ====
import proofs.«122060_g64467459113426_cont_9to1_m_811_14_alg».proof.Proof.KI.R6
import proofs.«122060_g64467459113426_cont_9to1_m_811_14_alg».proof.Proof.KI.D6
import proofs.«122060_g64467459113426_cont_9to1_m_811_14_alg».proof.Proof.Spec
import proofs.«122060_g64467459113426_cont_9to1_m_811_14_alg».proof.Proof.LibSumBlocks
import proofs.«122060_g64467459113426_cont_9to1_m_811_14_alg».proof.Proof.Val.P6
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.HandVal

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand Cert.Hmc

variable (V : (c : Dev nD) → (b : Ref sig .tc) → Buf (Elt Ideal) ((c : Thread nD τ).loc b))

theorem N6 : cfg6.N = 32 := by decide

theorem idx_facts6 : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0
    ∧ win6_6.index t (0 : Fin 2) = 0 ∧ win6_6.index t (1 : Fin 2) = 0
    ∧ ((grid6.coords t) 0).val = t.val :=
  (by decide +kernel : ∀ t : Fin grid6.N, _)

theorem iblk6_0_apply (c : Dev nD) (t : Fin cfg6.N) (x : S256x8192.Idx) (k : S8192x8192.Idx)
    (hk0 : (k 0).val = t.val * 256 + (x 0).val) (hk1 : (k 1).val = (x 1).val) :
    (iblk6 V c 0 t : Vec Ideal S256x8192 .f32) x = (V c main_arg4 : S8192x8192.Idx → EReal) k := by
  obtain ⟨e0, e1, -⟩ := idx_facts6 t
  unfold iblk6
  rw [View.read_apply]
  show V c main_arg4 _ = V c main_arg4 _
  congr 1
  funext a
  apply Fin.ext
  match a with
  | ⟨0, _⟩ => show win6_0.index t 0 * 256 + 1 * (x 0).val = (k 0).val; rw [e0, hk0]; omega
  | ⟨1, _⟩ => show win6_0.index t 1 * 8192 + 1 * (x 1).val = (k 1).val; rw [e1, hk1]; omega

theorem iblk6_1_apply (c : Dev nD) (t : Fin cfg6.N) (x : S256x4096.Idx) (k : S8192x4096.Idx)
    (hk0 : (k 0).val = t.val * 256 + (x 0).val) (hk1 : (k 1).val = (x 1).val) :
    (iblk6 V c 1 t : Vec Ideal S256x4096 .f32) x = (V c main_arg7 : S8192x4096.Idx → EReal) k := by
  obtain ⟨-, -, e0, e1, -⟩ := idx_facts6 t
  unfold iblk6
  rw [View.read_apply]
  show V c main_arg7 _ = V c main_arg7 _
  congr 1
  funext a
  apply Fin.ext
  match a with
  | ⟨0, _⟩ => show win6_1.index t 0 * 256 + 1 * (x 0).val = (k 0).val; rw [e0, hk0]; omega
  | ⟨1, _⟩ => show win6_1.index t 1 * 4096 + 1 * (x 1).val = (k 1).val; rw [e1, hk1]; omega

theorem iblk6_2_apply (c : Dev nD) (t : Fin cfg6.N) (x : S8192x128.Idx) :
    (iblk6 V c 2 t : Vec Ideal S8192x128 .f32) x = (V c main_v4_0 : S8192x128.Idx → EReal) x := by
  obtain ⟨-, -, -, -, e0, e1, -⟩ := idx_facts6 t
  unfold iblk6
  rw [View.read_apply]
  show V c main_v4_0 _ = V c main_v4_0 _
  congr 1
  funext a
  apply Fin.ext
  match a with
  | ⟨0, _⟩ => show win6_2.index t 0 * 8192 + 1 * (x 0).val = (x 0).val; rw [e0]; omega
  | ⟨1, _⟩ => show win6_2.index t 1 * 128 + 1 * (x 1).val = (x 1).val; rw [e1]; omega

theorem iblk6_3_apply (c : Dev nD) (t : Fin cfg6.N) (x : S256x128.Idx) (k : S8192x128.Idx)
    (hk0 : (k 0).val = t.val * 256 + (x 0).val) (hk1 : (k 1).val = (x 1).val) :
    (iblk6 V c 3 t : Vec Ideal S256x128 .f32) x = (V c main_v4_1 : S8192x128.Idx → EReal) k := by
  obtain ⟨-, -, -, -, -, -, e0, e1, -⟩ := idx_facts6 t
  unfold iblk6
  rw [View.read_apply]
  show V c main_v4_1 _ = V c main_v4_1 _
  congr 1
  funext a
  apply Fin.ext
  match a with
  | ⟨0, _⟩ => show win6_3.index t 0 * 256 + 1 * (x 0).val = (k 0).val; rw [e0, hk0]; omega
  | ⟨1, _⟩ => show win6_3.index t 1 * 128 + 1 * (x 1).val = (k 1).val; rw [e1, hk1]; omega

theorem iblk6_4_apply (c : Dev nD) (t : Fin cfg6.N) (x : S128x8192.Idx) :
    (iblk6 V c 4 t : Vec Ideal S128x8192 .f32) x = (V c main_v5_1 : S128x8192.Idx → EReal) x := by
  obtain ⟨-, -, -, -, -, -, -, -, e0, e1, -⟩ := idx_facts6 t
  unfold iblk6
  rw [View.read_apply]
  show V c main_v5_1 _ = V c main_v5_1 _
  congr 1
  funext a
  apply Fin.ext
  match a with
  | ⟨0, _⟩ => show win6_4.index t 0 * 128 + 1 * (x 0).val = (x 0).val; rw [e0]; omega
  | ⟨1, _⟩ => show win6_4.index t 1 * 8192 + 1 * (x 1).val = (x 1).val; rw [e1]; omega

theorem slice6_apply (c : Dev nD) (t : Fin cfg6.N) (x : S128x256.Idx) (k : S128x8192.Idx)
    (hk0 : (k 0).val = (x 0).val) (hk1 : (k 1).val = t.val * 256 + (x 1).val) :
    View.ld (iblk6 V c 4 t : Vec Ideal S128x8192 .f32)
        (Rect.unit (s := S128x8192) (k6_off1 (grid6.coords t)) S128x256.size (k6_off1_inb (grid6.coords t))) x
      = (V c main_v5_1 : S128x8192.Idx → EReal) k := by
  have ec : ((grid6.coords t) 0).val = t.val := (idx_facts6 t).2.2.2.2.2.2.2.2.2.2.2.2.2.2
  show (iblk6 V c 4 t : Vec Ideal S128x8192 .f32) _ = _
  rw [iblk6_4_apply]
  congr 1
  funext a
  apply Fin.ext
  match a with
  | ⟨0, _⟩ => show k6_off1 (grid6.coords t) 0 + 1 * (x 0).val = (k 0).val; rw [k6_off1_eq, hk0]; show 0 + 1 * (x 0).val = _; omega
  | ⟨1, _⟩ => show k6_off1 (grid6.coords t) 1 + 1 * (x 1).val = (k 1).val; rw [k6_off1_eq, hk1]; show 256 * ((grid6.coords t) 0).val + 1 * (x 1).val = _; rw [ec]; omega

theorem pay2_value6 (T : Mat 128 8192) (A : Mat 8192 8192) (U : Mat 8192 128) (n : ℕ)
    (s : Vec Ideal S128x256 .f32) (a : Vec Ideal S256x8192 .f32) (u : Vec Ideal S8192x128 .f32)
    (hs : ∀ (y : S128x256.Idx) (k : S128x8192.Idx), (k 0).val = (y 0).val → (k 1).val = n * 256 + (y 1).val → s y = T k)
    (ha : ∀ (y : S256x8192.Idx) (k : S8192x8192.Idx), (k 0).val = n * 256 + (y 0).val → (k 1).val = (y 1).val → a y = A k)
    (hu : ∀ y, u y = U y)
    (x : S256x128.Idx) (k : S8192x128.Idx) (hk0 : (k 0).val = n * 256 + (x 0).val) (hk1 : (k 1).val = (x 1).val) :
    k6_pay2 (F := Ideal) s a u x = sg (add (tr T) (mm A U)) k := by
  obtain ⟨p, q, rfl⟩ : ∃ (p : Fin 256) (q : Fin 128), x = ix2 p q := ⟨x 0, x 1, eq_ix2 x⟩
  obtain ⟨k0, k1, rfl⟩ : ∃ (k0 : Fin 8192) (k1 : Fin 128), k = ix2 k0 k1 := ⟨k 0, k 1, eq_ix2 k⟩
  obtain rfl : k1 = q := Fin.ext hk1
  show k6_pay2 (F := Ideal) s a u (ix2 p k1) = Ideal.logistic (T (ix2 k1 k0) + ∑ l : Fin 8192, A (ix2 k0 l) * U (ix2 l k1))
  rw [k6_pay2_apply, hs (ix2 k1 p) (ix2 k1 k0) rfl hk0]
  refine congrArg (fun z => Ideal.logistic (T (ix2 k1 k0) + z)) (Finset.sum_congr rfl fun l _ => ?_)
  rw [ha (ix2 p l) (ix2 k0 l) hk0 rfl, hu]

abbrev G6_5 (c : Dev nD) : Mat 8192 128 :=
  sg (add (tr (V c main_v5_1)) (mm (V c main_arg4) (V c main_v4_0)))

theorem flushed6_5_eq (c : Dev nD) (t : Fin cfg6.N) :
    (dat6 V c).flushed 5 t = ((cfg6.win 5).blk t).view.read (Elt Ideal) (G6_5 V c) := by
  obtain ⟨-, -, -, -, -, -, -, -, -, -, e0, e1, -⟩ := idx_facts6 t
  show (cfg6.win 5).cut (grid6.coords t) ((dat6 V c).after 5 t) = _
  rw [after6_5]
  funext j
  show k6_pay2 (F := Ideal) _ _ _ ((cfg6.win 5).xinj (grid6.coords t) j) = G6_5 V c (((cfg6.win 5).blk t).view.emb j)
  refine pay2_value6 _ _ _ t.val _ _ _ (fun y k h0 h1 => slice6_apply V c t y k h0 h1)
    (fun y k h0 h1 => iblk6_0_apply V c t y k h0 h1) (fun y => iblk6_2_apply V c t y) _ _ ?_ ?_
  · show win6_5.index t 0 * 256 + 1 * (j 0).val = t.val * 256 + (j 0).val; rw [e0]; omega
  · show win6_5.index t 1 * 128 + 1 * (j 1).val = (j 1).val; rw [e1]; omega

theorem mem_blk6_5 (t : Fin cfg6.N) (i : S8192x128.Idx) :
    i ∈ ((cfg6.win 5).blk t).view.set ↔ ∀ a : Fin 2, win6_5.index t a * S256x128.size a ≤ (i a).val ∧ (i a).val < win6_5.index t a * S256x128.size a + S256x128.size a := by
  show i ∈ ((View.whole main_v6_0).slice (win6_5.rect t)).set ↔ _
  rw [View.set_slice_whole, Rect.mem_set_unit]
  exact Iff.rfl

theorem val6_5 (c : Dev nD) : (dat6 (F := Ideal) V c).arrAt 5 cfg6.N
    = sg (add (tr (V c main_v5_1)) (mm (V c main_arg4) (V c main_v4_0))) := by
  refine (dat6 V c).arrAt_eq_of_cover 5 (G6_5 V c) (fun t _ => flushed6_5_eq V c t) fun i => ?_
  have hi0 : (i 0).val < 8192 := (i 0).isLt
  have hi1 : (i 1).val < 128 := (i 1).isLt
  have ht : (i 0).val / 256 < cfg6.N := by rw [N6]; omega
  obtain ⟨-, -, -, -, -, -, -, -, -, -, e0, e1, -⟩ := idx_facts6 ⟨(i 0).val / 256, ht⟩
  refine ⟨⟨(i 0).val / 256, ht⟩, flush6_5 _, ?_⟩
  rw [mem_blk6_5]
  intro a
  match a with
  | ⟨0, _⟩ => show win6_5.index ⟨(i 0).val / 256, ht⟩ (0 : Fin 2) * 256 ≤ (i 0).val ∧ (i 0).val < win6_5.index ⟨(i 0).val / 256, ht⟩ (0 : Fin 2) * 256 + 256; rw [e0]; show (i 0).val / 256 * 256 ≤ (i 0).val ∧ (i 0).val < (i 0).val / 256 * 256 + 256; omega
  | ⟨1, _⟩ => show win6_5.index ⟨(i 0).val / 256, ht⟩ (1 : Fin 2) * 128 ≤ (i 1).val ∧ (i 1).val < win6_5.index ⟨(i 0).val / 256, ht⟩ (1 : Fin 2) * 128 + 128; rw [e1]; omega

abbrev wstrip6 (c : Dev nD) (t : Fin cfg6.N) : Vec Ideal S256x128 .f32 := iblk6 V c 3 t
abbrev xstrip6 (c : Dev nD) (t : Fin cfg6.N) : Vec Ideal S256x4096 .f32 := iblk6 V c 1 t

def share6 (c : Dev nD) (t : Fin cfg6.N) (d : Fin 128) (q : Fin 4096) : EReal :=
  ∑ r : Fin 256, wstrip6 V c t (ix2 r d) * xstrip6 V c t (ix2 r q)

abbrev msg6 (c : Dev nD) : Mat 8192 128 := V c main_v4_1
abbrev inc6 (c : Dev nD) : Mat 8192 4096 := V c main_arg7

theorem acc6_apply (c : Dev nD) : ∀ (n : ℕ) (h : n < cfg6.N) (d : Fin 128) (q : Fin 4096),
    acc6 V c n h (ix2 d q) = ∑ s : Fin (n + 1), share6 V c ⟨s.val, Nat.lt_of_lt_of_le s.isLt h⟩ d q
  | 0, h, d, q => by
    show k6_pay3 (F := Ideal) (k6_pay1 (F := Ideal)) (iblk6 V c 3 ⟨0, h⟩) (iblk6 V c 1 ⟨0, h⟩) (ix2 d q) = _
    rw [k6_pay3_apply, k6_pay1_apply, zero_add, Fin.sum_univ_one]
    rfl
  | n + 1, h, d, q => by
    show k6_pay3 (F := Ideal) (acc6 V c n (Nat.lt_of_succ_lt h)) (iblk6 V c 3 ⟨n + 1, h⟩) (iblk6 V c 1 ⟨n + 1, h⟩) (ix2 d q) = _
    rw [k6_pay3_apply, acc6_apply c n (Nat.lt_of_succ_lt h) d q]
    exact (Fin.sum_univ_castSucc (fun s : Fin (n + 2) => share6 V c ⟨s.val, Nat.lt_of_lt_of_le s.isLt h⟩ d q)).symm

theorem share6_eq (c : Dev nD) (t : Fin 32) (ht : t.val < cfg6.N) (d : Fin 128) (q : Fin 4096) :
    share6 V c ⟨t.val, ht⟩ d q = ∑ r : Fin 256,
      msg6 V c (ix2 (⟨t.val * 256 + r.val, Fin.rowMajor_lt t r⟩ : Fin 8192) d)
        * inc6 V c (ix2 (⟨t.val * 256 + r.val, Fin.rowMajor_lt t r⟩ : Fin 8192) q) := by
  unfold share6
  refine Finset.sum_congr rfl fun r _ => ?_
  exact congrArg₂ (· * ·)
    (iblk6_3_apply V c ⟨t.val, ht⟩ (ix2 r d) (ix2 (⟨t.val * 256 + r.val, Fin.rowMajor_lt t r⟩ : Fin 8192) d) rfl rfl)
    (iblk6_1_apply V c ⟨t.val, ht⟩ (ix2 r q) (ix2 (⟨t.val * 256 + r.val, Fin.rowMajor_lt t r⟩ : Fin 8192) q) rfl rfl)

abbrev G6_6 (c : Dev nD) : Mat 128 4096 := tr (mmT (V c main_arg7) (V c main_v4_1))

theorem acc6_last (c : Dev nD) (h : 31 < cfg6.N) (x k : S128x4096.Idx) (hk0 : (k 0).val = (x 0).val) (hk1 : (k 1).val = (x 1).val) :
    acc6 V c 31 h x = G6_6 V c k := by
  obtain ⟨d, q, rfl⟩ : ∃ (d : Fin 128) (q : Fin 4096), x = ix2 d q := ⟨x 0, x 1, eq_ix2 x⟩
  obtain ⟨k0, k1, rfl⟩ : ∃ (k0 : Fin 128) (k1 : Fin 4096), k = ix2 k0 k1 := ⟨k 0, k 1, eq_ix2 k⟩
  obtain rfl : k0 = d := Fin.ext hk0
  obtain rfl : k1 = q := Fin.ext hk1
  show _ = ∑ r : Fin 8192, inc6 V c (ix2 r k1) * msg6 V c (ix2 r k0)
  rw [acc6_apply V c 31 h k0 k1]
  have e := Fin.sum_rowMajor2 32 256 (fun r : Fin 8192 => inc6 V c (ix2 r k1) * msg6 V c (ix2 r k0))
  refine Eq.trans ?_ e.symm
  refine Finset.sum_congr rfl fun s _ => ?_
  rw [share6_eq V c s (Nat.lt_of_lt_of_le s.isLt h) k0 k1]
  exact Finset.sum_congr rfl fun r _ => mul_comm _ _

theorem flushed6_6_eq (c : Dev nD) (t : Fin cfg6.N) (hf : (cfg6.win 6).flush t = true) :
    (dat6 V c).flushed 6 t = ((cfg6.win 6).blk t).view.read (Elt Ideal) (G6_6 V c) := by
  have ht : t.val = 31 := by have := (flush6_6 t).mp hf; have := lt_of_lt_of_eq t.isLt N6; omega
  obtain ⟨-, -, -, -, -, -, -, -, -, -, -, -, e0, e1, -⟩ := idx_facts6 t
  show (cfg6.win 6).cut (grid6.coords t) ((dat6 V c).after 6 t) = _
  rw [after6_6]
  funext j
  show acc6 V c t.val t.isLt ((cfg6.win 6).xinj (grid6.coords t) j) = G6_6 V c (((cfg6.win 6).blk t).view.emb j)
  have key : ∀ (n : ℕ) (hn : n < cfg6.N), n = 31 → acc6 V c n hn ((cfg6.win 6).xinj (grid6.coords t) j) = G6_6 V c (((cfg6.win 6).blk t).view.emb j) := by
    intro n hn e
    subst e
    refine acc6_last V c hn _ _ ?_ ?_
    · show win6_6.index t 0 * 128 + 1 * (j 0).val = (j 0).val; rw [e0]; omega
    · show win6_6.index t 1 * 4096 + 1 * (j 1).val = (j 1).val; rw [e1]; omega
  exact key t.val t.isLt ht

theorem mem_blk6_6 (t : Fin cfg6.N) (i : S128x4096.Idx) :
    i ∈ ((cfg6.win 6).blk t).view.set ↔ ∀ a : Fin 2, win6_6.index t a * S128x4096.size a ≤ (i a).val ∧ (i a).val < win6_6.index t a * S128x4096.size a + S128x4096.size a := by
  show i ∈ ((View.whole main_v6_1).slice (win6_6.rect t)).set ↔ _
  rw [View.set_slice_whole, Rect.mem_set_unit]
  exact Iff.rfl

theorem val6_6 (c : Dev nD) : (dat6 (F := Ideal) V c).arrAt 6 cfg6.N
    = tr (mmT (V c main_arg7) (V c main_v4_1)) := by
  refine (dat6 V c).arrAt_eq_of_cover 6 (G6_6 V c) (fun t hf => flushed6_6_eq V c t hf) fun i => ?_
  have hi0 : (i 0).val < 128 := (i 0).isLt
  have hi1 : (i 1).val < 4096 := (i 1).isLt
  have ht : 31 < cfg6.N := by rw [N6]; omega
  obtain ⟨-, -, -, -, -, -, -, -, -, -, -, -, e0, e1, -⟩ := idx_facts6 ⟨31, ht⟩
  refine ⟨⟨31, ht⟩, (flush6_6 _).mpr rfl, ?_⟩
  rw [mem_blk6_6]
  intro a
  match a with
  | ⟨0, _⟩ => show win6_6.index ⟨31, ht⟩ (0 : Fin 2) * 128 ≤ (i 0).val ∧ (i 0).val < win6_6.index ⟨31, ht⟩ (0 : Fin 2) * 128 + 128; rw [e0]; omega
  | ⟨1, _⟩ => show win6_6.index ⟨31, ht⟩ (1 : Fin 2) * 4096 ≤ (i 1).val ∧ (i 1).val < win6_6.index ⟨31, ht⟩ (1 : Fin 2) * 4096 + 4096; rw [e1]; omega

end Cert.KernelIdeal.HandVal

end
-- ==== Proof.Val.V7.lean ====
import proofs.«122060_g64467459113426_cont_9to1_m_811_14_alg».proof.Proof.KI.R7
import proofs.«122060_g64467459113426_cont_9to1_m_811_14_alg».proof.Proof.Val.P4
import proofs.«122060_g64467459113426_cont_9to1_m_811_14_alg».proof.Proof.Val.Proj
import proofs.«122060_g64467459113426_cont_9to1_m_811_14_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.HandVal

open Cert.KernelIdeal Cert.KernelIdeal.Gen Cert.KernelIdeal.Hand Cert.Hmc
open Idealize.ShloMosaic Idealize.ShloMosaic.TcCoe Idealize.SL.Sem Idealize.ShloMosaic.ValueIdx
open Idealize.ShloMosaic.Pipeline (Dat)

theorem matmul7_apply (a : FVec Ideal S1024x4096 .f32) (b : FVec Ideal S4096x128 .f32) (p : Fin 1024) (q : Fin 128) :
    matmul (F := Ideal) dot_S1024x4096_S4096x128_S1024x128_1_0_0_1_n_n none a b (constant (F := Ideal) S1024x128 .f32 0x00000000#32) (ix2 p q)
      = ∑ l : Fin 4096, a (ix2 p l) * b (ix2 l q) :=
  mm_ix2_of _ rfl rfl lhs_agg_0 lhs_agg_1 rhs_agg_0 rhs_agg_1 a b p q

theorem pay7_apply (v2 : Vec Ideal S128x1024 .f32) (v5 : Vec Ideal S1024x4096 .f32) (v6 : Vec Ideal S4096x128 .f32) (p : Fin 1024) (q : Fin 128) :
    k7_pay1 (F := Ideal) v2 v5 v6 (ix2 p q) = Ideal.logistic (v2 (ix2 q p) + ∑ l : Fin 4096, v5 (ix2 p l) * v6 (ix2 l q)) := by
  unfold k7_pay1
  show Ideal.logistic (transpose S1024x128 [1, 0] (shapeCast S128x1024 v2 shapeCasts_S128x1024_S128x1024) transposes_S128x1024_p1_0_S1024x128 (ix2 p q)
    + matmul (F := Ideal) dot_S1024x4096_S4096x128_S1024x128_1_0_0_1_n_n none v5 (shapeCast S4096x128 v6 shapeCasts_S4096x128_S4096x128) (constant (F := Ideal) S1024x128 .f32 0x00000000#32) (ix2 p q)) = _
  rw [shapeCast_self, shapeCast_self, transpose_ix2_apply, matmul7_apply]

theorem spec7_apply (X0 : Mat 4096 4096) (X1 : Mat 4096 128) (X2 : Mat 128 4096) (r : Fin 4096) (q : Fin 128) :
    sg (add (tr X2) (mm X0 X1)) (ix2 r q) = Ideal.logistic (X2 (ix2 q r) + ∑ l : Fin 4096, X0 (ix2 r l) * X1 (ix2 l q)) := by
  rw [sg_apply, add_apply, tr_ix2, mm_ix2]

variable (V : (c : Dev nD) → (b : Ref sig .tc) → Buf (Elt Ideal) ((c : Thread nD τ).loc b))

theorem hz : (![0, 0] : Fin 2 → Nat) = fun _ => 0 := funext fun a => by fin_cases a <;> rfl

theorem idx_facts7 : ∀ t : Fin cfg7.N,
    win7_0.index t (0 : Fin 2) = win7_3.index t (0 : Fin 2) ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (1 : Fin 2) = 0 ∧ win7_3.index t (0 : Fin 2) ≤ 3
    ∧ k7_off1 (grid7.coords t) (0 : Fin 2) = 0
    ∧ k7_off1 (grid7.coords t) (1 : Fin 2) = win7_3.index t (0 : Fin 2) * 1024 :=
  (by decide +kernel : ∀ t : Fin grid7.N, _)

theorem idx_onto7 : ∀ q0 : Fin 4, ∃ t : Fin cfg7.N, win7_3.index t = ![q0.val, 0] :=
  (by decide +kernel : ∀ q0 : Fin 4, ∃ t : Fin grid7.N, win7_3.index t = ![q0.val, 0])

theorem blk7_0_apply (c : Dev nD) (t : Fin cfg7.N) (x : S1024x4096.Idx) (k : S4096x4096.Idx)
    (hk0 : (k 0).val = win7_3.index t (0 : Fin 2) * 1024 + (x 0).val) (hk1 : (k 1).val = (x 1).val) :
    (iblk7 V c 0 t : Vec Ideal S1024x4096 .f32) x = (V c main_arg5 : S4096x4096.Idx → EReal) k := by
  obtain ⟨e0, e1, -⟩ := idx_facts7 t
  unfold iblk7
  rw [View.read_apply]
  show V c main_arg5 _ = V c main_arg5 _
  congr 1
  funext a
  apply Fin.ext
  match a with
  | ⟨0, _⟩ => show win7_0.index t (0 : Fin 2) * 1024 + 1 * (x 0).val = (k 0).val; omega
  | ⟨1, _⟩ => show win7_0.index t (1 : Fin 2) * 4096 + 1 * (x 1).val = (k 1).val; omega

theorem blk7_1_apply (c : Dev nD) (t : Fin cfg7.N) (x : S4096x128.Idx) :
    (iblk7 V c 1 t : Vec Ideal S4096x128 .f32) x = (V c main_v4_2 : S4096x128.Idx → EReal) x := by
  obtain ⟨-, -, e2, e3, -⟩ := idx_facts7 t
  unfold iblk7
  rw [View.read_apply]
  show V c main_v4_2 _ = V c main_v4_2 _
  congr 1
  funext a
  apply Fin.ext
  match a with
  | ⟨0, _⟩ => show win7_1.index t (0 : Fin 2) * 4096 + 1 * (x 0).val = (x 0).val; omega
  | ⟨1, _⟩ => show win7_1.index t (1 : Fin 2) * 128 + 1 * (x 1).val = (x 1).val; omega

theorem blk7_2_slice_apply (c : Dev nD) (t : Fin cfg7.N) (x : S128x1024.Idx) (k : S128x4096.Idx)
    (hk0 : (k 0).val = (x 0).val) (hk1 : (k 1).val = win7_3.index t (0 : Fin 2) * 1024 + (x 1).val) :
    View.ld (iblk7 V c 2 t : Vec Ideal S128x4096 .f32) (r7_2 (grid7.coords t)) x = (V c main_v6_1 : S128x4096.Idx → EReal) k := by
  obtain ⟨-, -, -, -, e4, e5, -, -, e8, e9⟩ := idx_facts7 t
  unfold iblk7
  show V c main_v6_1 _ = V c main_v6_1 _
  congr 1
  funext a
  apply Fin.ext
  match a with
  | ⟨0, _⟩ => show win7_2.index t (0 : Fin 2) * 128 + 1 * (k7_off1 (grid7.coords t) (0 : Fin 2) + 1 * (x 0).val) = (k 0).val; omega
  | ⟨1, _⟩ => show win7_2.index t (1 : Fin 2) * 4096 + 1 * (k7_off1 (grid7.coords t) (1 : Fin 2) + 1 * (x 1).val) = (k 1).val; omega

theorem flushed7_eq (c : Dev nD) (t : Fin cfg7.N) :
    (dat7 (F := Ideal) V c).flushed 3 t = ((cfg7.win 3).blk t).view.read (Elt Ideal)
      (sg (add (tr (V c main_v6_1)) (mm (V c main_arg5) (V c main_v4_2)))) := by
  show (cfg7.win 3).cut (grid7.coords t) ((dat7 V c).after 3 t) = _
  rw [after7_3]
  unfold out7_3
  rw [View.canon_unit_zero hz]
  simp only [View.ld_unit_zero (S := S1024x4096) hz, View.ld_unit_zero (S := S4096x128) hz]
  obtain ⟨-, -, -, -, -, -, e6, e7, -⟩ := idx_facts7 t
  funext j
  obtain ⟨p, q, rfl⟩ : ∃ (p : Fin 1024) (q : Fin 128), j = ix2 p q := ⟨j 0, j 1, eq_ix2 j⟩
  refine (pay7_apply _ _ _ p q).trans ?_
  rw [View.read_apply]
  have hemb : ((cfg7.win 3).blk t).view.emb (ix2 p q)
      = (ix2 (⟨win7_3.index t (0 : Fin 2) * 1024 + p.val, by omega⟩ : Fin 4096) q : S4096x128.Idx) := by
    funext a
    apply Fin.ext
    match a with
    | ⟨0, _⟩ => show win7_3.index t (0 : Fin 2) * 1024 + 1 * p.val = win7_3.index t (0 : Fin 2) * 1024 + p.val; omega
    | ⟨1, _⟩ => show win7_3.index t (1 : Fin 2) * 128 + 1 * q.val = q.val; omega
  rw [hemb, spec7_apply]
  refine congrArg Ideal.logistic (congrArg₂ (· + ·) ?_ (Finset.sum_congr rfl fun l _ => congrArg₂ (· * ·) ?_ ?_))
  · exact blk7_2_slice_apply V c t _ _ rfl rfl
  · exact blk7_0_apply V c t _ _ rfl rfl
  · exact blk7_1_apply V c t _

theorem mem_blk7 (t : Fin cfg7.N) (i : S4096x128.Idx) :
    i ∈ ((cfg7.win 3).blk t).view.set ↔ ∀ a : Fin 2, win7_3.index t a * S1024x128.size a ≤ (i a).val ∧ (i a).val < win7_3.index t a * S1024x128.size a + S1024x128.size a := by
  show i ∈ ((View.whole main_v7).slice (win7_3.rect t)).set ↔ _
  rw [View.set_slice_whole, Rect.mem_set_unit]
  exact Iff.rfl

theorem cover7 (i : S4096x128.Idx) :
    ∃ t : Fin cfg7.N, (cfg7.win 3).flush t = true ∧ i ∈ ((cfg7.win 3).blk t).view.set := by
  have hi0 : (i 0).val < 4096 := (i 0).isLt
  have hi1 : (i 1).val < 128 := (i 1).isLt
  obtain ⟨t, ht⟩ := idx_onto7 ⟨(i 0).val / 1024, by omega⟩
  have q0 : win7_3.index t (0 : Fin 2) = (i 0).val / 1024 := congrFun ht 0
  have q1 : win7_3.index t (1 : Fin 2) = 0 := congrFun ht 1
  refine ⟨t, flush7_3 t, ?_⟩
  rw [mem_blk7]
  intro a
  match a with
  | ⟨0, _⟩ => show win7_3.index t (0 : Fin 2) * 1024 ≤ (i 0).val ∧ (i 0).val < win7_3.index t (0 : Fin 2) * 1024 + 1024; omega
  | ⟨1, _⟩ => show win7_3.index t (1 : Fin 2) * 128 ≤ (i 1).val ∧ (i 1).val < win7_3.index t (1 : Fin 2) * 128 + 128; omega

theorem val7_3 (c : Dev nD) : (dat7 (F := Ideal) V c).arrAt 3 cfg7.N
    = Cert.Hmc.sg (Cert.Hmc.add (Cert.Hmc.tr (V c main_v6_1)) (Cert.Hmc.mm (V c main_arg5) (V c main_v4_2))) :=
  (dat7 (F := Ideal) V c).arrAt_eq_of_cover 3 _ (fun t _ => flushed7_eq V c t) (cover7)

end Cert.KernelIdeal.HandVal

end
-- ==== Proof.Val.Chain.lean ====
import proofs.«122060_g64467459113426_cont_9to1_m_811_14_alg».proof.Proof.KI.Fold
import proofs.«122060_g64467459113426_cont_9to1_m_811_14_alg».proof.Proof.Spec

noncomputable section

namespace Cert.KernelIdeal.HandVal

open Cert.KernelIdeal Cert.KernelIdeal.Gen Cert.KernelIdeal.Hand Cert.Hmc
open Idealize.ShloMosaic Idealize.ShloMosaic.TcCoe Idealize.SL.Sem
open Idealize.ShloMosaic.Pipeline (Dat)

namespace Chain

abbrev Vals := (c : Dev nD) → (b : Ref sig .tc) → Buf (Elt Ideal) ((c : Thread nD τ).loc b)

structure RegionValues : Prop where
  h0_3 : ∀ (V : Vals) (c : Dev nD),
    (dat0 (F := Ideal) V c).arrAt 3 cfg0.N = mm (V c main_arg0) (V c main_arg8)
  h0_4 : ∀ (V : Vals) (c : Dev nD),
    (dat0 (F := Ideal) V c).arrAt 4 cfg0.N = mm (V c main_arg0) (V c main_arg9)
  h1_3 : ∀ (V : Vals) (c : Dev nD),
    (dat1 (F := Ideal) V c).arrAt 3 cfg1.N = mm (V c main_arg1) (V c main_arg9)
  h1_4 : ∀ (V : Vals) (c : Dev nD),
    (dat1 (F := Ideal) V c).arrAt 4 cfg1.N = mm (V c main_arg1) (V c main_arg10)
  h2_2 : ∀ (V : Vals) (c : Dev nD),
    (dat2 (F := Ideal) V c).arrAt 2 cfg2.N = mm (V c main_arg2) (V c main_arg11)
  h3_7 : ∀ (V : Vals) (c : Dev nD),
    (dat3 (F := Ideal) V c).arrAt 7 cfg3.N
      = mm (sg (add (mm (V c main_arg3) (V c main_v0_0)) (mm (V c main_arg6) (V c main_v1_0)))) (V c main_arg12)
  h3_8 : ∀ (V : Vals) (c : Dev nD),
    (dat3 (F := Ideal) V c).arrAt 8 cfg3.N
      = mm (sg (add (mm (V c main_arg3) (V c main_v0_0)) (mm (V c main_arg6) (V c main_v1_0)))) (V c main_arg13)
  h3_9 : ∀ (V : Vals) (c : Dev nD),
    (dat3 (F := Ideal) V c).arrAt 9 cfg3.N = mmT (V c main_arg6) (V c main_v0_1)
  h4_7 : ∀ (V : Vals) (c : Dev nD),
    (dat4 (F := Ideal) V c).arrAt 7 cfg4.N
      = mm (sg (add (V c main_v3_2) (mm (V c main_arg7) (V c main_v2)))) (V c main_arg14)
  h4_8 : ∀ (V : Vals) (c : Dev nD),
    (dat4 (F := Ideal) V c).arrAt 8 cfg4.N
      = mm (sg (add (V c main_v3_2) (mm (V c main_arg7) (V c main_v2)))) (V c main_arg15)
  h4_9 : ∀ (V : Vals) (c : Dev nD),
    (dat4 (F := Ideal) V c).arrAt 9 cfg4.N = mm (mmT (V c main_arg7) (V c main_v1_1)) (V c main_arg16)
  h5_4 : ∀ (V : Vals) (c : Dev nD),
    (dat5 (F := Ideal) V c).arrAt 4 cfg5.N = mm (V c main_arg3) (V c main_v3_0)
  h5_5 : ∀ (V : Vals) (c : Dev nD),
    (dat5 (F := Ideal) V c).arrAt 5 cfg5.N = tr (mmT (V c main_arg6) (V c main_v3_1))
  h6_5 : ∀ (V : Vals) (c : Dev nD),
    (dat6 (F := Ideal) V c).arrAt 5 cfg6.N = sg (add (tr (V c main_v5_1)) (mm (V c main_arg4) (V c main_v4_0)))
  h6_6 : ∀ (V : Vals) (c : Dev nD),
    (dat6 (F := Ideal) V c).arrAt 6 cfg6.N = tr (mmT (V c main_arg7) (V c main_v4_1))
  h7_3 : ∀ (V : Vals) (c : Dev nD),
    (dat7 (F := Ideal) V c).arrAt 3 cfg7.N = sg (add (tr (V c main_v6_1)) (mm (V c main_arg5) (V c main_v4_2)))

variable (m : (ℓ : Loc nD τ sig) → Buf (Elt Ideal) ℓ) (ρ : Dev nD → PrngReg) (c : Dev nD)

abbrev x0 : Mat 4096 128 := m ((c : Thread nD τ).loc main_arg0)
abbrev x1 : Mat 8192 128 := m ((c : Thread nD τ).loc main_arg1)
abbrev x2 : Mat 4096 128 := m ((c : Thread nD τ).loc main_arg2)
abbrev A0 : Mat 4096 4096 := m ((c : Thread nD τ).loc main_arg3)
abbrev A1 : Mat 8192 8192 := m ((c : Thread nD τ).loc main_arg4)
abbrev C2 : Mat 4096 4096 := m ((c : Thread nD τ).loc main_arg5)
abbrev I1 : Mat 4096 8192 := m ((c : Thread nD τ).loc main_arg6)
abbrev I2 : Mat 8192 4096 := m ((c : Thread nD τ).loc main_arg7)
abbrev W1_00 : Mat 128 128 := m ((c : Thread nD τ).loc main_arg8)
abbrev W1_01 : Mat 128 128 := m ((c : Thread nD τ).loc main_arg9)
abbrev W1_12 : Mat 128 128 := m ((c : Thread nD τ).loc main_arg10)
abbrev W1_21 : Mat 128 128 := m ((c : Thread nD τ).loc main_arg11)
abbrev W2_00 : Mat 128 128 := m ((c : Thread nD τ).loc main_arg12)
abbrev W2_01 : Mat 128 128 := m ((c : Thread nD τ).loc main_arg13)
abbrev W2_11 : Mat 128 128 := m ((c : Thread nD τ).loc main_arg14)
abbrev W2_12 : Mat 128 128 := m ((c : Thread nD τ).loc main_arg15)
abbrev W2_22 : Mat 128 128 := m ((c : Thread nD τ).loc main_arg16)

abbrev S0 : Mat 4096 128 := s0 (x0 m c) (x1 m c) (A0 m c) (I1 m c) (W1_00 m c) (W1_01 m c)
abbrev S1 : Mat 8192 128 := s1 (x0 m c) (x2 m c) (I1 m c) (I2 m c) (W1_01 m c) (W1_21 m c)
abbrev S2 : Mat 4096 128 := s2 (x1 m c) (I2 m c) (W1_12 m c)

theorem arg1 (b : Ref sig .tc) (h0 : b ∉ ([main_v0_0, main_v0_1] : List (Ref sig .tc)) := by decide) :
    V1 m ρ c b = m ((c : Thread nD τ).loc b) :=
  (W1_keep m ρ c b h0).trans rfl
theorem arg2 (b : Ref sig .tc) (h0 : b ∉ ([main_v0_0, main_v0_1] : List (Ref sig .tc)) := by decide)
    (h1 : b ∉ ([main_v1_0, main_v1_1] : List (Ref sig .tc)) := by decide) :
    V2 m ρ c b = m ((c : Thread nD τ).loc b) :=
  (W2_keep m ρ c b h1).trans (arg1 m ρ c b h0)
theorem arg3 (b : Ref sig .tc) (h0 : b ∉ ([main_v0_0, main_v0_1] : List (Ref sig .tc)) := by decide)
    (h1 : b ∉ ([main_v1_0, main_v1_1] : List (Ref sig .tc)) := by decide) (h2 : b ∉ ([main_v2] : List (Ref sig .tc)) := by decide) :
    V3 m ρ c b = m ((c : Thread nD τ).loc b) :=
  (W3_keep m ρ c b h2).trans (arg2 m ρ c b h0 h1)
theorem arg4 (b : Ref sig .tc) (h0 : b ∉ ([main_v0_0, main_v0_1] : List (Ref sig .tc)) := by decide)
    (h1 : b ∉ ([main_v1_0, main_v1_1] : List (Ref sig .tc)) := by decide) (h2 : b ∉ ([main_v2] : List (Ref sig .tc)) := by decide)
    (h3 : b ∉ ([main_v3_0, main_v3_1, main_v3_2] : List (Ref sig .tc)) := by decide) :
    V4 m ρ c b = m ((c : Thread nD τ).loc b) :=
  (W4_keep m ρ c b h3).trans (arg3 m ρ c b h0 h1 h2)
theorem arg5 (b : Ref sig .tc) (h0 : b ∉ ([main_v0_0, main_v0_1] : List (Ref sig .tc)) := by decide)
    (h1 : b ∉ ([main_v1_0, main_v1_1] : List (Ref sig .tc)) := by decide) (h2 : b ∉ ([main_v2] : List (Ref sig .tc)) := by decide)
    (h3 : b ∉ ([main_v3_0, main_v3_1, main_v3_2] : List (Ref sig .tc)) := by decide)
    (h4 : b ∉ ([main_v4_0, main_v4_1, main_v4_2] : List (Ref sig .tc)) := by decide) :
    V5 m ρ c b = m ((c : Thread nD τ).loc b) :=
  (W5_keep m ρ c b h4).trans (arg4 m ρ c b h0 h1 h2 h3)
theorem arg6 (b : Ref sig .tc) (h0 : b ∉ ([main_v0_0, main_v0_1] : List (Ref sig .tc)) := by decide)
    (h1 : b ∉ ([main_v1_0, main_v1_1] : List (Ref sig .tc)) := by decide) (h2 : b ∉ ([main_v2] : List (Ref sig .tc)) := by decide)
    (h3 : b ∉ ([main_v3_0, main_v3_1, main_v3_2] : List (Ref sig .tc)) := by decide)
    (h4 : b ∉ ([main_v4_0, main_v4_1, main_v4_2] : List (Ref sig .tc)) := by decide)
    (h5 : b ∉ ([main_v5_0, main_v5_1] : List (Ref sig .tc)) := by decide) :
    V6 m ρ c b = m ((c : Thread nD τ).loc b) :=
  (W6_keep m ρ c b h5).trans (arg5 m ρ c b h0 h1 h2 h3 h4)
theorem arg7 (b : Ref sig .tc) (h0 : b ∉ ([main_v0_0, main_v0_1] : List (Ref sig .tc)) := by decide)
    (h1 : b ∉ ([main_v1_0, main_v1_1] : List (Ref sig .tc)) := by decide) (h2 : b ∉ ([main_v2] : List (Ref sig .tc)) := by decide)
    (h3 : b ∉ ([main_v3_0, main_v3_1, main_v3_2] : List (Ref sig .tc)) := by decide)
    (h4 : b ∉ ([main_v4_0, main_v4_1, main_v4_2] : List (Ref sig .tc)) := by decide)
    (h5 : b ∉ ([main_v5_0, main_v5_1] : List (Ref sig .tc)) := by decide)
    (h6 : b ∉ ([main_v6_0, main_v6_1] : List (Ref sig .tc)) := by decide) :
    V7 m ρ c b = m ((c : Thread nD τ).loc b) :=
  (W7_keep m ρ c b h6).trans (arg6 m ρ c b h0 h1 h2 h3 h4 h5)

variable (H : RegionValues)
include H

theorem at1_v0_0 : V1 m ρ c main_v0_0 = mm (x0 m c) (W1_00 m c) := by
  refine (W1_arr m ρ c 3).trans ?_
  rw [H.h0_3]
theorem at1_v0_1 : V1 m ρ c main_v0_1 = mm (x0 m c) (W1_01 m c) := by
  refine (W1_arr m ρ c 4).trans ?_
  rw [H.h0_4]

theorem at2_v1_0 : V2 m ρ c main_v1_0 = mm (x1 m c) (W1_01 m c) := by
  refine (W2_arr m ρ c 3).trans ?_
  rw [H.h1_3, arg1 m ρ c main_arg1, arg1 m ρ c main_arg9]
theorem at2_v1_1 : V2 m ρ c main_v1_1 = mm (x1 m c) (W1_12 m c) := by
  refine (W2_arr m ρ c 4).trans ?_
  rw [H.h1_4, arg1 m ρ c main_arg1, arg1 m ρ c main_arg10]

theorem at3_v2 : V3 m ρ c main_v2 = mm (x2 m c) (W1_21 m c) := by
  refine (W3_arr m ρ c 2).trans ?_
  rw [H.h2_2, arg2 m ρ c main_arg2, arg2 m ρ c main_arg11]

theorem at3_v0_0 : V3 m ρ c main_v0_0 = mm (x0 m c) (W1_00 m c) :=
  (W3_keep m ρ c main_v0_0 (by decide)).trans <| (W2_keep m ρ c main_v0_0 (by decide)).trans <| at1_v0_0 m ρ c H
theorem at3_v0_1 : V3 m ρ c main_v0_1 = mm (x0 m c) (W1_01 m c) :=
  (W3_keep m ρ c main_v0_1 (by decide)).trans <| (W2_keep m ρ c main_v0_1 (by decide)).trans <| at1_v0_1 m ρ c H
theorem at3_v1_0 : V3 m ρ c main_v1_0 = mm (x1 m c) (W1_01 m c) :=
  (W3_keep m ρ c main_v1_0 (by decide)).trans <| at2_v1_0 m ρ c H

theorem at4_v3_0 : V4 m ρ c main_v3_0 = mm (S0 m c) (W2_00 m c) := by
  refine (W4_arr m ρ c 7).trans ?_
  rw [H.h3_7, at3_v0_0 m ρ c H, at3_v1_0 m ρ c H, arg3 m ρ c main_arg3,
    arg3 m ρ c main_arg6, arg3 m ρ c main_arg12]
  rfl
theorem at4_v3_1 : V4 m ρ c main_v3_1 = mm (S0 m c) (W2_01 m c) := by
  refine (W4_arr m ρ c 8).trans ?_
  rw [H.h3_8, at3_v0_0 m ρ c H, at3_v1_0 m ρ c H, arg3 m ρ c main_arg3,
    arg3 m ρ c main_arg6, arg3 m ρ c main_arg13]
  rfl
theorem at4_v3_2 : V4 m ρ c main_v3_2 = mmT (I1 m c) (mm (x0 m c) (W1_01 m c)) := by
  refine (W4_arr m ρ c 9).trans ?_
  rw [H.h3_9, at3_v0_1 m ρ c H, arg3 m ρ c main_arg6]

theorem at4_v2 : V4 m ρ c main_v2 = mm (x2 m c) (W1_21 m c) :=
  (W4_keep m ρ c main_v2 (by decide)).trans <| at3_v2 m ρ c H
theorem at4_v1_1 : V4 m ρ c main_v1_1 = mm (x1 m c) (W1_12 m c) :=
  (W4_keep m ρ c main_v1_1 (by decide)).trans <| (W3_keep m ρ c main_v1_1 (by decide)).trans <| at2_v1_1 m ρ c H

theorem at5_v4_0 : V5 m ρ c main_v4_0 = mm (S1 m c) (W2_11 m c) := by
  refine (W5_arr m ρ c 7).trans ?_
  rw [H.h4_7, at4_v3_2 m ρ c H, at4_v2 m ρ c H, arg4 m ρ c main_arg7,
    arg4 m ρ c main_arg14]
  rfl
theorem at5_v4_1 : V5 m ρ c main_v4_1 = mm (S1 m c) (W2_12 m c) := by
  refine (W5_arr m ρ c 8).trans ?_
  rw [H.h4_8, at4_v3_2 m ρ c H, at4_v2 m ρ c H, arg4 m ρ c main_arg7,
    arg4 m ρ c main_arg15]
  rfl
theorem at5_v4_2 : V5 m ρ c main_v4_2 = mm (S2 m c) (W2_22 m c) := by
  refine (W5_arr m ρ c 9).trans ?_
  rw [H.h4_9, at4_v1_1 m ρ c H, arg4 m ρ c main_arg7,
    arg4 m ρ c main_arg16]
  rfl

theorem at5_v3_0 : V5 m ρ c main_v3_0 = mm (S0 m c) (W2_00 m c) :=
  (W5_keep m ρ c main_v3_0 (by decide)).trans <| at4_v3_0 m ρ c H
theorem at5_v3_1 : V5 m ρ c main_v3_1 = mm (S0 m c) (W2_01 m c) :=
  (W5_keep m ρ c main_v3_1 (by decide)).trans <| at4_v3_1 m ρ c H

theorem at6_v5_0 : V6 m ρ c main_v5_0 = mm (A0 m c) (mm (S0 m c) (W2_00 m c)) := by
  refine (W6_arr m ρ c 4).trans ?_
  rw [H.h5_4, at5_v3_0 m ρ c H, arg5 m ρ c main_arg3]
theorem at6_v5_1 : V6 m ρ c main_v5_1 = tr (mmT (I1 m c) (mm (S0 m c) (W2_01 m c))) := by
  refine (W6_arr m ρ c 5).trans ?_
  rw [H.h5_5, at5_v3_1 m ρ c H, arg5 m ρ c main_arg6]

theorem at6_v4_0 : V6 m ρ c main_v4_0 = mm (S1 m c) (W2_11 m c) :=
  (W6_keep m ρ c main_v4_0 (by decide)).trans <| at5_v4_0 m ρ c H
theorem at6_v4_1 : V6 m ρ c main_v4_1 = mm (S1 m c) (W2_12 m c) :=
  (W6_keep m ρ c main_v4_1 (by decide)).trans <| at5_v4_1 m ρ c H

theorem at7_v6_0 : V7 m ρ c main_v6_0
    = sg (add (mmT (I1 m c) (mm (S0 m c) (W2_01 m c))) (mm (A1 m c) (mm (S1 m c) (W2_11 m c)))) := by
  refine (W7_arr m ρ c 5).trans ?_
  rw [H.h6_5, at6_v5_1 m ρ c H, at6_v4_0 m ρ c H, tr_tr,
    arg6 m ρ c main_arg4]
theorem at7_v6_1 : V7 m ρ c main_v6_1 = tr (mmT (I2 m c) (mm (S1 m c) (W2_12 m c))) := by
  refine (W7_arr m ρ c 6).trans ?_
  rw [H.h6_6, at6_v4_1 m ρ c H,
    arg6 m ρ c main_arg7]

theorem at7_v4_2 : V7 m ρ c main_v4_2 = mm (S2 m c) (W2_22 m c) :=
  (W7_keep m ρ c main_v4_2 (by decide)).trans <| (W6_keep m ρ c main_v4_2 (by decide)).trans <| at5_v4_2 m ρ c H

theorem at8_v7 : V8 m ρ c main_v7
    = sg (add (mmT (I2 m c) (mm (S1 m c) (W2_12 m c))) (mm (C2 m c) (mm (S2 m c) (W2_22 m c)))) := by
  refine (W8_arr m ρ c 3).trans ?_
  rw [H.h7_3, at7_v6_1 m ρ c H, at7_v4_2 m ρ c H, tr_tr,
    arg7 m ρ c main_arg5]

theorem at8_v5_0 : V8 m ρ c main_v5_0 = mm (A0 m c) (mm (S0 m c) (W2_00 m c)) :=
  (W8_keep m ρ c main_v5_0 (by decide)).trans <| (W7_keep m ρ c main_v5_0 (by decide)).trans <| at6_v5_0 m ρ c H
theorem at8_v6_0 : V8 m ρ c main_v6_0
    = sg (add (mmT (I1 m c) (mm (S0 m c) (W2_01 m c))) (mm (A1 m c) (mm (S1 m c) (W2_11 m c)))) :=
  (W8_keep m ρ c main_v6_0 (by decide)).trans <| at7_v6_0 m ρ c H

end Chain

open Chain in
theorem chain_out0 (H : Chain.RegionValues) (m : (ℓ : Loc nD τ sig) → Buf (Elt Ideal) ℓ) (ρ : Dev nD → PrngReg) (c : Dev nD) :
    W8 (F := Ideal) m ρ c (Proc.devRef .tc main_v5_0)
      = out0 (x0 m c) (x1 m c) (A0 m c) (I1 m c) (W1_00 m c) (W1_01 m c) (W2_00 m c) :=
  at8_v5_0 m ρ c H

open Chain in
theorem chain_out1 (H : Chain.RegionValues) (m : (ℓ : Loc nD τ sig) → Buf (Elt Ideal) ℓ) (ρ : Dev nD → PrngReg) (c : Dev nD) :
    W8 (F := Ideal) m ρ c (Proc.devRef .tc main_v6_0)
      = out1 (x0 m c) (x1 m c) (x2 m c) (A0 m c) (A1 m c) (I1 m c) (I2 m c) (W1_00 m c) (W1_01 m c) (W1_21 m c) (W2_01 m c) (W2_11 m c) :=
  at8_v6_0 m ρ c H

open Chain in
theorem chain_out2 (H : Chain.RegionValues) (m : (ℓ : Loc nD τ sig) → Buf (Elt Ideal) ℓ) (ρ : Dev nD → PrngReg) (c : Dev nD) :
    W8 (F := Ideal) m ρ c (Proc.devRef .tc main_v7)
      = out2 (x0 m c) (x1 m c) (x2 m c) (C2 m c) (I1 m c) (I2 m c) (W1_01 m c) (W1_12 m c) (W1_21 m c) (W2_12 m c) (W2_22 m c) :=
  at8_v7 m ρ c H

end Cert.KernelIdeal.HandVal

end
-- ==== Proof.Ref.lean ====
import proofs.«122060_g64467459113426_cont_9to1_m_811_14_alg».proof.Defs
import proofs.«122060_g64467459113426_cont_9to1_m_811_14_alg».proof.Proof.Gen.ReferenceIdeal.Run
import proofs.«122060_g64467459113426_cont_9to1_m_811_14_alg».proof.Proof.Gen.ReferenceIdeal.Read
import proofs.«122060_g64467459113426_cont_9to1_m_811_14_alg».proof.Proof.Spec
import Idealize.ShloMosaic.Lib.IdealHost

noncomputable section

namespace Cert.ReferenceIdeal.RefValue

open Cert.ReferenceIdeal Cert.ReferenceIdeal.Gen Cert.ReferenceIdeal.Read Cert.Hmc
open Idealize.ShloMosaic Idealize.ShloMosaic.ValueIdx Idealize.ShloMosaic.TcCoe Idealize.SL.Sem

theorem idx2 {a b : ℕ} {f : (⟨2, ![a, b]⟩ : Shape).Idx} {p : Fin a} {l : Fin b} (h0 : f 0 = p) (h1 : f 1 = l) :
    f = ix2 p l := by
  subst h0 h1; exact eq_ix2 f

theorem dot_eq_mm {a k b : ℕ} {V : Mat a b} {L L' : Mat a k} {R R' : Mat k b}
    {f : (⟨2, ![a, b]⟩ : Shape).Idx → Fin k → (⟨2, ![a, k]⟩ : Shape).Idx}
    {g : (⟨2, ![a, b]⟩ : Shape).Idx → Fin k → (⟨2, ![k, b]⟩ : Shape).Idx}
    (hV : ∀ i, V i = ∑ l, L (f i l) * R (g i l)) (hL : L = L') (hR : R = R')
    (hf : ∀ p q l, f (ix2 p q) l = ix2 p l := by intros; exact idx2 rfl rfl)
    (hg : ∀ p q l, g (ix2 p q) l = ix2 l q := by intros; exact idx2 rfl rfl) : V = mm L' R' := by
  subst hL hR
  funext i
  obtain ⟨p, q, rfl⟩ : ∃ p q, i = ix2 p q := ⟨i 0, i 1, eq_ix2 i⟩
  rw [hV, mm_ix2]
  exact Finset.sum_congr rfl fun l _ => by rw [hf, hg]

theorem eq_tr {a b : ℕ} {V : Mat b a} {X : Mat a b}
    {f : (⟨2, ![b, a]⟩ : Shape).Idx → (⟨2, ![a, b]⟩ : Shape).Idx}
    (hV : ∀ i, V i = X (f i)) (hf : ∀ p q, f (ix2 p q) = ix2 q p := by intros; exact idx2 rfl rfl) : V = tr X := by
  funext i
  obtain ⟨p, q, rfl⟩ : ∃ p q, i = ix2 p q := ⟨i 0, i 1, eq_ix2 i⟩
  rw [hV, hf, tr_ix2]

theorem mm_tr {k a b : ℕ} (A : Mat k a) (B : Mat k b) : mm (tr A) B = mmT A B := rfl

theorem logistic_expanded (x : Ideal .f32) :
    FloatOps.hostDivf (FloatOps.ofBits .f32 0x3F800000#32)
      (FloatOps.addf (FloatOps.ofBits .f32 0x3F800000#32) (FloatOps.hostUnary .exp (FloatOps.hostNegf x)))
      = Ideal.logistic x := by
  rw [Ideal.ofBits_def, Ideal.ofBits_one_f32]; rfl

section Stages

variable (x0 : Mat 4096 128) (x1 : Mat 8192 128) (x2 : Mat 4096 128)
  (x3 : Mat 4096 4096) (x4 : Mat 8192 8192) (x5 : Mat 4096 4096) (x6 : Mat 4096 8192) (x7 : Mat 8192 4096)
  (x8 x9 x10 x11 x12 x13 x14 x15 x16 : Mat 128 128)

theorem v0_eq : val_main_v0 (F := Ideal) x6 = tr x6 :=
  eq_tr (val_main_v0_apply (F := Ideal) x6)

theorem v1_eq : val_main_v1 (F := Ideal) x7 = tr x7 :=
  eq_tr (val_main_v1_apply (F := Ideal) x7)

theorem v2_eq : val_main_v2 (F := Ideal) x0 x8 = mm x0 x8 :=
  dot_eq_mm (val_main_v2_apply x0 x8) rfl rfl

theorem v3_eq : val_main_v3 (F := Ideal) x0 x3 x8 = mm x3 (mm x0 x8) :=
  dot_eq_mm (val_main_v3_apply x0 x3 x8) rfl (v2_eq x0 x8)

theorem v4_eq : val_main_v4 (F := Ideal) x1 x9 = mm x1 x9 :=
  dot_eq_mm (val_main_v4_apply x1 x9) rfl rfl

theorem v5_eq : val_main_v5 (F := Ideal) x1 x6 x9 = mm x6 (mm x1 x9) :=
  dot_eq_mm (val_main_v5_apply x1 x6 x9) rfl (v4_eq x1 x9)

theorem v12_eq : val_main_v12 (F := Ideal) x0 x1 x3 x6 x8 x9 = s0 x0 x1 x3 x6 x8 x9 := by
  funext i
  rw [val_main_v12_apply, val_main_v11_apply, val_main_cst_0_apply, val_main_v10_apply, val_main_v9_apply,
    val_main_cst_apply, val_main_v8_apply, val_main_v7_apply, logistic_expanded, val_main_v6_apply, v3_eq, v5_eq]
  rfl

theorem v13_eq : val_main_v13 (F := Ideal) x0 x9 = mm x0 x9 :=
  dot_eq_mm (val_main_v13_apply x0 x9) rfl rfl

theorem v14_eq : val_main_v14 (F := Ideal) x0 x6 x9 = mmT x6 (mm x0 x9) :=
  dot_eq_mm (val_main_v14_apply x0 x6 x9) (v0_eq x6) (v13_eq x0 x9)

theorem v15_eq : val_main_v15 (F := Ideal) x2 x11 = mm x2 x11 :=
  dot_eq_mm (val_main_v15_apply x2 x11) rfl rfl

theorem v16_eq : val_main_v16 (F := Ideal) x2 x7 x11 = mm x7 (mm x2 x11) :=
  dot_eq_mm (val_main_v16_apply x2 x7 x11) rfl (v15_eq x2 x11)

theorem v23_eq : val_main_v23 (F := Ideal) x0 x2 x6 x7 x9 x11 = s1 x0 x2 x6 x7 x9 x11 := by
  funext i
  rw [val_main_v23_apply, val_main_v22_apply, val_main_cst_2_apply, val_main_v21_apply, val_main_v20_apply,
    val_main_cst_1_apply, val_main_v19_apply, val_main_v18_apply, logistic_expanded, val_main_v17_apply, v14_eq, v16_eq]
  rfl

theorem v24_eq : val_main_v24 (F := Ideal) x1 x10 = mm x1 x10 :=
  dot_eq_mm (val_main_v24_apply x1 x10) rfl rfl

theorem v25_eq : val_main_v25 (F := Ideal) x1 x7 x10 = s2 x1 x7 x10 :=
  dot_eq_mm (val_main_v25_apply x1 x7 x10) (v1_eq x7) (v24_eq x1 x10)

theorem v26_eq : val_main_v26 (F := Ideal) x0 x1 x3 x6 x8 x9 x12 = mm (s0 x0 x1 x3 x6 x8 x9) x12 :=
  dot_eq_mm (val_main_v26_apply x0 x1 x3 x6 x8 x9 x12) (v12_eq x0 x1 x3 x6 x8 x9) rfl

theorem v27_eq : val_main_v27 (F := Ideal) x0 x1 x3 x6 x8 x9 x12 = out0 x0 x1 x3 x6 x8 x9 x12 :=
  dot_eq_mm (val_main_v27_apply x0 x1 x3 x6 x8 x9 x12) rfl (v26_eq x0 x1 x3 x6 x8 x9 x12)

theorem v28_eq : val_main_v28 (F := Ideal) x0 x1 x3 x6 x8 x9 x13 = mm (s0 x0 x1 x3 x6 x8 x9) x13 :=
  dot_eq_mm (val_main_v28_apply x0 x1 x3 x6 x8 x9 x13) (v12_eq x0 x1 x3 x6 x8 x9) rfl

theorem v29_eq : val_main_v29 (F := Ideal) x0 x1 x3 x6 x8 x9 x13 = mmT x6 (mm (s0 x0 x1 x3 x6 x8 x9) x13) :=
  dot_eq_mm (val_main_v29_apply x0 x1 x3 x6 x8 x9 x13) (v0_eq x6) (v28_eq x0 x1 x3 x6 x8 x9 x13)

theorem v30_eq : val_main_v30 (F := Ideal) x0 x2 x6 x7 x9 x11 x14 = mm (s1 x0 x2 x6 x7 x9 x11) x14 :=
  dot_eq_mm (val_main_v30_apply x0 x2 x6 x7 x9 x11 x14) (v23_eq x0 x2 x6 x7 x9 x11) rfl

theorem v31_eq : val_main_v31 (F := Ideal) x0 x2 x4 x6 x7 x9 x11 x14 = mm x4 (mm (s1 x0 x2 x6 x7 x9 x11) x14) :=
  dot_eq_mm (val_main_v31_apply x0 x2 x4 x6 x7 x9 x11 x14) rfl (v30_eq x0 x2 x6 x7 x9 x11 x14)

theorem v38_eq : val_main_v38 (F := Ideal) x0 x1 x2 x3 x4 x6 x7 x8 x9 x11 x13 x14
    = out1 x0 x1 x2 x3 x4 x6 x7 x8 x9 x11 x13 x14 := by
  funext i
  rw [val_main_v38_apply, val_main_v37_apply, val_main_cst_4_apply, val_main_v36_apply, val_main_v35_apply,
    val_main_cst_3_apply, val_main_v34_apply, val_main_v33_apply, logistic_expanded, val_main_v32_apply, v29_eq, v31_eq]
  rfl

theorem v39_eq : val_main_v39 (F := Ideal) x0 x2 x6 x7 x9 x11 x15 = mm (s1 x0 x2 x6 x7 x9 x11) x15 :=
  dot_eq_mm (val_main_v39_apply x0 x2 x6 x7 x9 x11 x15) (v23_eq x0 x2 x6 x7 x9 x11) rfl

theorem v40_eq : val_main_v40 (F := Ideal) x0 x2 x6 x7 x9 x11 x15 = mmT x7 (mm (s1 x0 x2 x6 x7 x9 x11) x15) :=
  dot_eq_mm (val_main_v40_apply x0 x2 x6 x7 x9 x11 x15) (v1_eq x7) (v39_eq x0 x2 x6 x7 x9 x11 x15)

theorem v41_eq : val_main_v41 (F := Ideal) x1 x7 x10 x16 = mm (s2 x1 x7 x10) x16 :=
  dot_eq_mm (val_main_v41_apply x1 x7 x10 x16) (v25_eq x1 x7 x10) rfl

theorem v42_eq : val_main_v42 (F := Ideal) x1 x5 x7 x10 x16 = mm x5 (mm (s2 x1 x7 x10) x16) :=
  dot_eq_mm (val_main_v42_apply x1 x5 x7 x10 x16) rfl (v41_eq x1 x7 x10 x16)

theorem v49_eq : val_main_v49 (F := Ideal) x0 x1 x2 x5 x6 x7 x9 x10 x11 x15 x16
    = out2 x0 x1 x2 x5 x6 x7 x9 x10 x11 x15 x16 := by
  funext i
  rw [val_main_v49_apply, val_main_v48_apply, val_main_cst_6_apply, val_main_v47_apply, val_main_v46_apply,
    val_main_cst_5_apply, val_main_v45_apply, val_main_v44_apply, logistic_expanded, val_main_v43_apply, v40_eq, v42_eq]
  rfl

end Stages

end Cert.ReferenceIdeal.RefValue

end
-- ==== Proof.lean ====
/- A two-level message-passing layer on a cell complex, computed by eight row sweeps, against the plain composition of matrix
   products (Proof/Spec.lean): both programs run to their end, leave their arguments as found, and end with the same three results. -/
import proofs.«122060_g64467459113426_cont_9to1_m_811_14_alg».proof.Defs
import proofs.«122060_g64467459113426_cont_9to1_m_811_14_alg».proof.Proof.Gen.Kernel
import proofs.«122060_g64467459113426_cont_9to1_m_811_14_alg».proof.Proof.Gen.KernelIdeal
import proofs.«122060_g64467459113426_cont_9to1_m_811_14_alg».proof.Proof.Gen.ReferenceIdeal
import proofs.«122060_g64467459113426_cont_9to1_m_811_14_alg».proof.Proof.Gen.Pre_finite_inputs
import proofs.«122060_g64467459113426_cont_9to1_m_811_14_alg».proof.Proof.K.Run
import proofs.«122060_g64467459113426_cont_9to1_m_811_14_alg».proof.Proof.KI.Run
import proofs.«122060_g64467459113426_cont_9to1_m_811_14_alg».proof.Proof.Val.V0
import proofs.«122060_g64467459113426_cont_9to1_m_811_14_alg».proof.Proof.Val.V1
import proofs.«122060_g64467459113426_cont_9to1_m_811_14_alg».proof.Proof.Val.V2
import proofs.«122060_g64467459113426_cont_9to1_m_811_14_alg».proof.Proof.Val.V3
import proofs.«122060_g64467459113426_cont_9to1_m_811_14_alg».proof.Proof.Val.V4
import proofs.«122060_g64467459113426_cont_9to1_m_811_14_alg».proof.Proof.Val.V5
import proofs.«122060_g64467459113426_cont_9to1_m_811_14_alg».proof.Proof.Val.V6
import proofs.«122060_g64467459113426_cont_9to1_m_811_14_alg».proof.Proof.Val.V7
import proofs.«122060_g64467459113426_cont_9to1_m_811_14_alg».proof.Proof.Val.Chain
import proofs.«122060_g64467459113426_cont_9to1_m_811_14_alg».proof.Proof.Ref
import Idealize.ShloMosaic.Adequacy
import Idealize.ShloMosaic.Init

noncomputable section

namespace Cert.Proof

open Idealize.ShloMosaic Idealize.SL.Sem

open Cert.Kernel in
theorem frame_kernel : Cert.frame_Kernel (hKernel := Cert.Kernel.Gen.facts) (hPre_finite_inputs := Cert.Pre_finite_inputs.Gen.facts) :=
  fun m ρ _ => (θ_run Cert.Kernel.defs _ _).mono (fun _ h c =>
    ⟨Hand.arg_end m ρ c (h c) main_arg0, Hand.arg_end m ρ c (h c) main_arg1, Hand.arg_end m ρ c (h c) main_arg2, Hand.arg_end m ρ c (h c) main_arg3, Hand.arg_end m ρ c (h c) main_arg4, Hand.arg_end m ρ c (h c) main_arg5, Hand.arg_end m ρ c (h c) main_arg6, Hand.arg_end m ρ c (h c) main_arg7, Hand.arg_end m ρ c (h c) main_arg8, Hand.arg_end m ρ c (h c) main_arg9, Hand.arg_end m ρ c (h c) main_arg10, Hand.arg_end m ρ c (h c) main_arg11, Hand.arg_end m ρ c (h c) main_arg12, Hand.arg_end m ρ c (h c) main_arg13, Hand.arg_end m ρ c (h c) main_arg14, Hand.arg_end m ρ c (h c) main_arg15, Hand.arg_end m ρ c (h c) main_arg16⟩)
    (Hand.run (F := Bits) m ρ)

open Cert.KernelIdeal in
theorem frame_kernelIdeal : Cert.frame_KernelIdeal (hKernelIdeal := Cert.KernelIdeal.Gen.facts) (hPre_finite_inputs := Cert.Pre_finite_inputs.Gen.facts) :=
  fun m ρ _ => (θ_run Cert.KernelIdeal.defs _ _).mono (fun _ h c =>
    ⟨Hand.arg_end m ρ c (h c) main_arg0, Hand.arg_end m ρ c (h c) main_arg1, Hand.arg_end m ρ c (h c) main_arg2, Hand.arg_end m ρ c (h c) main_arg3, Hand.arg_end m ρ c (h c) main_arg4, Hand.arg_end m ρ c (h c) main_arg5, Hand.arg_end m ρ c (h c) main_arg6, Hand.arg_end m ρ c (h c) main_arg7, Hand.arg_end m ρ c (h c) main_arg8, Hand.arg_end m ρ c (h c) main_arg9, Hand.arg_end m ρ c (h c) main_arg10, Hand.arg_end m ρ c (h c) main_arg11, Hand.arg_end m ρ c (h c) main_arg12, Hand.arg_end m ρ c (h c) main_arg13, Hand.arg_end m ρ c (h c) main_arg14, Hand.arg_end m ρ c (h c) main_arg15, Hand.arg_end m ρ c (h c) main_arg16⟩)
    (Hand.run (F := Ideal) m ρ)

theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2)
    (Cert.ReferenceIdeal.Value.run (F := Ideal) m ρ)

open Cert.KernelIdeal.HandVal in
theorem regionValues : Chain.RegionValues :=
  ⟨val0_3, val0_4, val1_3, val1_4, val2_2, val3_7, val3_8, val3_9, val4_7, val4_8, val4_9, val5_4, val5_5, val6_5, val6_6, val7_3⟩

open Cert.KernelIdeal in
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  exact ⟨_, _, _, (θ_run Cert.KernelIdeal.defs _ _).mono (fun _ h c =>
      ⟨(h c _ (Hand.mem_uc main_v5_0 (by decide))).trans (HandVal.chain_out0 regionValues m ρ c),
       (h c _ (Hand.mem_uc main_v6_0 (by decide))).trans (HandVal.chain_out1 regionValues m ρ c),
       (h c _ (Hand.mem_uc main_v7 (by decide))).trans (HandVal.chain_out2 regionValues m ρ c),
       Hand.arg_end m ρ c (h c) main_arg0, Hand.arg_end m ρ c (h c) main_arg1, Hand.arg_end m ρ c (h c) main_arg2, Hand.arg_end m ρ c (h c) main_arg3, Hand.arg_end m ρ c (h c) main_arg4, Hand.arg_end m ρ c (h c) main_arg5, Hand.arg_end m ρ c (h c) main_arg6, Hand.arg_end m ρ c (h c) main_arg7, Hand.arg_end m ρ c (h c) main_arg8, Hand.arg_end m ρ c (h c) main_arg9, Hand.arg_end m ρ c (h c) main_arg10, Hand.arg_end m ρ c (h c) main_arg11, Hand.arg_end m ρ c (h c) main_arg12, Hand.arg_end m ρ c (h c) main_arg13, Hand.arg_end m ρ c (h c) main_arg14, Hand.arg_end m ρ c (h c) main_arg15, Hand.arg_end m ρ c (h c) main_arg16⟩)
      (Hand.run (F := Ideal) m ρ),
    (θ_run Cert.ReferenceIdeal.defs _ _).mono (fun _ h c => by
      obtain ⟨e0, e1, e2, e3, e4, e5, e6, e7, e8, e9, e10, e11, e12, e13, e14, e15, e16⟩ := hagree c
      obtain ⟨h0, h1, h2, hargs⟩ := h c
      exact ⟨(h0.trans (Cert.ReferenceIdeal.RefValue.v27_eq ..)).trans (by rw [e0, e1, e3, e6, e8, e9, e12]),
        (h1.trans (Cert.ReferenceIdeal.RefValue.v38_eq ..)).trans (by rw [e0, e1, e2, e3, e4, e6, e7, e8, e9, e11, e13, e14]),
        (h2.trans (Cert.ReferenceIdeal.RefValue.v49_eq ..)).trans (by rw [e0, e1, e2, e5, e6, e7, e9, e10, e11, e15, e16]), hargs⟩)
      (Cert.ReferenceIdeal.Value.run (F := Ideal) m' ρ')⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
